-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S256 .f32) (main_arg9 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S256 .f32) (main_arg6 : FVec F S256x40 .f32) (main_arg7 : FVec F S40 .f32) (main_arg8 : FVec F S256 .f32) (main_arg9 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x40 .f32 := Host.absf main_arg6
  let main_cst_8 : FVec F S_ .f32 := constant S_ .f32 0x7F800000#32
  let main_v25 : FVec F S256x40 .f32 := broadcastInDim S256x40 ![] bcast_S_S256x40 main_cst_8
  let main_v26 : IVec S256x40 1 := cmpf .olt main_v24 main_v25
  let main_c_9 : IVec S_ 1 := constantI S_ 1 1#1
  let main_v27 : IVec S_ 1 := (fun x v => Host.reduce IntOp.andi x v reducesTo_S256x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x256 .f32) (main_arg3 : FVec F S256 .f32) (main_arg4 : FVec F S256x256 .f32) (main_arg5 : FVec F S256 .f32) (main_arg6 : FVec F S256x40 .f32) (main_arg7 : FVec F S40 .f32) (main_arg8 : FVec F S256 .f32) (main_arg9 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S1000x128 : Shape := ⟨2, ![1000, 128]⟩
abbrev S1000x256 : Shape := ⟨2, ![1000, 256]⟩
abbrev S850000x256 : Shape := ⟨2, ![850000, 256]⟩
abbrev S1x256 : Shape := ⟨2, ![1, 256]⟩
abbrev S50000x40 : Shape := ⟨2, ![50000, 40]⟩
abbrev S1000x40 : Shape := ⟨2, ![1000, 40]⟩
abbrev S850000x40 : Shape := ⟨2, ![850000, 40]⟩
abbrev S1x40 : Shape := ⟨2, ![1, 40]⟩
abbrev S1000 : Shape := ⟨1, ![1000]⟩
abbrev S1000x1 : Shape := ⟨2, ![1000, 1]⟩

abbrev nBuf : Space → Nat
  | .hbm => 115
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S256, .f32⟩
  | .hbm, ⟨9, _⟩ => ⟨S256, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x256, .f32⟩
  | .hbm, ⟨51, _⟩ => ⟨S850000x1, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x256, .f32⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S1x256, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S50000x256, .f32⟩
  | .hbm, ⟨74, _⟩ => ⟨S850000x1, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x256, .f32⟩
  | .hbm, ⟨84, _⟩ => ⟨S850000x256, .f32⟩
  | .hbm, ⟨85, _⟩ => ⟨S850000x256, .f32⟩
  | .hbm, ⟨86, _⟩ => ⟨S_, .f32⟩
  | .hbm, ⟨87, _⟩ => ⟨S50000x256, .f32⟩
  | .hbm, ⟨88, _⟩ => ⟨S850000x1, .i32⟩
  | .hbm, ⟨89, _⟩ => ⟨S50000x256, .f32⟩
  | .hbm, ⟨90, _⟩ => ⟨S1x256, .f32⟩
  | .hbm, ⟨91, _⟩ => ⟨S50000x256, .f32⟩
  | .hbm, ⟨92, _⟩ => ⟨S1x256, .f32⟩
  | .hbm, ⟨93, _⟩ => ⟨S1x256, .f32⟩
  | .hbm, ⟨94, _⟩ => ⟨S1x256, .f32⟩
  | .hbm, ⟨95, _⟩ => ⟨S1x256, .f32⟩
  | .hbm, ⟨96, _⟩ => ⟨S50000x40, .f32⟩
  | .hbm, ⟨97, _⟩ => ⟨S850000x1, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x40, .f32⟩
  | .hbm, ⟨107, _⟩ => ⟨S850000x40, .f32⟩
  | .hbm, ⟨108, _⟩ => ⟨S850000x40, .f32⟩
  | .hbm, ⟨109, _⟩ => ⟨S_, .f32⟩
  | .hbm, ⟨110, _⟩ => ⟨S50000x40, .f32⟩
  | .hbm, ⟨111, _⟩ => ⟨S850000x1, .i32⟩
  | .hbm, ⟨112, _⟩ => ⟨S50000x40, .f32⟩
  | .hbm, ⟨113, _⟩ => ⟨S1x40, .f32⟩
  | .hbm, ⟨114, _⟩ => ⟨S50000x40, .f32⟩
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1x256, .f32⟩
  | .local _ .vmem, ⟨8, _⟩ => ⟨S1000x256, .f32⟩
  | .local _ .vmem, ⟨9, _⟩ => ⟨S1000x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1000x256, .f32⟩
  | .local _ .vmem, ⟨15, _⟩ => ⟨S1000x256, .f32⟩
  | .local _ .vmem, ⟨16, _⟩ => ⟨S256x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1000x256, .f32⟩
  | .local _ .vmem, ⟨22, _⟩ => ⟨S1000x256, .f32⟩
  | .local _ .vmem, ⟨23, _⟩ => ⟨S1000x256, .f32⟩
  | .local _ .vmem, ⟨24, _⟩ => ⟨S1000x256, .f32⟩
  | .local _ .vmem, ⟨25, _⟩ => ⟨S1x256, .f32⟩
  | .local _ .vmem, ⟨26, _⟩ => ⟨S1000x256, .f32⟩
  | .local _ .vmem, ⟨27, _⟩ => ⟨S1000x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1000x256, .f32⟩
  | .local _ .vmem, ⟨33, _⟩ => ⟨S1000x256, .f32⟩
  | .local _ .vmem, ⟨34, _⟩ => ⟨S256x40, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1000x40, .f32⟩
  | .local _ .vmem, ⟨40, _⟩ => ⟨S1000x40, .f32⟩
  | .local _ .vmem, ⟨41, _⟩ => ⟨S1000x40, .f32⟩
  | .local _ .vmem, ⟨42, _⟩ => ⟨S1000x40, .f32⟩
  | .local _ .vmem, ⟨43, _⟩ => ⟨S1x40, .f32⟩
  | .local _ .vmem, ⟨44, _⟩ => ⟨S1000x40, .f32⟩
  | .local _ .vmem, ⟨45, _⟩ => ⟨S1000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45_0 : Ref sig .tc := ⟨.hbm, 68, rfl⟩
abbrev main_v45_1 : Ref sig .tc := ⟨.hbm, 69, rfl⟩
abbrev main_v45_2 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63_0 : Ref sig .tc := ⟨.hbm, 91, rfl⟩
abbrev main_v63_1 : Ref sig .tc := ⟨.hbm, 92, rfl⟩
abbrev main_v63_2 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_scratch0 : Ref sig .tc := ⟨.vmem, 30, rfl⟩
abbrev cc3_scratch1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg6_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg2_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem4_0 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem6_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v25 : BitVec 1 := Scalar.cmpi .eq arg0 c49_i32
  let v26 : BitVec 32 := Scalar.extui v25
  let c0_i32_15 : BitVec 32 := 0#32
  let v27 : BitVec 1 := Scalar.cmpi .ne v26 c0_i32_15
  v27

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v25 : BitVec 1 := Scalar.cmpi .eq arg0 c49_i32
  let v26 : BitVec 32 := Scalar.extui v25
  let c0_i32_15 : BitVec 32 := 0#32
  let v27 : BitVec 1 := Scalar.cmpi .ne v26 c0_i32_15
  v27

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1000x40 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S1000x128_S1000x128_0_0 : ∀ a, (![0, 0] : Fin 2 → Nat) a + S1000x128.size a ≤ S1000x128.size a
  h_S1000x128 : 0 < S1000x128.numel
  inb_S128x256_S128x256_0_0 : ∀ a, (![0, 0] : Fin 2 → Nat) a + S128x256.size a ≤ S128x256.size a
  h_S128x256 : 0 < S128x256.numel
  inb_S1000x256_S1000x256_0_0 : ∀ a, (![0, 0] : Fin 2 → Nat) a + S1000x256.size a ≤ S1000x256.size a
  h_S1000x256 : 0 < S1000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1000x256_S1000x256 : S1000x256.ShapeCasts S1000x256
  broadcasts_S1x256_S1000x256 : S1x256.Broadcasts S1000x256
  reduces_S1000x256_S256 : S1000x256.Reduces [0] S256
  inb_S256x256_S256x256_0_0 : ∀ a, (![0, 0] : Fin 2 → Nat) a + S256x256.size a ≤ S256x256.size a
  h_S256x256 : 0 < S256x256.numel
  inb_S256x40_S256x40_0_0 : ∀ a, (![0, 0] : Fin 2 → Nat) a + S256x40.size a ≤ S256x40.size a
  h_S256x40 : 0 < S256x40.numel
  inb_S1000x40_S1000x40_0_0 : ∀ a, (![0, 0] : Fin 2 → Nat) a + S1000x40.size a ≤ S1000x40.size a
  h_S1000x40 : 0 < S1000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S1000x40_S1000x40 : S1000x40.ShapeCasts S1000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1000x40 : S1x40.Broadcasts S1000x40
  reduces_S1000x40_S1000 : S1000x40.Reduces [1] S1000
  shapeCasts_S1000_S1000x1 : S1000.ShapeCasts S1000x1
  broadcasts_S1000x1_S1000x40 : S1000x1.Broadcasts S1000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x128_S128x256_S1000x256_1_0_0_1_n_n_wf : DotDims.WF S1000x128 S128x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S1000x256_S256x256_S1000x256_1_0_0_1_n_n_wf : DotDims.WF S1000x256 S256x256 S1000x256 [1] [0] [0] [1] [] []
  dot_S1000x256_S256x40_S1000x40_1_0_0_1_n_n_wf : DotDims.WF S1000x256 S256x40 S1000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x256.size a ≤ S50000x256.size a
  hwx2_6 : ∀ i : grid2.Coords, EltTy.bits .f32 = 32 ∨ (Rect.block (s := S50000x256) S1000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S50000x256.size a
  hwx3_2 : ∀ i : grid3.Coords, EltTy.bits .f32 = 32 ∨ (Rect.block (s := S50000x256) S1000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S50000x256.size a
  hwx4_0 : ∀ i : grid4.Coords, EltTy.bits .f32 = 32 ∨ (Rect.block (s := S50000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x40.size a ≤ S256x40.size a
  hwx4_1 : ∀ i : grid4.Coords, EltTy.bits .f32 = 32 ∨ (Rect.block (s := S256x40) S256x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x40.size a ≤ S50000x40.size a
  hwx4_6 : ∀ i : grid4.Coords, EltTy.bits .f32 = 32 ∨ (Rect.block (s := S50000x40) S1000x40.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x40.size a ≤ S50000x40.size a
  hwx5_0 : ∀ i : grid5.Coords, EltTy.bits .f32 = 32 ∨ (Rect.block (s := S50000x40) S1000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x40.size a ≤ S50000x40.size a
  hwx5_2 : ∀ i : grid5.Coords, EltTy.bits .f32 = 32 ∨ (Rect.block (s := S50000x40) S1000x40.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x40_S1000x40_1_0_0_1_n_n : DotDims S1000x256 S256x40 S1000x40 where
  lhsContracting := [1]
  rhsContracting := [0]
  lhsNonContracting := [0]
  rhsNonContracting := [1]
  lhsBatch := []
  rhsBatch := []
  wf := dot_S1000x256_S256x40_S1000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S1000x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x256.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45_2) S1x256.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v45_0) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45_1) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45_2) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S1000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v61) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63_0) S1000x256.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63_1) S1x256.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63_2) S1x256.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun i => !(k3_cond2 i == 1#1) | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v63_0) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63_1) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63_2) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66) S1000x40.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v79) S1000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 191
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x256, .f32⟩
  | 5 => ⟨S256, .f32⟩
  | 6 => ⟨S256x40, .f32⟩
  | 7 => ⟨S40, .f32⟩
  | 8 => ⟨S256, .f32⟩
  | 9 => ⟨S256, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x256, .f32⟩
  | 51 => ⟨S850000x1, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x256, .f32⟩
  | 61 => ⟨S850000x256, .f32⟩
  | 62 => ⟨S850000x256, .f32⟩
  | 63 => ⟨S_, .f32⟩
  | 64 => ⟨S50000x256, .f32⟩
  | 65 => ⟨S850000x1, .i32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S256, .f32⟩
  | 72 => ⟨S_, .f32⟩
  | 73 => ⟨S256, .f32⟩
  | 74 => ⟨S256, .f32⟩
  | 75 => ⟨S1x256, .f32⟩
  | 76 => ⟨S50000x256, .f32⟩
  | 77 => ⟨S50000x256, .f32⟩
  | 78 => ⟨S50000x256, .f32⟩
  | 79 => ⟨S_, .f32⟩
  | 80 => ⟨S256, .f32⟩
  | 81 => ⟨S_, .f32⟩
  | 82 => ⟨S256, .f32⟩
  | 83 => ⟨S256, .f32⟩
  | 84 => ⟨S1x256, .f32⟩
  | 85 => ⟨S50000x256, .f32⟩
  | 86 => ⟨S50000x256, .f32⟩
  | 87 => ⟨S_, .f32⟩
  | 88 => ⟨S256, .f32⟩
  | 89 => ⟨S256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S1x256, .f32⟩
  | 98 => ⟨S50000x256, .f32⟩
  | 99 => ⟨S50000x256, .f32⟩
  | 100 => ⟨S_, .f32⟩
  | 101 => ⟨S50000x256, .f32⟩
  | 102 => ⟨S50000x256, .f32⟩
  | 103 => ⟨S50000x256, .f32⟩
  | 104 => ⟨S850000x1, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x256, .f32⟩
  | 114 => ⟨S850000x256, .f32⟩
  | 115 => ⟨S850000x256, .f32⟩
  | 116 => ⟨S_, .f32⟩
  | 117 => ⟨S50000x256, .f32⟩
  | 118 => ⟨S850000x1, .i32⟩
  | 119 => ⟨S50000x256, .f32⟩
  | 120 => ⟨S1x256, .f32⟩
  | 121 => ⟨S50000x256, .f32⟩
  | 122 => ⟨S50000x256, .f32⟩
  | 123 => ⟨S_, .f32⟩
  | 124 => ⟨S256, .f32⟩
  | 125 => ⟨S_, .f32⟩
  | 126 => ⟨S256, .f32⟩
  | 127 => ⟨S256, .f32⟩
  | _ => ⟨S50000x128, .f32⟩

abbrev hbmTy0_1 (i : Nat) : BufTy := match i % 128 with
  | 0 => ⟨S1x256, .f32⟩
  | 1 => ⟨S50000x256, .f32⟩
  | 2 => ⟨S50000x256, .f32⟩
  | 3 => ⟨S50000x256, .f32⟩
  | 4 => ⟨S_, .f32⟩
  | 5 => ⟨S256, .f32⟩
  | 6 => ⟨S_, .f32⟩
  | 7 => ⟨S256, .f32⟩
  | 8 => ⟨S256, .f32⟩
  | 9 => ⟨S1x256, .f32⟩
  | 10 => ⟨S50000x256, .f32⟩
  | 11 => ⟨S50000x256, .f32⟩
  | 12 => ⟨S_, .f32⟩
  | 13 => ⟨S256, .f32⟩
  | 14 => ⟨S256, .f32⟩
  | 15 => ⟨S256, .f32⟩
  | 16 => ⟨S1x256, .f32⟩
  | 17 => ⟨S50000x256, .f32⟩
  | 18 => ⟨S50000x256, .f32⟩
  | 19 => ⟨S1x256, .f32⟩
  | 20 => ⟨S50000x256, .f32⟩
  | 21 => ⟨S50000x256, .f32⟩
  | 22 => ⟨S1x256, .f32⟩
  | 23 => ⟨S50000x256, .f32⟩
  | 24 => ⟨S50000x256, .f32⟩
  | 25 => ⟨S_, .f32⟩
  | 26 => ⟨S50000x256, .f32⟩
  | 27 => ⟨S50000x256, .f32⟩
  | 28 => ⟨S50000x40, .f32⟩
  | 29 => ⟨S850000x1, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000x40, .f32⟩
  | 39 => ⟨S850000x40, .f32⟩
  | 40 => ⟨S850000x40, .f32⟩
  | 41 => ⟨S_, .f32⟩
  | 42 => ⟨S50000x40, .f32⟩
  | 43 => ⟨S850000x1, .i32⟩
  | 44 => ⟨S50000x40, .f32⟩
  | 45 => ⟨S1x40, .f32⟩
  | 46 => ⟨S50000x40, .f32⟩
  | 47 => ⟨S50000x40, .f32⟩
  | 48 => ⟨S_, .f32⟩
  | 49 => ⟨S50000, .f32⟩
  | 50 => ⟨S_, .f32⟩
  | 51 => ⟨S50000, .f32⟩
  | 52 => ⟨S50000, .f32⟩
  | 53 => ⟨S50000x1, .f32⟩
  | 54 => ⟨S50000x40, .f32⟩
  | 55 => ⟨S50000x40, .f32⟩
  | 56 => ⟨S50000x40, .f32⟩
  | 57 => ⟨S_, .f32⟩
  | 58 => ⟨S50000, .f32⟩
  | 59 => ⟨S50000x1, .f32⟩
  | 60 => ⟨S50000x1, .f32⟩
  | 61 => ⟨S50000x40, .f32⟩
  | 62 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call1_cst : Ref sig .tc := ⟨.hbm, 100, rfl⟩
abbrev main_call1_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_c_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_17 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_19 : Ref sig .tc := ⟨.hbm, 132, rfl⟩
abbrev main_v97 : Ref sig .tc := ⟨.hbm, 133, rfl⟩
abbrev main_cst_20 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_21 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_call2_cst : Ref sig .tc := ⟨.hbm, 153, rfl⟩
abbrev main_call2_v0 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_22 : Ref sig .tc := ⟨.hbm, 158, rfl⟩
abbrev main_v118 : Ref sig .tc := ⟨.hbm, 159, rfl⟩
abbrev main_v119 : Ref sig .tc := ⟨.hbm, 160, rfl⟩
abbrev main_c_23 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_24 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_call3_cst : Ref sig .tc := ⟨.hbm, 176, rfl⟩
abbrev main_call3_v0 : Ref sig .tc := ⟨.hbm, 177, rfl⟩
abbrev main_call3_cst_0 : Ref sig .tc := ⟨.hbm, 178, rfl⟩
abbrev main_call3_v1 : Ref sig .tc := ⟨.hbm, 179, rfl⟩
abbrev main_call3_v2 : Ref sig .tc := ⟨.hbm, 180, rfl⟩
abbrev main_call3_v3 : Ref sig .tc := ⟨.hbm, 181, rfl⟩
abbrev main_call3_v4 : Ref sig .tc := ⟨.hbm, 182, rfl⟩
abbrev main_call3_v5 : Ref sig .tc := ⟨.hbm, 183, rfl⟩
abbrev main_call3_v6 : Ref sig .tc := ⟨.hbm, 184, rfl⟩
abbrev main_call3_cst_1 : Ref sig .tc := ⟨.hbm, 185, rfl⟩
abbrev main_call3_v7 : Ref sig .tc := ⟨.hbm, 186, rfl⟩
abbrev main_call3_v8 : Ref sig .tc := ⟨.hbm, 187, rfl⟩
abbrev main_call3_v9 : Ref sig .tc := ⟨.hbm, 188, rfl⟩
abbrev main_call3_v10 : Ref sig .tc := ⟨.hbm, 189, rfl⟩
abbrev main_v133 : Ref sig .tc := ⟨.hbm, 190, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x40_S50000x40_1_0_0_1_n_n_wf : DotDims.WF S50000x256 S256x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KB.Reg0.lean ====
import proofs.«418912_j86466281603780_3_alg».proof.Proof.Gen.Kernel.Launch
import proofs.«418912_j86466281603780_3_alg».proof.Proof.Gen.Kernel.Skeleton
import proofs.«418912_j86466281603780_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1000x128 := Rect.unit (s := S1000x128) ![0, 0] S1000x128.size inb_S1000x128_S1000x128_0_0
abbrev r0_1 : Rect S128x256 := Rect.unit (s := S128x256) ![0, 0] S128x256.size inb_S128x256_S128x256_0_0
abbrev r0_2 : Rect S1000x256 := Rect.unit (s := S1000x256) ![0, 0] S1000x256.size inb_S1000x256_S1000x256_0_0

def out0_2 (x0 : Vec F S1000x128 .f32) (x1 : Vec F S128x256 .f32) : Vec F S1000x256 .f32 :=
  View.canon [⟨r0_2, k0_pay1 (View.ld x0 r0_0) (View.ld x1 r0_1)⟩]

theorem cover0_2 (p0 : Vec F S1000x256 .f32) (y : S1000x256.Idx) :
    ∃ pc ∈ ([⟨r0_2, p0⟩] : List (View.Piece (Elt F) S1000x256 .f32)), y ∈ pc.1.set :=
  View.cover_of_tiled [⟨r0_2, p0⟩] S1000x256.size (by rfl) y

set_option maxHeartbeats 1000000 in
theorem sound_kernel0 (E : Set ℕ) (i : grid0.Coords) (arg1 : Memref sig .tc .vmem S1000x128 .f32) (harg1 : arg1.IsWhole) (arg2 : Memref sig .tc .vmem S128x256 .f32) (harg2 : arg2.IsWhole) (arg3 : Memref sig .tc .vmem S1000x256 .f32) (harg3 : arg3.IsWhole)
    (x0 : Vec F S1000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (w : Fin cfg0.W) : (dat0 V c).A w = V c (Pipeline.arrRef spec0 w) := by
  dsimp only [dat0]

theorem after0_0 : (dat0 V c).after 0 t = iblk0 V c 0 t := by dsimp only [dat0]
theorem after0_1 : (dat0 V c).after 1 t = iblk0 V c 1 t := by dsimp only [dat0]
theorem after0_2 : (dat0 V c).after 2 t = out0_2 (iblk0 V c 0 t) (iblk0 V c 1 t) := by dsimp only [dat0]

theorem before0_0 (d) : (dat0 V c).before 0 t d = iblk0 V c 0 t :=
  before0_0_of V (dat0 V c) (A_eq0 V c 0) (after0_0 V c) t d
theorem before0_1 (d) : (dat0 V c).before 1 t d = iblk0 V c 1 t :=
  before0_1_of V (dat0 V c) (A_eq0 V c 1) (after0_1 V c) t d

theorem arrAt0_in :
    (dat0 V c).arrAt 0 cfg0.N = V c (Pipeline.arrRef spec0 0) ∧ (dat0 V c).arrAt 1 cfg0.N = V c (Pipeline.arrRef spec0 1) :=
  ⟨((dat0 V c).arrAt_in 0 rfl _).trans (A_eq0 V c 0), ((dat0 V c).arrAt_in 1 rfl _).trans (A_eq0 V c 1)⟩

def bodyPre0 : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 : BodyObligation (dat0 (F := F) V c) (defs₀ (F := F)) Variants.none () Set.univ := fun t => by
  rw [bigSep_W0, bigSep_W0]
  exact sound_body0 V c t

theorem hin0 : (iprop((∃ r, prngReg c r) ∗ Pipeline.scopedRest spec0 c) : sProp 𝕄) ⊢ (dat0 V c).Φ 0 := by
  rw [show (dat0 V c).Φ 0 = Pipeline.ΦA spec0 c from rfl]; unfold Pipeline.ΦA
  iintro ⟨Hp, Hr⟩
  isplitl [Hr]; · iexact Hr
  iexact Hp

theorem hout0 : (dat0 V c).Φ (Fin.last cfg0.N) ⊢ (iprop((∃ r, prngReg c r) ∗ Pipeline.scopedRest spec0 c) : sProp 𝕄) := by
  rw [show (dat0 V c).Φ (Fin.last _) = Pipeline.ΦA spec0 c from rfl]; unfold Pipeline.ΦA
  iintro ⟨Hr, Hp⟩
  isplitl [Hp]; · iexact Hp
  iexact Hr

end Cert.Kernel.Hand

end
-- ==== Proof.KB.Reg1Dat.lean ====
import proofs.«418912_j86466281603780_3_alg».proof.Proof.Gen.Kernel.Launch
import proofs.«418912_j86466281603780_3_alg».proof.Proof.Gen.Kernel.Skeleton
import proofs.«418912_j86466281603780_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N) (n : ℕ)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 50 = 0 :=
  (by decide +kernel : ∀ t : Fin grid1.N, cond1_0 (grid1.coords t) ↔ t.val % 50 = 0)

abbrev cond1_1 (i : grid1.Coords) : Prop := k1_cond2 i = 1#1

theorem hcond1_1 : ∀ t : Fin cfg1.N, cond1_1 (grid1.coords t) ↔ t.val % 50 = 49 :=
  (by decide +kernel : ∀ t : Fin grid1.N, cond1_1 (grid1.coords t) ↔ t.val % 50 = 49)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk1 : Vec F S1000x256 .f32 := iblk1 V c 0 t

abbrev bblk1 : Vec F S1x256 .f32 := iblk1 V c 1 t

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel

theorem liveAt1_3 : ∀ t : Fin cfg1.N, cond1_1 (grid1.coords t) → cfg1.idle 3 (grid1.coords t) = false := by decide +kernel

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev scM1_0 : Memref sig .tc .vmem S1x256 .f32 := Memref.whole cc1_scratch0
abbrev scM1_1 : Memref sig .tc .vmem S1x256 .f32 := Memref.whole cc1_scratch1

theorem scopedRest1_owns :
    (Pipeline.scopedRest spec1 c : sProp 𝕄)
      = iprop(iprop((∃ d, owns (c : Thread nD τ) scM1_0 fullShare d) ∗ (∃ d, owns (c : Thread nD τ) scM1_1 fullShare d))
          ∗ Pipeline.scopedRestBut spec1 c [cc1_scratch0, cc1_scratch1]) := by
  rw [scopedRest1_split]; simp only [scM1_0, scM1_1, owns_whole]; rfl

def acc1_0 (V : (c : Dev nD) → (b : Ref sig .tc) → Buf (Elt F) ((c : Thread nD τ).loc b)) (c : Dev nD) : ℕ → Vec F S1x256 .f32
  | 0 => k1_pay1
  | n + 1 => if h : n < cfg1.N then k1_pay4 (xblk1 V c ⟨n, h⟩) (bblk1 V c ⟨n, h⟩) (acc1_0 V c n) else acc1_0 V c n

def acc1_1 (V : (c : Dev nD) → (b : Ref sig .tc) → Buf (Elt F) ((c : Thread nD τ).loc b)) (c : Dev nD) : ℕ → Vec F S1x256 .f32
  | 0 => k1_pay2
  | n + 1 => if h : n < cfg1.N then k1_pay5 (xblk1 V c ⟨n, h⟩) (bblk1 V c ⟨n, h⟩) (acc1_1 V c n) else acc1_1 V c n

theorem acc1_0_succ :
    acc1_0 V c (t.val + 1) = k1_pay4 (xblk1 V c t) (bblk1 V c t) (acc1_0 V c t.val) := by
  show (if h : t.val < cfg1.N then _ else _) = _; rw [dif_pos t.isLt]

theorem acc1_1_succ :
    acc1_1 V c (t.val + 1) = k1_pay5 (xblk1 V c t) (bblk1 V c t) (acc1_1 V c t.val) := by
  show (if h : t.val < cfg1.N then _ else _) = _; rw [dif_pos t.isLt]

def Phi1 : ℕ → sProp 𝕄
  | 0 => iprop((∃ r, prngReg c r) ∗ Pipeline.scopedRest spec1 c)
  | n + 1 => iprop((∃ r, prngReg c r)
      ∗ iprop(owns (c : Thread nD τ) scM1_0 fullShare (acc1_0 V c (n + 1)) ∗ owns (c : Thread nD τ) scM1_1 fullShare (acc1_1 V c (n + 1)))
      ∗ Pipeline.scopedRestBut spec1 c [cc1_scratch0, cc1_scratch1])

theorem Phi1_zero (hz : n = 0) :
    Phi1 V c n = iprop((∃ r, prngReg c r) ∗ Pipeline.scopedRest spec1 c) := by
  subst hz; rfl

theorem Phi1_succ :
    Phi1 V c (n + 1) = iprop((∃ r, prngReg c r)
      ∗ iprop(owns (c : Thread nD τ) scM1_0 fullShare (acc1_0 V c (n + 1)) ∗ owns (c : Thread nD τ) scM1_1 fullShare (acc1_1 V c (n + 1)))
      ∗ Pipeline.scopedRestBut spec1 c [cc1_scratch0, cc1_scratch1]) := rfl

theorem Phi1_pos (hz : n ≠ 0) :
    Phi1 V c n = iprop((∃ r, prngReg c r)
      ∗ iprop(owns (c : Thread nD τ) scM1_0 fullShare (acc1_0 V c n) ∗ owns (c : Thread nD τ) scM1_1 fullShare (acc1_1 V c n))
      ∗ Pipeline.scopedRestBut spec1 c [cc1_scratch0, cc1_scratch1]) := by
  cases n with
  | zero => exact absurd rfl hz
  | succ n => rfl

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (xblk1 V c t) (bblk1 V c t)
    | ⟨3, _⟩ => k1_pay6 (acc1_0 V c (t.val + 1))
    | ⟨4, _⟩ => k1_pay7 (acc1_0 V c (t.val + 1)) (acc1_1 V c (t.val + 1))
  Φ t := Phi1 V c t.val
  q _ := fullShare
  owed _ := 0

theorem A_eq1 (w : Fin cfg1.W) : (dat1 V c).A w = V c (Pipeline.arrRef spec1 w) := by
  dsimp only [dat1]

theorem after1_0 : (dat1 V c).after 0 t = iblk1 V c 0 t := by dsimp only [dat1]
theorem after1_1 : (dat1 V c).after 1 t = iblk1 V c 1 t := by dsimp only [dat1]
theorem after1_2 : (dat1 V c).after 2 t = k1_pay3 (xblk1 V c t) (bblk1 V c t) := by dsimp only [dat1]
theorem after1_3 : (dat1 V c).after 3 t = k1_pay6 (acc1_0 V c (t.val + 1)) := by dsimp only [dat1]
theorem after1_4 : (dat1 V c).after 4 t = k1_pay7 (acc1_0 V c (t.val + 1)) (acc1_1 V c (t.val + 1)) := by dsimp only [dat1]

theorem Phi1_castSucc : (dat1 V c).Φ t.castSucc = Phi1 V c t.val := by
  dsimp only [dat1]; simp only [Fin.coe_castSucc]
theorem Phi1_succ' : (dat1 V c).Φ t.succ = Phi1 V c (t.val + 1) := by
  dsimp only [dat1]; simp only [Fin.val_succ]

theorem before1_0 (d) : (dat1 V c).before 0 t d = iblk1 V c 0 t :=
  before1_0_of V (dat1 V c) (A_eq1 V c 0) (after1_0 V c) t d
theorem before1_1 (d) : (dat1 V c).before 1 t d = iblk1 V c 1 t :=
  before1_1_of V (dat1 V c) (A_eq1 V c 1) (after1_1 V c) t d

theorem arrAt1_in :
    (dat1 V c).arrAt 0 cfg1.N = V c (Pipeline.arrRef spec1 0) ∧ (dat1 V c).arrAt 1 cfg1.N = V c (Pipeline.arrRef spec1 1) :=
  ⟨((dat1 V c).arrAt_in 0 rfl _).trans (A_eq1 V c 0), ((dat1 V c).arrAt_in 1 rfl _).trans (A_eq1 V c 1)⟩

end Cert.Kernel.Hand

end
-- ==== Proof.KB.Reg2.lean ====
import proofs.«418912_j86466281603780_3_alg».proof.Proof.Gen.Kernel.Launch
import proofs.«418912_j86466281603780_3_alg».proof.Proof.Gen.Kernel.Skeleton
import proofs.«418912_j86466281603780_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (w : Fin cfg2.W) (t : Fin cfg2.N)

def iblk2 : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S1000x256 := Rect.unit (s := S1000x256) ![0, 0] S1000x256.size inb_S1000x256_S1000x256_0_0
abbrev r2_w : Rect S256x256 := Rect.unit (s := S256x256) ![0, 0] S256x256.size inb_S256x256_S256x256_0_0
abbrev r2_v : Rect S1x256 := Rect.unit (s := S1x256) ![0, 0] S1x256.size inb_S1x256_S1x256_0_0

def out2_6 (x0 : Vec F S1000x256 .f32) (x1 : Vec F S256x256 .f32) (x2 : Vec F S1x256 .f32) (x3 : Vec F S1x256 .f32) (x4 : Vec F S1x256 .f32) (x5 : Vec F S1x256 .f32) : Vec F S1000x256 .f32 :=
  View.canon [⟨r2_x, k2_pay1 (View.ld x3 r2_v) (View.ld x4 r2_v) (View.ld x5 r2_v) (View.ld x2 r2_v) (View.ld x0 r2_x) (View.ld x1 r2_w)⟩]

theorem cover2_6 (p0 : Vec F S1000x256 .f32) (y : S1000x256.Idx) :
    ∃ pc ∈ ([⟨r2_x, p0⟩] : List (View.Piece (Elt F) S1000x256 .f32)), y ∈ pc.1.set :=
  View.cover_of_tiled [⟨r2_x, p0⟩] S1000x256.size (by rfl) y

set_option maxHeartbeats 1000000 in
theorem sound_kernel2 (E : Set ℕ) (i : grid2.Coords)
    (arg0 : Memref sig .tc .vmem S1000x256 .f32) (harg0 : arg0.IsWhole) (arg1 : Memref sig .tc .vmem S256x256 .f32) (harg1 : arg1.IsWhole)
    (arg2 : Memref sig .tc .vmem S1x256 .f32) (harg2 : arg2.IsWhole) (arg3 : Memref sig .tc .vmem S1x256 .f32) (harg3 : arg3.IsWhole)
    (arg4 : Memref sig .tc .vmem S1x256 .f32) (harg4 : arg4.IsWhole) (arg5 : Memref sig .tc .vmem S1x256 .f32) (harg5 : arg5.IsWhole)
    (arg6 : Memref sig .tc .vmem S1000x256 .f32) (harg6 : arg6.IsWhole)
    (x0 : Vec F S1000x256 .f32) (x1 : Vec F S256x256 .f32) (x2 : Vec F S1x256 .f32) (x3 : Vec F S1x256 .f32) (x4 : Vec F S1x256 .f32) (x5 : Vec F S1x256 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E (cc2_kernel i arg0 harg0 arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 : (dat2 V c).A w = V c (Pipeline.arrRef spec2 w) := by
  dsimp only [dat2]

theorem after2_0 : (dat2 V c).after 0 t = iblk2 V c 0 t := by dsimp only [dat2]
theorem after2_1 : (dat2 V c).after 1 t = iblk2 V c 1 t := by dsimp only [dat2]
theorem after2_2 : (dat2 V c).after 2 t = iblk2 V c 2 t := by dsimp only [dat2]
theorem after2_3 : (dat2 V c).after 3 t = iblk2 V c 3 t := by dsimp only [dat2]
theorem after2_4 : (dat2 V c).after 4 t = iblk2 V c 4 t := by dsimp only [dat2]
theorem after2_5 : (dat2 V c).after 5 t = iblk2 V c 5 t := by dsimp only [dat2]
theorem after2_6 :
    (dat2 V c).after 6 t = out2_6 (iblk2 V c 0 t) (iblk2 V c 1 t) (iblk2 V c 2 t) (iblk2 V c 3 t) (iblk2 V c 4 t) (iblk2 V c 5 t) := by dsimp only [dat2]

theorem before2_0 (d) : (dat2 V c).before 0 t d = iblk2 V c 0 t :=
  before2_0_of V (dat2 V c) (A_eq2 V c 0) (after2_0 V c) t d
theorem before2_1 (d) : (dat2 V c).before 1 t d = iblk2 V c 1 t :=
  before2_1_of V (dat2 V c) (A_eq2 V c 1) (after2_1 V c) t d
theorem before2_2 (d) : (dat2 V c).before 2 t d = iblk2 V c 2 t :=
  before2_2_of V (dat2 V c) (A_eq2 V c 2) (after2_2 V c) t d
theorem before2_3 (d) : (dat2 V c).before 3 t d = iblk2 V c 3 t :=
  before2_3_of V (dat2 V c) (A_eq2 V c 3) (after2_3 V c) t d
theorem before2_4 (d) : (dat2 V c).before 4 t d = iblk2 V c 4 t :=
  before2_4_of V (dat2 V c) (A_eq2 V c 4) (after2_4 V c) t d
theorem before2_5 (d) : (dat2 V c).before 5 t d = iblk2 V c 5 t :=
  before2_5_of V (dat2 V c) (A_eq2 V c 5) (after2_5 V c) t d

theorem arrAt2_in (hw : (cfg2.win w).isOut = false) (n) :
    (dat2 V c).arrAt w n = V c (Pipeline.arrRef spec2 w) :=
  ((dat2 V c).arrAt_in w hw n).trans (A_eq2 V c w)

def bodyPre2 : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 : BodyObligation (dat2 (F := F) V c) (defs₀ (F := F)) Variants.none () Set.univ := fun t => by
  rw [bigSep_W2, bigSep_W2]
  exact sound_body2 V c t

theorem hin2 : (iprop((∃ r, prngReg c r) ∗ Pipeline.scopedRest spec2 c) : sProp 𝕄) ⊢ (dat2 V c).Φ 0 := by
  rw [show (dat2 V c).Φ 0 = Pipeline.ΦA spec2 c from rfl]; unfold Pipeline.ΦA
  iintro ⟨Hp, Hr⟩
  isplitl [Hr]; · iexact Hr
  iexact Hp

theorem hout2 : (dat2 V c).Φ (Fin.last cfg2.N) ⊢ (iprop((∃ r, prngReg c r) ∗ Pipeline.scopedRest spec2 c) : sProp 𝕄) := by
  rw [show (dat2 V c).Φ (Fin.last _) = Pipeline.ΦA spec2 c from rfl]; unfold Pipeline.ΦA
  iintro ⟨Hr, Hp⟩
  isplitl [Hp]; · iexact Hp
  iexact Hr

end Cert.Kernel.Hand

end
-- ==== Proof.KB.Reg3Dat.lean ====
import proofs.«418912_j86466281603780_3_alg».proof.Proof.Gen.Kernel.Launch
import proofs.«418912_j86466281603780_3_alg».proof.Proof.Gen.Kernel.Skeleton
import proofs.«418912_j86466281603780_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg3.N) (n : ℕ)

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 50 = 0 :=
  (by decide +kernel : ∀ t : Fin grid3.N, cond3_0 (grid3.coords t) ↔ t.val % 50 = 0)

abbrev cond3_1 (i : grid3.Coords) : Prop := k3_cond2 i = 1#1

theorem hcond3_1 : ∀ t : Fin cfg3.N, cond3_1 (grid3.coords t) ↔ t.val % 50 = 49 :=
  (by decide +kernel : ∀ t : Fin grid3.N, cond3_1 (grid3.coords t) ↔ t.val % 50 = 49)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xblk3 : Vec F S1000x256 .f32 := iblk3 V c 0 t

abbrev bblk3 : Vec F S1x256 .f32 := iblk3 V c 1 t

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel

theorem liveAt3_3 : ∀ t : Fin cfg3.N, cond3_1 (grid3.coords t) → cfg3.idle 3 (grid3.coords t) = false := by decide +kernel

theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

abbrev scM3_0 : Memref sig .tc .vmem S1x256 .f32 := Memref.whole cc3_scratch0
abbrev scM3_1 : Memref sig .tc .vmem S1x256 .f32 := Memref.whole cc3_scratch1

theorem scopedRest3_owns :
    (Pipeline.scopedRest spec3 c : sProp 𝕄)
      = iprop(iprop((∃ d, owns (c : Thread nD τ) scM3_0 fullShare d) ∗ (∃ d, owns (c : Thread nD τ) scM3_1 fullShare d))
          ∗ Pipeline.scopedRestBut spec3 c [cc3_scratch0, cc3_scratch1]) := by
  rw [scopedRest3_split]; simp only [scM3_0, scM3_1, owns_whole]; rfl

def acc3_0 (V : (c : Dev nD) → (b : Ref sig .tc) → Buf (Elt F) ((c : Thread nD τ).loc b)) (c : Dev nD) : ℕ → Vec F S1x256 .f32
  | 0 => k3_pay1
  | n + 1 => if h : n < cfg3.N then k3_pay4 (xblk3 V c ⟨n, h⟩) (bblk3 V c ⟨n, h⟩) (acc3_0 V c n) else acc3_0 V c n

def acc3_1 (V : (c : Dev nD) → (b : Ref sig .tc) → Buf (Elt F) ((c : Thread nD τ).loc b)) (c : Dev nD) : ℕ → Vec F S1x256 .f32
  | 0 => k3_pay2
  | n + 1 => if h : n < cfg3.N then k3_pay5 (xblk3 V c ⟨n, h⟩) (bblk3 V c ⟨n, h⟩) (acc3_1 V c n) else acc3_1 V c n

theorem acc3_0_succ :
    acc3_0 V c (t.val + 1) = k3_pay4 (xblk3 V c t) (bblk3 V c t) (acc3_0 V c t.val) := by
  show (if h : t.val < cfg3.N then _ else _) = _; rw [dif_pos t.isLt]

theorem acc3_1_succ :
    acc3_1 V c (t.val + 1) = k3_pay5 (xblk3 V c t) (bblk3 V c t) (acc3_1 V c t.val) := by
  show (if h : t.val < cfg3.N then _ else _) = _; rw [dif_pos t.isLt]

def Phi3 : ℕ → sProp 𝕄
  | 0 => iprop((∃ r, prngReg c r) ∗ Pipeline.scopedRest spec3 c)
  | n + 1 => iprop((∃ r, prngReg c r)
      ∗ iprop(owns (c : Thread nD τ) scM3_0 fullShare (acc3_0 V c (n + 1)) ∗ owns (c : Thread nD τ) scM3_1 fullShare (acc3_1 V c (n + 1)))
      ∗ Pipeline.scopedRestBut spec3 c [cc3_scratch0, cc3_scratch1])

theorem Phi3_zero (hz : n = 0) :
    Phi3 V c n = iprop((∃ r, prngReg c r) ∗ Pipeline.scopedRest spec3 c) := by
  subst hz; rfl

theorem Phi3_succ :
    Phi3 V c (n + 1) = iprop((∃ r, prngReg c r)
      ∗ iprop(owns (c : Thread nD τ) scM3_0 fullShare (acc3_0 V c (n + 1)) ∗ owns (c : Thread nD τ) scM3_1 fullShare (acc3_1 V c (n + 1)))
      ∗ Pipeline.scopedRestBut spec3 c [cc3_scratch0, cc3_scratch1]) := rfl

theorem Phi3_pos (hz : n ≠ 0) :
    Phi3 V c n = iprop((∃ r, prngReg c r)
      ∗ iprop(owns (c : Thread nD τ) scM3_0 fullShare (acc3_0 V c n) ∗ owns (c : Thread nD τ) scM3_1 fullShare (acc3_1 V c n))
      ∗ Pipeline.scopedRestBut spec3 c [cc3_scratch0, cc3_scratch1]) := by
  cases n with
  | zero => exact absurd rfl hz
  | succ n => rfl

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (xblk3 V c t) (bblk3 V c t)
    | ⟨3, _⟩ => k3_pay6 (acc3_0 V c (t.val + 1))
    | ⟨4, _⟩ => k3_pay7 (acc3_0 V c (t.val + 1)) (acc3_1 V c (t.val + 1))
  Φ t := Phi3 V c t.val
  q _ := fullShare
  owed _ := 0

theorem A_eq3 (w : Fin cfg3.W) : (dat3 V c).A w = V c (Pipeline.arrRef spec3 w) := by
  dsimp only [dat3]

theorem after3_0 : (dat3 V c).after 0 t = iblk3 V c 0 t := by dsimp only [dat3]
theorem after3_1 : (dat3 V c).after 1 t = iblk3 V c 1 t := by dsimp only [dat3]
theorem after3_2 : (dat3 V c).after 2 t = k3_pay3 (xblk3 V c t) (bblk3 V c t) := by dsimp only [dat3]
theorem after3_3 : (dat3 V c).after 3 t = k3_pay6 (acc3_0 V c (t.val + 1)) := by dsimp only [dat3]
theorem after3_4 : (dat3 V c).after 4 t = k3_pay7 (acc3_0 V c (t.val + 1)) (acc3_1 V c (t.val + 1)) := by dsimp only [dat3]

theorem Phi3_castSucc : (dat3 V c).Φ t.castSucc = Phi3 V c t.val := by
  dsimp only [dat3]; simp only [Fin.coe_castSucc]
theorem Phi3_succ' : (dat3 V c).Φ t.succ = Phi3 V c (t.val + 1) := by
  dsimp only [dat3]; simp only [Fin.val_succ]

theorem before3_0 (d) : (dat3 V c).before 0 t d = iblk3 V c 0 t :=
  before3_0_of V (dat3 V c) (A_eq3 V c 0) (after3_0 V c) t d
theorem before3_1 (d) : (dat3 V c).before 1 t d = iblk3 V c 1 t :=
  before3_1_of V (dat3 V c) (A_eq3 V c 1) (after3_1 V c) t d

theorem arrAt3_in :
    (dat3 V c).arrAt 0 cfg3.N = V c (Pipeline.arrRef spec3 0) ∧ (dat3 V c).arrAt 1 cfg3.N = V c (Pipeline.arrRef spec3 1) :=
  ⟨((dat3 V c).arrAt_in 0 rfl _).trans (A_eq3 V c 0), ((dat3 V c).arrAt_in 1 rfl _).trans (A_eq3 V c 1)⟩

end Cert.Kernel.Hand

end
-- ==== Proof.KB.Reg4.lean ====
import proofs.«418912_j86466281603780_3_alg».proof.Proof.Gen.Kernel.Launch
import proofs.«418912_j86466281603780_3_alg».proof.Proof.Gen.Kernel.Skeleton
import proofs.«418912_j86466281603780_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (w : Fin cfg4.W) (t : Fin cfg4.N)

def iblk4 : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

abbrev r4_x : Rect S1000x256 := Rect.unit (s := S1000x256) ![0, 0] S1000x256.size inb_S1000x256_S1000x256_0_0
abbrev r4_o : Rect S1000x40 := Rect.unit (s := S1000x40) ![0, 0] S1000x40.size inb_S1000x40_S1000x40_0_0
abbrev r4_w : Rect S256x40 := Rect.unit (s := S256x40) ![0, 0] S256x40.size inb_S256x40_S256x40_0_0
abbrev r4_v : Rect S1x256 := Rect.unit (s := S1x256) ![0, 0] S1x256.size inb_S1x256_S1x256_0_0

def out4_6 (x0 : Vec F S1000x256 .f32) (x1 : Vec F S256x40 .f32) (x2 : Vec F S1x256 .f32) (x3 : Vec F S1x256 .f32) (x4 : Vec F S1x256 .f32) (x5 : Vec F S1x256 .f32) : Vec F S1000x40 .f32 :=
  View.canon [⟨r4_o, k4_pay1 (View.ld x3 r4_v) (View.ld x4 r4_v) (View.ld x5 r4_v) (View.ld x2 r4_v) (View.ld x0 r4_x) (View.ld x1 r4_w)⟩]

theorem cover4_6 (p0 : Vec F S1000x40 .f32) (y : S1000x40.Idx) :
    ∃ pc ∈ ([⟨r4_o, p0⟩] : List (View.Piece (Elt F) S1000x40 .f32)), y ∈ pc.1.set :=
  View.cover_of_tiled [⟨r4_o, p0⟩] S1000x40.size (by rfl) y

set_option maxHeartbeats 1000000 in
theorem sound_kernel4 (E : Set ℕ) (i : grid4.Coords)
    (arg0 : Memref sig .tc .vmem S1000x256 .f32) (harg0 : arg0.IsWhole) (arg1 : Memref sig .tc .vmem S256x40 .f32) (harg1 : arg1.IsWhole)
    (arg2 : Memref sig .tc .vmem S1x256 .f32) (harg2 : arg2.IsWhole) (arg3 : Memref sig .tc .vmem S1x256 .f32) (harg3 : arg3.IsWhole)
    (arg4 : Memref sig .tc .vmem S1x256 .f32) (harg4 : arg4.IsWhole) (arg5 : Memref sig .tc .vmem S1x256 .f32) (harg5 : arg5.IsWhole)
    (arg6 : Memref sig .tc .vmem S1000x40 .f32) (harg6 : arg6.IsWhole)
    (x0 : Vec F S1000x256 .f32) (x1 : Vec F S256x40 .f32) (x2 : Vec F S1x256 .f32) (x3 : Vec F S1x256 .f32) (x4 : Vec F S1x256 .f32) (x5 : Vec F S1x256 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out4_6 x0 x1 x2 x3 x4 x5)) -∗ K ⟨⟩))
      ⊢ wp frame (wpE (defs₀ (F := F)) Variants.none c none) E (cc4_kernel i arg0 harg0 arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 : (dat4 V c).A w = V c (Pipeline.arrRef spec4 w) := by
  dsimp only [dat4]

theorem after4_0 : (dat4 V c).after 0 t = iblk4 V c 0 t := by dsimp only [dat4]
theorem after4_1 : (dat4 V c).after 1 t = iblk4 V c 1 t := by dsimp only [dat4]
theorem after4_2 : (dat4 V c).after 2 t = iblk4 V c 2 t := by dsimp only [dat4]
theorem after4_3 : (dat4 V c).after 3 t = iblk4 V c 3 t := by dsimp only [dat4]
theorem after4_4 : (dat4 V c).after 4 t = iblk4 V c 4 t := by dsimp only [dat4]
theorem after4_5 : (dat4 V c).after 5 t = iblk4 V c 5 t := by dsimp only [dat4]
theorem after4_6 :
    (dat4 V c).after 6 t = out4_6 (iblk4 V c 0 t) (iblk4 V c 1 t) (iblk4 V c 2 t) (iblk4 V c 3 t) (iblk4 V c 4 t) (iblk4 V c 5 t) := by dsimp only [dat4]

theorem before4_0 (d) : (dat4 V c).before 0 t d = iblk4 V c 0 t :=
  before4_0_of V (dat4 V c) (A_eq4 V c 0) (after4_0 V c) t d
theorem before4_1 (d) : (dat4 V c).before 1 t d = iblk4 V c 1 t :=
  before4_1_of V (dat4 V c) (A_eq4 V c 1) (after4_1 V c) t d
theorem before4_2 (d) : (dat4 V c).before 2 t d = iblk4 V c 2 t :=
  before4_2_of V (dat4 V c) (A_eq4 V c 2) (after4_2 V c) t d
theorem before4_3 (d) : (dat4 V c).before 3 t d = iblk4 V c 3 t :=
  before4_3_of V (dat4 V c) (A_eq4 V c 3) (after4_3 V c) t d
theorem before4_4 (d) : (dat4 V c).before 4 t d = iblk4 V c 4 t :=
  before4_4_of V (dat4 V c) (A_eq4 V c 4) (after4_4 V c) t d
theorem before4_5 (d) : (dat4 V c).before 5 t d = iblk4 V c 5 t :=
  before4_5_of V (dat4 V c) (A_eq4 V c 5) (after4_5 V c) t d

theorem arrAt4_in (hw : (cfg4.win w).isOut = false) (n) :
    (dat4 V c).arrAt w n = V c (Pipeline.arrRef spec4 w) :=
  ((dat4 V c).arrAt_in w hw n).trans (A_eq4 V c w)

def bodyPre4 : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _
    (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 : BodyObligation (dat4 (F := F) V c) (defs₀ (F := F)) Variants.none () Set.univ := fun t => by
  rw [bigSep_W4, bigSep_W4]
  exact sound_body4 V c t

theorem hin4 : (iprop((∃ r, prngReg c r) ∗ Pipeline.scopedRest spec4 c) : sProp 𝕄) ⊢ (dat4 V c).Φ 0 := by
  rw [show (dat4 V c).Φ 0 = Pipeline.ΦA spec4 c from rfl]; unfold Pipeline.ΦA
  iintro ⟨Hp, Hr⟩
  isplitl [Hr]; · iexact Hr
  iexact Hp

theorem hout4 : (dat4 V c).Φ (Fin.last cfg4.N) ⊢ (iprop((∃ r, prngReg c r) ∗ Pipeline.scopedRest spec4 c) : sProp 𝕄) := by
  rw [show (dat4 V c).Φ (Fin.last _) = Pipeline.ΦA spec4 c from rfl]; unfold Pipeline.ΦA
  iintro ⟨Hr, Hp⟩
  isplitl [Hp]; · iexact Hp
  iexact Hr

end Cert.Kernel.Hand

end
-- ==== Proof.KB.Reg5.lean ====
import proofs.«418912_j86466281603780_3_alg».proof.Proof.Gen.Kernel.Launch
import proofs.«418912_j86466281603780_3_alg».proof.Proof.Gen.Kernel.Skeleton
import proofs.«418912_j86466281603780_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

section
variable {c : Dev nD} (dat : Dat τ (Elt F) Unit ℕ (UR sig nD τ) ℕ cfg5 c)

theorem before5_0_of (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

end

abbrev r5_0 : Rect S1000x40 := Rect.unit (s := S1000x40) ![0, 0] S1000x40.size inb_S1000x40_S1000x40_0_0

abbrev r5_1 : Rect S1x40 := Rect.unit (s := S1x40) ![0, 0] S1x40.size inb_S1x40_S1x40_0_0

def out5_2 (x0 : Vec F S1000x40 .f32) (x1 : Vec F S1x40 .f32) : Vec F S1000x40 .f32 :=
  View.canon [⟨r5_0, k5_pay1 (View.ld x0 r5_0) (View.ld x1 r5_1)⟩]

theorem cover5_2 (p0 : Vec F S1000x40 .f32) (y : S1000x40.Idx) :
    ∃ pc ∈ ([⟨r5_0, p0⟩] : List (View.Piece (Elt F) S1000x40 .f32)), y ∈ pc.1.set :=
  View.cover_of_tiled [⟨r5_0, p0⟩] S1000x40.size (by rfl) y

set_option maxHeartbeats 1000000 in
theorem sound_kernel5 (c : Dev nD) (E : Set ℕ) (i : grid5.Coords)
    (arg0 : Memref sig .tc .vmem S1000x40 .f32) (harg0 : arg0.IsWhole)
    (arg1 : Memref sig .tc .vmem S1x40 .f32) (harg1 : arg1.IsWhole)
    (arg2 : Memref sig .tc .vmem S1000x40 .f32) (harg2 : arg2.IsWhole)
    (x0 : Vec F S1000x40 .f32) (x1 : Vec F S1x40 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out5_2 x0 x1)) -∗ K ⟨⟩))
      ⊢ wp frame (wpE (defs₀ (F := F)) Variants.none c none) E (cc5_kernel i arg0 harg0 arg1 harg1 arg2 harg2) K := by
  simp only [cc5_kernel_eq_skeleton]; unfold cc5_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

end Region5

section
variable (V : (c : Dev nD) → (b : Ref sig .tc) → Buf (Elt F) ((c : Thread nD τ).loc b)) (c : Dev nD)

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (w : Fin cfg5.W) : (dat5 V c).A w = V c (Pipeline.arrRef spec5 w) := by
  dsimp only [dat5]

end

section Region5
variable (V : (c : Dev nD) → (b : Ref sig .tc) → Buf (Elt F) ((c : Thread nD τ).loc b))
section
variable (c : Dev nD) (t : Fin cfg5.N)

theorem after5_0 : (dat5 V c).after 0 t = iblk5 V c 0 t := by dsimp only [dat5]
theorem after5_1 : (dat5 V c).after 1 t = iblk5 V c 1 t := by dsimp only [dat5]
theorem after5_2 : (dat5 V c).after 2 t = out5_2 (iblk5 V c 0 t) (iblk5 V c 1 t) := by dsimp only [dat5]

theorem before5_0 (d) : (dat5 V c).before 0 t d = iblk5 V c 0 t :=
  before5_0_of V (dat5 V c) (A_eq5 V c 0) (after5_0 V c) t d
theorem before5_1 (d) : (dat5 V c).before 1 t d = iblk5 V c 1 t :=
  before5_1_of V (dat5 V c) (A_eq5 V c 1) (after5_1 V c) t d

theorem arrAt5_in (w : Fin cfg5.W) (hw : (cfg5.win w).isOut = false) (n : ℕ) :
    (dat5 V c).arrAt w n = V c (Pipeline.arrRef spec5 w) :=
  ((dat5 V c).arrAt_in w hw n).trans (A_eq5 V c w)
def bodyPre5 : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Region5
section
variable (V : (c : Dev nD) → (b : Ref sig .tc) → Buf (Elt F) ((c : Thread nD τ).loc b)) (c : Dev nD)

theorem body_obligation5 : BodyObligation (dat5 (F := F) V c) (defs₀ (F := F)) Variants.none () Set.univ := fun t => by
  rw [bigSep_W5, bigSep_W5]
  exact sound_body5 V c t

theorem hin5 : (iprop((∃ r, prngReg c r) ∗ Pipeline.scopedRest spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp

theorem hout5 : (dat5 V c).Φ (Fin.last cfg5.N) ⊢ (iprop((∃ r, prngReg c r) ∗ Pipeline.scopedRest spec5 c) : sProp 𝕄) := by
  rw [show (dat5 V c).Φ (Fin.last _) = Pipeline.ΦA spec5 c from rfl]; unfold Pipeline.ΦA
  iintro ⟨Hr, Hp⟩
  isplitl [Hp]; · iexact Hp
  iexact Hr

end

end Cert.Kernel.Hand

end
-- ==== Proof.KB.Fold.lean ====
import proofs.«418912_j86466281603780_3_alg».proof.Proof.Gen.Kernel.Regions
import proofs.«418912_j86466281603780_3_alg».proof.Proof.KB.Reg0
import proofs.«418912_j86466281603780_3_alg».proof.Proof.KB.Reg1Dat
import proofs.«418912_j86466281603780_3_alg».proof.Proof.KB.Reg2
import proofs.«418912_j86466281603780_3_alg».proof.Proof.KB.Reg3Dat
import proofs.«418912_j86466281603780_3_alg».proof.Proof.KB.Reg4
import proofs.«418912_j86466281603780_3_alg».proof.Proof.KB.Reg5

noncomputable section

namespace Cert.Kernel.Hand

open Cert.Kernel Cert.Kernel.Gen
open Idealize.ShloMosaic Idealize.ShloMosaic.TcCoe
open Idealize.ShloMosaic.Pipeline (Dat)

variable {F : FTy → Type} [FloatOps F]
variable (m : (ℓ : Loc nD τ sig) → Buf (Elt F) ℓ)

variable (c : Dev nD) (r : Ref sig .tc)

abbrev atTc (W : Dev nD → Valuation τ sig (Elt F)) : (c : Dev nD) → (b : Ref sig .tc) → Buf (Elt F) ((c : Thread nD τ).loc b) := fun c b => W c b

abbrev U3 : Valuation τ sig (Elt F) := Gen.V3 m c

def U4 : Valuation τ sig (Elt F) :=
  Function.update (U3 m c) main_v30 ((dat0 (atTc (U3 m)) c).arrAt 2 cfg0.N)

abbrev U5 : Valuation τ sig (Elt F) := StableHlo.after hostOps1 (U4 m c)

def U6 : Valuation τ sig (Elt F) :=
  Function.update (Function.update (Function.update (U5 m c) main_v45_0 ((dat1 (atTc (U5 m)) c).arrAt 2 cfg1.N))
    main_v45_1 ((dat1 (atTc (U5 m)) c).arrAt 3 cfg1.N)) main_v45_2 ((dat1 (atTc (U5 m)) c).arrAt 4 cfg1.N)

abbrev U7 : Valuation τ sig (Elt F) := StableHlo.after hostOps2 (U6 m c)

def U8 : Valuation τ sig (Elt F) :=
  Function.update (U7 m c) main_v48 ((dat2 (atTc (U7 m)) c).arrAt 6 cfg2.N)

abbrev U9 : Valuation τ sig (Elt F) := StableHlo.after hostOps3 (U8 m c)

def U10 : Valuation τ sig (Elt F) :=
  Function.update (Function.update (Function.update (U9 m c) main_v63_0 ((dat3 (atTc (U9 m)) c).arrAt 2 cfg3.N))
    main_v63_1 ((dat3 (atTc (U9 m)) c).arrAt 3 cfg3.N)) main_v63_2 ((dat3 (atTc (U9 m)) c).arrAt 4 cfg3.N)

abbrev U11 : Valuation τ sig (Elt F) := StableHlo.after hostOps4 (U10 m c)

def U12 : Valuation τ sig (Elt F) :=
  Function.update (U11 m c) main_v66 ((dat4 (atTc (U11 m)) c).arrAt 6 cfg4.N)

abbrev U13 : Valuation τ sig (Elt F) := StableHlo.after hostOps5 (U12 m c)

def U14 : Valuation τ sig (Elt F) :=
  Function.update (U13 m c) main_v81 ((dat5 (atTc (U13 m)) c).arrAt 2 cfg5.N)

def outsU : Gen.Outs (F := F) := fun J r c =>
  match J with
  | 4 => U4 m c r
  | 6 => U6 m c r
  | 8 => U8 m c r
  | 10 => U10 m c r
  | 12 => U12 m c r
  | _ => U14 m c r

theorem U4_v30 : U4 m c main_v30 = (dat0 (atTc (U3 m)) c).arrAt 2 cfg0.N := by
  unfold U4; exact Function.update_self ..
theorem U6_v45_2 : U6 m c main_v45_2 = (dat1 (atTc (U5 m)) c).arrAt 4 cfg1.N := by
  unfold U6; exact Function.update_self ..
theorem U6_v45_1 : U6 m c main_v45_1 = (dat1 (atTc (U5 m)) c).arrAt 3 cfg1.N := by
  unfold U6
  rw [Function.update_of_ne (StableHlo.devRef_ne_of_ne (by decide) : (Proc.devRef .tc main_v45_1 : DevRef τ sig) ≠ Proc.devRef .tc main_v45_2)]
  exact Function.update_self ..
theorem U6_v45_0 : U6 m c main_v45_0 = (dat1 (atTc (U5 m)) c).arrAt 2 cfg1.N := by
  unfold U6
  rw [Function.update_of_ne (StableHlo.devRef_ne_of_ne (by decide) : (Proc.devRef .tc main_v45_0 : DevRef τ sig) ≠ Proc.devRef .tc main_v45_2),
    Function.update_of_ne (StableHlo.devRef_ne_of_ne (by decide) : (Proc.devRef .tc main_v45_0 : DevRef τ sig) ≠ Proc.devRef .tc main_v45_1)]
  exact Function.update_self ..
theorem U8_v48 : U8 m c main_v48 = (dat2 (atTc (U7 m)) c).arrAt 6 cfg2.N := by
  unfold U8; exact Function.update_self ..
theorem U10_v63_2 : U10 m c main_v63_2 = (dat3 (atTc (U9 m)) c).arrAt 4 cfg3.N := by
  unfold U10; exact Function.update_self ..
theorem U10_v63_1 : U10 m c main_v63_1 = (dat3 (atTc (U9 m)) c).arrAt 3 cfg3.N := by
  unfold U10
  rw [Function.update_of_ne (StableHlo.devRef_ne_of_ne (by decide) : (Proc.devRef .tc main_v63_1 : DevRef τ sig) ≠ Proc.devRef .tc main_v63_2)]
  exact Function.update_self ..
theorem U10_v63_0 : U10 m c main_v63_0 = (dat3 (atTc (U9 m)) c).arrAt 2 cfg3.N := by
  unfold U10
  rw [Function.update_of_ne (StableHlo.devRef_ne_of_ne (by decide) : (Proc.devRef .tc main_v63_0 : DevRef τ sig) ≠ Proc.devRef .tc main_v63_2),
    Function.update_of_ne (StableHlo.devRef_ne_of_ne (by decide) : (Proc.devRef .tc main_v63_0 : DevRef τ sig) ≠ Proc.devRef .tc main_v63_1)]
  exact Function.update_self ..
theorem U12_v66 : U12 m c main_v66 = (dat4 (atTc (U11 m)) c).arrAt 6 cfg4.N := by
  unfold U12; exact Function.update_self ..
theorem U14_v81 : U14 m c main_v81 = (dat5 (atTc (U13 m)) c).arrAt 2 cfg5.N := by
  unfold U14; exact Function.update_self ..

theorem V4_eq : Gen.V4 m (outsU m) c = U4 m c := by
  show Function.update (U3 m c) main_v30 (U4 m c main_v30) = U4 m c
  rw [U4_v30]; rfl
theorem V5_eq : Gen.V5 m (outsU m) c = U5 m c := by
  show StableHlo.after hostOps1 (Gen.V4 m (outsU m) c) = _; rw [V4_eq]
theorem V6_eq : Gen.V6 m (outsU m) c = U6 m c := by
  show Function.update (Function.update (Function.update (Gen.V5 m (outsU m) c) main_v45_0 (U6 m c main_v45_0)) main_v45_1 (U6 m c main_v45_1)) main_v45_2 (U6 m c main_v45_2) = U6 m c
  rw [V5_eq, U6_v45_0, U6_v45_1, U6_v45_2]; rfl
theorem V7_eq : Gen.V7 m (outsU m) c = U7 m c := by
  show StableHlo.after hostOps2 (Gen.V6 m (outsU m) c) = _; rw [V6_eq]
theorem V8_eq : Gen.V8 m (outsU m) c = U8 m c := by
  show Function.update (Gen.V7 m (outsU m) c) main_v48 (U8 m c main_v48) = U8 m c
  rw [V7_eq, U8_v48]; rfl
theorem V9_eq : Gen.V9 m (outsU m) c = U9 m c := by
  show StableHlo.after hostOps3 (Gen.V8 m (outsU m) c) = _; rw [V8_eq]
theorem V10_eq : Gen.V10 m (outsU m) c = U10 m c := by
  show Function.update (Function.update (Function.update (Gen.V9 m (outsU m) c) main_v63_0 (U10 m c main_v63_0)) main_v63_1 (U10 m c main_v63_1)) main_v63_2 (U10 m c main_v63_2) = U10 m c
  rw [V9_eq, U10_v63_0, U10_v63_1, U10_v63_2]; rfl
theorem V11_eq : Gen.V11 m (outsU m) c = U11 m c := by
  show StableHlo.after hostOps4 (Gen.V10 m (outsU m) c) = _; rw [V10_eq]
theorem V12_eq : Gen.V12 m (outsU m) c = U12 m c := by
  show Function.update (Gen.V11 m (outsU m) c) main_v66 (U12 m c main_v66) = U12 m c
  rw [V11_eq, U12_v66]; rfl
theorem V13_eq : Gen.V13 m (outsU m) c = U13 m c := by
  show StableHlo.after hostOps5 (Gen.V12 m (outsU m) c) = _; rw [V12_eq]
theorem V14_eq : Gen.V14 m (outsU m) c = U14 m c := by
  show Function.update (Gen.V13 m (outsU m) c) main_v81 (U14 m c main_v81) = U14 m c
  rw [V13_eq, U14_v81]; rfl

theorem U4_of (h : r ∉ ([main_v30] : List (Ref sig .tc))) : U4 m c r = U3 m c r :=
  (congrFun (V4_eq m c) _).symm.trans (Gen.V4_of m (outsU m) c r h)
theorem U5_of (h : r ∉ hostOps1_W) : U5 m c r = U4 m c r :=
  StableHlo.after_of_writes_sub hostOps1 _ hostOps1_writes h
theorem U6_of (h : r ∉ ([main_v45_0, main_v45_1, main_v45_2] : List (Ref sig .tc))) : U6 m c r = U5 m c r :=
  (congrFun (V6_eq m c) _).symm.trans ((Gen.V6_of m (outsU m) c r h).trans (congrFun (V5_eq m c) _))
theorem U7_of (h : r ∉ hostOps2_W) : U7 m c r = U6 m c r :=
  StableHlo.after_of_writes_sub hostOps2 _ hostOps2_writes h
theorem U8_of (h : r ∉ ([main_v48] : List (Ref sig .tc))) : U8 m c r = U7 m c r :=
  (congrFun (V8_eq m c) _).symm.trans ((Gen.V8_of m (outsU m) c r h).trans (congrFun (V7_eq m c) _))
theorem U9_of (h : r ∉ hostOps3_W) : U9 m c r = U8 m c r :=
  StableHlo.after_of_writes_sub hostOps3 _ hostOps3_writes h
theorem U10_of (h : r ∉ ([main_v63_0, main_v63_1, main_v63_2] : List (Ref sig .tc))) : U10 m c r = U9 m c r :=
  (congrFun (V10_eq m c) _).symm.trans ((Gen.V10_of m (outsU m) c r h).trans (congrFun (V9_eq m c) _))
theorem U11_of (h : r ∉ hostOps4_W) : U11 m c r = U10 m c r :=
  StableHlo.after_of_writes_sub hostOps4 _ hostOps4_writes h
theorem U12_of (h : r ∉ ([main_v66] : List (Ref sig .tc))) : U12 m c r = U11 m c r :=
  (congrFun (V12_eq m c) _).symm.trans ((Gen.V12_of m (outsU m) c r h).trans (congrFun (V11_eq m c) _))
theorem U14_of (h : r ∉ ([main_v81] : List (Ref sig .tc))) : U14 m c r = U13 m c r :=
  (congrFun (V14_eq m c) _).symm.trans ((Gen.V14_of m (outsU m) c r h).trans (congrFun (V13_eq m c) _))

theorem U3_of (h0 : r ∉ hostOps0_W) (h1 : r ∉ hostOps0_1_W) (h2 : r ∉ hostOps0_2_W) :
    U3 m c r = m ((c : Thread nD τ).loc r) :=
  (Gen.V3_of m c r h2).trans ((Gen.V2_of m c r h1).trans ((Gen.V1_of m c r h0).trans rfl))

end Cert.Kernel.Hand

end
-- ==== Proof.KB.Reg1Run.lean ====
import proofs.«418912_j86466281603780_3_alg».proof.Proof.Gen.Kernel.Launch
import proofs.«418912_j86466281603780_3_alg».proof.Proof.Gen.Kernel.Skeleton
import proofs.«418912_j86466281603780_3_alg».proof.Proof.Gen.Kernel.Points
import proofs.«418912_j86466281603780_3_alg».proof.Proof.KB.Reg1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg1 : Memref sig .tc .vmem S1000x256 .f32) (harg1 : arg1.IsWhole) (arg2 : Memref sig .tc .vmem S1x256 .f32) (harg2 : arg2.IsWhole) (arg3 : Memref sig .tc .vmem S1000x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)

set_option maxHeartbeats 4000000 in
noncomputable def kernelRun1_A (hc0 : cond1_0 i) (hc1 : ¬cond1_1 i)
    (x0 : Vec F S1000x256 .f32) (x1 : Vec F S1x256 .f32) :
    Σ' (L2 : List (View.Piece (Elt F) S1000x256 .f32)) (LS0 : List (View.Piece (Elt F) S1x256 .f32)), { LS1 : List (View.Piece (Elt F) S1x256 .f32) //
      ∀ (xi3 : Vec F S1x256 .f32) (xi4 : Vec F S1x256 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7) K } := by
  refine ⟨?_, ?_, ?_, fun xi3 xi4 E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
noncomputable def kernelRun1_B (hc0 : ¬cond1_0 i) (hc1 : ¬cond1_1 i)
    (x0 : Vec F S1000x256 .f32) (x1 : Vec F S1x256 .f32) (xs0 : Vec F S1x256 .f32) (xs1 : Vec F S1x256 .f32) :
    Σ' (L2 : List (View.Piece (Elt F) S1000x256 .f32)) (LS0 : List (View.Piece (Elt F) S1x256 .f32)), { LS1 : List (View.Piece (Elt F) S1x256 .f32) //
      ∀ (xi3 : Vec F S1x256 .f32) (xi4 : Vec F S1x256 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7) K } := by
  refine ⟨?_, ?_, ?_, fun xi3 xi4 E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
noncomputable def kernelRun1_C (hc0 : ¬cond1_0 i) (hc1 : cond1_1 i)
    (x0 : Vec F S1000x256 .f32) (x1 : Vec F S1x256 .f32) (xs0 : Vec F S1x256 .f32) (xs1 : Vec F S1x256 .f32) :
    Σ' (L2 : List (View.Piece (Elt F) S1000x256 .f32)) (L3 : List (View.Piece (Elt F) S1x256 .f32)) (L4 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7) K } := by
  refine ⟨?_, ?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Hand

end
-- ==== Proof.KB.Reg1.lean ====
import proofs.«418912_j86466281603780_3_alg».proof.Proof.Gen.Kernel.Launch
import proofs.«418912_j86466281603780_3_alg».proof.Proof.Gen.Kernel.Skeleton
import proofs.«418912_j86466281603780_3_alg».proof.Proof.Gen.Kernel.Points
import proofs.«418912_j86466281603780_3_alg».proof.Proof.KB.Reg1Dat
import proofs.«418912_j86466281603780_3_alg».proof.Proof.KB.Reg1Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (i : grid1.Coords) (arg1 : Memref sig .tc .vmem S1000x256 .f32) (harg1 : arg1.IsWhole) (arg2 : Memref sig .tc .vmem S1x256 .f32) (harg2 : arg2.IsWhole) (arg3 : Memref sig .tc .vmem S1000x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond1_0 i) (hc1 : ¬cond1_1 i) (x0 : Vec F S1000x256 .f32) (x1 : Vec F S1x256 .f32) (xs0 : Vec F S1x256 .f32) (xs1 : Vec F S1x256 .f32) (y : S1x256.Idx) (t : Fin cfg1.N)

theorem hz1 : (![0, 0] : Fin 2 → Nat) = fun _ => 0 := funext fun a => by fin_cases a <;> rfl

theorem left1_A_2 (hc0 : cond1_0 i) (hc1 : ¬cond1_1 i) (x0 : Vec F S1000x256 .f32) (x1 : Vec F S1x256 .f32) (f) : arg3.view.read (Elt F) (arg3.view.writes (Elt F) f (kernelRun1_A c i arg1 harg1 arg2 harg2 arg3 harg3 arg4 harg4 arg5 harg5 arg6 harg6 arg7 harg7 hc0 hc1 x0 x1).1) = k1_pay3 x0 x1 :=
  (View.read_writes_eq_canon _ f _ (View.cover_of_tiledL _ S1000x256.size (by sl_kernel_rfl))).trans (by
    unfold kernelRun1_A; dsimp only; try sl_unfold_words
    rw [View.canon_unit_zero hz1]
    simp only [View.readAt_eq_ld, harg1.read_unread, harg2.read_unread, View.ld_unit_zero (S := S1000x256) hz1, View.ld_unit_zero (S := S1x256) hz1])

theorem left1_A_s0 (hc0 : cond1_0 i) (hc1 : ¬cond1_1 i) (x0 : Vec F S1000x256 .f32) (x1 : Vec F S1x256 .f32) (f) : arg6.view.read (Elt F) (arg6.view.writes (Elt F) f (kernelRun1_A c i arg1 harg1 arg2 harg2 arg3 harg3 arg4 harg4 arg5 harg5 arg6 harg6 arg7 harg7 hc0 hc1 x0 x1).2.1) = k1_pay4 x0 x1 k1_pay1 :=
  (View.read_writes_eq_canon _ f _ (View.cover_of_tiledL _ S1x256.size (by sl_kernel_rfl))).trans (by
    unfold kernelRun1_A; dsimp only; try sl_unfold_words
    rw [View.canon_cons_unit_zero (S := S1x256) hz1, View.readCov_unit_zero (S := S1x256) _ hz1]
    simp only [View.readAt_eq_ld, harg1.read_unread, harg2.read_unread, View.ld_unit_zero (S := S1000x256) hz1, View.ld_unit_zero (S := S1x256) hz1])

theorem left1_A_s1 (hc0 : cond1_0 i) (hc1 : ¬cond1_1 i) (x0 : Vec F S1000x256 .f32) (x1 : Vec F S1x256 .f32) (f) : arg7.view.read (Elt F) (arg7.view.writes (Elt F) f (kernelRun1_A c i arg1 harg1 arg2 harg2 arg3 harg3 arg4 harg4 arg5 harg5 arg6 harg6 arg7 harg7 hc0 hc1 x0 x1).2.2.1) = k1_pay5 x0 x1 k1_pay2 :=
  (View.read_writes_eq_canon _ f _ (View.cover_of_tiledL _ S1x256.size (by sl_kernel_rfl))).trans (by
    unfold kernelRun1_A; dsimp only; try sl_unfold_words
    rw [View.canon_cons_unit_zero (S := S1x256) hz1, View.readCov_unit_zero (S := S1x256) _ hz1]
    simp only [View.readAt_eq_ld, harg1.read_unread, harg2.read_unread, View.ld_unit_zero (S := S1000x256) hz1, View.ld_unit_zero (S := S1x256) hz1])

theorem left1_B_2 (f) : arg3.view.read (Elt F) (arg3.view.writes (Elt F) f (kernelRun1_B c i arg1 harg1 arg2 harg2 arg3 harg3 arg4 harg4 arg5 harg5 arg6 harg6 arg7 harg7 hc0 hc1 x0 x1 xs0 xs1).1) = k1_pay3 x0 x1 :=
  (View.read_writes_eq_canon _ f _ (View.cover_of_tiledL _ S1000x256.size (by sl_kernel_rfl))).trans (by
    unfold kernelRun1_B; dsimp only; try sl_unfold_words
    rw [View.canon_unit_zero hz1]
    simp only [View.readAt_eq_ld, harg1.read_unread, harg2.read_unread, View.ld_unit_zero (S := S1000x256) hz1, View.ld_unit_zero (S := S1x256) hz1])

theorem left1_B_s0 (f) : arg6.view.read (Elt F) (arg6.view.writes (Elt F) f (kernelRun1_B c i arg1 harg1 arg2 harg2 arg3 harg3 arg4 harg4 arg5 harg5 arg6 harg6 arg7 harg7 hc0 hc1 x0 x1 xs0 xs1).2.1) = k1_pay4 x0 x1 xs0 :=
  (View.read_writes_eq_canon _ f _ (View.cover_of_tiledL _ S1x256.size (by sl_kernel_rfl))).trans (by
    unfold kernelRun1_B; dsimp only; try sl_unfold_words
    rw [View.canon_unit_zero hz1]
    simp only [View.readAt_eq_ld, harg1.read_unread, harg2.read_unread, harg6.read_unread, View.ld_unit_zero (S := S1000x256) hz1, View.ld_unit_zero (S := S1x256) hz1])

theorem left1_B_s1 (f) : arg7.view.read (Elt F) (arg7.view.writes (Elt F) f (kernelRun1_B c i arg1 harg1 arg2 harg2 arg3 harg3 arg4 harg4 arg5 harg5 arg6 harg6 arg7 harg7 hc0 hc1 x0 x1 xs0 xs1).2.2.1) = k1_pay5 x0 x1 xs1 :=
  (View.read_writes_eq_canon _ f _ (View.cover_of_tiledL _ S1x256.size (by sl_kernel_rfl))).trans (by
    unfold kernelRun1_B; dsimp only; try sl_unfold_words
    rw [View.canon_unit_zero hz1]
    simp only [View.readAt_eq_ld, harg1.read_unread, harg2.read_unread, harg7.read_unread, View.ld_unit_zero (S := S1000x256) hz1, View.ld_unit_zero (S := S1x256) hz1])

theorem left1_C_2 (hc1 : cond1_1 i) (x0 : Vec F S1000x256 .f32) (x1 : Vec F S1x256 .f32) (xs0 : Vec F S1x256 .f32) (xs1 : Vec F S1x256 .f32) (f) : arg3.view.read (Elt F) (arg3.view.writes (Elt F) f (kernelRun1_C c i arg1 harg1 arg2 harg2 arg3 harg3 arg4 harg4 arg5 harg5 arg6 harg6 arg7 harg7 hc0 hc1 x0 x1 xs0 xs1).1) = k1_pay3 x0 x1 :=
  (View.read_writes_eq_canon _ f _ (View.cover_of_tiledL _ S1000x256.size (by sl_kernel_rfl))).trans (by
    unfold kernelRun1_C; dsimp only; try sl_unfold_words
    rw [View.canon_unit_zero hz1]
    simp only [View.readAt_eq_ld, harg1.read_unread, harg2.read_unread, View.ld_unit_zero (S := S1000x256) hz1, View.ld_unit_zero (S := S1x256) hz1])

theorem left1_C_s0 (hc1 : cond1_1 i) (x0 : Vec F S1000x256 .f32) (x1 : Vec F S1x256 .f32) (xs0 : Vec F S1x256 .f32) (xs1 : Vec F S1x256 .f32) (f) : arg6.view.read (Elt F) (arg6.view.writes (Elt F) f (kernelRun1_C c i arg1 harg1 arg2 harg2 arg3 harg3 arg4 harg4 arg5 harg5 arg6 harg6 arg7 harg7 hc0 hc1 x0 x1 xs0 xs1).2.2.2.1) = k1_pay4 x0 x1 xs0 :=
  (View.read_writes_eq_canon _ f _ (View.cover_of_tiledL _ S1x256.size (by sl_kernel_rfl))).trans (by
    unfold kernelRun1_C; dsimp only; try sl_unfold_words
    rw [View.canon_unit_zero hz1]
    simp only [View.readAt_eq_ld, harg1.read_unread, harg2.read_unread, harg6.read_unread, View.ld_unit_zero (S := S1000x256) hz1, View.ld_unit_zero (S := S1x256) hz1])

theorem left1_C_s1 (hc1 : cond1_1 i) (x0 : Vec F S1000x256 .f32) (x1 : Vec F S1x256 .f32) (xs0 : Vec F S1x256 .f32) (xs1 : Vec F S1x256 .f32) (f) : arg7.view.read (Elt F) (arg7.view.writes (Elt F) f (kernelRun1_C c i arg1 harg1 arg2 harg2 arg3 harg3 arg4 harg4 arg5 harg5 arg6 harg6 arg7 harg7 hc0 hc1 x0 x1 xs0 xs1).2.2.2.2.1) = k1_pay5 x0 x1 xs1 :=
  (View.read_writes_eq_canon _ f _ (View.cover_of_tiledL _ S1x256.size (by sl_kernel_rfl))).trans (by
    unfold kernelRun1_C; dsimp only; try sl_unfold_words
    rw [View.canon_unit_zero hz1]
    simp only [View.readAt_eq_ld, harg1.read_unread, harg2.read_unread, harg7.read_unread, View.ld_unit_zero (S := S1000x256) hz1, View.ld_unit_zero (S := S1x256) hz1])

theorem left1_C_3 (hc1 : cond1_1 i) (x0 : Vec F S1000x256 .f32) (x1 : Vec F S1x256 .f32) (xs0 : Vec F S1x256 .f32) (xs1 : Vec F S1x256 .f32) (f) : arg4.view.read (Elt F) (arg4.view.writes (Elt F) f (kernelRun1_C c i arg1 harg1 arg2 harg2 arg3 harg3 arg4 harg4 arg5 harg5 arg6 harg6 arg7 harg7 hc0 hc1 x0 x1 xs0 xs1).2.1) = k1_pay6 (k1_pay4 x0 x1 xs0) :=
  (View.read_writes_eq_canon _ f _ (View.cover_of_tiledL _ S1x256.size (by sl_kernel_rfl))).trans (by
    unfold kernelRun1_C; dsimp only; try sl_unfold_words
    rw [View.canon_unit_zero hz1, View.readCov_unit_zero (S := S1x256) _ hz1]
    simp only [View.readAt_eq_ld, harg1.read_unread, harg2.read_unread, harg6.read_unread, View.ld_unit_zero (S := S1000x256) hz1, View.ld_unit_zero (S := S1x256) hz1])

theorem left1_C_4 (hc1 : cond1_1 i) (x0 : Vec F S1000x256 .f32) (x1 : Vec F S1x256 .f32) (xs0 : Vec F S1x256 .f32) (xs1 : Vec F S1x256 .f32) (f) : arg5.view.read (Elt F) (arg5.view.writes (Elt F) f (kernelRun1_C c i arg1 harg1 arg2 harg2 arg3 harg3 arg4 harg4 arg5 harg5 arg6 harg6 arg7 harg7 hc0 hc1 x0 x1 xs0 xs1).2.2.1) = k1_pay7 (k1_pay4 x0 x1 xs0) (k1_pay5 x0 x1 xs1) :=
  (View.read_writes_eq_canon _ f _ (View.cover_of_tiledL _ S1x256.size (by sl_kernel_rfl))).trans (by
    unfold kernelRun1_C; dsimp only; try sl_unfold_words
    rw [View.canon_unit_zero hz1, View.readCov_unit_zero (S := S1x256) _ hz1, View.readCov_unit_zero (S := S1x256) _ hz1]
    simp only [View.readAt_eq_ld, harg1.read_unread, harg2.read_unread, harg6.read_unread, harg7.read_unread, View.ld_unit_zero (S := S1000x256) hz1, View.ld_unit_zero (S := S1x256) hz1])

def bodyPre1 : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi1_castSucc, Phi1_succ', Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 50 := lt_of_lt_of_eq t.isLt (show cfg1.N = 50 from N_1)
  by_cases h0 : t.val % 50 = 0
  · have h1 : ¬t.val % 50 = 49 := by omega
    have hz : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1), Dat.leavesExact_idle (dat1 V c) 4 t (idleAt1_4 t hc1) (noFlush1_4 t hc1)]
    rw [acc1_0_succ V c t, acc1_1_succ V c t]
    rw [Phi1_zero V c _ hz, scopedRest1_owns]
    rw [show acc1_0 V c t.val = k1_pay1 from by rw [hz]; rfl, show acc1_1 V c t.val = k1_pay2 from by rw [hz]; rfl]
    iintro ⟨⟨Hg, ⟨HS0, HS1⟩, Hrest⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ _ _ hc0 hc1 (xblk1 V c t) (bblk1 V c t)).2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [Hg HS0 HS1 Hrest]
    · isplitl [Hg]; · iexact Hg
      isplitr [Hrest]
      · isplitl [HS0]
        · unfold owns; iexists _; isplitr
          swap; · iexact HS0
          ipureintro; exact left1_A_s0 _ _ _ _ _ _ _ _ _ _ _ _ _ _ _ _ _ _ _ _ _
        · unfold owns; iexists _; isplitr
          swap; · iexact HS1
          ipureintro; exact left1_A_s1 _ _ _ _ _ _ _ _ _ _ _ _ _ _ _ _ _ _ _ _ _
      · iexact Hrest
    isplitl [Ho]; · iexact Ho
    isplitl [H0]; · iexact H0
    isplitl [H1]; · iexact H1
    isplitl [H2]
    · unfold owns; iexists _; isplitr
      swap; · iexact H2
      ipureintro; exact left1_A_2 _ _ _ _ _ _ _ _ _ _ _ _ _ _ _ _ _ _ _ _ _
    isplitl [H3]; · iexists _; iexact H3
    iexists _; iexact H4
  · by_cases h1 : t.val % 50 = 49
    ·
      have hz : t.val ≠ 0 := by omega
      have hc0 : ¬cond1_0 (grid1.coords t) := fun h => h0 ((hcond1_0 t).mp h)
      have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      rw [show (dat1 V c).leavesExact 4 t = owns (c : Thread nD τ) (st1_4 t) fullShare ((dat1 V c).after 4 t) from by
        unfold Dat.leavesExact; rw [liveAt1_4 t hc1], after1_4]
      rw [acc1_0_succ V c t, acc1_1_succ V c t]
      rw [Phi1_pos V c _ hz]
      iintro ⟨⟨Hg, ⟨HS0, HS1⟩, Hrest⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ hc0 hc1 (xblk1 V c t) (bblk1 V c t) (acc1_0 V c t.val) (acc1_1 V c t.val)).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [Hg HS0 HS1 Hrest]
      · isplitl [Hg]; · iexact Hg
        isplitr [Hrest]
        · isplitl [HS0]
          · unfold owns; iexists _; isplitr
            swap; · iexact HS0
            ipureintro; exact left1_C_s0 _ _ _ _ _ _ _ _ _ _ _ _ _ _ _ _ _ _ _ _ _ _ _
          · unfold owns; iexists _; isplitr
            swap; · iexact HS1
            ipureintro; exact left1_C_s1 _ _ _ _ _ _ _ _ _ _ _ _ _ _ _ _ _ _ _ _ _ _ _
        · iexact Hrest
      isplitl [Ho]; · iexact Ho
      isplitl [H0]; · iexact H0
      isplitl [H1]; · iexact H1
      isplitl [H2]
      · unfold owns; iexists _; isplitr
        swap; · iexact H2
        ipureintro; exact left1_C_2 _ _ _ _ _ _ _ _ _ _ _ _ _ _ _ _ _ _ _ _ _ _ _
      isplitl [H3]
      · unfold owns; iexists _; isplitr
        swap; · iexact H3
        ipureintro; exact left1_C_3 _ _ _ _ _ _ _ _ _ _ _ _ _ _ _ _ _ _ _ _ _ _ _
      unfold owns; iexists _; isplitr
      swap; · iexact H4
      ipureintro; exact left1_C_4 _ _ _ _ _ _ _ _ _ _ _ _ _ _ _ _ _ _ _ _ _ _ _
    ·
      have hz : t.val ≠ 0 := by omega
      have hc0 : ¬cond1_0 (grid1.coords t) := fun h => h0 ((hcond1_0 t).mp h)
      have hc1 : ¬cond1_1 (grid1.coords t) := fun h => h1 ((hcond1_1 t).mp h)
      rw [Dat.leavesExact_idle (dat1 V c) 3 t (idleAt1_3 t hc1) (noFlush1_3 t hc1), Dat.leavesExact_idle (dat1 V c) 4 t (idleAt1_4 t hc1) (noFlush1_4 t hc1)]
      rw [acc1_0_succ V c t, acc1_1_succ V c t]
      rw [Phi1_pos V c _ hz]
      iintro ⟨⟨Hg, ⟨HS0, HS1⟩, Hrest⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ hc0 hc1 (xblk1 V c t) (bblk1 V c t) (acc1_0 V c t.val) (acc1_1 V c t.val)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [Hg HS0 HS1 Hrest]
      · isplitl [Hg]; · iexact Hg
        isplitr [Hrest]
        · isplitl [HS0]
          · unfold owns; iexists _; isplitr
            swap; · iexact HS0
            ipureintro; exact left1_B_s0 _ _ _ _ _ _ _ _ _ _ _ _ _ _ _ _ _ _ _ _ _ _ _
          · unfold owns; iexists _; isplitr
            swap; · iexact HS1
            ipureintro; exact left1_B_s1 _ _ _ _ _ _ _ _ _ _ _ _ _ _ _ _ _ _ _ _ _ _ _
        · iexact Hrest
      isplitl [Ho]; · iexact Ho
      isplitl [H0]; · iexact H0
      isplitl [H1]; · iexact H1
      isplitl [H2]
      · unfold owns; iexists _; isplitr
        swap; · iexact H2
        ipureintro; exact left1_B_2 _ _ _ _ _ _ _ _ _ _ _ _ _ _ _ _ _ _ _ _ _ _ _
      isplitl [H3]; · iexists _; iexact H3
      iexists _; iexact H4

theorem body_obligation1 : BodyObligation (dat1 (F := F) V c) (defs₀ (F := F)) Variants.none () Set.univ := fun t => by
  rw [bigSep_W1, bigSep_W1]
  exact sound_body1 V c t

theorem hin1 : (iprop((∃ r, prngReg c r) ∗ Pipeline.scopedRest spec1 c) : sProp 𝕄) ⊢ (dat1 V c).Φ 0 := by
  rw [show (dat1 V c).Φ 0 = Phi1 V c 0 from rfl, Phi1_zero V c 0 rfl]

theorem hout1 : (dat1 V c).Φ (Fin.last cfg1.N) ⊢ (iprop((∃ r, prngReg c r) ∗ Pipeline.scopedRest spec1 c) : sProp 𝕄) := by
  rw [show (dat1 V c).Φ (Fin.last cfg1.N) = Phi1 V c cfg1.N from rfl,
    Phi1_pos V c cfg1.N (by have : cfg1.N = 50 := N_1; omega), scopedRest1_owns]
  iintro ⟨Hg, ⟨HS0, HS1⟩, Hrest⟩
  isplitl [Hg]; · iexact Hg
  isplitr [Hrest]
  · isplitl [HS0]; · iexists _; iexact HS0
    iexists _; iexact HS1
  iexact Hrest

end Cert.Kernel.Hand

end
-- ==== Proof.KB.Reg3Run.lean ====
import proofs.«418912_j86466281603780_3_alg».proof.Proof.Gen.Kernel.Launch
import proofs.«418912_j86466281603780_3_alg».proof.Proof.Gen.Kernel.Skeleton
import proofs.«418912_j86466281603780_3_alg».proof.Proof.Gen.Kernel.Points
import proofs.«418912_j86466281603780_3_alg».proof.Proof.KB.Reg3Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords) (arg1 : Memref sig .tc .vmem S1000x256 .f32) (harg1 : arg1.IsWhole) (arg2 : Memref sig .tc .vmem S1x256 .f32) (harg2 : arg2.IsWhole) (arg3 : Memref sig .tc .vmem S1000x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)

set_option maxHeartbeats 4000000 in
noncomputable def kernelRun3_A (hc0 : cond3_0 i) (hc1 : ¬cond3_1 i)
    (x0 : Vec F S1000x256 .f32) (x1 : Vec F S1x256 .f32) :
    Σ' (L2 : List (View.Piece (Elt F) S1000x256 .f32)) (LS0 : List (View.Piece (Elt F) S1x256 .f32)), { LS1 : List (View.Piece (Elt F) S1x256 .f32) //
      ∀ (xi3 : Vec F S1x256 .f32) (xi4 : Vec F S1x256 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7) K } := by
  refine ⟨?_, ?_, ?_, fun xi3 xi4 E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
noncomputable def kernelRun3_B (hc0 : ¬cond3_0 i) (hc1 : ¬cond3_1 i)
    (x0 : Vec F S1000x256 .f32) (x1 : Vec F S1x256 .f32) (xs0 : Vec F S1x256 .f32) (xs1 : Vec F S1x256 .f32) :
    Σ' (L2 : List (View.Piece (Elt F) S1000x256 .f32)) (LS0 : List (View.Piece (Elt F) S1x256 .f32)), { LS1 : List (View.Piece (Elt F) S1x256 .f32) //
      ∀ (xi3 : Vec F S1x256 .f32) (xi4 : Vec F S1x256 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7) K } := by
  refine ⟨?_, ?_, ?_, fun xi3 xi4 E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
noncomputable def kernelRun3_C (hc0 : ¬cond3_0 i) (hc1 : cond3_1 i)
    (x0 : Vec F S1000x256 .f32) (x1 : Vec F S1x256 .f32) (xs0 : Vec F S1x256 .f32) (xs1 : Vec F S1x256 .f32) :
    Σ' (L2 : List (View.Piece (Elt F) S1000x256 .f32)) (L3 : List (View.Piece (Elt F) S1x256 .f32)) (L4 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7) K } := by
  refine ⟨?_, ?_, ?_, ?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Hand

end
-- ==== Proof.KB.Reg3.lean ====
import proofs.«418912_j86466281603780_3_alg».proof.Proof.Gen.Kernel.Launch
import proofs.«418912_j86466281603780_3_alg».proof.Proof.Gen.Kernel.Skeleton
import proofs.«418912_j86466281603780_3_alg».proof.Proof.Gen.Kernel.Points
import proofs.«418912_j86466281603780_3_alg».proof.Proof.KB.Reg3Dat
import proofs.«418912_j86466281603780_3_alg».proof.Proof.KB.Reg3Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (i : grid3.Coords) (arg1 : Memref sig .tc .vmem S1000x256 .f32) (harg1 : arg1.IsWhole) (arg2 : Memref sig .tc .vmem S1x256 .f32) (harg2 : arg2.IsWhole) (arg3 : Memref sig .tc .vmem S1000x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond3_0 i) (hc1 : ¬cond3_1 i) (x0 : Vec F S1000x256 .f32) (x1 : Vec F S1x256 .f32) (xs0 : Vec F S1x256 .f32) (xs1 : Vec F S1x256 .f32) (y : S1x256.Idx) (t : Fin cfg3.N)

theorem hz3 : (![0, 0] : Fin 2 → Nat) = fun _ => 0 := funext fun a => by fin_cases a <;> rfl

theorem left3_A_2 (hc0 : cond3_0 i) (hc1 : ¬cond3_1 i) (x0 : Vec F S1000x256 .f32) (x1 : Vec F S1x256 .f32) (f) : arg3.view.read (Elt F) (arg3.view.writes (Elt F) f (kernelRun3_A c i arg1 harg1 arg2 harg2 arg3 harg3 arg4 harg4 arg5 harg5 arg6 harg6 arg7 harg7 hc0 hc1 x0 x1).1) = k3_pay3 x0 x1 :=
  (View.read_writes_eq_canon _ f _ (View.cover_of_tiledL _ S1000x256.size (by sl_kernel_rfl))).trans (by
    unfold kernelRun3_A; dsimp only; try sl_unfold_words
    rw [View.canon_unit_zero hz3]
    simp only [View.readAt_eq_ld, harg1.read_unread, harg2.read_unread, View.ld_unit_zero (S := S1000x256) hz3, View.ld_unit_zero (S := S1x256) hz3])

theorem left3_A_s0 (hc0 : cond3_0 i) (hc1 : ¬cond3_1 i) (x0 : Vec F S1000x256 .f32) (x1 : Vec F S1x256 .f32) (f) : arg6.view.read (Elt F) (arg6.view.writes (Elt F) f (kernelRun3_A c i arg1 harg1 arg2 harg2 arg3 harg3 arg4 harg4 arg5 harg5 arg6 harg6 arg7 harg7 hc0 hc1 x0 x1).2.1) = k3_pay4 x0 x1 k3_pay1 :=
  (View.read_writes_eq_canon _ f _ (View.cover_of_tiledL _ S1x256.size (by sl_kernel_rfl))).trans (by
    unfold kernelRun3_A; dsimp only; try sl_unfold_words
    rw [View.canon_cons_unit_zero (S := S1x256) hz3, View.readCov_unit_zero (S := S1x256) _ hz3]
    simp only [View.readAt_eq_ld, harg1.read_unread, harg2.read_unread, View.ld_unit_zero (S := S1000x256) hz3, View.ld_unit_zero (S := S1x256) hz3])

theorem left3_A_s1 (hc0 : cond3_0 i) (hc1 : ¬cond3_1 i) (x0 : Vec F S1000x256 .f32) (x1 : Vec F S1x256 .f32) (f) : arg7.view.read (Elt F) (arg7.view.writes (Elt F) f (kernelRun3_A c i arg1 harg1 arg2 harg2 arg3 harg3 arg4 harg4 arg5 harg5 arg6 harg6 arg7 harg7 hc0 hc1 x0 x1).2.2.1) = k3_pay5 x0 x1 k3_pay2 :=
  (View.read_writes_eq_canon _ f _ (View.cover_of_tiledL _ S1x256.size (by sl_kernel_rfl))).trans (by
    unfold kernelRun3_A; dsimp only; try sl_unfold_words
    rw [View.canon_cons_unit_zero (S := S1x256) hz3, View.readCov_unit_zero (S := S1x256) _ hz3]
    simp only [View.readAt_eq_ld, harg1.read_unread, harg2.read_unread, View.ld_unit_zero (S := S1000x256) hz3, View.ld_unit_zero (S := S1x256) hz3])

theorem left3_B_2 (f) : arg3.view.read (Elt F) (arg3.view.writes (Elt F) f (kernelRun3_B c i arg1 harg1 arg2 harg2 arg3 harg3 arg4 harg4 arg5 harg5 arg6 harg6 arg7 harg7 hc0 hc1 x0 x1 xs0 xs1).1) = k3_pay3 x0 x1 :=
  (View.read_writes_eq_canon _ f _ (View.cover_of_tiledL _ S1000x256.size (by sl_kernel_rfl))).trans (by
    unfold kernelRun3_B; dsimp only; try sl_unfold_words
    rw [View.canon_unit_zero hz3]
    simp only [View.readAt_eq_ld, harg1.read_unread, harg2.read_unread, View.ld_unit_zero (S := S1000x256) hz3, View.ld_unit_zero (S := S1x256) hz3])

theorem left3_B_s0 (f) : arg6.view.read (Elt F) (arg6.view.writes (Elt F) f (kernelRun3_B c i arg1 harg1 arg2 harg2 arg3 harg3 arg4 harg4 arg5 harg5 arg6 harg6 arg7 harg7 hc0 hc1 x0 x1 xs0 xs1).2.1) = k3_pay4 x0 x1 xs0 :=
  (View.read_writes_eq_canon _ f _ (View.cover_of_tiledL _ S1x256.size (by sl_kernel_rfl))).trans (by
    unfold kernelRun3_B; dsimp only; try sl_unfold_words
    rw [View.canon_unit_zero hz3]
    simp only [View.readAt_eq_ld, harg1.read_unread, harg2.read_unread, harg6.read_unread, View.ld_unit_zero (S := S1000x256) hz3, View.ld_unit_zero (S := S1x256) hz3])

theorem left3_B_s1 (f) : arg7.view.read (Elt F) (arg7.view.writes (Elt F) f (kernelRun3_B c i arg1 harg1 arg2 harg2 arg3 harg3 arg4 harg4 arg5 harg5 arg6 harg6 arg7 harg7 hc0 hc1 x0 x1 xs0 xs1).2.2.1) = k3_pay5 x0 x1 xs1 :=
  (View.read_writes_eq_canon _ f _ (View.cover_of_tiledL _ S1x256.size (by sl_kernel_rfl))).trans (by
    unfold kernelRun3_B; dsimp only; try sl_unfold_words
    rw [View.canon_unit_zero hz3]
    simp only [View.readAt_eq_ld, harg1.read_unread, harg2.read_unread, harg7.read_unread, View.ld_unit_zero (S := S1000x256) hz3, View.ld_unit_zero (S := S1x256) hz3])

theorem left3_C_2 (hc1 : cond3_1 i) (x0 : Vec F S1000x256 .f32) (x1 : Vec F S1x256 .f32) (xs0 : Vec F S1x256 .f32) (xs1 : Vec F S1x256 .f32) (f) : arg3.view.read (Elt F) (arg3.view.writes (Elt F) f (kernelRun3_C c i arg1 harg1 arg2 harg2 arg3 harg3 arg4 harg4 arg5 harg5 arg6 harg6 arg7 harg7 hc0 hc1 x0 x1 xs0 xs1).1) = k3_pay3 x0 x1 :=
  (View.read_writes_eq_canon _ f _ (View.cover_of_tiledL _ S1000x256.size (by sl_kernel_rfl))).trans (by
    unfold kernelRun3_C; dsimp only; try sl_unfold_words
    rw [View.canon_unit_zero hz3]
    simp only [View.readAt_eq_ld, harg1.read_unread, harg2.read_unread, View.ld_unit_zero (S := S1000x256) hz3, View.ld_unit_zero (S := S1x256) hz3])

theorem left3_C_s0 (hc1 : cond3_1 i) (x0 : Vec F S1000x256 .f32) (x1 : Vec F S1x256 .f32) (xs0 : Vec F S1x256 .f32) (xs1 : Vec F S1x256 .f32) (f) : arg6.view.read (Elt F) (arg6.view.writes (Elt F) f (kernelRun3_C c i arg1 harg1 arg2 harg2 arg3 harg3 arg4 harg4 arg5 harg5 arg6 harg6 arg7 harg7 hc0 hc1 x0 x1 xs0 xs1).2.2.2.1) = k3_pay4 x0 x1 xs0 :=
  (View.read_writes_eq_canon _ f _ (View.cover_of_tiledL _ S1x256.size (by sl_kernel_rfl))).trans (by
    unfold kernelRun3_C; dsimp only; try sl_unfold_words
    rw [View.canon_unit_zero hz3]
    simp only [View.readAt_eq_ld, harg1.read_unread, harg2.read_unread, harg6.read_unread, View.ld_unit_zero (S := S1000x256) hz3, View.ld_unit_zero (S := S1x256) hz3])

theorem left3_C_s1 (hc1 : cond3_1 i) (x0 : Vec F S1000x256 .f32) (x1 : Vec F S1x256 .f32) (xs0 : Vec F S1x256 .f32) (xs1 : Vec F S1x256 .f32) (f) : arg7.view.read (Elt F) (arg7.view.writes (Elt F) f (kernelRun3_C c i arg1 harg1 arg2 harg2 arg3 harg3 arg4 harg4 arg5 harg5 arg6 harg6 arg7 harg7 hc0 hc1 x0 x1 xs0 xs1).2.2.2.2.1) = k3_pay5 x0 x1 xs1 :=
  (View.read_writes_eq_canon _ f _ (View.cover_of_tiledL _ S1x256.size (by sl_kernel_rfl))).trans (by
    unfold kernelRun3_C; dsimp only; try sl_unfold_words
    rw [View.canon_unit_zero hz3]
    simp only [View.readAt_eq_ld, harg1.read_unread, harg2.read_unread, harg7.read_unread, View.ld_unit_zero (S := S1000x256) hz3, View.ld_unit_zero (S := S1x256) hz3])

theorem left3_C_3 (hc1 : cond3_1 i) (x0 : Vec F S1000x256 .f32) (x1 : Vec F S1x256 .f32) (xs0 : Vec F S1x256 .f32) (xs1 : Vec F S1x256 .f32) (f) : arg4.view.read (Elt F) (arg4.view.writes (Elt F) f (kernelRun3_C c i arg1 harg1 arg2 harg2 arg3 harg3 arg4 harg4 arg5 harg5 arg6 harg6 arg7 harg7 hc0 hc1 x0 x1 xs0 xs1).2.1) = k3_pay6 (k3_pay4 x0 x1 xs0) :=
  (View.read_writes_eq_canon _ f _ (View.cover_of_tiledL _ S1x256.size (by sl_kernel_rfl))).trans (by
    unfold kernelRun3_C; dsimp only; try sl_unfold_words
    rw [View.canon_unit_zero hz3, View.readCov_unit_zero (S := S1x256) _ hz3]
    simp only [View.readAt_eq_ld, harg1.read_unread, harg2.read_unread, harg6.read_unread, View.ld_unit_zero (S := S1000x256) hz3, View.ld_unit_zero (S := S1x256) hz3])

theorem left3_C_4 (hc1 : cond3_1 i) (x0 : Vec F S1000x256 .f32) (x1 : Vec F S1x256 .f32) (xs0 : Vec F S1x256 .f32) (xs1 : Vec F S1x256 .f32) (f) : arg5.view.read (Elt F) (arg5.view.writes (Elt F) f (kernelRun3_C c i arg1 harg1 arg2 harg2 arg3 harg3 arg4 harg4 arg5 harg5 arg6 harg6 arg7 harg7 hc0 hc1 x0 x1 xs0 xs1).2.2.1) = k3_pay7 (k3_pay4 x0 x1 xs0) (k3_pay5 x0 x1 xs1) :=
  (View.read_writes_eq_canon _ f _ (View.cover_of_tiledL _ S1x256.size (by sl_kernel_rfl))).trans (by
    unfold kernelRun3_C; dsimp only; try sl_unfold_words
    rw [View.canon_unit_zero hz3, View.readCov_unit_zero (S := S1x256) _ hz3, View.readCov_unit_zero (S := S1x256) _ hz3]
    simp only [View.readAt_eq_ld, harg1.read_unread, harg2.read_unread, harg6.read_unread, harg7.read_unread, View.ld_unit_zero (S := S1000x256) hz3, View.ld_unit_zero (S := S1x256) hz3])

def bodyPre3 : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
theorem sound_body3 :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [Phi3_castSucc, Phi3_succ', Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  have hN : t.val < 50 := lt_of_lt_of_eq t.isLt (show cfg3.N = 50 from N_3)
  by_cases h0 : t.val % 50 = 0
  · have h1 : ¬t.val % 50 = 49 := by omega
    have hz : t.val = 0 := by omega
    have hc0 : cond3_0 (grid3.coords t) := (hcond3_0 t).mpr h0
    have hc1 : ¬cond3_1 (grid3.coords t) := fun h => by have := (hcond3_1 t).mp h; omega
    rw [Dat.leavesExact_idle (dat3 V c) 3 t (idleAt3_3 t hc1) (noFlush3_3 t hc1), Dat.leavesExact_idle (dat3 V c) 4 t (idleAt3_4 t hc1) (noFlush3_4 t hc1)]
    rw [acc3_0_succ V c t, acc3_1_succ V c t]
    rw [Phi3_zero V c _ hz, scopedRest3_owns]
    rw [show acc3_0 V c t.val = k3_pay1 from by rw [hz]; rfl, show acc3_1 V c t.val = k3_pay2 from by rw [hz]; rfl]
    iintro ⟨⟨Hg, ⟨HS0, HS1⟩, Hrest⟩, Ho, ⟨%d0, H0⟩, ⟨%d1, H1⟩, ⟨%d2, H2⟩, ⟨%d3, H3⟩, ⟨%d4, H4⟩⟩
    iapply ((kernelRun3_A c (grid3.coords t) _ _ _ _ _ _ _ _ _ _ _ _ _ _ hc0 hc1 (xblk3 V c t) (bblk3 V c t)).2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [Hg HS0 HS1 Hrest]
    · isplitl [Hg]; · iexact Hg
      isplitr [Hrest]
      · isplitl [HS0]
        · unfold owns; iexists _; isplitr
          swap; · iexact HS0
          ipureintro; exact left3_A_s0 _ _ _ _ _ _ _ _ _ _ _ _ _ _ _ _ _ _ _ _ _
        · unfold owns; iexists _; isplitr
          swap; · iexact HS1
          ipureintro; exact left3_A_s1 _ _ _ _ _ _ _ _ _ _ _ _ _ _ _ _ _ _ _ _ _
      · iexact Hrest
    isplitl [Ho]; · iexact Ho
    isplitl [H0]; · iexact H0
    isplitl [H1]; · iexact H1
    isplitl [H2]
    · unfold owns; iexists _; isplitr
      swap; · iexact H2
      ipureintro; exact left3_A_2 _ _ _ _ _ _ _ _ _ _ _ _ _ _ _ _ _ _ _ _ _
    isplitl [H3]; · iexists _; iexact H3
    iexists _; iexact H4
  · by_cases h1 : t.val % 50 = 49
    ·
      have hz : t.val ≠ 0 := by omega
      have hc0 : ¬cond3_0 (grid3.coords t) := fun h => h0 ((hcond3_0 t).mp h)
      have hc1 : cond3_1 (grid3.coords t) := (hcond3_1 t).mpr h1
      rw [show (dat3 V c).leavesExact 3 t = owns (c : Thread nD τ) (st3_3 t) fullShare ((dat3 V c).after 3 t) from by
        unfold Dat.leavesExact; rw [liveAt3_3 t hc1], after3_3]
      rw [show (dat3 V c).leavesExact 4 t = owns (c : Thread nD τ) (st3_4 t) fullShare ((dat3 V c).after 4 t) from by
        unfold Dat.leavesExact; rw [liveAt3_4 t hc1], after3_4]
      rw [acc3_0_succ V c t, acc3_1_succ V c t]
      rw [Phi3_pos V c _ hz]
      iintro ⟨⟨Hg, ⟨HS0, HS1⟩, Hrest⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ _ _ hc0 hc1 (xblk3 V c t) (bblk3 V c t) (acc3_0 V c t.val) (acc3_1 V c t.val)).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [Hg HS0 HS1 Hrest]
      · isplitl [Hg]; · iexact Hg
        isplitr [Hrest]
        · isplitl [HS0]
          · unfold owns; iexists _; isplitr
            swap; · iexact HS0
            ipureintro; exact left3_C_s0 _ _ _ _ _ _ _ _ _ _ _ _ _ _ _ _ _ _ _ _ _ _ _
          · unfold owns; iexists _; isplitr
            swap; · iexact HS1
            ipureintro; exact left3_C_s1 _ _ _ _ _ _ _ _ _ _ _ _ _ _ _ _ _ _ _ _ _ _ _
        · iexact Hrest
      isplitl [Ho]; · iexact Ho
      isplitl [H0]; · iexact H0
      isplitl [H1]; · iexact H1
      isplitl [H2]
      · unfold owns; iexists _; isplitr
        swap; · iexact H2
        ipureintro; exact left3_C_2 _ _ _ _ _ _ _ _ _ _ _ _ _ _ _ _ _ _ _ _ _ _ _
      isplitl [H3]
      · unfold owns; iexists _; isplitr
        swap; · iexact H3
        ipureintro; exact left3_C_3 _ _ _ _ _ _ _ _ _ _ _ _ _ _ _ _ _ _ _ _ _ _ _
      unfold owns; iexists _; isplitr
      swap; · iexact H4
      ipureintro; exact left3_C_4 _ _ _ _ _ _ _ _ _ _ _ _ _ _ _ _ _ _ _ _ _ _ _
    ·
      have hz : t.val ≠ 0 := by omega
      have hc0 : ¬cond3_0 (grid3.coords t) := fun h => h0 ((hcond3_0 t).mp h)
      have hc1 : ¬cond3_1 (grid3.coords t) := fun h => h1 ((hcond3_1 t).mp h)
      rw [Dat.leavesExact_idle (dat3 V c) 3 t (idleAt3_3 t hc1) (noFlush3_3 t hc1), Dat.leavesExact_idle (dat3 V c) 4 t (idleAt3_4 t hc1) (noFlush3_4 t hc1)]
      rw [acc3_0_succ V c t, acc3_1_succ V c t]
      rw [Phi3_pos V c _ hz]
      iintro ⟨⟨Hg, ⟨HS0, HS1⟩, Hrest⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ _ _ hc0 hc1 (xblk3 V c t) (bblk3 V c t) (acc3_0 V c t.val) (acc3_1 V c t.val)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [Hg HS0 HS1 Hrest]
      · isplitl [Hg]; · iexact Hg
        isplitr [Hrest]
        · isplitl [HS0]
          · unfold owns; iexists _; isplitr
            swap; · iexact HS0
            ipureintro; exact left3_B_s0 _ _ _ _ _ _ _ _ _ _ _ _ _ _ _ _ _ _ _ _ _ _ _
          · unfold owns; iexists _; isplitr
            swap; · iexact HS1
            ipureintro; exact left3_B_s1 _ _ _ _ _ _ _ _ _ _ _ _ _ _ _ _ _ _ _ _ _ _ _
        · iexact Hrest
      isplitl [Ho]; · iexact Ho
      isplitl [H0]; · iexact H0
      isplitl [H1]; · iexact H1
      isplitl [H2]
      · unfold owns; iexists _; isplitr
        swap; · iexact H2
        ipureintro; exact left3_B_2 _ _ _ _ _ _ _ _ _ _ _ _ _ _ _ _ _ _ _ _ _ _ _
      isplitl [H3]; · iexists _; iexact H3
      iexists _; iexact H4

theorem body_obligation3 : BodyObligation (dat3 (F := F) V c) (defs₀ (F := F)) Variants.none () Set.univ := fun t => by
  rw [bigSep_W3, bigSep_W3]
  exact sound_body3 V c t

theorem hin3 : (iprop((∃ r, prngReg c r) ∗ Pipeline.scopedRest spec3 c) : sProp 𝕄) ⊢ (dat3 V c).Φ 0 := by
  rw [show (dat3 V c).Φ 0 = Phi3 V c 0 from rfl, Phi3_zero V c 0 rfl]

theorem hout3 : (dat3 V c).Φ (Fin.last cfg3.N) ⊢ (iprop((∃ r, prngReg c r) ∗ Pipeline.scopedRest spec3 c) : sProp 𝕄) := by
  rw [show (dat3 V c).Φ (Fin.last cfg3.N) = Phi3 V c cfg3.N from rfl,
    Phi3_pos V c cfg3.N (by have : cfg3.N = 50 := N_3; omega), scopedRest3_owns]
  iintro ⟨Hg, ⟨HS0, HS1⟩, Hrest⟩
  isplitl [Hg]; · iexact Hg
  isplitr [Hrest]
  · isplitl [HS0]; · iexists _; iexact HS0
    iexists _; iexact HS1
  iexact Hrest

end Cert.Kernel.Hand

end
-- ==== Proof.KB.Run.lean ====
import proofs.«418912_j86466281603780_3_alg».proof.Proof.KB.Fold
import proofs.«418912_j86466281603780_3_alg».proof.Proof.KB.Reg1
import proofs.«418912_j86466281603780_3_alg».proof.Proof.KB.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

def pdats : (p : Fin 6) → (c : Dev nD) → Dat τ (Elt F) Unit ℕ (UR sig nD τ) ℕ (cfgs p) c
  | ⟨0, _⟩ => fun c => dat0 (atTc (U3 m)) c
  | ⟨1, _⟩ => fun c => dat1 (atTc (U5 m)) c
  | ⟨2, _⟩ => fun c => dat2 (atTc (U7 m)) c
  | ⟨3, _⟩ => fun c => dat3 (atTc (U9 m)) c
  | ⟨4, _⟩ => fun c => dat4 (atTc (U11 m)) c
  | ⟨5, _⟩ => fun c => dat5 (atTc (U13 m)) c

abbrev 𝒱₀ : Variants := Variants.none

abbrev Lh : GSem nD τ sig → Finset Unit := fun _ => ∅
abbrev lvh : GSem nD τ sig → Unit → ℕ := fun _ _ => 0

abbrev rider : sProp 𝕄 := iprop((∃ r, prngReg c r) ∗ ∃ W, owes (c : Thread nD τ) (0 : CellTallies nD τ sig Unit) W)

def Eh : Fin 7 → Dev nD → sProp 𝕄 := fun _ c => rider c

set_option backward.isDefEq.respectTransparency.types false in
/-- One kernel region as a segment between the buffer contents `Ua` before it and `Ub` after it; the six regions are its instances. -/
def regOf (p : Fin 6) (L : Pipeline.LaunchFacts (nD := nD) (τ := τ) cfgs p) (Ua Ub : Dev nD → Valuation τ sig (Elt F))
  (hbody : ∀ c, BodyObligation (pdats m p c) (defs₀ (F := F)) 𝒱₀ () Set.univ)
  (howed : ∀ c t, (pdats m p c).owed t = 0)
  (hq : ∀ c w, (pdats m p c).q w = fullShare)
  (hA : ∀ c w, (pdats m p c).A w = atTc Ua c (Pipeline.arrRef (cfgs p).spec w))
  (hK : IsEmpty (Fin (pcfgs (F := F) p).pre.K))
  (hrec : ∀ c, (pdats m p c).recorded 0 = Set.univ)
  (hin : ∀ c, (iprop((∃ r, prngReg c r) ∗ Pipeline.scopedRest (cfgs p).spec c) : sProp 𝕄) ⊢ (pdats m p c).Φ 0)
  (hout : ∀ c, (pdats m p c).Φ (Fin.last (cfgs p).N) ⊢ (iprop((∃ r, prngReg c r) ∗ Pipeline.scopedRest (cfgs p).spec c) : sProp 𝕄))
  (hF : ∀ c w, (pdats m p c).arrAt w (cfgs p).N = atTc Ub c (Pipeline.arrRef (cfgs p).spec w))
  (hrest : ∀ c b, b ∉ Finset.univ.image (Pipeline.arrRef (cfgs p).spec) → atTc Ub c b = atTc Ua c b) :
    Pipeline.RegionSeg (pcfgs (F := F)) Gen.adm (pdats m) () defs₀ 𝒱₀ Lh lvh p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Lh lvh p howed
  pre c := iprop(StableHlo.held (c : Thread nD τ) (Pipeline.ucRefs τ sig) (Ua c) ∗ rider c)
  post c := iprop(StableHlo.held (c : Thread nD τ) (Pipeline.ucRefs τ sig) (Ub c) ∗ rider c)
  X c := iprop(∃ r, prngReg c r)
  Y c := iprop(∃ r, prngReg c r)
  Z c := Pipeline.unscopedRest (Ix := Unit) (Name := ℕ) (U := UR sig nD τ) (Lvl := ℕ) (cfgs p).spec c (atTc Ua c)
  hentry c := by
    rw [Pipeline.ownSems0_none]
    have hsplit := Pipeline.arrays_of_unscopedBufs (p := p) (pcfgs (F := F)) Gen.adm (pdats m) L.win L.arr_whole c
      ((pdats m p c).share_full (hq c)) (atTc Ua c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c]; trivial)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      L.win L.arr_whole c (pdats m) ((pdats m p c).share_full (hq c))
      (atTc Ua c) (atTc Ub c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

theorem hF0 : ∀ w : Fin cfg0.W, (dat0 (atTc (U3 m)) c).arrAt w cfg0.N = atTc (U4 m) c (Pipeline.arrRef spec0 w)
  | ⟨0, _⟩ => ((arrAt0_in (atTc (U3 m)) c).1).trans (U4_of m c main_arg0 (by decide)).symm
  | ⟨1, _⟩ => ((arrAt0_in (atTc (U3 m)) c).2).trans (U4_of m c main_arg2 (by decide)).symm
  | ⟨2, _⟩ => (U4_v30 m c).symm

theorem hrest0 : ∀ b, b ∉ Finset.univ.image (Pipeline.arrRef spec0) → atTc (U4 m) c b = atTc (U3 m) c b :=
  fun b hb => U4_of m c b fun h => hb (Finset.mem_image.mpr ⟨2, Finset.mem_univ _, (List.mem_singleton.1 h).symm⟩)

set_option backward.isDefEq.respectTransparency.types false in
def reg0 : Pipeline.RegionSeg (pcfgs (F := F)) Gen.adm (pdats m) () defs₀ 𝒱₀ Lh lvh 0 :=
  regOf m 0 launch0 (U3 m) (U4 m) (fun c => body_obligation0 (atTc (U3 m)) c) (fun _ _ => rfl) (fun _ _ => rfl) (fun _ _ => rfl)
    ⟨fun k => k.elim0⟩ (fun _ => rfl) (fun c => hin0 (atTc (U3 m)) c) (fun c => hout0 (atTc (U3 m)) c) (hF0 m) (hrest0 m)

theorem hF1 : ∀ w : Fin cfg1.W, (dat1 (atTc (U5 m)) c).arrAt w cfg1.N = atTc (U6 m) c (Pipeline.arrRef spec1 w)
  | ⟨0, _⟩ => ((arrAt1_in (atTc (U5 m)) c).1).trans (U6_of m c main_v43 (by decide)).symm
  | ⟨1, _⟩ => ((arrAt1_in (atTc (U5 m)) c).2).trans (U6_of m c main_v44 (by decide)).symm
  | ⟨2, _⟩ => (U6_v45_0 m c).symm
  | ⟨3, _⟩ => (U6_v45_1 m c).symm
  | ⟨4, _⟩ => (U6_v45_2 m c).symm

theorem hrest1 : ∀ b, b ∉ Finset.univ.image (Pipeline.arrRef spec1) → atTc (U6 m) c b = atTc (U5 m) c b :=
  fun b hb => U6_of m c b fun h => hb (by
    simp only [List.mem_cons, List.mem_singleton, List.not_mem_nil, or_false] at h
    rcases h with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

set_option backward.isDefEq.respectTransparency.types false in
def reg1 : Pipeline.RegionSeg (pcfgs (F := F)) Gen.adm (pdats m) () defs₀ 𝒱₀ Lh lvh 1 :=
  regOf m 1 launch1 (U5 m) (U6 m) (fun c => body_obligation1 (atTc (U5 m)) c) (fun _ _ => rfl) (fun _ _ => rfl) (fun _ _ => rfl)
    ⟨fun k => k.elim0⟩ (fun _ => rfl) (fun c => hin1 (atTc (U5 m)) c) (fun c => hout1 (atTc (U5 m)) c) (hF1 m) (hrest1 m)

set_option maxHeartbeats 4000000 in
theorem hF2 : ∀ w : Fin cfg2.W, (dat2 (atTc (U7 m)) c).arrAt w cfg2.N = atTc (U8 m) c (Pipeline.arrRef spec2 w)
  | ⟨0, _⟩ => (arrAt2_in (atTc (U7 m)) c 0 rfl cfg2.N).trans (U8_of m c main_v45_0 (by decide)).symm
  | ⟨1, _⟩ => (arrAt2_in (atTc (U7 m)) c 1 rfl cfg2.N).trans (U8_of m c main_arg4 (by decide)).symm
  | ⟨2, _⟩ => (arrAt2_in (atTc (U7 m)) c 2 rfl cfg2.N).trans (U8_of m c main_v45_1 (by decide)).symm
  | ⟨3, _⟩ => (arrAt2_in (atTc (U7 m)) c 3 rfl cfg2.N).trans (U8_of m c main_v45_2 (by decide)).symm
  | ⟨4, _⟩ => (arrAt2_in (atTc (U7 m)) c 4 rfl cfg2.N).trans (U8_of m c main_v46 (by decide)).symm
  | ⟨5, _⟩ => (arrAt2_in (atTc (U7 m)) c 5 rfl cfg2.N).trans (U8_of m c main_v47 (by decide)).symm
  | ⟨6, _⟩ => (U8_v48 m c).symm

theorem hrest2 : ∀ b, b ∉ Finset.univ.image (Pipeline.arrRef spec2) → atTc (U8 m) c b = atTc (U7 m) c b :=
  fun b hb => U8_of m c b fun h => hb (Finset.mem_image.mpr ⟨6, Finset.mem_univ _, (List.mem_singleton.1 h).symm⟩)

set_option backward.isDefEq.respectTransparency.types false in
def reg2 : Pipeline.RegionSeg (pcfgs (F := F)) Gen.adm (pdats m) () defs₀ 𝒱₀ Lh lvh 2 :=
  regOf m 2 launch2 (U7 m) (U8 m) (fun c => body_obligation2 (atTc (U7 m)) c) (fun _ _ => rfl) (fun _ _ => rfl) (fun _ _ => rfl)
    ⟨fun k => k.elim0⟩ (fun _ => rfl) (fun c => hin2 (atTc (U7 m)) c) (fun c => hout2 (atTc (U7 m)) c) (hF2 m) (hrest2 m)

theorem hF3 : ∀ w : Fin cfg3.W, (dat3 (atTc (U9 m)) c).arrAt w cfg3.N = atTc (U10 m) c (Pipeline.arrRef spec3 w)
  | ⟨0, _⟩ => ((arrAt3_in (atTc (U9 m)) c).1).trans (U10_of m c main_v61 (by decide)).symm
  | ⟨1, _⟩ => ((arrAt3_in (atTc (U9 m)) c).2).trans (U10_of m c main_v62 (by decide)).symm
  | ⟨2, _⟩ => (U10_v63_0 m c).symm
  | ⟨3, _⟩ => (U10_v63_1 m c).symm
  | ⟨4, _⟩ => (U10_v63_2 m c).symm

theorem hrest3 : ∀ b, b ∉ Finset.univ.image (Pipeline.arrRef spec3) → atTc (U10 m) c b = atTc (U9 m) c b :=
  fun b hb => U10_of m c b fun h => hb (by
    simp only [List.mem_cons, List.mem_singleton, List.not_mem_nil, or_false] at h
    rcases h with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

set_option backward.isDefEq.respectTransparency.types false in
def reg3 : Pipeline.RegionSeg (pcfgs (F := F)) Gen.adm (pdats m) () defs₀ 𝒱₀ Lh lvh 3 :=
  regOf m 3 launch3 (U9 m) (U10 m) (fun c => body_obligation3 (atTc (U9 m)) c) (fun _ _ => rfl) (fun _ _ => rfl) (fun _ _ => rfl)
    ⟨fun k => k.elim0⟩ (fun _ => rfl) (fun c => hin3 (atTc (U9 m)) c) (fun c => hout3 (atTc (U9 m)) c) (hF3 m) (hrest3 m)

set_option maxHeartbeats 4000000 in
theorem hF4 : ∀ w : Fin cfg4.W, (dat4 (atTc (U11 m)) c).arrAt w cfg4.N = atTc (U12 m) c (Pipeline.arrRef spec4 w)
  | ⟨0, _⟩ => (arrAt4_in (atTc (U11 m)) c 0 rfl cfg4.N).trans (U12_of m c main_v63_0 (by decide)).symm
  | ⟨1, _⟩ => (arrAt4_in (atTc (U11 m)) c 1 rfl cfg4.N).trans (U12_of m c main_arg6 (by decide)).symm
  | ⟨2, _⟩ => (arrAt4_in (atTc (U11 m)) c 2 rfl cfg4.N).trans (U12_of m c main_v63_1 (by decide)).symm
  | ⟨3, _⟩ => (arrAt4_in (atTc (U11 m)) c 3 rfl cfg4.N).trans (U12_of m c main_v63_2 (by decide)).symm
  | ⟨4, _⟩ => (arrAt4_in (atTc (U11 m)) c 4 rfl cfg4.N).trans (U12_of m c main_v64 (by decide)).symm
  | ⟨5, _⟩ => (arrAt4_in (atTc (U11 m)) c 5 rfl cfg4.N).trans (U12_of m c main_v65 (by decide)).symm
  | ⟨6, _⟩ => (U12_v66 m c).symm

theorem hrest4 : ∀ b, b ∉ Finset.univ.image (Pipeline.arrRef spec4) → atTc (U12 m) c b = atTc (U11 m) c b :=
  fun b hb => U12_of m c b fun h => hb (Finset.mem_image.mpr ⟨6, Finset.mem_univ _, (List.mem_singleton.1 h).symm⟩)

set_option backward.isDefEq.respectTransparency.types false in
def reg4 : Pipeline.RegionSeg (pcfgs (F := F)) Gen.adm (pdats m) () defs₀ 𝒱₀ Lh lvh 4 :=
  regOf m 4 launch4 (U11 m) (U12 m) (fun c => body_obligation4 (atTc (U11 m)) c) (fun _ _ => rfl) (fun _ _ => rfl) (fun _ _ => rfl)
    ⟨fun k => k.elim0⟩ (fun _ => rfl) (fun c => hin4 (atTc (U11 m)) c) (fun c => hout4 (atTc (U11 m)) c) (hF4 m) (hrest4 m)

theorem hF5 : ∀ w : Fin cfg5.W, (dat5 (atTc (U13 m)) c).arrAt w cfg5.N = atTc (U14 m) c (Pipeline.arrRef spec5 w)
  | ⟨0, _⟩ => (arrAt5_in (atTc (U13 m)) c 0 rfl cfg5.N).trans (U14_of m c main_v79 (by decide)).symm
  | ⟨1, _⟩ => (arrAt5_in (atTc (U13 m)) c 1 rfl cfg5.N).trans (U14_of m c main_v80 (by decide)).symm
  | ⟨2, _⟩ => (U14_v81 m c).symm

theorem hrest5 : ∀ b, b ∉ Finset.univ.image (Pipeline.arrRef spec5) → atTc (U14 m) c b = atTc (U13 m) c b :=
  fun b hb => U14_of m c b fun h => hb (Finset.mem_image.mpr ⟨2, Finset.mem_univ _, (List.mem_singleton.1 h).symm⟩)

set_option backward.isDefEq.respectTransparency.types false in
def reg5 : Pipeline.RegionSeg (pcfgs (F := F)) Gen.adm (pdats m) () defs₀ 𝒱₀ Lh lvh 5 :=
  regOf m 5 launch5 (U13 m) (U14 m) (fun c => body_obligation5 (atTc (U13 m)) c) (fun _ _ => rfl) (fun _ _ => rfl) (fun _ _ => rfl)
    ⟨fun k => k.elim0⟩ (fun _ => rfl) (fun c => hin5 (atTc (U13 m)) c) (fun c => hout5 (atTc (U13 m)) c) (hF5 m) (hrest5 m)

theorem hpre0 : iprop(StableHlo.held (c : Thread nD τ) (Pipeline.ucRefs τ sig) (Gen.V3 m c) ∗ Eh (F := F) 0 c) ⊢ (reg0 m).pre c := by
  exact .rfl
theorem hpost0 : (reg0 m).post c ⊢ iprop(StableHlo.held (c : Thread nD τ) (Pipeline.ucRefs τ sig) (Gen.V4 m (outsU m) c) ∗ Eh (F := F) 1 c) := by
  rw [V4_eq m c]; exact .rfl
theorem hpre1 : iprop(StableHlo.held (c : Thread nD τ) (Pipeline.ucRefs τ sig) (Gen.V5 m (outsU m) c) ∗ Eh (F := F) 1 c) ⊢ (reg1 m).pre c := by
  rw [V5_eq m c]; exact .rfl
theorem hpost1 : (reg1 m).post c ⊢ iprop(StableHlo.held (c : Thread nD τ) (Pipeline.ucRefs τ sig) (Gen.V6 m (outsU m) c) ∗ Eh (F := F) 2 c) := by
  rw [V6_eq m c]; exact .rfl
theorem hpre2 : iprop(StableHlo.held (c : Thread nD τ) (Pipeline.ucRefs τ sig) (Gen.V7 m (outsU m) c) ∗ Eh (F := F) 2 c) ⊢ (reg2 m).pre c := by
  rw [V7_eq m c]; exact .rfl
theorem hpost2 : (reg2 m).post c ⊢ iprop(StableHlo.held (c : Thread nD τ) (Pipeline.ucRefs τ sig) (Gen.V8 m (outsU m) c) ∗ Eh (F := F) 3 c) := by
  rw [V8_eq m c]; exact .rfl
theorem hpre3 : iprop(StableHlo.held (c : Thread nD τ) (Pipeline.ucRefs τ sig) (Gen.V9 m (outsU m) c) ∗ Eh (F := F) 3 c) ⊢ (reg3 m).pre c := by
  rw [V9_eq m c]; exact .rfl
theorem hpost3 : (reg3 m).post c ⊢ iprop(StableHlo.held (c : Thread nD τ) (Pipeline.ucRefs τ sig) (Gen.V10 m (outsU m) c) ∗ Eh (F := F) 4 c) := by
  rw [V10_eq m c]; exact .rfl
theorem hpre4 : iprop(StableHlo.held (c : Thread nD τ) (Pipeline.ucRefs τ sig) (Gen.V11 m (outsU m) c) ∗ Eh (F := F) 4 c) ⊢ (reg4 m).pre c := by
  rw [V11_eq m c]; exact .rfl
theorem hpost4 : (reg4 m).post c ⊢ iprop(StableHlo.held (c : Thread nD τ) (Pipeline.ucRefs τ sig) (Gen.V12 m (outsU m) c) ∗ Eh (F := F) 5 c) := by
  rw [V12_eq m c]; exact .rfl
theorem hpre5 : iprop(StableHlo.held (c : Thread nD τ) (Pipeline.ucRefs τ sig) (Gen.V13 m (outsU m) c) ∗ Eh (F := F) 5 c) ⊢ (reg5 m).pre c := by
  rw [V13_eq m c]; exact .rfl
theorem hpost5 : (reg5 m).post c ⊢ iprop(StableHlo.held (c : Thread nD τ) (Pipeline.ucRefs τ sig) (Gen.V14 m (outsU m) c) ∗ Eh (F := F) 6 c) := by
  rw [V14_eq m c]; exact .rfl

set_option backward.isDefEq.respectTransparency.types false in
theorem run : θ_run defs (onTc (τ := τ) (main (F := F))) ⟨m, fun _ => 0, ρ⟩ (fun r => ∀ c : Dev nD,
      r.2.mem ((c.tc : Thread nD τ).loc main_v81) = U14 m c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) Gen.adm (pdats m) () cellOf_inj emb₁ defs₀ 𝒱₀ Lh lvh m ρ main
    (Gen.segs m (outsU m) 𝒱₀ Lh lvh Eh () (pdats m) (reg0 m) (reg1 m) (reg2 m) (reg3 m) (reg4 m) (reg5 m))
    (fun c Q => by
      rewrite [main_chain c, Seg.run_eq_chain,
        show (Gen.segs m (outsU m) 𝒱₀ Lh lvh Eh () (pdats m) (reg0 m) (reg1 m) (reg2 m) (reg3 m) (reg4 m) (reg5 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Eh (F := F) 0 c))
    (Tₙ := fun c => StableHlo.held (c : Thread nD τ) (Pipeline.ucRefs τ sig) (Gen.V14 m (outsU m) c))
    (hch := fun c => ⟨.rfl, .rfl, .rfl, hpre0 m c, hpost0 m c, hpre1 m c, hpost1 m c, hpre2 m c, hpost2 m c, hpre3 m c, hpost3 m c,
      hpre4 m c, hpost4 m c, hpre5 m c, (hpost5 m c).trans (sep_mono .rfl (by unfold Eh; iintro ⟨-, H⟩; iexact H))⟩)
    (hinit := ?_)
    (QY := fun c s => s.mem ((c.tc : Thread nD τ).loc main_v81) = U14 m c main_v81
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  ·
    have hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) ∗ levAts Lh lvh)
        ⊢ (|={Set.univ}=> bigSep Finset.univ (Eh (F := F) 0) : sProp 𝕄) := by
      refine Pipeline.initEach Lh lvh fun c => ?_
      unfold Eh
      iintro ⟨⟨-, HO, -, Hp, -⟩, -⟩
      imodintro
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (Gen.V14 m (outsU m) c) s') $$ [Hh HSI]
    · isplitl [Hh] <;> iassumption
    icases Hr with ⟨%h, HSI⟩
    imodintro
    isplitr
    · ipureintro
      exact ⟨(h (Proc.devRef .tc main_v81) (Finset.mem_filter.mpr ⟨StableHlo.devRef_mem_tcRefs main_v81, by decide⟩)).trans (congrFun (V14_eq m c) _),
        (h (Proc.devRef .tc main_arg0) (Finset.mem_filter.mpr ⟨StableHlo.devRef_mem_tcRefs main_arg0, by decide⟩)).trans (Gen.V14_main_arg0 m (outsU m) c),
        (h (Proc.devRef .tc main_arg1) (Finset.mem_filter.mpr ⟨StableHlo.devRef_mem_tcRefs main_arg1, by decide⟩)).trans (Gen.V14_main_arg1 m (outsU m) c),
        (h (Proc.devRef .tc main_arg2) (Finset.mem_filter.mpr ⟨StableHlo.devRef_mem_tcRefs main_arg2, by decide⟩)).trans (Gen.V14_main_arg2 m (outsU m) c),
        (h (Proc.devRef .tc main_arg3) (Finset.mem_filter.mpr ⟨StableHlo.devRef_mem_tcRefs main_arg3, by decide⟩)).trans (Gen.V14_main_arg3 m (outsU m) c),
        (h (Proc.devRef .tc main_arg4) (Finset.mem_filter.mpr ⟨StableHlo.devRef_mem_tcRefs main_arg4, by decide⟩)).trans (Gen.V14_main_arg4 m (outsU m) c),
        (h (Proc.devRef .tc main_arg5) (Finset.mem_filter.mpr ⟨StableHlo.devRef_mem_tcRefs main_arg5, by decide⟩)).trans (Gen.V14_main_arg5 m (outsU m) c),
        (h (Proc.devRef .tc main_arg6) (Finset.mem_filter.mpr ⟨StableHlo.devRef_mem_tcRefs main_arg6, by decide⟩)).trans (Gen.V14_main_arg6 m (outsU m) c),
        (h (Proc.devRef .tc main_arg7) (Finset.mem_filter.mpr ⟨StableHlo.devRef_mem_tcRefs main_arg7, by decide⟩)).trans (Gen.V14_main_arg7 m (outsU m) c),
        (h (Proc.devRef .tc main_arg8) (Finset.mem_filter.mpr ⟨StableHlo.devRef_mem_tcRefs main_arg8, by decide⟩)).trans (Gen.V14_main_arg8 m (outsU m) c),
        (h (Proc.devRef .tc main_arg9) (Finset.mem_filter.mpr ⟨StableHlo.devRef_mem_tcRefs main_arg9, by decide⟩)).trans (Gen.V14_main_arg9 m (outsU m) c)⟩
    · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run m ρ)

end Cert.Kernel.Hand

end
-- ==== Proof.KI.Reg0.lean ====
import proofs.«418912_j86466281603780_3_alg».proof.Proof.Gen.KernelIdeal.Launch
import proofs.«418912_j86466281603780_3_alg».proof.Proof.Gen.KernelIdeal.Skeleton
import proofs.«418912_j86466281603780_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1000x128 := Rect.unit (s := S1000x128) ![0, 0] S1000x128.size inb_S1000x128_S1000x128_0_0
abbrev r0_1 : Rect S128x256 := Rect.unit (s := S128x256) ![0, 0] S128x256.size inb_S128x256_S128x256_0_0
abbrev r0_2 : Rect S1000x256 := Rect.unit (s := S1000x256) ![0, 0] S1000x256.size inb_S1000x256_S1000x256_0_0

def out0_2 (x0 : Vec F S1000x128 .f32) (x1 : Vec F S128x256 .f32) : Vec F S1000x256 .f32 :=
  View.canon [⟨r0_2, k0_pay1 (View.ld x0 r0_0) (View.ld x1 r0_1)⟩]

theorem cover0_2 (p0 : Vec F S1000x256 .f32) (y : S1000x256.Idx) :
    ∃ pc ∈ ([⟨r0_2, p0⟩] : List (View.Piece (Elt F) S1000x256 .f32)), y ∈ pc.1.set :=
  View.cover_of_tiled [⟨r0_2, p0⟩] S1000x256.size (by rfl) y

set_option maxHeartbeats 1000000 in
theorem sound_kernel0 (E : Set ℕ) (i : grid0.Coords) (arg1 : Memref sig .tc .vmem S1000x128 .f32) (harg1 : arg1.IsWhole) (arg2 : Memref sig .tc .vmem S128x256 .f32) (harg2 : arg2.IsWhole) (arg3 : Memref sig .tc .vmem S1000x256 .f32) (harg3 : arg3.IsWhole)
    (x0 : Vec F S1000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (w : Fin cfg0.W) : (dat0 V c).A w = V c (Pipeline.arrRef spec0 w) := by
  dsimp only [dat0]

theorem after0_0 : (dat0 V c).after 0 t = iblk0 V c 0 t := by dsimp only [dat0]
theorem after0_1 : (dat0 V c).after 1 t = iblk0 V c 1 t := by dsimp only [dat0]
theorem after0_2 : (dat0 V c).after 2 t = out0_2 (iblk0 V c 0 t) (iblk0 V c 1 t) := by dsimp only [dat0]

theorem before0_0 (d) : (dat0 V c).before 0 t d = iblk0 V c 0 t :=
  before0_0_of V (dat0 V c) (A_eq0 V c 0) (after0_0 V c) t d
theorem before0_1 (d) : (dat0 V c).before 1 t d = iblk0 V c 1 t :=
  before0_1_of V (dat0 V c) (A_eq0 V c 1) (after0_1 V c) t d

theorem arrAt0_in :
    (dat0 V c).arrAt 0 cfg0.N = V c (Pipeline.arrRef spec0 0) ∧ (dat0 V c).arrAt 1 cfg0.N = V c (Pipeline.arrRef spec0 1) :=
  ⟨((dat0 V c).arrAt_in 0 rfl _).trans (A_eq0 V c 0), ((dat0 V c).arrAt_in 1 rfl _).trans (A_eq0 V c 1)⟩

def bodyPre0 : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 : BodyObligation (dat0 (F := F) V c) (defs₀ (F := F)) Variants.none () Set.univ := fun t => by
  rw [bigSep_W0, bigSep_W0]
  exact sound_body0 V c t

theorem hin0 : (iprop((∃ r, prngReg c r) ∗ Pipeline.scopedRest spec0 c) : sProp 𝕄) ⊢ (dat0 V c).Φ 0 := by
  rw [show (dat0 V c).Φ 0 = Pipeline.ΦA spec0 c from rfl]; unfold Pipeline.ΦA
  iintro ⟨Hp, Hr⟩
  isplitl [Hr]; · iexact Hr
  iexact Hp

theorem hout0 : (dat0 V c).Φ (Fin.last cfg0.N) ⊢ (iprop((∃ r, prngReg c r) ∗ Pipeline.scopedRest spec0 c) : sProp 𝕄) := by
  rw [show (dat0 V c).Φ (Fin.last _) = Pipeline.ΦA spec0 c from rfl]; unfold Pipeline.ΦA
  iintro ⟨Hr, Hp⟩
  isplitl [Hp]; · iexact Hp
  iexact Hr

end Cert.KernelIdeal.Hand

end
-- ==== Proof.KI.Reg1Dat.lean ====
import proofs.«418912_j86466281603780_3_alg».proof.Proof.Gen.KernelIdeal.Launch
import proofs.«418912_j86466281603780_3_alg».proof.Proof.Gen.KernelIdeal.Skeleton
import proofs.«418912_j86466281603780_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N) (n : ℕ)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 50 = 0 :=
  (by decide +kernel : ∀ t : Fin grid1.N, cond1_0 (grid1.coords t) ↔ t.val % 50 = 0)

abbrev cond1_1 (i : grid1.Coords) : Prop := k1_cond2 i = 1#1

theorem hcond1_1 : ∀ t : Fin cfg1.N, cond1_1 (grid1.coords t) ↔ t.val % 50 = 49 :=
  (by decide +kernel : ∀ t : Fin grid1.N, cond1_1 (grid1.coords t) ↔ t.val % 50 = 49)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk1 : Vec F S1000x256 .f32 := iblk1 V c 0 t

abbrev bblk1 : Vec F S1x256 .f32 := iblk1 V c 1 t

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel

theorem liveAt1_3 : ∀ t : Fin cfg1.N, cond1_1 (grid1.coords t) → cfg1.idle 3 (grid1.coords t) = false := by decide +kernel

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev scM1_0 : Memref sig .tc .vmem S1x256 .f32 := Memref.whole cc1_scratch0
abbrev scM1_1 : Memref sig .tc .vmem S1x256 .f32 := Memref.whole cc1_scratch1

theorem scopedRest1_owns :
    (Pipeline.scopedRest spec1 c : sProp 𝕄)
      = iprop(iprop((∃ d, owns (c : Thread nD τ) scM1_0 fullShare d) ∗ (∃ d, owns (c : Thread nD τ) scM1_1 fullShare d))
          ∗ Pipeline.scopedRestBut spec1 c [cc1_scratch0, cc1_scratch1]) := by
  rw [scopedRest1_split]; simp only [scM1_0, scM1_1, owns_whole]; rfl

def acc1_0 (V : (c : Dev nD) → (b : Ref sig .tc) → Buf (Elt F) ((c : Thread nD τ).loc b)) (c : Dev nD) : ℕ → Vec F S1x256 .f32
  | 0 => k1_pay1
  | n + 1 => if h : n < cfg1.N then k1_pay4 (xblk1 V c ⟨n, h⟩) (bblk1 V c ⟨n, h⟩) (acc1_0 V c n) else acc1_0 V c n

def acc1_1 (V : (c : Dev nD) → (b : Ref sig .tc) → Buf (Elt F) ((c : Thread nD τ).loc b)) (c : Dev nD) : ℕ → Vec F S1x256 .f32
  | 0 => k1_pay2
  | n + 1 => if h : n < cfg1.N then k1_pay5 (xblk1 V c ⟨n, h⟩) (bblk1 V c ⟨n, h⟩) (acc1_1 V c n) else acc1_1 V c n

theorem acc1_0_succ :
    acc1_0 V c (t.val + 1) = k1_pay4 (xblk1 V c t) (bblk1 V c t) (acc1_0 V c t.val) := by
  show (if h : t.val < cfg1.N then _ else _) = _; rw [dif_pos t.isLt]

theorem acc1_1_succ :
    acc1_1 V c (t.val + 1) = k1_pay5 (xblk1 V c t) (bblk1 V c t) (acc1_1 V c t.val) := by
  show (if h : t.val < cfg1.N then _ else _) = _; rw [dif_pos t.isLt]

def Phi1 : ℕ → sProp 𝕄
  | 0 => iprop((∃ r, prngReg c r) ∗ Pipeline.scopedRest spec1 c)
  | n + 1 => iprop((∃ r, prngReg c r)
      ∗ iprop(owns (c : Thread nD τ) scM1_0 fullShare (acc1_0 V c (n + 1)) ∗ owns (c : Thread nD τ) scM1_1 fullShare (acc1_1 V c (n + 1)))
      ∗ Pipeline.scopedRestBut spec1 c [cc1_scratch0, cc1_scratch1])

theorem Phi1_zero (hz : n = 0) :
    Phi1 V c n = iprop((∃ r, prngReg c r) ∗ Pipeline.scopedRest spec1 c) := by
  subst hz; rfl

theorem Phi1_succ :
    Phi1 V c (n + 1) = iprop((∃ r, prngReg c r)
      ∗ iprop(owns (c : Thread nD τ) scM1_0 fullShare (acc1_0 V c (n + 1)) ∗ owns (c : Thread nD τ) scM1_1 fullShare (acc1_1 V c (n + 1)))
      ∗ Pipeline.scopedRestBut spec1 c [cc1_scratch0, cc1_scratch1]) := rfl

theorem Phi1_pos (hz : n ≠ 0) :
    Phi1 V c n = iprop((∃ r, prngReg c r)
      ∗ iprop(owns (c : Thread nD τ) scM1_0 fullShare (acc1_0 V c n) ∗ owns (c : Thread nD τ) scM1_1 fullShare (acc1_1 V c n))
      ∗ Pipeline.scopedRestBut spec1 c [cc1_scratch0, cc1_scratch1]) := by
  cases n with
  | zero => exact absurd rfl hz
  | succ n => rfl

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (xblk1 V c t) (bblk1 V c t)
    | ⟨3, _⟩ => k1_pay6 (acc1_0 V c (t.val + 1))
    | ⟨4, _⟩ => k1_pay7 (acc1_0 V c (t.val + 1)) (acc1_1 V c (t.val + 1))
  Φ t := Phi1 V c t.val
  q _ := fullShare
  owed _ := 0

theorem A_eq1 (w : Fin cfg1.W) : (dat1 V c).A w = V c (Pipeline.arrRef spec1 w) := by
  dsimp only [dat1]

theorem after1_0 : (dat1 V c).after 0 t = iblk1 V c 0 t := by dsimp only [dat1]
theorem after1_1 : (dat1 V c).after 1 t = iblk1 V c 1 t := by dsimp only [dat1]
theorem after1_2 : (dat1 V c).after 2 t = k1_pay3 (xblk1 V c t) (bblk1 V c t) := by dsimp only [dat1]
theorem after1_3 : (dat1 V c).after 3 t = k1_pay6 (acc1_0 V c (t.val + 1)) := by dsimp only [dat1]
theorem after1_4 : (dat1 V c).after 4 t = k1_pay7 (acc1_0 V c (t.val + 1)) (acc1_1 V c (t.val + 1)) := by dsimp only [dat1]

theorem Phi1_castSucc : (dat1 V c).Φ t.castSucc = Phi1 V c t.val := by
  dsimp only [dat1]; simp only [Fin.coe_castSucc]
theorem Phi1_succ' : (dat1 V c).Φ t.succ = Phi1 V c (t.val + 1) := by
  dsimp only [dat1]; simp only [Fin.val_succ]

theorem before1_0 (d) : (dat1 V c).before 0 t d = iblk1 V c 0 t :=
  before1_0_of V (dat1 V c) (A_eq1 V c 0) (after1_0 V c) t d
theorem before1_1 (d) : (dat1 V c).before 1 t d = iblk1 V c 1 t :=
  before1_1_of V (dat1 V c) (A_eq1 V c 1) (after1_1 V c) t d

theorem arrAt1_in :
    (dat1 V c).arrAt 0 cfg1.N = V c (Pipeline.arrRef spec1 0) ∧ (dat1 V c).arrAt 1 cfg1.N = V c (Pipeline.arrRef spec1 1) :=
  ⟨((dat1 V c).arrAt_in 0 rfl _).trans (A_eq1 V c 0), ((dat1 V c).arrAt_in 1 rfl _).trans (A_eq1 V c 1)⟩

end Cert.KernelIdeal.Hand

end
-- ==== Proof.KI.Reg2.lean ====
import proofs.«418912_j86466281603780_3_alg».proof.Proof.Gen.KernelIdeal.Launch
import proofs.«418912_j86466281603780_3_alg».proof.Proof.Gen.KernelIdeal.Skeleton
import proofs.«418912_j86466281603780_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (w : Fin cfg2.W) (t : Fin cfg2.N)

def iblk2 : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S1000x256 := Rect.unit (s := S1000x256) ![0, 0] S1000x256.size inb_S1000x256_S1000x256_0_0
abbrev r2_w : Rect S256x256 := Rect.unit (s := S256x256) ![0, 0] S256x256.size inb_S256x256_S256x256_0_0
abbrev r2_v : Rect S1x256 := Rect.unit (s := S1x256) ![0, 0] S1x256.size inb_S1x256_S1x256_0_0

def out2_6 (x0 : Vec F S1000x256 .f32) (x1 : Vec F S256x256 .f32) (x2 : Vec F S1x256 .f32) (x3 : Vec F S1x256 .f32) (x4 : Vec F S1x256 .f32) (x5 : Vec F S1x256 .f32) : Vec F S1000x256 .f32 :=
  View.canon [⟨r2_x, k2_pay1 (View.ld x3 r2_v) (View.ld x4 r2_v) (View.ld x5 r2_v) (View.ld x2 r2_v) (View.ld x0 r2_x) (View.ld x1 r2_w)⟩]

theorem cover2_6 (p0 : Vec F S1000x256 .f32) (y : S1000x256.Idx) :
    ∃ pc ∈ ([⟨r2_x, p0⟩] : List (View.Piece (Elt F) S1000x256 .f32)), y ∈ pc.1.set :=
  View.cover_of_tiled [⟨r2_x, p0⟩] S1000x256.size (by rfl) y

set_option maxHeartbeats 1000000 in
theorem sound_kernel2 (E : Set ℕ) (i : grid2.Coords)
    (arg0 : Memref sig .tc .vmem S1000x256 .f32) (harg0 : arg0.IsWhole) (arg1 : Memref sig .tc .vmem S256x256 .f32) (harg1 : arg1.IsWhole)
    (arg2 : Memref sig .tc .vmem S1x256 .f32) (harg2 : arg2.IsWhole) (arg3 : Memref sig .tc .vmem S1x256 .f32) (harg3 : arg3.IsWhole)
    (arg4 : Memref sig .tc .vmem S1x256 .f32) (harg4 : arg4.IsWhole) (arg5 : Memref sig .tc .vmem S1x256 .f32) (harg5 : arg5.IsWhole)
    (arg6 : Memref sig .tc .vmem S1000x256 .f32) (harg6 : arg6.IsWhole)
    (x0 : Vec F S1000x256 .f32) (x1 : Vec F S256x256 .f32) (x2 : Vec F S1x256 .f32) (x3 : Vec F S1x256 .f32) (x4 : Vec F S1x256 .f32) (x5 : Vec F S1x256 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E (cc2_kernel i arg0 harg0 arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 : (dat2 V c).A w = V c (Pipeline.arrRef spec2 w) := by
  dsimp only [dat2]

theorem after2_0 : (dat2 V c).after 0 t = iblk2 V c 0 t := by dsimp only [dat2]
theorem after2_1 : (dat2 V c).after 1 t = iblk2 V c 1 t := by dsimp only [dat2]
theorem after2_2 : (dat2 V c).after 2 t = iblk2 V c 2 t := by dsimp only [dat2]
theorem after2_3 : (dat2 V c).after 3 t = iblk2 V c 3 t := by dsimp only [dat2]
theorem after2_4 : (dat2 V c).after 4 t = iblk2 V c 4 t := by dsimp only [dat2]
theorem after2_5 : (dat2 V c).after 5 t = iblk2 V c 5 t := by dsimp only [dat2]
theorem after2_6 :
    (dat2 V c).after 6 t = out2_6 (iblk2 V c 0 t) (iblk2 V c 1 t) (iblk2 V c 2 t) (iblk2 V c 3 t) (iblk2 V c 4 t) (iblk2 V c 5 t) := by dsimp only [dat2]

theorem before2_0 (d) : (dat2 V c).before 0 t d = iblk2 V c 0 t :=
  before2_0_of V (dat2 V c) (A_eq2 V c 0) (after2_0 V c) t d
theorem before2_1 (d) : (dat2 V c).before 1 t d = iblk2 V c 1 t :=
  before2_1_of V (dat2 V c) (A_eq2 V c 1) (after2_1 V c) t d
theorem before2_2 (d) : (dat2 V c).before 2 t d = iblk2 V c 2 t :=
  before2_2_of V (dat2 V c) (A_eq2 V c 2) (after2_2 V c) t d
theorem before2_3 (d) : (dat2 V c).before 3 t d = iblk2 V c 3 t :=
  before2_3_of V (dat2 V c) (A_eq2 V c 3) (after2_3 V c) t d
theorem before2_4 (d) : (dat2 V c).before 4 t d = iblk2 V c 4 t :=
  before2_4_of V (dat2 V c) (A_eq2 V c 4) (after2_4 V c) t d
theorem before2_5 (d) : (dat2 V c).before 5 t d = iblk2 V c 5 t :=
  before2_5_of V (dat2 V c) (A_eq2 V c 5) (after2_5 V c) t d

theorem arrAt2_in (hw : (cfg2.win w).isOut = false) (n) :
    (dat2 V c).arrAt w n = V c (Pipeline.arrRef spec2 w) :=
  ((dat2 V c).arrAt_in w hw n).trans (A_eq2 V c w)

def bodyPre2 : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 : BodyObligation (dat2 (F := F) V c) (defs₀ (F := F)) Variants.none () Set.univ := fun t => by
  rw [bigSep_W2, bigSep_W2]
  exact sound_body2 V c t

theorem hin2 : (iprop((∃ r, prngReg c r) ∗ Pipeline.scopedRest spec2 c) : sProp 𝕄) ⊢ (dat2 V c).Φ 0 := by
  rw [show (dat2 V c).Φ 0 = Pipeline.ΦA spec2 c from rfl]; unfold Pipeline.ΦA
  iintro ⟨Hp, Hr⟩
  isplitl [Hr]; · iexact Hr
  iexact Hp

theorem hout2 : (dat2 V c).Φ (Fin.last cfg2.N) ⊢ (iprop((∃ r, prngReg c r) ∗ Pipeline.scopedRest spec2 c) : sProp 𝕄) := by
  rw [show (dat2 V c).Φ (Fin.last _) = Pipeline.ΦA spec2 c from rfl]; unfold Pipeline.ΦA
  iintro ⟨Hr, Hp⟩
  isplitl [Hp]; · iexact Hp
  iexact Hr

end Cert.KernelIdeal.Hand

end
-- ==== Proof.KI.Reg3Dat.lean ====
import proofs.«418912_j86466281603780_3_alg».proof.Proof.Gen.KernelIdeal.Launch
import proofs.«418912_j86466281603780_3_alg».proof.Proof.Gen.KernelIdeal.Skeleton
import proofs.«418912_j86466281603780_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg3.N) (n : ℕ)

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 50 = 0 :=
  (by decide +kernel : ∀ t : Fin grid3.N, cond3_0 (grid3.coords t) ↔ t.val % 50 = 0)

abbrev cond3_1 (i : grid3.Coords) : Prop := k3_cond2 i = 1#1

theorem hcond3_1 : ∀ t : Fin cfg3.N, cond3_1 (grid3.coords t) ↔ t.val % 50 = 49 :=
  (by decide +kernel : ∀ t : Fin grid3.N, cond3_1 (grid3.coords t) ↔ t.val % 50 = 49)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xblk3 : Vec F S1000x256 .f32 := iblk3 V c 0 t

abbrev bblk3 : Vec F S1x256 .f32 := iblk3 V c 1 t

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel

theorem liveAt3_3 : ∀ t : Fin cfg3.N, cond3_1 (grid3.coords t) → cfg3.idle 3 (grid3.coords t) = false := by decide +kernel

theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

abbrev scM3_0 : Memref sig .tc .vmem S1x256 .f32 := Memref.whole cc3_scratch0
abbrev scM3_1 : Memref sig .tc .vmem S1x256 .f32 := Memref.whole cc3_scratch1

theorem scopedRest3_owns :
    (Pipeline.scopedRest spec3 c : sProp 𝕄)
      = iprop(iprop((∃ d, owns (c : Thread nD τ) scM3_0 fullShare d) ∗ (∃ d, owns (c : Thread nD τ) scM3_1 fullShare d))
          ∗ Pipeline.scopedRestBut spec3 c [cc3_scratch0, cc3_scratch1]) := by
  rw [scopedRest3_split]; simp only [scM3_0, scM3_1, owns_whole]; rfl

def acc3_0 (V : (c : Dev nD) → (b : Ref sig .tc) → Buf (Elt F) ((c : Thread nD τ).loc b)) (c : Dev nD) : ℕ → Vec F S1x256 .f32
  | 0 => k3_pay1
  | n + 1 => if h : n < cfg3.N then k3_pay4 (xblk3 V c ⟨n, h⟩) (bblk3 V c ⟨n, h⟩) (acc3_0 V c n) else acc3_0 V c n

def acc3_1 (V : (c : Dev nD) → (b : Ref sig .tc) → Buf (Elt F) ((c : Thread nD τ).loc b)) (c : Dev nD) : ℕ → Vec F S1x256 .f32
  | 0 => k3_pay2
  | n + 1 => if h : n < cfg3.N then k3_pay5 (xblk3 V c ⟨n, h⟩) (bblk3 V c ⟨n, h⟩) (acc3_1 V c n) else acc3_1 V c n

theorem acc3_0_succ :
    acc3_0 V c (t.val + 1) = k3_pay4 (xblk3 V c t) (bblk3 V c t) (acc3_0 V c t.val) := by
  show (if h : t.val < cfg3.N then _ else _) = _; rw [dif_pos t.isLt]

theorem acc3_1_succ :
    acc3_1 V c (t.val + 1) = k3_pay5 (xblk3 V c t) (bblk3 V c t) (acc3_1 V c t.val) := by
  show (if h : t.val < cfg3.N then _ else _) = _; rw [dif_pos t.isLt]

def Phi3 : ℕ → sProp 𝕄
  | 0 => iprop((∃ r, prngReg c r) ∗ Pipeline.scopedRest spec3 c)
  | n + 1 => iprop((∃ r, prngReg c r)
      ∗ iprop(owns (c : Thread nD τ) scM3_0 fullShare (acc3_0 V c (n + 1)) ∗ owns (c : Thread nD τ) scM3_1 fullShare (acc3_1 V c (n + 1)))
      ∗ Pipeline.scopedRestBut spec3 c [cc3_scratch0, cc3_scratch1])

theorem Phi3_zero (hz : n = 0) :
    Phi3 V c n = iprop((∃ r, prngReg c r) ∗ Pipeline.scopedRest spec3 c) := by
  subst hz; rfl

theorem Phi3_succ :
    Phi3 V c (n + 1) = iprop((∃ r, prngReg c r)
      ∗ iprop(owns (c : Thread nD τ) scM3_0 fullShare (acc3_0 V c (n + 1)) ∗ owns (c : Thread nD τ) scM3_1 fullShare (acc3_1 V c (n + 1)))
      ∗ Pipeline.scopedRestBut spec3 c [cc3_scratch0, cc3_scratch1]) := rfl

theorem Phi3_pos (hz : n ≠ 0) :
    Phi3 V c n = iprop((∃ r, prngReg c r)
      ∗ iprop(owns (c : Thread nD τ) scM3_0 fullShare (acc3_0 V c n) ∗ owns (c : Thread nD τ) scM3_1 fullShare (acc3_1 V c n))
      ∗ Pipeline.scopedRestBut spec3 c [cc3_scratch0, cc3_scratch1]) := by
  cases n with
  | zero => exact absurd rfl hz
  | succ n => rfl

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (xblk3 V c t) (bblk3 V c t)
    | ⟨3, _⟩ => k3_pay6 (acc3_0 V c (t.val + 1))
    | ⟨4, _⟩ => k3_pay7 (acc3_0 V c (t.val + 1)) (acc3_1 V c (t.val + 1))
  Φ t := Phi3 V c t.val
  q _ := fullShare
  owed _ := 0

theorem A_eq3 (w : Fin cfg3.W) : (dat3 V c).A w = V c (Pipeline.arrRef spec3 w) := by
  dsimp only [dat3]

theorem after3_0 : (dat3 V c).after 0 t = iblk3 V c 0 t := by dsimp only [dat3]
theorem after3_1 : (dat3 V c).after 1 t = iblk3 V c 1 t := by dsimp only [dat3]
theorem after3_2 : (dat3 V c).after 2 t = k3_pay3 (xblk3 V c t) (bblk3 V c t) := by dsimp only [dat3]
theorem after3_3 : (dat3 V c).after 3 t = k3_pay6 (acc3_0 V c (t.val + 1)) := by dsimp only [dat3]
theorem after3_4 : (dat3 V c).after 4 t = k3_pay7 (acc3_0 V c (t.val + 1)) (acc3_1 V c (t.val + 1)) := by dsimp only [dat3]

theorem Phi3_castSucc : (dat3 V c).Φ t.castSucc = Phi3 V c t.val := by
  dsimp only [dat3]; simp only [Fin.coe_castSucc]
theorem Phi3_succ' : (dat3 V c).Φ t.succ = Phi3 V c (t.val + 1) := by
  dsimp only [dat3]; simp only [Fin.val_succ]

theorem before3_0 (d) : (dat3 V c).before 0 t d = iblk3 V c 0 t :=
  before3_0_of V (dat3 V c) (A_eq3 V c 0) (after3_0 V c) t d
theorem before3_1 (d) : (dat3 V c).before 1 t d = iblk3 V c 1 t :=
  before3_1_of V (dat3 V c) (A_eq3 V c 1) (after3_1 V c) t d

theorem arrAt3_in :
    (dat3 V c).arrAt 0 cfg3.N = V c (Pipeline.arrRef spec3 0) ∧ (dat3 V c).arrAt 1 cfg3.N = V c (Pipeline.arrRef spec3 1) :=
  ⟨((dat3 V c).arrAt_in 0 rfl _).trans (A_eq3 V c 0), ((dat3 V c).arrAt_in 1 rfl _).trans (A_eq3 V c 1)⟩

end Cert.KernelIdeal.Hand

end
-- ==== Proof.KI.Reg4.lean ====
import proofs.«418912_j86466281603780_3_alg».proof.Proof.Gen.KernelIdeal.Launch
import proofs.«418912_j86466281603780_3_alg».proof.Proof.Gen.KernelIdeal.Skeleton
import proofs.«418912_j86466281603780_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (w : Fin cfg4.W) (t : Fin cfg4.N)

def iblk4 : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

abbrev r4_x : Rect S1000x256 := Rect.unit (s := S1000x256) ![0, 0] S1000x256.size inb_S1000x256_S1000x256_0_0
abbrev r4_o : Rect S1000x40 := Rect.unit (s := S1000x40) ![0, 0] S1000x40.size inb_S1000x40_S1000x40_0_0
abbrev r4_w : Rect S256x40 := Rect.unit (s := S256x40) ![0, 0] S256x40.size inb_S256x40_S256x40_0_0
abbrev r4_v : Rect S1x256 := Rect.unit (s := S1x256) ![0, 0] S1x256.size inb_S1x256_S1x256_0_0

def out4_6 (x0 : Vec F S1000x256 .f32) (x1 : Vec F S256x40 .f32) (x2 : Vec F S1x256 .f32) (x3 : Vec F S1x256 .f32) (x4 : Vec F S1x256 .f32) (x5 : Vec F S1x256 .f32) : Vec F S1000x40 .f32 :=
  View.canon [⟨r4_o, k4_pay1 (View.ld x3 r4_v) (View.ld x4 r4_v) (View.ld x5 r4_v) (View.ld x2 r4_v) (View.ld x0 r4_x) (View.ld x1 r4_w)⟩]

theorem cover4_6 (p0 : Vec F S1000x40 .f32) (y : S1000x40.Idx) :
    ∃ pc ∈ ([⟨r4_o, p0⟩] : List (View.Piece (Elt F) S1000x40 .f32)), y ∈ pc.1.set :=
  View.cover_of_tiled [⟨r4_o, p0⟩] S1000x40.size (by rfl) y

set_option maxHeartbeats 1000000 in
theorem sound_kernel4 (E : Set ℕ) (i : grid4.Coords)
    (arg0 : Memref sig .tc .vmem S1000x256 .f32) (harg0 : arg0.IsWhole) (arg1 : Memref sig .tc .vmem S256x40 .f32) (harg1 : arg1.IsWhole)
    (arg2 : Memref sig .tc .vmem S1x256 .f32) (harg2 : arg2.IsWhole) (arg3 : Memref sig .tc .vmem S1x256 .f32) (harg3 : arg3.IsWhole)
    (arg4 : Memref sig .tc .vmem S1x256 .f32) (harg4 : arg4.IsWhole) (arg5 : Memref sig .tc .vmem S1x256 .f32) (harg5 : arg5.IsWhole)
    (arg6 : Memref sig .tc .vmem S1000x40 .f32) (harg6 : arg6.IsWhole)
    (x0 : Vec F S1000x256 .f32) (x1 : Vec F S256x40 .f32) (x2 : Vec F S1x256 .f32) (x3 : Vec F S1x256 .f32) (x4 : Vec F S1x256 .f32) (x5 : Vec F S1x256 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out4_6 x0 x1 x2 x3 x4 x5)) -∗ K ⟨⟩))
      ⊢ wp frame (wpE (defs₀ (F := F)) Variants.none c none) E (cc4_kernel i arg0 harg0 arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 : (dat4 V c).A w = V c (Pipeline.arrRef spec4 w) := by
  dsimp only [dat4]

theorem after4_0 : (dat4 V c).after 0 t = iblk4 V c 0 t := by dsimp only [dat4]
theorem after4_1 : (dat4 V c).after 1 t = iblk4 V c 1 t := by dsimp only [dat4]
theorem after4_2 : (dat4 V c).after 2 t = iblk4 V c 2 t := by dsimp only [dat4]
theorem after4_3 : (dat4 V c).after 3 t = iblk4 V c 3 t := by dsimp only [dat4]
theorem after4_4 : (dat4 V c).after 4 t = iblk4 V c 4 t := by dsimp only [dat4]
theorem after4_5 : (dat4 V c).after 5 t = iblk4 V c 5 t := by dsimp only [dat4]
theorem after4_6 :
    (dat4 V c).after 6 t = out4_6 (iblk4 V c 0 t) (iblk4 V c 1 t) (iblk4 V c 2 t) (iblk4 V c 3 t) (iblk4 V c 4 t) (iblk4 V c 5 t) := by dsimp only [dat4]

theorem before4_0 (d) : (dat4 V c).before 0 t d = iblk4 V c 0 t :=
  before4_0_of V (dat4 V c) (A_eq4 V c 0) (after4_0 V c) t d
theorem before4_1 (d) : (dat4 V c).before 1 t d = iblk4 V c 1 t :=
  before4_1_of V (dat4 V c) (A_eq4 V c 1) (after4_1 V c) t d
theorem before4_2 (d) : (dat4 V c).before 2 t d = iblk4 V c 2 t :=
  before4_2_of V (dat4 V c) (A_eq4 V c 2) (after4_2 V c) t d
theorem before4_3 (d) : (dat4 V c).before 3 t d = iblk4 V c 3 t :=
  before4_3_of V (dat4 V c) (A_eq4 V c 3) (after4_3 V c) t d
theorem before4_4 (d) : (dat4 V c).before 4 t d = iblk4 V c 4 t :=
  before4_4_of V (dat4 V c) (A_eq4 V c 4) (after4_4 V c) t d
theorem before4_5 (d) : (dat4 V c).before 5 t d = iblk4 V c 5 t :=
  before4_5_of V (dat4 V c) (A_eq4 V c 5) (after4_5 V c) t d

theorem arrAt4_in (hw : (cfg4.win w).isOut = false) (n) :
    (dat4 V c).arrAt w n = V c (Pipeline.arrRef spec4 w) :=
  ((dat4 V c).arrAt_in w hw n).trans (A_eq4 V c w)

def bodyPre4 : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _
    (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 : BodyObligation (dat4 (F := F) V c) (defs₀ (F := F)) Variants.none () Set.univ := fun t => by
  rw [bigSep_W4, bigSep_W4]
  exact sound_body4 V c t

theorem hin4 : (iprop((∃ r, prngReg c r) ∗ Pipeline.scopedRest spec4 c) : sProp 𝕄) ⊢ (dat4 V c).Φ 0 := by
  rw [show (dat4 V c).Φ 0 = Pipeline.ΦA spec4 c from rfl]; unfold Pipeline.ΦA
  iintro ⟨Hp, Hr⟩
  isplitl [Hr]; · iexact Hr
  iexact Hp

theorem hout4 : (dat4 V c).Φ (Fin.last cfg4.N) ⊢ (iprop((∃ r, prngReg c r) ∗ Pipeline.scopedRest spec4 c) : sProp 𝕄) := by
  rw [show (dat4 V c).Φ (Fin.last _) = Pipeline.ΦA spec4 c from rfl]; unfold Pipeline.ΦA
  iintro ⟨Hr, Hp⟩
  isplitl [Hp]; · iexact Hp
  iexact Hr

end Cert.KernelIdeal.Hand

end
-- ==== Proof.KI.Reg5.lean ====
import proofs.«418912_j86466281603780_3_alg».proof.Proof.Gen.KernelIdeal.Launch
import proofs.«418912_j86466281603780_3_alg».proof.Proof.Gen.KernelIdeal.Skeleton
import proofs.«418912_j86466281603780_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

section
variable {c : Dev nD} (dat : Dat τ (Elt F) Unit ℕ (UR sig nD τ) ℕ cfg5 c)

theorem before5_0_of (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

end

abbrev r5_0 : Rect S1000x40 := Rect.unit (s := S1000x40) ![0, 0] S1000x40.size inb_S1000x40_S1000x40_0_0

abbrev r5_1 : Rect S1x40 := Rect.unit (s := S1x40) ![0, 0] S1x40.size inb_S1x40_S1x40_0_0

def out5_2 (x0 : Vec F S1000x40 .f32) (x1 : Vec F S1x40 .f32) : Vec F S1000x40 .f32 :=
  View.canon [⟨r5_0, k5_pay1 (View.ld x0 r5_0) (View.ld x1 r5_1)⟩]

theorem cover5_2 (p0 : Vec F S1000x40 .f32) (y : S1000x40.Idx) :
    ∃ pc ∈ ([⟨r5_0, p0⟩] : List (View.Piece (Elt F) S1000x40 .f32)), y ∈ pc.1.set :=
  View.cover_of_tiled [⟨r5_0, p0⟩] S1000x40.size (by rfl) y

set_option maxHeartbeats 1000000 in
theorem sound_kernel5 (c : Dev nD) (E : Set ℕ) (i : grid5.Coords)
    (arg0 : Memref sig .tc .vmem S1000x40 .f32) (harg0 : arg0.IsWhole)
    (arg1 : Memref sig .tc .vmem S1x40 .f32) (harg1 : arg1.IsWhole)
    (arg2 : Memref sig .tc .vmem S1000x40 .f32) (harg2 : arg2.IsWhole)
    (x0 : Vec F S1000x40 .f32) (x1 : Vec F S1x40 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out5_2 x0 x1)) -∗ K ⟨⟩))
      ⊢ wp frame (wpE (defs₀ (F := F)) Variants.none c none) E (cc5_kernel i arg0 harg0 arg1 harg1 arg2 harg2) K := by
  simp only [cc5_kernel_eq_skeleton]; unfold cc5_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

end Region5

section
variable (V : (c : Dev nD) → (b : Ref sig .tc) → Buf (Elt F) ((c : Thread nD τ).loc b)) (c : Dev nD)

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (w : Fin cfg5.W) : (dat5 V c).A w = V c (Pipeline.arrRef spec5 w) := by
  dsimp only [dat5]

end

section Region5
variable (V : (c : Dev nD) → (b : Ref sig .tc) → Buf (Elt F) ((c : Thread nD τ).loc b))
section
variable (c : Dev nD) (t : Fin cfg5.N)

theorem after5_0 : (dat5 V c).after 0 t = iblk5 V c 0 t := by dsimp only [dat5]
theorem after5_1 : (dat5 V c).after 1 t = iblk5 V c 1 t := by dsimp only [dat5]
theorem after5_2 : (dat5 V c).after 2 t = out5_2 (iblk5 V c 0 t) (iblk5 V c 1 t) := by dsimp only [dat5]

theorem before5_0 (d) : (dat5 V c).before 0 t d = iblk5 V c 0 t :=
  before5_0_of V (dat5 V c) (A_eq5 V c 0) (after5_0 V c) t d
theorem before5_1 (d) : (dat5 V c).before 1 t d = iblk5 V c 1 t :=
  before5_1_of V (dat5 V c) (A_eq5 V c 1) (after5_1 V c) t d

theorem arrAt5_in (w : Fin cfg5.W) (hw : (cfg5.win w).isOut = false) (n : ℕ) :
    (dat5 V c).arrAt w n = V c (Pipeline.arrRef spec5 w) :=
  ((dat5 V c).arrAt_in w hw n).trans (A_eq5 V c w)
def bodyPre5 : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Region5
section
variable (V : (c : Dev nD) → (b : Ref sig .tc) → Buf (Elt F) ((c : Thread nD τ).loc b)) (c : Dev nD)

theorem body_obligation5 : BodyObligation (dat5 (F := F) V c) (defs₀ (F := F)) Variants.none () Set.univ := fun t => by
  rw [bigSep_W5, bigSep_W5]
  exact sound_body5 V c t

theorem hin5 : (iprop((∃ r, prngReg c r) ∗ Pipeline.scopedRest spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp

theorem hout5 : (dat5 V c).Φ (Fin.last cfg5.N) ⊢ (iprop((∃ r, prngReg c r) ∗ Pipeline.scopedRest spec5 c) : sProp 𝕄) := by
  rw [show (dat5 V c).Φ (Fin.last _) = Pipeline.ΦA spec5 c from rfl]; unfold Pipeline.ΦA
  iintro ⟨Hr, Hp⟩
  isplitl [Hp]; · iexact Hp
  iexact Hr

end

end Cert.KernelIdeal.Hand

end
-- ==== Proof.KI.Fold.lean ====
import proofs.«418912_j86466281603780_3_alg».proof.Proof.Gen.KernelIdeal.Regions
import proofs.«418912_j86466281603780_3_alg».proof.Proof.KI.Reg0
import proofs.«418912_j86466281603780_3_alg».proof.Proof.KI.Reg1Dat
import proofs.«418912_j86466281603780_3_alg».proof.Proof.KI.Reg2
import proofs.«418912_j86466281603780_3_alg».proof.Proof.KI.Reg3Dat
import proofs.«418912_j86466281603780_3_alg».proof.Proof.KI.Reg4
import proofs.«418912_j86466281603780_3_alg».proof.Proof.KI.Reg5

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ)

variable (c : Dev nD) (r : Ref sig .tc)

abbrev atTc (W : Dev nD → Valuation τ sig (Elt F)) : (c : Dev nD) → (b : Ref sig .tc) → Buf (Elt F) ((c : Thread nD τ).loc b) := fun c b => W c b

abbrev U3 : Valuation τ sig (Elt F) := Gen.V3 m c

def U4 : Valuation τ sig (Elt F) :=
  Function.update (U3 m c) main_v30 ((dat0 (atTc (U3 m)) c).arrAt 2 cfg0.N)

abbrev U5 : Valuation τ sig (Elt F) := StableHlo.after hostOps1 (U4 m c)

def U6 : Valuation τ sig (Elt F) :=
  Function.update (Function.update (Function.update (U5 m c) main_v45_0 ((dat1 (atTc (U5 m)) c).arrAt 2 cfg1.N))
    main_v45_1 ((dat1 (atTc (U5 m)) c).arrAt 3 cfg1.N)) main_v45_2 ((dat1 (atTc (U5 m)) c).arrAt 4 cfg1.N)

abbrev U7 : Valuation τ sig (Elt F) := StableHlo.after hostOps2 (U6 m c)

def U8 : Valuation τ sig (Elt F) :=
  Function.update (U7 m c) main_v48 ((dat2 (atTc (U7 m)) c).arrAt 6 cfg2.N)

abbrev U9 : Valuation τ sig (Elt F) := StableHlo.after hostOps3 (U8 m c)

def U10 : Valuation τ sig (Elt F) :=
  Function.update (Function.update (Function.update (U9 m c) main_v63_0 ((dat3 (atTc (U9 m)) c).arrAt 2 cfg3.N))
    main_v63_1 ((dat3 (atTc (U9 m)) c).arrAt 3 cfg3.N)) main_v63_2 ((dat3 (atTc (U9 m)) c).arrAt 4 cfg3.N)

abbrev U11 : Valuation τ sig (Elt F) := StableHlo.after hostOps4 (U10 m c)

def U12 : Valuation τ sig (Elt F) :=
  Function.update (U11 m c) main_v66 ((dat4 (atTc (U11 m)) c).arrAt 6 cfg4.N)

abbrev U13 : Valuation τ sig (Elt F) := StableHlo.after hostOps5 (U12 m c)

def U14 : Valuation τ sig (Elt F) :=
  Function.update (U13 m c) main_v81 ((dat5 (atTc (U13 m)) c).arrAt 2 cfg5.N)

def outsU : Gen.Outs (F := F) := fun J r c =>
  match J with
  | 4 => U4 m c r
  | 6 => U6 m c r
  | 8 => U8 m c r
  | 10 => U10 m c r
  | 12 => U12 m c r
  | _ => U14 m c r

theorem U4_v30 : U4 m c main_v30 = (dat0 (atTc (U3 m)) c).arrAt 2 cfg0.N := by
  unfold U4; exact Function.update_self ..
theorem U6_v45_2 : U6 m c main_v45_2 = (dat1 (atTc (U5 m)) c).arrAt 4 cfg1.N := by
  unfold U6; exact Function.update_self ..
theorem U6_v45_1 : U6 m c main_v45_1 = (dat1 (atTc (U5 m)) c).arrAt 3 cfg1.N := by
  unfold U6
  rw [Function.update_of_ne (StableHlo.devRef_ne_of_ne (by decide) : (Proc.devRef .tc main_v45_1 : DevRef τ sig) ≠ Proc.devRef .tc main_v45_2)]
  exact Function.update_self ..
theorem U6_v45_0 : U6 m c main_v45_0 = (dat1 (atTc (U5 m)) c).arrAt 2 cfg1.N := by
  unfold U6
  rw [Function.update_of_ne (StableHlo.devRef_ne_of_ne (by decide) : (Proc.devRef .tc main_v45_0 : DevRef τ sig) ≠ Proc.devRef .tc main_v45_2),
    Function.update_of_ne (StableHlo.devRef_ne_of_ne (by decide) : (Proc.devRef .tc main_v45_0 : DevRef τ sig) ≠ Proc.devRef .tc main_v45_1)]
  exact Function.update_self ..
theorem U8_v48 : U8 m c main_v48 = (dat2 (atTc (U7 m)) c).arrAt 6 cfg2.N := by
  unfold U8; exact Function.update_self ..
theorem U10_v63_2 : U10 m c main_v63_2 = (dat3 (atTc (U9 m)) c).arrAt 4 cfg3.N := by
  unfold U10; exact Function.update_self ..
theorem U10_v63_1 : U10 m c main_v63_1 = (dat3 (atTc (U9 m)) c).arrAt 3 cfg3.N := by
  unfold U10
  rw [Function.update_of_ne (StableHlo.devRef_ne_of_ne (by decide) : (Proc.devRef .tc main_v63_1 : DevRef τ sig) ≠ Proc.devRef .tc main_v63_2)]
  exact Function.update_self ..
theorem U10_v63_0 : U10 m c main_v63_0 = (dat3 (atTc (U9 m)) c).arrAt 2 cfg3.N := by
  unfold U10
  rw [Function.update_of_ne (StableHlo.devRef_ne_of_ne (by decide) : (Proc.devRef .tc main_v63_0 : DevRef τ sig) ≠ Proc.devRef .tc main_v63_2),
    Function.update_of_ne (StableHlo.devRef_ne_of_ne (by decide) : (Proc.devRef .tc main_v63_0 : DevRef τ sig) ≠ Proc.devRef .tc main_v63_1)]
  exact Function.update_self ..
theorem U12_v66 : U12 m c main_v66 = (dat4 (atTc (U11 m)) c).arrAt 6 cfg4.N := by
  unfold U12; exact Function.update_self ..
theorem U14_v81 : U14 m c main_v81 = (dat5 (atTc (U13 m)) c).arrAt 2 cfg5.N := by
  unfold U14; exact Function.update_self ..

theorem V4_eq : Gen.V4 m (outsU m) c = U4 m c := by
  show Function.update (U3 m c) main_v30 (U4 m c main_v30) = U4 m c
  rw [U4_v30]; rfl
theorem V5_eq : Gen.V5 m (outsU m) c = U5 m c := by
  show StableHlo.after hostOps1 (Gen.V4 m (outsU m) c) = _; rw [V4_eq]
theorem V6_eq : Gen.V6 m (outsU m) c = U6 m c := by
  show Function.update (Function.update (Function.update (Gen.V5 m (outsU m) c) main_v45_0 (U6 m c main_v45_0)) main_v45_1 (U6 m c main_v45_1)) main_v45_2 (U6 m c main_v45_2) = U6 m c
  rw [V5_eq, U6_v45_0, U6_v45_1, U6_v45_2]; rfl
theorem V7_eq : Gen.V7 m (outsU m) c = U7 m c := by
  show StableHlo.after hostOps2 (Gen.V6 m (outsU m) c) = _; rw [V6_eq]
theorem V8_eq : Gen.V8 m (outsU m) c = U8 m c := by
  show Function.update (Gen.V7 m (outsU m) c) main_v48 (U8 m c main_v48) = U8 m c
  rw [V7_eq, U8_v48]; rfl
theorem V9_eq : Gen.V9 m (outsU m) c = U9 m c := by
  show StableHlo.after hostOps3 (Gen.V8 m (outsU m) c) = _; rw [V8_eq]
theorem V10_eq : Gen.V10 m (outsU m) c = U10 m c := by
  show Function.update (Function.update (Function.update (Gen.V9 m (outsU m) c) main_v63_0 (U10 m c main_v63_0)) main_v63_1 (U10 m c main_v63_1)) main_v63_2 (U10 m c main_v63_2) = U10 m c
  rw [V9_eq, U10_v63_0, U10_v63_1, U10_v63_2]; rfl
theorem V11_eq : Gen.V11 m (outsU m) c = U11 m c := by
  show StableHlo.after hostOps4 (Gen.V10 m (outsU m) c) = _; rw [V10_eq]
theorem V12_eq : Gen.V12 m (outsU m) c = U12 m c := by
  show Function.update (Gen.V11 m (outsU m) c) main_v66 (U12 m c main_v66) = U12 m c
  rw [V11_eq, U12_v66]; rfl
theorem V13_eq : Gen.V13 m (outsU m) c = U13 m c := by
  show StableHlo.after hostOps5 (Gen.V12 m (outsU m) c) = _; rw [V12_eq]
theorem V14_eq : Gen.V14 m (outsU m) c = U14 m c := by
  show Function.update (Gen.V13 m (outsU m) c) main_v81 (U14 m c main_v81) = U14 m c
  rw [V13_eq, U14_v81]; rfl

theorem U4_of (h : r ∉ ([main_v30] : List (Ref sig .tc))) : U4 m c r = U3 m c r :=
  (congrFun (V4_eq m c) _).symm.trans (Gen.V4_of m (outsU m) c r h)
theorem U5_of (h : r ∉ hostOps1_W) : U5 m c r = U4 m c r :=
  StableHlo.after_of_writes_sub hostOps1 _ hostOps1_writes h
theorem U6_of (h : r ∉ ([main_v45_0, main_v45_1, main_v45_2] : List (Ref sig .tc))) : U6 m c r = U5 m c r :=
  (congrFun (V6_eq m c) _).symm.trans ((Gen.V6_of m (outsU m) c r h).trans (congrFun (V5_eq m c) _))
theorem U7_of (h : r ∉ hostOps2_W) : U7 m c r = U6 m c r :=
  StableHlo.after_of_writes_sub hostOps2 _ hostOps2_writes h
theorem U8_of (h : r ∉ ([main_v48] : List (Ref sig .tc))) : U8 m c r = U7 m c r :=
  (congrFun (V8_eq m c) _).symm.trans ((Gen.V8_of m (outsU m) c r h).trans (congrFun (V7_eq m c) _))
theorem U9_of (h : r ∉ hostOps3_W) : U9 m c r = U8 m c r :=
  StableHlo.after_of_writes_sub hostOps3 _ hostOps3_writes h
theorem U10_of (h : r ∉ ([main_v63_0, main_v63_1, main_v63_2] : List (Ref sig .tc))) : U10 m c r = U9 m c r :=
  (congrFun (V10_eq m c) _).symm.trans ((Gen.V10_of m (outsU m) c r h).trans (congrFun (V9_eq m c) _))
theorem U11_of (h : r ∉ hostOps4_W) : U11 m c r = U10 m c r :=
  StableHlo.after_of_writes_sub hostOps4 _ hostOps4_writes h
theorem U12_of (h : r ∉ ([main_v66] : List (Ref sig .tc))) : U12 m c r = U11 m c r :=
  (congrFun (V12_eq m c) _).symm.trans ((Gen.V12_of m (outsU m) c r h).trans (congrFun (V11_eq m c) _))
theorem U14_of (h : r ∉ ([main_v81] : List (Ref sig .tc))) : U14 m c r = U13 m c r :=
  (congrFun (V14_eq m c) _).symm.trans ((Gen.V14_of m (outsU m) c r h).trans (congrFun (V13_eq m c) _))

theorem U3_of (h0 : r ∉ hostOps0_W) (h1 : r ∉ hostOps0_1_W) (h2 : r ∉ hostOps0_2_W) :
    U3 m c r = m ((c : Thread nD τ).loc r) :=
  (Gen.V3_of m c r h2).trans ((Gen.V2_of m c r h1).trans ((Gen.V1_of m c r h0).trans rfl))

end Cert.KernelIdeal.Hand

end
-- ==== Proof.KI.Reg1Run.lean ====
import proofs.«418912_j86466281603780_3_alg».proof.Proof.Gen.KernelIdeal.Launch
import proofs.«418912_j86466281603780_3_alg».proof.Proof.Gen.KernelIdeal.Skeleton
import proofs.«418912_j86466281603780_3_alg».proof.Proof.Gen.KernelIdeal.Points
import proofs.«418912_j86466281603780_3_alg».proof.Proof.KI.Reg1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg1 : Memref sig .tc .vmem S1000x256 .f32) (harg1 : arg1.IsWhole) (arg2 : Memref sig .tc .vmem S1x256 .f32) (harg2 : arg2.IsWhole) (arg3 : Memref sig .tc .vmem S1000x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)

set_option maxHeartbeats 4000000 in
noncomputable def kernelRun1_A (hc0 : cond1_0 i) (hc1 : ¬cond1_1 i)
    (x0 : Vec F S1000x256 .f32) (x1 : Vec F S1x256 .f32) :
    Σ' (L2 : List (View.Piece (Elt F) S1000x256 .f32)) (LS0 : List (View.Piece (Elt F) S1x256 .f32)), { LS1 : List (View.Piece (Elt F) S1x256 .f32) //
      ∀ (xi3 : Vec F S1x256 .f32) (xi4 : Vec F S1x256 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7) K } := by
  refine ⟨?_, ?_, ?_, fun xi3 xi4 E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
noncomputable def kernelRun1_B (hc0 : ¬cond1_0 i) (hc1 : ¬cond1_1 i)
    (x0 : Vec F S1000x256 .f32) (x1 : Vec F S1x256 .f32) (xs0 : Vec F S1x256 .f32) (xs1 : Vec F S1x256 .f32) :
    Σ' (L2 : List (View.Piece (Elt F) S1000x256 .f32)) (LS0 : List (View.Piece (Elt F) S1x256 .f32)), { LS1 : List (View.Piece (Elt F) S1x256 .f32) //
      ∀ (xi3 : Vec F S1x256 .f32) (xi4 : Vec F S1x256 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7) K } := by
  refine ⟨?_, ?_, ?_, fun xi3 xi4 E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
noncomputable def kernelRun1_C (hc0 : ¬cond1_0 i) (hc1 : cond1_1 i)
    (x0 : Vec F S1000x256 .f32) (x1 : Vec F S1x256 .f32) (xs0 : Vec F S1x256 .f32) (xs1 : Vec F S1x256 .f32) :
    Σ' (L2 : List (View.Piece (Elt F) S1000x256 .f32)) (L3 : List (View.Piece (Elt F) S1x256 .f32)) (L4 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7) K } := by
  refine ⟨?_, ?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.KI.Reg1.lean ====
import proofs.«418912_j86466281603780_3_alg».proof.Proof.Gen.KernelIdeal.Launch
import proofs.«418912_j86466281603780_3_alg».proof.Proof.Gen.KernelIdeal.Skeleton
import proofs.«418912_j86466281603780_3_alg».proof.Proof.Gen.KernelIdeal.Points
import proofs.«418912_j86466281603780_3_alg».proof.Proof.KI.Reg1Dat
import proofs.«418912_j86466281603780_3_alg».proof.Proof.KI.Reg1Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (i : grid1.Coords) (arg1 : Memref sig .tc .vmem S1000x256 .f32) (harg1 : arg1.IsWhole) (arg2 : Memref sig .tc .vmem S1x256 .f32) (harg2 : arg2.IsWhole) (arg3 : Memref sig .tc .vmem S1000x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond1_0 i) (hc1 : ¬cond1_1 i) (x0 : Vec F S1000x256 .f32) (x1 : Vec F S1x256 .f32) (xs0 : Vec F S1x256 .f32) (xs1 : Vec F S1x256 .f32) (y : S1x256.Idx) (t : Fin cfg1.N)

theorem hz1 : (![0, 0] : Fin 2 → Nat) = fun _ => 0 := funext fun a => by fin_cases a <;> rfl

theorem left1_A_2 (hc0 : cond1_0 i) (hc1 : ¬cond1_1 i) (x0 : Vec F S1000x256 .f32) (x1 : Vec F S1x256 .f32) (f) : arg3.view.read (Elt F) (arg3.view.writes (Elt F) f (kernelRun1_A c i arg1 harg1 arg2 harg2 arg3 harg3 arg4 harg4 arg5 harg5 arg6 harg6 arg7 harg7 hc0 hc1 x0 x1).1) = k1_pay3 x0 x1 :=
  (View.read_writes_eq_canon _ f _ (View.cover_of_tiledL _ S1000x256.size (by sl_kernel_rfl))).trans (by
    unfold kernelRun1_A; dsimp only; try sl_unfold_words
    rw [View.canon_unit_zero hz1]
    simp only [View.readAt_eq_ld, harg1.read_unread, harg2.read_unread, View.ld_unit_zero (S := S1000x256) hz1, View.ld_unit_zero (S := S1x256) hz1])

theorem left1_A_s0 (hc0 : cond1_0 i) (hc1 : ¬cond1_1 i) (x0 : Vec F S1000x256 .f32) (x1 : Vec F S1x256 .f32) (f) : arg6.view.read (Elt F) (arg6.view.writes (Elt F) f (kernelRun1_A c i arg1 harg1 arg2 harg2 arg3 harg3 arg4 harg4 arg5 harg5 arg6 harg6 arg7 harg7 hc0 hc1 x0 x1).2.1) = k1_pay4 x0 x1 k1_pay1 :=
  (View.read_writes_eq_canon _ f _ (View.cover_of_tiledL _ S1x256.size (by sl_kernel_rfl))).trans (by
    unfold kernelRun1_A; dsimp only; try sl_unfold_words
    rw [View.canon_cons_unit_zero (S := S1x256) hz1, View.readCov_unit_zero (S := S1x256) _ hz1]
    simp only [View.readAt_eq_ld, harg1.read_unread, harg2.read_unread, View.ld_unit_zero (S := S1000x256) hz1, View.ld_unit_zero (S := S1x256) hz1])

theorem left1_A_s1 (hc0 : cond1_0 i) (hc1 : ¬cond1_1 i) (x0 : Vec F S1000x256 .f32) (x1 : Vec F S1x256 .f32) (f) : arg7.view.read (Elt F) (arg7.view.writes (Elt F) f (kernelRun1_A c i arg1 harg1 arg2 harg2 arg3 harg3 arg4 harg4 arg5 harg5 arg6 harg6 arg7 harg7 hc0 hc1 x0 x1).2.2.1) = k1_pay5 x0 x1 k1_pay2 :=
  (View.read_writes_eq_canon _ f _ (View.cover_of_tiledL _ S1x256.size (by sl_kernel_rfl))).trans (by
    unfold kernelRun1_A; dsimp only; try sl_unfold_words
    rw [View.canon_cons_unit_zero (S := S1x256) hz1, View.readCov_unit_zero (S := S1x256) _ hz1]
    simp only [View.readAt_eq_ld, harg1.read_unread, harg2.read_unread, View.ld_unit_zero (S := S1000x256) hz1, View.ld_unit_zero (S := S1x256) hz1])

theorem left1_B_2 (f) : arg3.view.read (Elt F) (arg3.view.writes (Elt F) f (kernelRun1_B c i arg1 harg1 arg2 harg2 arg3 harg3 arg4 harg4 arg5 harg5 arg6 harg6 arg7 harg7 hc0 hc1 x0 x1 xs0 xs1).1) = k1_pay3 x0 x1 :=
  (View.read_writes_eq_canon _ f _ (View.cover_of_tiledL _ S1000x256.size (by sl_kernel_rfl))).trans (by
    unfold kernelRun1_B; dsimp only; try sl_unfold_words
    rw [View.canon_unit_zero hz1]
    simp only [View.readAt_eq_ld, harg1.read_unread, harg2.read_unread, View.ld_unit_zero (S := S1000x256) hz1, View.ld_unit_zero (S := S1x256) hz1])

theorem left1_B_s0 (f) : arg6.view.read (Elt F) (arg6.view.writes (Elt F) f (kernelRun1_B c i arg1 harg1 arg2 harg2 arg3 harg3 arg4 harg4 arg5 harg5 arg6 harg6 arg7 harg7 hc0 hc1 x0 x1 xs0 xs1).2.1) = k1_pay4 x0 x1 xs0 :=
  (View.read_writes_eq_canon _ f _ (View.cover_of_tiledL _ S1x256.size (by sl_kernel_rfl))).trans (by
    unfold kernelRun1_B; dsimp only; try sl_unfold_words
    rw [View.canon_unit_zero hz1]
    simp only [View.readAt_eq_ld, harg1.read_unread, harg2.read_unread, harg6.read_unread, View.ld_unit_zero (S := S1000x256) hz1, View.ld_unit_zero (S := S1x256) hz1])

theorem left1_B_s1 (f) : arg7.view.read (Elt F) (arg7.view.writes (Elt F) f (kernelRun1_B c i arg1 harg1 arg2 harg2 arg3 harg3 arg4 harg4 arg5 harg5 arg6 harg6 arg7 harg7 hc0 hc1 x0 x1 xs0 xs1).2.2.1) = k1_pay5 x0 x1 xs1 :=
  (View.read_writes_eq_canon _ f _ (View.cover_of_tiledL _ S1x256.size (by sl_kernel_rfl))).trans (by
    unfold kernelRun1_B; dsimp only; try sl_unfold_words
    rw [View.canon_unit_zero hz1]
    simp only [View.readAt_eq_ld, harg1.read_unread, harg2.read_unread, harg7.read_unread, View.ld_unit_zero (S := S1000x256) hz1, View.ld_unit_zero (S := S1x256) hz1])

theorem left1_C_2 (hc1 : cond1_1 i) (x0 : Vec F S1000x256 .f32) (x1 : Vec F S1x256 .f32) (xs0 : Vec F S1x256 .f32) (xs1 : Vec F S1x256 .f32) (f) : arg3.view.read (Elt F) (arg3.view.writes (Elt F) f (kernelRun1_C c i arg1 harg1 arg2 harg2 arg3 harg3 arg4 harg4 arg5 harg5 arg6 harg6 arg7 harg7 hc0 hc1 x0 x1 xs0 xs1).1) = k1_pay3 x0 x1 :=
  (View.read_writes_eq_canon _ f _ (View.cover_of_tiledL _ S1000x256.size (by sl_kernel_rfl))).trans (by
    unfold kernelRun1_C; dsimp only; try sl_unfold_words
    rw [View.canon_unit_zero hz1]
    simp only [View.readAt_eq_ld, harg1.read_unread, harg2.read_unread, View.ld_unit_zero (S := S1000x256) hz1, View.ld_unit_zero (S := S1x256) hz1])

theorem left1_C_s0 (hc1 : cond1_1 i) (x0 : Vec F S1000x256 .f32) (x1 : Vec F S1x256 .f32) (xs0 : Vec F S1x256 .f32) (xs1 : Vec F S1x256 .f32) (f) : arg6.view.read (Elt F) (arg6.view.writes (Elt F) f (kernelRun1_C c i arg1 harg1 arg2 harg2 arg3 harg3 arg4 harg4 arg5 harg5 arg6 harg6 arg7 harg7 hc0 hc1 x0 x1 xs0 xs1).2.2.2.1) = k1_pay4 x0 x1 xs0 :=
  (View.read_writes_eq_canon _ f _ (View.cover_of_tiledL _ S1x256.size (by sl_kernel_rfl))).trans (by
    unfold kernelRun1_C; dsimp only; try sl_unfold_words
    rw [View.canon_unit_zero hz1]
    simp only [View.readAt_eq_ld, harg1.read_unread, harg2.read_unread, harg6.read_unread, View.ld_unit_zero (S := S1000x256) hz1, View.ld_unit_zero (S := S1x256) hz1])

theorem left1_C_s1 (hc1 : cond1_1 i) (x0 : Vec F S1000x256 .f32) (x1 : Vec F S1x256 .f32) (xs0 : Vec F S1x256 .f32) (xs1 : Vec F S1x256 .f32) (f) : arg7.view.read (Elt F) (arg7.view.writes (Elt F) f (kernelRun1_C c i arg1 harg1 arg2 harg2 arg3 harg3 arg4 harg4 arg5 harg5 arg6 harg6 arg7 harg7 hc0 hc1 x0 x1 xs0 xs1).2.2.2.2.1) = k1_pay5 x0 x1 xs1 :=
  (View.read_writes_eq_canon _ f _ (View.cover_of_tiledL _ S1x256.size (by sl_kernel_rfl))).trans (by
    unfold kernelRun1_C; dsimp only; try sl_unfold_words
    rw [View.canon_unit_zero hz1]
    simp only [View.readAt_eq_ld, harg1.read_unread, harg2.read_unread, harg7.read_unread, View.ld_unit_zero (S := S1000x256) hz1, View.ld_unit_zero (S := S1x256) hz1])

theorem left1_C_3 (hc1 : cond1_1 i) (x0 : Vec F S1000x256 .f32) (x1 : Vec F S1x256 .f32) (xs0 : Vec F S1x256 .f32) (xs1 : Vec F S1x256 .f32) (f) : arg4.view.read (Elt F) (arg4.view.writes (Elt F) f (kernelRun1_C c i arg1 harg1 arg2 harg2 arg3 harg3 arg4 harg4 arg5 harg5 arg6 harg6 arg7 harg7 hc0 hc1 x0 x1 xs0 xs1).2.1) = k1_pay6 (k1_pay4 x0 x1 xs0) :=
  (View.read_writes_eq_canon _ f _ (View.cover_of_tiledL _ S1x256.size (by sl_kernel_rfl))).trans (by
    unfold kernelRun1_C; dsimp only; try sl_unfold_words
    rw [View.canon_unit_zero hz1, View.readCov_unit_zero (S := S1x256) _ hz1]
    simp only [View.readAt_eq_ld, harg1.read_unread, harg2.read_unread, harg6.read_unread, View.ld_unit_zero (S := S1000x256) hz1, View.ld_unit_zero (S := S1x256) hz1])

theorem left1_C_4 (hc1 : cond1_1 i) (x0 : Vec F S1000x256 .f32) (x1 : Vec F S1x256 .f32) (xs0 : Vec F S1x256 .f32) (xs1 : Vec F S1x256 .f32) (f) : arg5.view.read (Elt F) (arg5.view.writes (Elt F) f (kernelRun1_C c i arg1 harg1 arg2 harg2 arg3 harg3 arg4 harg4 arg5 harg5 arg6 harg6 arg7 harg7 hc0 hc1 x0 x1 xs0 xs1).2.2.1) = k1_pay7 (k1_pay4 x0 x1 xs0) (k1_pay5 x0 x1 xs1) :=
  (View.read_writes_eq_canon _ f _ (View.cover_of_tiledL _ S1x256.size (by sl_kernel_rfl))).trans (by
    unfold kernelRun1_C; dsimp only; try sl_unfold_words
    rw [View.canon_unit_zero hz1, View.readCov_unit_zero (S := S1x256) _ hz1, View.readCov_unit_zero (S := S1x256) _ hz1]
    simp only [View.readAt_eq_ld, harg1.read_unread, harg2.read_unread, harg6.read_unread, harg7.read_unread, View.ld_unit_zero (S := S1000x256) hz1, View.ld_unit_zero (S := S1x256) hz1])

def bodyPre1 : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi1_castSucc, Phi1_succ', Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 50 := lt_of_lt_of_eq t.isLt (show cfg1.N = 50 from N_1)
  by_cases h0 : t.val % 50 = 0
  · have h1 : ¬t.val % 50 = 49 := by omega
    have hz : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1), Dat.leavesExact_idle (dat1 V c) 4 t (idleAt1_4 t hc1) (noFlush1_4 t hc1)]
    rw [acc1_0_succ V c t, acc1_1_succ V c t]
    rw [Phi1_zero V c _ hz, scopedRest1_owns]
    rw [show acc1_0 V c t.val = k1_pay1 from by rw [hz]; rfl, show acc1_1 V c t.val = k1_pay2 from by rw [hz]; rfl]
    iintro ⟨⟨Hg, ⟨HS0, HS1⟩, Hrest⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ _ _ hc0 hc1 (xblk1 V c t) (bblk1 V c t)).2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [Hg HS0 HS1 Hrest]
    · isplitl [Hg]; · iexact Hg
      isplitr [Hrest]
      · isplitl [HS0]
        · unfold owns; iexists _; isplitr
          swap; · iexact HS0
          ipureintro; exact left1_A_s0 _ _ _ _ _ _ _ _ _ _ _ _ _ _ _ _ _ _ _ _ _
        · unfold owns; iexists _; isplitr
          swap; · iexact HS1
          ipureintro; exact left1_A_s1 _ _ _ _ _ _ _ _ _ _ _ _ _ _ _ _ _ _ _ _ _
      · iexact Hrest
    isplitl [Ho]; · iexact Ho
    isplitl [H0]; · iexact H0
    isplitl [H1]; · iexact H1
    isplitl [H2]
    · unfold owns; iexists _; isplitr
      swap; · iexact H2
      ipureintro; exact left1_A_2 _ _ _ _ _ _ _ _ _ _ _ _ _ _ _ _ _ _ _ _ _
    isplitl [H3]; · iexists _; iexact H3
    iexists _; iexact H4
  · by_cases h1 : t.val % 50 = 49
    ·
      have hz : t.val ≠ 0 := by omega
      have hc0 : ¬cond1_0 (grid1.coords t) := fun h => h0 ((hcond1_0 t).mp h)
      have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      rw [show (dat1 V c).leavesExact 4 t = owns (c : Thread nD τ) (st1_4 t) fullShare ((dat1 V c).after 4 t) from by
        unfold Dat.leavesExact; rw [liveAt1_4 t hc1], after1_4]
      rw [acc1_0_succ V c t, acc1_1_succ V c t]
      rw [Phi1_pos V c _ hz]
      iintro ⟨⟨Hg, ⟨HS0, HS1⟩, Hrest⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ hc0 hc1 (xblk1 V c t) (bblk1 V c t) (acc1_0 V c t.val) (acc1_1 V c t.val)).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [Hg HS0 HS1 Hrest]
      · isplitl [Hg]; · iexact Hg
        isplitr [Hrest]
        · isplitl [HS0]
          · unfold owns; iexists _; isplitr
            swap; · iexact HS0
            ipureintro; exact left1_C_s0 _ _ _ _ _ _ _ _ _ _ _ _ _ _ _ _ _ _ _ _ _ _ _
          · unfold owns; iexists _; isplitr
            swap; · iexact HS1
            ipureintro; exact left1_C_s1 _ _ _ _ _ _ _ _ _ _ _ _ _ _ _ _ _ _ _ _ _ _ _
        · iexact Hrest
      isplitl [Ho]; · iexact Ho
      isplitl [H0]; · iexact H0
      isplitl [H1]; · iexact H1
      isplitl [H2]
      · unfold owns; iexists _; isplitr
        swap; · iexact H2
        ipureintro; exact left1_C_2 _ _ _ _ _ _ _ _ _ _ _ _ _ _ _ _ _ _ _ _ _ _ _
      isplitl [H3]
      · unfold owns; iexists _; isplitr
        swap; · iexact H3
        ipureintro; exact left1_C_3 _ _ _ _ _ _ _ _ _ _ _ _ _ _ _ _ _ _ _ _ _ _ _
      unfold owns; iexists _; isplitr
      swap; · iexact H4
      ipureintro; exact left1_C_4 _ _ _ _ _ _ _ _ _ _ _ _ _ _ _ _ _ _ _ _ _ _ _
    ·
      have hz : t.val ≠ 0 := by omega
      have hc0 : ¬cond1_0 (grid1.coords t) := fun h => h0 ((hcond1_0 t).mp h)
      have hc1 : ¬cond1_1 (grid1.coords t) := fun h => h1 ((hcond1_1 t).mp h)
      rw [Dat.leavesExact_idle (dat1 V c) 3 t (idleAt1_3 t hc1) (noFlush1_3 t hc1), Dat.leavesExact_idle (dat1 V c) 4 t (idleAt1_4 t hc1) (noFlush1_4 t hc1)]
      rw [acc1_0_succ V c t, acc1_1_succ V c t]
      rw [Phi1_pos V c _ hz]
      iintro ⟨⟨Hg, ⟨HS0, HS1⟩, Hrest⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ hc0 hc1 (xblk1 V c t) (bblk1 V c t) (acc1_0 V c t.val) (acc1_1 V c t.val)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [Hg HS0 HS1 Hrest]
      · isplitl [Hg]; · iexact Hg
        isplitr [Hrest]
        · isplitl [HS0]
          · unfold owns; iexists _; isplitr
            swap; · iexact HS0
            ipureintro; exact left1_B_s0 _ _ _ _ _ _ _ _ _ _ _ _ _ _ _ _ _ _ _ _ _ _ _
          · unfold owns; iexists _; isplitr
            swap; · iexact HS1
            ipureintro; exact left1_B_s1 _ _ _ _ _ _ _ _ _ _ _ _ _ _ _ _ _ _ _ _ _ _ _
        · iexact Hrest
      isplitl [Ho]; · iexact Ho
      isplitl [H0]; · iexact H0
      isplitl [H1]; · iexact H1
      isplitl [H2]
      · unfold owns; iexists _; isplitr
        swap; · iexact H2
        ipureintro; exact left1_B_2 _ _ _ _ _ _ _ _ _ _ _ _ _ _ _ _ _ _ _ _ _ _ _
      isplitl [H3]; · iexists _; iexact H3
      iexists _; iexact H4

theorem body_obligation1 : BodyObligation (dat1 (F := F) V c) (defs₀ (F := F)) Variants.none () Set.univ := fun t => by
  rw [bigSep_W1, bigSep_W1]
  exact sound_body1 V c t

theorem hin1 : (iprop((∃ r, prngReg c r) ∗ Pipeline.scopedRest spec1 c) : sProp 𝕄) ⊢ (dat1 V c).Φ 0 := by
  rw [show (dat1 V c).Φ 0 = Phi1 V c 0 from rfl, Phi1_zero V c 0 rfl]

theorem hout1 : (dat1 V c).Φ (Fin.last cfg1.N) ⊢ (iprop((∃ r, prngReg c r) ∗ Pipeline.scopedRest spec1 c) : sProp 𝕄) := by
  rw [show (dat1 V c).Φ (Fin.last cfg1.N) = Phi1 V c cfg1.N from rfl,
    Phi1_pos V c cfg1.N (by have : cfg1.N = 50 := N_1; omega), scopedRest1_owns]
  iintro ⟨Hg, ⟨HS0, HS1⟩, Hrest⟩
  isplitl [Hg]; · iexact Hg
  isplitr [Hrest]
  · isplitl [HS0]; · iexists _; iexact HS0
    iexists _; iexact HS1
  iexact Hrest

end Cert.KernelIdeal.Hand

end
-- ==== Proof.KI.Reg3Run.lean ====
import proofs.«418912_j86466281603780_3_alg».proof.Proof.Gen.KernelIdeal.Launch
import proofs.«418912_j86466281603780_3_alg».proof.Proof.Gen.KernelIdeal.Skeleton
import proofs.«418912_j86466281603780_3_alg».proof.Proof.Gen.KernelIdeal.Points
import proofs.«418912_j86466281603780_3_alg».proof.Proof.KI.Reg3Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords) (arg1 : Memref sig .tc .vmem S1000x256 .f32) (harg1 : arg1.IsWhole) (arg2 : Memref sig .tc .vmem S1x256 .f32) (harg2 : arg2.IsWhole) (arg3 : Memref sig .tc .vmem S1000x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)

set_option maxHeartbeats 4000000 in
noncomputable def kernelRun3_A (hc0 : cond3_0 i) (hc1 : ¬cond3_1 i)
    (x0 : Vec F S1000x256 .f32) (x1 : Vec F S1x256 .f32) :
    Σ' (L2 : List (View.Piece (Elt F) S1000x256 .f32)) (LS0 : List (View.Piece (Elt F) S1x256 .f32)), { LS1 : List (View.Piece (Elt F) S1x256 .f32) //
      ∀ (xi3 : Vec F S1x256 .f32) (xi4 : Vec F S1x256 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7) K } := by
  refine ⟨?_, ?_, ?_, fun xi3 xi4 E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
noncomputable def kernelRun3_B (hc0 : ¬cond3_0 i) (hc1 : ¬cond3_1 i)
    (x0 : Vec F S1000x256 .f32) (x1 : Vec F S1x256 .f32) (xs0 : Vec F S1x256 .f32) (xs1 : Vec F S1x256 .f32) :
    Σ' (L2 : List (View.Piece (Elt F) S1000x256 .f32)) (LS0 : List (View.Piece (Elt F) S1x256 .f32)), { LS1 : List (View.Piece (Elt F) S1x256 .f32) //
      ∀ (xi3 : Vec F S1x256 .f32) (xi4 : Vec F S1x256 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7) K } := by
  refine ⟨?_, ?_, ?_, fun xi3 xi4 E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
noncomputable def kernelRun3_C (hc0 : ¬cond3_0 i) (hc1 : cond3_1 i)
    (x0 : Vec F S1000x256 .f32) (x1 : Vec F S1x256 .f32) (xs0 : Vec F S1x256 .f32) (xs1 : Vec F S1x256 .f32) :
    Σ' (L2 : List (View.Piece (Elt F) S1000x256 .f32)) (L3 : List (View.Piece (Elt F) S1x256 .f32)) (L4 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7) K } := by
  refine ⟨?_, ?_, ?_, ?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.KI.Reg3.lean ====
import proofs.«418912_j86466281603780_3_alg».proof.Proof.Gen.KernelIdeal.Launch
import proofs.«418912_j86466281603780_3_alg».proof.Proof.Gen.KernelIdeal.Skeleton
import proofs.«418912_j86466281603780_3_alg».proof.Proof.Gen.KernelIdeal.Points
import proofs.«418912_j86466281603780_3_alg».proof.Proof.KI.Reg3Dat
import proofs.«418912_j86466281603780_3_alg».proof.Proof.KI.Reg3Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (i : grid3.Coords) (arg1 : Memref sig .tc .vmem S1000x256 .f32) (harg1 : arg1.IsWhole) (arg2 : Memref sig .tc .vmem S1x256 .f32) (harg2 : arg2.IsWhole) (arg3 : Memref sig .tc .vmem S1000x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond3_0 i) (hc1 : ¬cond3_1 i) (x0 : Vec F S1000x256 .f32) (x1 : Vec F S1x256 .f32) (xs0 : Vec F S1x256 .f32) (xs1 : Vec F S1x256 .f32) (y : S1x256.Idx) (t : Fin cfg3.N)

theorem hz3 : (![0, 0] : Fin 2 → Nat) = fun _ => 0 := funext fun a => by fin_cases a <;> rfl

theorem left3_A_2 (hc0 : cond3_0 i) (hc1 : ¬cond3_1 i) (x0 : Vec F S1000x256 .f32) (x1 : Vec F S1x256 .f32) (f) : arg3.view.read (Elt F) (arg3.view.writes (Elt F) f (kernelRun3_A c i arg1 harg1 arg2 harg2 arg3 harg3 arg4 harg4 arg5 harg5 arg6 harg6 arg7 harg7 hc0 hc1 x0 x1).1) = k3_pay3 x0 x1 :=
  (View.read_writes_eq_canon _ f _ (View.cover_of_tiledL _ S1000x256.size (by sl_kernel_rfl))).trans (by
    unfold kernelRun3_A; dsimp only; try sl_unfold_words
    rw [View.canon_unit_zero hz3]
    simp only [View.readAt_eq_ld, harg1.read_unread, harg2.read_unread, View.ld_unit_zero (S := S1000x256) hz3, View.ld_unit_zero (S := S1x256) hz3])

theorem left3_A_s0 (hc0 : cond3_0 i) (hc1 : ¬cond3_1 i) (x0 : Vec F S1000x256 .f32) (x1 : Vec F S1x256 .f32) (f) : arg6.view.read (Elt F) (arg6.view.writes (Elt F) f (kernelRun3_A c i arg1 harg1 arg2 harg2 arg3 harg3 arg4 harg4 arg5 harg5 arg6 harg6 arg7 harg7 hc0 hc1 x0 x1).2.1) = k3_pay4 x0 x1 k3_pay1 :=
  (View.read_writes_eq_canon _ f _ (View.cover_of_tiledL _ S1x256.size (by sl_kernel_rfl))).trans (by
    unfold kernelRun3_A; dsimp only; try sl_unfold_words
    rw [View.canon_cons_unit_zero (S := S1x256) hz3, View.readCov_unit_zero (S := S1x256) _ hz3]
    simp only [View.readAt_eq_ld, harg1.read_unread, harg2.read_unread, View.ld_unit_zero (S := S1000x256) hz3, View.ld_unit_zero (S := S1x256) hz3])

theorem left3_A_s1 (hc0 : cond3_0 i) (hc1 : ¬cond3_1 i) (x0 : Vec F S1000x256 .f32) (x1 : Vec F S1x256 .f32) (f) : arg7.view.read (Elt F) (arg7.view.writes (Elt F) f (kernelRun3_A c i arg1 harg1 arg2 harg2 arg3 harg3 arg4 harg4 arg5 harg5 arg6 harg6 arg7 harg7 hc0 hc1 x0 x1).2.2.1) = k3_pay5 x0 x1 k3_pay2 :=
  (View.read_writes_eq_canon _ f _ (View.cover_of_tiledL _ S1x256.size (by sl_kernel_rfl))).trans (by
    unfold kernelRun3_A; dsimp only; try sl_unfold_words
    rw [View.canon_cons_unit_zero (S := S1x256) hz3, View.readCov_unit_zero (S := S1x256) _ hz3]
    simp only [View.readAt_eq_ld, harg1.read_unread, harg2.read_unread, View.ld_unit_zero (S := S1000x256) hz3, View.ld_unit_zero (S := S1x256) hz3])

theorem left3_B_2 (f) : arg3.view.read (Elt F) (arg3.view.writes (Elt F) f (kernelRun3_B c i arg1 harg1 arg2 harg2 arg3 harg3 arg4 harg4 arg5 harg5 arg6 harg6 arg7 harg7 hc0 hc1 x0 x1 xs0 xs1).1) = k3_pay3 x0 x1 :=
  (View.read_writes_eq_canon _ f _ (View.cover_of_tiledL _ S1000x256.size (by sl_kernel_rfl))).trans (by
    unfold kernelRun3_B; dsimp only; try sl_unfold_words
    rw [View.canon_unit_zero hz3]
    simp only [View.readAt_eq_ld, harg1.read_unread, harg2.read_unread, View.ld_unit_zero (S := S1000x256) hz3, View.ld_unit_zero (S := S1x256) hz3])

theorem left3_B_s0 (f) : arg6.view.read (Elt F) (arg6.view.writes (Elt F) f (kernelRun3_B c i arg1 harg1 arg2 harg2 arg3 harg3 arg4 harg4 arg5 harg5 arg6 harg6 arg7 harg7 hc0 hc1 x0 x1 xs0 xs1).2.1) = k3_pay4 x0 x1 xs0 :=
  (View.read_writes_eq_canon _ f _ (View.cover_of_tiledL _ S1x256.size (by sl_kernel_rfl))).trans (by
    unfold kernelRun3_B; dsimp only; try sl_unfold_words
    rw [View.canon_unit_zero hz3]
    simp only [View.readAt_eq_ld, harg1.read_unread, harg2.read_unread, harg6.read_unread, View.ld_unit_zero (S := S1000x256) hz3, View.ld_unit_zero (S := S1x256) hz3])

theorem left3_B_s1 (f) : arg7.view.read (Elt F) (arg7.view.writes (Elt F) f (kernelRun3_B c i arg1 harg1 arg2 harg2 arg3 harg3 arg4 harg4 arg5 harg5 arg6 harg6 arg7 harg7 hc0 hc1 x0 x1 xs0 xs1).2.2.1) = k3_pay5 x0 x1 xs1 :=
  (View.read_writes_eq_canon _ f _ (View.cover_of_tiledL _ S1x256.size (by sl_kernel_rfl))).trans (by
    unfold kernelRun3_B; dsimp only; try sl_unfold_words
    rw [View.canon_unit_zero hz3]
    simp only [View.readAt_eq_ld, harg1.read_unread, harg2.read_unread, harg7.read_unread, View.ld_unit_zero (S := S1000x256) hz3, View.ld_unit_zero (S := S1x256) hz3])

theorem left3_C_2 (hc1 : cond3_1 i) (x0 : Vec F S1000x256 .f32) (x1 : Vec F S1x256 .f32) (xs0 : Vec F S1x256 .f32) (xs1 : Vec F S1x256 .f32) (f) : arg3.view.read (Elt F) (arg3.view.writes (Elt F) f (kernelRun3_C c i arg1 harg1 arg2 harg2 arg3 harg3 arg4 harg4 arg5 harg5 arg6 harg6 arg7 harg7 hc0 hc1 x0 x1 xs0 xs1).1) = k3_pay3 x0 x1 :=
  (View.read_writes_eq_canon _ f _ (View.cover_of_tiledL _ S1000x256.size (by sl_kernel_rfl))).trans (by
    unfold kernelRun3_C; dsimp only; try sl_unfold_words
    rw [View.canon_unit_zero hz3]
    simp only [View.readAt_eq_ld, harg1.read_unread, harg2.read_unread, View.ld_unit_zero (S := S1000x256) hz3, View.ld_unit_zero (S := S1x256) hz3])

theorem left3_C_s0 (hc1 : cond3_1 i) (x0 : Vec F S1000x256 .f32) (x1 : Vec F S1x256 .f32) (xs0 : Vec F S1x256 .f32) (xs1 : Vec F S1x256 .f32) (f) : arg6.view.read (Elt F) (arg6.view.writes (Elt F) f (kernelRun3_C c i arg1 harg1 arg2 harg2 arg3 harg3 arg4 harg4 arg5 harg5 arg6 harg6 arg7 harg7 hc0 hc1 x0 x1 xs0 xs1).2.2.2.1) = k3_pay4 x0 x1 xs0 :=
  (View.read_writes_eq_canon _ f _ (View.cover_of_tiledL _ S1x256.size (by sl_kernel_rfl))).trans (by
    unfold kernelRun3_C; dsimp only; try sl_unfold_words
    rw [View.canon_unit_zero hz3]
    simp only [View.readAt_eq_ld, harg1.read_unread, harg2.read_unread, harg6.read_unread, View.ld_unit_zero (S := S1000x256) hz3, View.ld_unit_zero (S := S1x256) hz3])

theorem left3_C_s1 (hc1 : cond3_1 i) (x0 : Vec F S1000x256 .f32) (x1 : Vec F S1x256 .f32) (xs0 : Vec F S1x256 .f32) (xs1 : Vec F S1x256 .f32) (f) : arg7.view.read (Elt F) (arg7.view.writes (Elt F) f (kernelRun3_C c i arg1 harg1 arg2 harg2 arg3 harg3 arg4 harg4 arg5 harg5 arg6 harg6 arg7 harg7 hc0 hc1 x0 x1 xs0 xs1).2.2.2.2.1) = k3_pay5 x0 x1 xs1 :=
  (View.read_writes_eq_canon _ f _ (View.cover_of_tiledL _ S1x256.size (by sl_kernel_rfl))).trans (by
    unfold kernelRun3_C; dsimp only; try sl_unfold_words
    rw [View.canon_unit_zero hz3]
    simp only [View.readAt_eq_ld, harg1.read_unread, harg2.read_unread, harg7.read_unread, View.ld_unit_zero (S := S1000x256) hz3, View.ld_unit_zero (S := S1x256) hz3])

theorem left3_C_3 (hc1 : cond3_1 i) (x0 : Vec F S1000x256 .f32) (x1 : Vec F S1x256 .f32) (xs0 : Vec F S1x256 .f32) (xs1 : Vec F S1x256 .f32) (f) : arg4.view.read (Elt F) (arg4.view.writes (Elt F) f (kernelRun3_C c i arg1 harg1 arg2 harg2 arg3 harg3 arg4 harg4 arg5 harg5 arg6 harg6 arg7 harg7 hc0 hc1 x0 x1 xs0 xs1).2.1) = k3_pay6 (k3_pay4 x0 x1 xs0) :=
  (View.read_writes_eq_canon _ f _ (View.cover_of_tiledL _ S1x256.size (by sl_kernel_rfl))).trans (by
    unfold kernelRun3_C; dsimp only; try sl_unfold_words
    rw [View.canon_unit_zero hz3, View.readCov_unit_zero (S := S1x256) _ hz3]
    simp only [View.readAt_eq_ld, harg1.read_unread, harg2.read_unread, harg6.read_unread, View.ld_unit_zero (S := S1000x256) hz3, View.ld_unit_zero (S := S1x256) hz3])

theorem left3_C_4 (hc1 : cond3_1 i) (x0 : Vec F S1000x256 .f32) (x1 : Vec F S1x256 .f32) (xs0 : Vec F S1x256 .f32) (xs1 : Vec F S1x256 .f32) (f) : arg5.view.read (Elt F) (arg5.view.writes (Elt F) f (kernelRun3_C c i arg1 harg1 arg2 harg2 arg3 harg3 arg4 harg4 arg5 harg5 arg6 harg6 arg7 harg7 hc0 hc1 x0 x1 xs0 xs1).2.2.1) = k3_pay7 (k3_pay4 x0 x1 xs0) (k3_pay5 x0 x1 xs1) :=
  (View.read_writes_eq_canon _ f _ (View.cover_of_tiledL _ S1x256.size (by sl_kernel_rfl))).trans (by
    unfold kernelRun3_C; dsimp only; try sl_unfold_words
    rw [View.canon_unit_zero hz3, View.readCov_unit_zero (S := S1x256) _ hz3, View.readCov_unit_zero (S := S1x256) _ hz3]
    simp only [View.readAt_eq_ld, harg1.read_unread, harg2.read_unread, harg6.read_unread, harg7.read_unread, View.ld_unit_zero (S := S1000x256) hz3, View.ld_unit_zero (S := S1x256) hz3])

def bodyPre3 : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
theorem sound_body3 :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [Phi3_castSucc, Phi3_succ', Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  have hN : t.val < 50 := lt_of_lt_of_eq t.isLt (show cfg3.N = 50 from N_3)
  by_cases h0 : t.val % 50 = 0
  · have h1 : ¬t.val % 50 = 49 := by omega
    have hz : t.val = 0 := by omega
    have hc0 : cond3_0 (grid3.coords t) := (hcond3_0 t).mpr h0
    have hc1 : ¬cond3_1 (grid3.coords t) := fun h => by have := (hcond3_1 t).mp h; omega
    rw [Dat.leavesExact_idle (dat3 V c) 3 t (idleAt3_3 t hc1) (noFlush3_3 t hc1), Dat.leavesExact_idle (dat3 V c) 4 t (idleAt3_4 t hc1) (noFlush3_4 t hc1)]
    rw [acc3_0_succ V c t, acc3_1_succ V c t]
    rw [Phi3_zero V c _ hz, scopedRest3_owns]
    rw [show acc3_0 V c t.val = k3_pay1 from by rw [hz]; rfl, show acc3_1 V c t.val = k3_pay2 from by rw [hz]; rfl]
    iintro ⟨⟨Hg, ⟨HS0, HS1⟩, Hrest⟩, Ho, ⟨%d0, H0⟩, ⟨%d1, H1⟩, ⟨%d2, H2⟩, ⟨%d3, H3⟩, ⟨%d4, H4⟩⟩
    iapply ((kernelRun3_A c (grid3.coords t) _ _ _ _ _ _ _ _ _ _ _ _ _ _ hc0 hc1 (xblk3 V c t) (bblk3 V c t)).2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [Hg HS0 HS1 Hrest]
    · isplitl [Hg]; · iexact Hg
      isplitr [Hrest]
      · isplitl [HS0]
        · unfold owns; iexists _; isplitr
          swap; · iexact HS0
          ipureintro; exact left3_A_s0 _ _ _ _ _ _ _ _ _ _ _ _ _ _ _ _ _ _ _ _ _
        · unfold owns; iexists _; isplitr
          swap; · iexact HS1
          ipureintro; exact left3_A_s1 _ _ _ _ _ _ _ _ _ _ _ _ _ _ _ _ _ _ _ _ _
      · iexact Hrest
    isplitl [Ho]; · iexact Ho
    isplitl [H0]; · iexact H0
    isplitl [H1]; · iexact H1
    isplitl [H2]
    · unfold owns; iexists _; isplitr
      swap; · iexact H2
      ipureintro; exact left3_A_2 _ _ _ _ _ _ _ _ _ _ _ _ _ _ _ _ _ _ _ _ _
    isplitl [H3]; · iexists _; iexact H3
    iexists _; iexact H4
  · by_cases h1 : t.val % 50 = 49
    ·
      have hz : t.val ≠ 0 := by omega
      have hc0 : ¬cond3_0 (grid3.coords t) := fun h => h0 ((hcond3_0 t).mp h)
      have hc1 : cond3_1 (grid3.coords t) := (hcond3_1 t).mpr h1
      rw [show (dat3 V c).leavesExact 3 t = owns (c : Thread nD τ) (st3_3 t) fullShare ((dat3 V c).after 3 t) from by
        unfold Dat.leavesExact; rw [liveAt3_3 t hc1], after3_3]
      rw [show (dat3 V c).leavesExact 4 t = owns (c : Thread nD τ) (st3_4 t) fullShare ((dat3 V c).after 4 t) from by
        unfold Dat.leavesExact; rw [liveAt3_4 t hc1], after3_4]
      rw [acc3_0_succ V c t, acc3_1_succ V c t]
      rw [Phi3_pos V c _ hz]
      iintro ⟨⟨Hg, ⟨HS0, HS1⟩, Hrest⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ _ _ hc0 hc1 (xblk3 V c t) (bblk3 V c t) (acc3_0 V c t.val) (acc3_1 V c t.val)).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [Hg HS0 HS1 Hrest]
      · isplitl [Hg]; · iexact Hg
        isplitr [Hrest]
        · isplitl [HS0]
          · unfold owns; iexists _; isplitr
            swap; · iexact HS0
            ipureintro; exact left3_C_s0 _ _ _ _ _ _ _ _ _ _ _ _ _ _ _ _ _ _ _ _ _ _ _
          · unfold owns; iexists _; isplitr
            swap; · iexact HS1
            ipureintro; exact left3_C_s1 _ _ _ _ _ _ _ _ _ _ _ _ _ _ _ _ _ _ _ _ _ _ _
        · iexact Hrest
      isplitl [Ho]; · iexact Ho
      isplitl [H0]; · iexact H0
      isplitl [H1]; · iexact H1
      isplitl [H2]
      · unfold owns; iexists _; isplitr
        swap; · iexact H2
        ipureintro; exact left3_C_2 _ _ _ _ _ _ _ _ _ _ _ _ _ _ _ _ _ _ _ _ _ _ _
      isplitl [H3]
      · unfold owns; iexists _; isplitr
        swap; · iexact H3
        ipureintro; exact left3_C_3 _ _ _ _ _ _ _ _ _ _ _ _ _ _ _ _ _ _ _ _ _ _ _
      unfold owns; iexists _; isplitr
      swap; · iexact H4
      ipureintro; exact left3_C_4 _ _ _ _ _ _ _ _ _ _ _ _ _ _ _ _ _ _ _ _ _ _ _
    ·
      have hz : t.val ≠ 0 := by omega
      have hc0 : ¬cond3_0 (grid3.coords t) := fun h => h0 ((hcond3_0 t).mp h)
      have hc1 : ¬cond3_1 (grid3.coords t) := fun h => h1 ((hcond3_1 t).mp h)
      rw [Dat.leavesExact_idle (dat3 V c) 3 t (idleAt3_3 t hc1) (noFlush3_3 t hc1), Dat.leavesExact_idle (dat3 V c) 4 t (idleAt3_4 t hc1) (noFlush3_4 t hc1)]
      rw [acc3_0_succ V c t, acc3_1_succ V c t]
      rw [Phi3_pos V c _ hz]
      iintro ⟨⟨Hg, ⟨HS0, HS1⟩, Hrest⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ _ _ hc0 hc1 (xblk3 V c t) (bblk3 V c t) (acc3_0 V c t.val) (acc3_1 V c t.val)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [Hg HS0 HS1 Hrest]
      · isplitl [Hg]; · iexact Hg
        isplitr [Hrest]
        · isplitl [HS0]
          · unfold owns; iexists _; isplitr
            swap; · iexact HS0
            ipureintro; exact left3_B_s0 _ _ _ _ _ _ _ _ _ _ _ _ _ _ _ _ _ _ _ _ _ _ _
          · unfold owns; iexists _; isplitr
            swap; · iexact HS1
            ipureintro; exact left3_B_s1 _ _ _ _ _ _ _ _ _ _ _ _ _ _ _ _ _ _ _ _ _ _ _
        · iexact Hrest
      isplitl [Ho]; · iexact Ho
      isplitl [H0]; · iexact H0
      isplitl [H1]; · iexact H1
      isplitl [H2]
      · unfold owns; iexists _; isplitr
        swap; · iexact H2
        ipureintro; exact left3_B_2 _ _ _ _ _ _ _ _ _ _ _ _ _ _ _ _ _ _ _ _ _ _ _
      isplitl [H3]; · iexists _; iexact H3
      iexists _; iexact H4

theorem body_obligation3 : BodyObligation (dat3 (F := F) V c) (defs₀ (F := F)) Variants.none () Set.univ := fun t => by
  rw [bigSep_W3, bigSep_W3]
  exact sound_body3 V c t

theorem hin3 : (iprop((∃ r, prngReg c r) ∗ Pipeline.scopedRest spec3 c) : sProp 𝕄) ⊢ (dat3 V c).Φ 0 := by
  rw [show (dat3 V c).Φ 0 = Phi3 V c 0 from rfl, Phi3_zero V c 0 rfl]

theorem hout3 : (dat3 V c).Φ (Fin.last cfg3.N) ⊢ (iprop((∃ r, prngReg c r) ∗ Pipeline.scopedRest spec3 c) : sProp 𝕄) := by
  rw [show (dat3 V c).Φ (Fin.last cfg3.N) = Phi3 V c cfg3.N from rfl,
    Phi3_pos V c cfg3.N (by have : cfg3.N = 50 := N_3; omega), scopedRest3_owns]
  iintro ⟨Hg, ⟨HS0, HS1⟩, Hrest⟩
  isplitl [Hg]; · iexact Hg
  isplitr [Hrest]
  · isplitl [HS0]; · iexists _; iexact HS0
    iexists _; iexact HS1
  iexact Hrest

end Cert.KernelIdeal.Hand

end
-- ==== Proof.KI.Run.lean ====
import proofs.«418912_j86466281603780_3_alg».proof.Proof.KI.Fold
import proofs.«418912_j86466281603780_3_alg».proof.Proof.KI.Reg1
import proofs.«418912_j86466281603780_3_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

def pdats : (p : Fin 6) → (c : Dev nD) → Dat τ (Elt F) Unit ℕ (UR sig nD τ) ℕ (cfgs p) c
  | ⟨0, _⟩ => fun c => dat0 (atTc (U3 m)) c
  | ⟨1, _⟩ => fun c => dat1 (atTc (U5 m)) c
  | ⟨2, _⟩ => fun c => dat2 (atTc (U7 m)) c
  | ⟨3, _⟩ => fun c => dat3 (atTc (U9 m)) c
  | ⟨4, _⟩ => fun c => dat4 (atTc (U11 m)) c
  | ⟨5, _⟩ => fun c => dat5 (atTc (U13 m)) c

abbrev 𝒱₀ : Variants := Variants.none

abbrev Lh : GSem nD τ sig → Finset Unit := fun _ => ∅
abbrev lvh : GSem nD τ sig → Unit → ℕ := fun _ _ => 0

abbrev rider : sProp 𝕄 := iprop((∃ r, prngReg c r) ∗ ∃ W, owes (c : Thread nD τ) (0 : CellTallies nD τ sig Unit) W)

def Eh : Fin 7 → Dev nD → sProp 𝕄 := fun _ c => rider c

set_option backward.isDefEq.respectTransparency.types false in
/-- One kernel region as a segment between the buffer contents `Ua` before it and `Ub` after it; the six regions are its instances. -/
def regOf (p : Fin 6) (L : Pipeline.LaunchFacts (nD := nD) (τ := τ) cfgs p) (Ua Ub : Dev nD → Valuation τ sig (Elt F))
  (hbody : ∀ c, BodyObligation (pdats m p c) (defs₀ (F := F)) 𝒱₀ () Set.univ)
  (howed : ∀ c t, (pdats m p c).owed t = 0)
  (hq : ∀ c w, (pdats m p c).q w = fullShare)
  (hA : ∀ c w, (pdats m p c).A w = atTc Ua c (Pipeline.arrRef (cfgs p).spec w))
  (hK : IsEmpty (Fin (pcfgs (F := F) p).pre.K))
  (hrec : ∀ c, (pdats m p c).recorded 0 = Set.univ)
  (hin : ∀ c, (iprop((∃ r, prngReg c r) ∗ Pipeline.scopedRest (cfgs p).spec c) : sProp 𝕄) ⊢ (pdats m p c).Φ 0)
  (hout : ∀ c, (pdats m p c).Φ (Fin.last (cfgs p).N) ⊢ (iprop((∃ r, prngReg c r) ∗ Pipeline.scopedRest (cfgs p).spec c) : sProp 𝕄))
  (hF : ∀ c w, (pdats m p c).arrAt w (cfgs p).N = atTc Ub c (Pipeline.arrRef (cfgs p).spec w))
  (hrest : ∀ c b, b ∉ Finset.univ.image (Pipeline.arrRef (cfgs p).spec) → atTc Ub c b = atTc Ua c b) :
    Pipeline.RegionSeg (pcfgs (F := F)) Gen.adm (pdats m) () defs₀ 𝒱₀ Lh lvh p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Lh lvh p howed
  pre c := iprop(StableHlo.held (c : Thread nD τ) (Pipeline.ucRefs τ sig) (Ua c) ∗ rider c)
  post c := iprop(StableHlo.held (c : Thread nD τ) (Pipeline.ucRefs τ sig) (Ub c) ∗ rider c)
  X c := iprop(∃ r, prngReg c r)
  Y c := iprop(∃ r, prngReg c r)
  Z c := Pipeline.unscopedRest (Ix := Unit) (Name := ℕ) (U := UR sig nD τ) (Lvl := ℕ) (cfgs p).spec c (atTc Ua c)
  hentry c := by
    rw [Pipeline.ownSems0_none]
    have hsplit := Pipeline.arrays_of_unscopedBufs (p := p) (pcfgs (F := F)) Gen.adm (pdats m) L.win L.arr_whole c
      ((pdats m p c).share_full (hq c)) (atTc Ua c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c]; trivial)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      L.win L.arr_whole c (pdats m) ((pdats m p c).share_full (hq c))
      (atTc Ua c) (atTc Ub c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

theorem hF0 : ∀ w : Fin cfg0.W, (dat0 (atTc (U3 m)) c).arrAt w cfg0.N = atTc (U4 m) c (Pipeline.arrRef spec0 w)
  | ⟨0, _⟩ => ((arrAt0_in (atTc (U3 m)) c).1).trans (U4_of m c main_arg0 (by decide)).symm
  | ⟨1, _⟩ => ((arrAt0_in (atTc (U3 m)) c).2).trans (U4_of m c main_arg2 (by decide)).symm
  | ⟨2, _⟩ => (U4_v30 m c).symm

theorem hrest0 : ∀ b, b ∉ Finset.univ.image (Pipeline.arrRef spec0) → atTc (U4 m) c b = atTc (U3 m) c b :=
  fun b hb => U4_of m c b fun h => hb (Finset.mem_image.mpr ⟨2, Finset.mem_univ _, (List.mem_singleton.1 h).symm⟩)

set_option backward.isDefEq.respectTransparency.types false in
def reg0 : Pipeline.RegionSeg (pcfgs (F := F)) Gen.adm (pdats m) () defs₀ 𝒱₀ Lh lvh 0 :=
  regOf m 0 launch0 (U3 m) (U4 m) (fun c => body_obligation0 (atTc (U3 m)) c) (fun _ _ => rfl) (fun _ _ => rfl) (fun _ _ => rfl)
    ⟨fun k => k.elim0⟩ (fun _ => rfl) (fun c => hin0 (atTc (U3 m)) c) (fun c => hout0 (atTc (U3 m)) c) (hF0 m) (hrest0 m)

theorem hF1 : ∀ w : Fin cfg1.W, (dat1 (atTc (U5 m)) c).arrAt w cfg1.N = atTc (U6 m) c (Pipeline.arrRef spec1 w)
  | ⟨0, _⟩ => ((arrAt1_in (atTc (U5 m)) c).1).trans (U6_of m c main_v43 (by decide)).symm
  | ⟨1, _⟩ => ((arrAt1_in (atTc (U5 m)) c).2).trans (U6_of m c main_v44 (by decide)).symm
  | ⟨2, _⟩ => (U6_v45_0 m c).symm
  | ⟨3, _⟩ => (U6_v45_1 m c).symm
  | ⟨4, _⟩ => (U6_v45_2 m c).symm

theorem hrest1 : ∀ b, b ∉ Finset.univ.image (Pipeline.arrRef spec1) → atTc (U6 m) c b = atTc (U5 m) c b :=
  fun b hb => U6_of m c b fun h => hb (by
    simp only [List.mem_cons, List.mem_singleton, List.not_mem_nil, or_false] at h
    rcases h with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

set_option backward.isDefEq.respectTransparency.types false in
def reg1 : Pipeline.RegionSeg (pcfgs (F := F)) Gen.adm (pdats m) () defs₀ 𝒱₀ Lh lvh 1 :=
  regOf m 1 launch1 (U5 m) (U6 m) (fun c => body_obligation1 (atTc (U5 m)) c) (fun _ _ => rfl) (fun _ _ => rfl) (fun _ _ => rfl)
    ⟨fun k => k.elim0⟩ (fun _ => rfl) (fun c => hin1 (atTc (U5 m)) c) (fun c => hout1 (atTc (U5 m)) c) (hF1 m) (hrest1 m)

set_option maxHeartbeats 4000000 in
theorem hF2 : ∀ w : Fin cfg2.W, (dat2 (atTc (U7 m)) c).arrAt w cfg2.N = atTc (U8 m) c (Pipeline.arrRef spec2 w)
  | ⟨0, _⟩ => (arrAt2_in (atTc (U7 m)) c 0 rfl cfg2.N).trans (U8_of m c main_v45_0 (by decide)).symm
  | ⟨1, _⟩ => (arrAt2_in (atTc (U7 m)) c 1 rfl cfg2.N).trans (U8_of m c main_arg4 (by decide)).symm
  | ⟨2, _⟩ => (arrAt2_in (atTc (U7 m)) c 2 rfl cfg2.N).trans (U8_of m c main_v45_1 (by decide)).symm
  | ⟨3, _⟩ => (arrAt2_in (atTc (U7 m)) c 3 rfl cfg2.N).trans (U8_of m c main_v45_2 (by decide)).symm
  | ⟨4, _⟩ => (arrAt2_in (atTc (U7 m)) c 4 rfl cfg2.N).trans (U8_of m c main_v46 (by decide)).symm
  | ⟨5, _⟩ => (arrAt2_in (atTc (U7 m)) c 5 rfl cfg2.N).trans (U8_of m c main_v47 (by decide)).symm
  | ⟨6, _⟩ => (U8_v48 m c).symm

theorem hrest2 : ∀ b, b ∉ Finset.univ.image (Pipeline.arrRef spec2) → atTc (U8 m) c b = atTc (U7 m) c b :=
  fun b hb => U8_of m c b fun h => hb (Finset.mem_image.mpr ⟨6, Finset.mem_univ _, (List.mem_singleton.1 h).symm⟩)

set_option backward.isDefEq.respectTransparency.types false in
def reg2 : Pipeline.RegionSeg (pcfgs (F := F)) Gen.adm (pdats m) () defs₀ 𝒱₀ Lh lvh 2 :=
  regOf m 2 launch2 (U7 m) (U8 m) (fun c => body_obligation2 (atTc (U7 m)) c) (fun _ _ => rfl) (fun _ _ => rfl) (fun _ _ => rfl)
    ⟨fun k => k.elim0⟩ (fun _ => rfl) (fun c => hin2 (atTc (U7 m)) c) (fun c => hout2 (atTc (U7 m)) c) (hF2 m) (hrest2 m)

theorem hF3 : ∀ w : Fin cfg3.W, (dat3 (atTc (U9 m)) c).arrAt w cfg3.N = atTc (U10 m) c (Pipeline.arrRef spec3 w)
  | ⟨0, _⟩ => ((arrAt3_in (atTc (U9 m)) c).1).trans (U10_of m c main_v61 (by decide)).symm
  | ⟨1, _⟩ => ((arrAt3_in (atTc (U9 m)) c).2).trans (U10_of m c main_v62 (by decide)).symm
  | ⟨2, _⟩ => (U10_v63_0 m c).symm
  | ⟨3, _⟩ => (U10_v63_1 m c).symm
  | ⟨4, _⟩ => (U10_v63_2 m c).symm

theorem hrest3 : ∀ b, b ∉ Finset.univ.image (Pipeline.arrRef spec3) → atTc (U10 m) c b = atTc (U9 m) c b :=
  fun b hb => U10_of m c b fun h => hb (by
    simp only [List.mem_cons, List.mem_singleton, List.not_mem_nil, or_false] at h
    rcases h with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

set_option backward.isDefEq.respectTransparency.types false in
def reg3 : Pipeline.RegionSeg (pcfgs (F := F)) Gen.adm (pdats m) () defs₀ 𝒱₀ Lh lvh 3 :=
  regOf m 3 launch3 (U9 m) (U10 m) (fun c => body_obligation3 (atTc (U9 m)) c) (fun _ _ => rfl) (fun _ _ => rfl) (fun _ _ => rfl)
    ⟨fun k => k.elim0⟩ (fun _ => rfl) (fun c => hin3 (atTc (U9 m)) c) (fun c => hout3 (atTc (U9 m)) c) (hF3 m) (hrest3 m)

set_option maxHeartbeats 4000000 in
theorem hF4 : ∀ w : Fin cfg4.W, (dat4 (atTc (U11 m)) c).arrAt w cfg4.N = atTc (U12 m) c (Pipeline.arrRef spec4 w)
  | ⟨0, _⟩ => (arrAt4_in (atTc (U11 m)) c 0 rfl cfg4.N).trans (U12_of m c main_v63_0 (by decide)).symm
  | ⟨1, _⟩ => (arrAt4_in (atTc (U11 m)) c 1 rfl cfg4.N).trans (U12_of m c main_arg6 (by decide)).symm
  | ⟨2, _⟩ => (arrAt4_in (atTc (U11 m)) c 2 rfl cfg4.N).trans (U12_of m c main_v63_1 (by decide)).symm
  | ⟨3, _⟩ => (arrAt4_in (atTc (U11 m)) c 3 rfl cfg4.N).trans (U12_of m c main_v63_2 (by decide)).symm
  | ⟨4, _⟩ => (arrAt4_in (atTc (U11 m)) c 4 rfl cfg4.N).trans (U12_of m c main_v64 (by decide)).symm
  | ⟨5, _⟩ => (arrAt4_in (atTc (U11 m)) c 5 rfl cfg4.N).trans (U12_of m c main_v65 (by decide)).symm
  | ⟨6, _⟩ => (U12_v66 m c).symm

theorem hrest4 : ∀ b, b ∉ Finset.univ.image (Pipeline.arrRef spec4) → atTc (U12 m) c b = atTc (U11 m) c b :=
  fun b hb => U12_of m c b fun h => hb (Finset.mem_image.mpr ⟨6, Finset.mem_univ _, (List.mem_singleton.1 h).symm⟩)

set_option backward.isDefEq.respectTransparency.types false in
def reg4 : Pipeline.RegionSeg (pcfgs (F := F)) Gen.adm (pdats m) () defs₀ 𝒱₀ Lh lvh 4 :=
  regOf m 4 launch4 (U11 m) (U12 m) (fun c => body_obligation4 (atTc (U11 m)) c) (fun _ _ => rfl) (fun _ _ => rfl) (fun _ _ => rfl)
    ⟨fun k => k.elim0⟩ (fun _ => rfl) (fun c => hin4 (atTc (U11 m)) c) (fun c => hout4 (atTc (U11 m)) c) (hF4 m) (hrest4 m)

theorem hF5 : ∀ w : Fin cfg5.W, (dat5 (atTc (U13 m)) c).arrAt w cfg5.N = atTc (U14 m) c (Pipeline.arrRef spec5 w)
  | ⟨0, _⟩ => (arrAt5_in (atTc (U13 m)) c 0 rfl cfg5.N).trans (U14_of m c main_v79 (by decide)).symm
  | ⟨1, _⟩ => (arrAt5_in (atTc (U13 m)) c 1 rfl cfg5.N).trans (U14_of m c main_v80 (by decide)).symm
  | ⟨2, _⟩ => (U14_v81 m c).symm

theorem hrest5 : ∀ b, b ∉ Finset.univ.image (Pipeline.arrRef spec5) → atTc (U14 m) c b = atTc (U13 m) c b :=
  fun b hb => U14_of m c b fun h => hb (Finset.mem_image.mpr ⟨2, Finset.mem_univ _, (List.mem_singleton.1 h).symm⟩)

set_option backward.isDefEq.respectTransparency.types false in
def reg5 : Pipeline.RegionSeg (pcfgs (F := F)) Gen.adm (pdats m) () defs₀ 𝒱₀ Lh lvh 5 :=
  regOf m 5 launch5 (U13 m) (U14 m) (fun c => body_obligation5 (atTc (U13 m)) c) (fun _ _ => rfl) (fun _ _ => rfl) (fun _ _ => rfl)
    ⟨fun k => k.elim0⟩ (fun _ => rfl) (fun c => hin5 (atTc (U13 m)) c) (fun c => hout5 (atTc (U13 m)) c) (hF5 m) (hrest5 m)

theorem hpre0 : iprop(StableHlo.held (c : Thread nD τ) (Pipeline.ucRefs τ sig) (Gen.V3 m c) ∗ Eh (F := F) 0 c) ⊢ (reg0 m).pre c := by
  exact .rfl
theorem hpost0 : (reg0 m).post c ⊢ iprop(StableHlo.held (c : Thread nD τ) (Pipeline.ucRefs τ sig) (Gen.V4 m (outsU m) c) ∗ Eh (F := F) 1 c) := by
  rw [V4_eq m c]; exact .rfl
theorem hpre1 : iprop(StableHlo.held (c : Thread nD τ) (Pipeline.ucRefs τ sig) (Gen.V5 m (outsU m) c) ∗ Eh (F := F) 1 c) ⊢ (reg1 m).pre c := by
  rw [V5_eq m c]; exact .rfl
theorem hpost1 : (reg1 m).post c ⊢ iprop(StableHlo.held (c : Thread nD τ) (Pipeline.ucRefs τ sig) (Gen.V6 m (outsU m) c) ∗ Eh (F := F) 2 c) := by
  rw [V6_eq m c]; exact .rfl
theorem hpre2 : iprop(StableHlo.held (c : Thread nD τ) (Pipeline.ucRefs τ sig) (Gen.V7 m (outsU m) c) ∗ Eh (F := F) 2 c) ⊢ (reg2 m).pre c := by
  rw [V7_eq m c]; exact .rfl
theorem hpost2 : (reg2 m).post c ⊢ iprop(StableHlo.held (c : Thread nD τ) (Pipeline.ucRefs τ sig) (Gen.V8 m (outsU m) c) ∗ Eh (F := F) 3 c) := by
  rw [V8_eq m c]; exact .rfl
theorem hpre3 : iprop(StableHlo.held (c : Thread nD τ) (Pipeline.ucRefs τ sig) (Gen.V9 m (outsU m) c) ∗ Eh (F := F) 3 c) ⊢ (reg3 m).pre c := by
  rw [V9_eq m c]; exact .rfl
theorem hpost3 : (reg3 m).post c ⊢ iprop(StableHlo.held (c : Thread nD τ) (Pipeline.ucRefs τ sig) (Gen.V10 m (outsU m) c) ∗ Eh (F := F) 4 c) := by
  rw [V10_eq m c]; exact .rfl
theorem hpre4 : iprop(StableHlo.held (c : Thread nD τ) (Pipeline.ucRefs τ sig) (Gen.V11 m (outsU m) c) ∗ Eh (F := F) 4 c) ⊢ (reg4 m).pre c := by
  rw [V11_eq m c]; exact .rfl
theorem hpost4 : (reg4 m).post c ⊢ iprop(StableHlo.held (c : Thread nD τ) (Pipeline.ucRefs τ sig) (Gen.V12 m (outsU m) c) ∗ Eh (F := F) 5 c) := by
  rw [V12_eq m c]; exact .rfl
theorem hpre5 : iprop(StableHlo.held (c : Thread nD τ) (Pipeline.ucRefs τ sig) (Gen.V13 m (outsU m) c) ∗ Eh (F := F) 5 c) ⊢ (reg5 m).pre c := by
  rw [V13_eq m c]; exact .rfl
theorem hpost5 : (reg5 m).post c ⊢ iprop(StableHlo.held (c : Thread nD τ) (Pipeline.ucRefs τ sig) (Gen.V14 m (outsU m) c) ∗ Eh (F := F) 6 c) := by
  rw [V14_eq m c]; exact .rfl

set_option backward.isDefEq.respectTransparency.types false in
theorem run : θ_run defs (onTc (τ := τ) (main (F := F))) ⟨m, fun _ => 0, ρ⟩ (fun r => ∀ c : Dev nD,
      r.2.mem ((c.tc : Thread nD τ).loc main_v81) = U14 m c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) Gen.adm (pdats m) () cellOf_inj emb₁ defs₀ 𝒱₀ Lh lvh m ρ main
    (Gen.segs m (outsU m) 𝒱₀ Lh lvh Eh () (pdats m) (reg0 m) (reg1 m) (reg2 m) (reg3 m) (reg4 m) (reg5 m))
    (fun c Q => by
      rewrite [main_chain c, Seg.run_eq_chain,
        show (Gen.segs m (outsU m) 𝒱₀ Lh lvh Eh () (pdats m) (reg0 m) (reg1 m) (reg2 m) (reg3 m) (reg4 m) (reg5 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Eh (F := F) 0 c))
    (Tₙ := fun c => StableHlo.held (c : Thread nD τ) (Pipeline.ucRefs τ sig) (Gen.V14 m (outsU m) c))
    (hch := fun c => ⟨.rfl, .rfl, .rfl, hpre0 m c, hpost0 m c, hpre1 m c, hpost1 m c, hpre2 m c, hpost2 m c, hpre3 m c, hpost3 m c,
      hpre4 m c, hpost4 m c, hpre5 m c, (hpost5 m c).trans (sep_mono .rfl (by unfold Eh; iintro ⟨-, H⟩; iexact H))⟩)
    (hinit := ?_)
    (QY := fun c s => s.mem ((c.tc : Thread nD τ).loc main_v81) = U14 m c main_v81
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  ·
    have hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) ∗ levAts Lh lvh)
        ⊢ (|={Set.univ}=> bigSep Finset.univ (Eh (F := F) 0) : sProp 𝕄) := by
      refine Pipeline.initEach Lh lvh fun c => ?_
      unfold Eh
      iintro ⟨⟨-, HO, -, Hp, -⟩, -⟩
      imodintro
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (Gen.V14 m (outsU m) c) s') $$ [Hh HSI]
    · isplitl [Hh] <;> iassumption
    icases Hr with ⟨%h, HSI⟩
    imodintro
    isplitr
    · ipureintro
      exact ⟨(h (Proc.devRef .tc main_v81) (Finset.mem_filter.mpr ⟨StableHlo.devRef_mem_tcRefs main_v81, by decide⟩)).trans (congrFun (V14_eq m c) _),
        (h (Proc.devRef .tc main_arg0) (Finset.mem_filter.mpr ⟨StableHlo.devRef_mem_tcRefs main_arg0, by decide⟩)).trans (Gen.V14_main_arg0 m (outsU m) c),
        (h (Proc.devRef .tc main_arg1) (Finset.mem_filter.mpr ⟨StableHlo.devRef_mem_tcRefs main_arg1, by decide⟩)).trans (Gen.V14_main_arg1 m (outsU m) c),
        (h (Proc.devRef .tc main_arg2) (Finset.mem_filter.mpr ⟨StableHlo.devRef_mem_tcRefs main_arg2, by decide⟩)).trans (Gen.V14_main_arg2 m (outsU m) c),
        (h (Proc.devRef .tc main_arg3) (Finset.mem_filter.mpr ⟨StableHlo.devRef_mem_tcRefs main_arg3, by decide⟩)).trans (Gen.V14_main_arg3 m (outsU m) c),
        (h (Proc.devRef .tc main_arg4) (Finset.mem_filter.mpr ⟨StableHlo.devRef_mem_tcRefs main_arg4, by decide⟩)).trans (Gen.V14_main_arg4 m (outsU m) c),
        (h (Proc.devRef .tc main_arg5) (Finset.mem_filter.mpr ⟨StableHlo.devRef_mem_tcRefs main_arg5, by decide⟩)).trans (Gen.V14_main_arg5 m (outsU m) c),
        (h (Proc.devRef .tc main_arg6) (Finset.mem_filter.mpr ⟨StableHlo.devRef_mem_tcRefs main_arg6, by decide⟩)).trans (Gen.V14_main_arg6 m (outsU m) c),
        (h (Proc.devRef .tc main_arg7) (Finset.mem_filter.mpr ⟨StableHlo.devRef_mem_tcRefs main_arg7, by decide⟩)).trans (Gen.V14_main_arg7 m (outsU m) c),
        (h (Proc.devRef .tc main_arg8) (Finset.mem_filter.mpr ⟨StableHlo.devRef_mem_tcRefs main_arg8, by decide⟩)).trans (Gen.V14_main_arg8 m (outsU m) c),
        (h (Proc.devRef .tc main_arg9) (Finset.mem_filter.mpr ⟨StableHlo.devRef_mem_tcRefs main_arg9, by decide⟩)).trans (Gen.V14_main_arg9 m (outsU m) c)⟩
    · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run m ρ)

end Cert.KernelIdeal.Hand

end
-- ==== Proof.Ref.Ops.lean ====
import proofs.«418912_j86466281603780_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

abbrev opsB : List (HloOp τ sig (Elt F)) :=
  [ binary main_arg0 main_arg2 main_v30 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_v29 main_v31 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v6 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v6 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v6 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v30 main_v37 main_v38 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v31 main_v39 (broadcastInDim S850000x256 ![0, 1] bcast_S850000x1_S850000x256_0_1 : (⟨S850000x1, .f32⟩ : BufTy).Contents (Elt F) → (⟨S850000x256, .f32⟩ : BufTy).Contents (Elt F)),
    binary main_v39 main_v38 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v3 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)) ]

abbrev opsC : List (HloOp τ sig (Elt F)) :=
  [ nullary main_cst_9 (constant S_ .f32 0x00000000#32),
    binary main_v46 main_cst_9 main_v47 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_10 (constant S_ .f32 0x47435000#32),
    unary main_cst_10 main_v48 (broadcastInDim S256 ![] bcast_S_S256 : (⟨S_, .f32⟩ : BufTy).Contents (Elt F) → (⟨S256, .f32⟩ : BufTy).Contents (Elt F)),
    binary main_v47 main_v48 main_v49 (Host.divf : (⟨S256, .f32⟩ : BufTy).Contents (Elt F) → (⟨S256, .f32⟩ : BufTy).Contents (Elt F) → (⟨S256, .f32⟩ : BufTy).Contents (Elt F)),
    unary main_v49 main_v50 (broadcastInDim S1x256 ![1] bcast_S256_S1x256_1 : (⟨S256, .f32⟩ : BufTy).Contents (Elt F) → (⟨S1x256, .f32⟩ : BufTy).Contents (Elt F)),
    unary main_v50 main_v51 (broadcastInDim S50000x256 ![0, 1] bcast_S1x256_S50000x256_0_1 : (⟨S1x256, .f32⟩ : BufTy).Contents (Elt F) → (⟨S50000x256, .f32⟩ : BufTy).Contents (Elt F)),
    binary main_v46 main_v51 main_v52 (subf : (⟨S50000x256, .f32⟩ : BufTy).Contents (Elt F) → (⟨S50000x256, .f32⟩ : BufTy).Contents (Elt F) → (⟨S50000x256, .f32⟩ : BufTy).Contents (Elt F)),
    binary main_v52 main_v52 main_v53 (mulf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x00000000#32),
    binary main_v53 main_cst_11 main_v54 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_12 (constant S_ .f32 0x47435000#32),
    unary main_cst_12 main_v55 (broadcastInDim S256 ![] bcast_S_S256 : (⟨S_, .f32⟩ : BufTy).Contents (Elt F) → (⟨S256, .f32⟩ : BufTy).Contents (Elt F)),
    binary main_v54 main_v55 main_v56 (Host.divf : (⟨S256, .f32⟩ : BufTy).Contents (Elt F) → (⟨S256, .f32⟩ : BufTy).Contents (Elt F) → (⟨S256, .f32⟩ : BufTy).Contents (Elt F)),
    unary main_v49 main_v57 (broadcastInDim S1x256 ![1] bcast_S256_S1x256_1 : (⟨S256, .f32⟩ : BufTy).Contents (Elt F) → (⟨S1x256, .f32⟩ : BufTy).Contents (Elt F)),
    unary main_v57 main_v58 (broadcastInDim S50000x256 ![0, 1] bcast_S1x256_S50000x256_0_1 : (⟨S1x256, .f32⟩ : BufTy).Contents (Elt F) → (⟨S50000x256, .f32⟩ : BufTy).Contents (Elt F)),
    binary main_v46 main_v58 main_v59 (subf : (⟨S50000x256, .f32⟩ : BufTy).Contents (Elt F) → (⟨S50000x256, .f32⟩ : BufTy).Contents (Elt F) → (⟨S50000x256, .f32⟩ : BufTy).Contents (Elt F)),
    nullary main_cst_13 (constant S_ .f32 0x3727C5AC#32),
    unary main_cst_13 main_v60 (broadcastInDim S256 ![] bcast_S_S256 : (⟨S_, .f32⟩ : BufTy).Contents (Elt F) → (⟨S256, .f32⟩ : BufTy).Contents (Elt F)),
    binary main_v56 main_v60 main_v61 (addf : (⟨S256, .f32⟩ : BufTy).Contents (Elt F) → (⟨S256, .f32⟩ : BufTy).Contents (Elt F) → (⟨S256, .f32⟩ : BufTy).Contents (Elt F)),
    unary main_v61 main_v62 (Host.rsqrt : (⟨S256, .f32⟩ : BufTy).Contents (Elt F) → (⟨S256, .f32⟩ : BufTy).Contents (Elt F)),
    unary main_v62 main_v63 (broadcastInDim S1x256 ![1] bcast_S256_S1x256_1 : (⟨S256, .f32⟩ : BufTy).Contents (Elt F) → (⟨S1x256, .f32⟩ : BufTy).Contents (Elt F)),
    unary main_v63 main_v64 (broadcastInDim S50000x256 ![0, 1] bcast_S1x256_S50000x256_0_1 : (⟨S1x256, .f32⟩ : BufTy).Contents (Elt F) → (⟨S50000x256, .f32⟩ : BufTy).Contents (Elt F)),
    binary main_v59 main_v64 main_v65 (mulf : (⟨S50000x256, .f32⟩ : BufTy).Contents (Elt F) → (⟨S50000x256, .f32⟩ : BufTy).Contents (Elt F) → (⟨S50000x256, .f32⟩ : BufTy).Contents (Elt F)),
    unary main_arg8 main_v66 (broadcastInDim S1x256 ![1] bcast_S256_S1x256_1 : (⟨S256, .f32⟩ : BufTy).Contents (Elt F) → (⟨S1x256, .f32⟩ : BufTy).Contents (Elt F)),
    unary main_v66 main_v67 (broadcastInDim S50000x256 ![0, 1] bcast_S1x256_S50000x256_0_1 : (⟨S1x256, .f32⟩ : BufTy).Contents (Elt F) → (⟨S50000x256, .f32⟩ : BufTy).Contents (Elt F)),
    binary main_v65 main_v67 main_v68 (mulf : (⟨S50000x256, .f32⟩ : BufTy).Contents (Elt F) → (⟨S50000x256, .f32⟩ : BufTy).Contents (Elt F) → (⟨S50000x256, .f32⟩ : BufTy).Contents (Elt F)),
    unary main_arg9 main_v69 (broadcastInDim S1x256 ![1] bcast_S256_S1x256_1 : (⟨S256, .f32⟩ : BufTy).Contents (Elt F) → (⟨S1x256, .f32⟩ : BufTy).Contents (Elt F)),
    unary main_v69 main_v70 (broadcastInDim S50000x256 ![0, 1] bcast_S1x256_S50000x256_0_1 : (⟨S1x256, .f32⟩ : BufTy).Contents (Elt F) → (⟨S50000x256, .f32⟩ : BufTy).Contents (Elt F)),
    binary main_v68 main_v70 main_v71 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v71) (TRef.of (T := ⟨S50000x256, .f32⟩) main_call1_v0) (TRef.of (T := ⟨S50000x256, .f32⟩) main_v72) maximumf,
    binary main_v72 main_arg4 main_v73 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

abbrev opsD : List (HloOp τ sig (Elt F)) :=
  [ unary main_v29 main_v74 (broadcastInDim S850000x1 ![0] bcast_S850000_S850000x1_0 : (⟨S850000, .f32⟩ : BufTy).Contents (Elt F) → (⟨S850000x1, .f32⟩ : BufTy).Contents (Elt F)),
    nullary main_c_14 (constantI S_ 32 0#32),
    unary main_c_14 main_v75 (broadcastInDim S850000 ![] bcast_S_S850000 : (⟨S_, .i32⟩ : BufTy).Contents (Elt F) → (⟨S850000, .i32⟩ : BufTy).Contents (Elt F)),
    binary main_v6 main_v75 main_v76 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v77 (broadcastInDim S850000 ![] bcast_S_S850000 : (⟨S_, .i32⟩ : BufTy).Contents (Elt F) → (⟨S850000, .i32⟩ : BufTy).Contents (Elt F)),
    binary main_v6 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v6 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v73 main_v80 main_v81 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v74 main_v82 (broadcastInDim S850000x256 ![0, 1] bcast_S850000x1_S850000x256_0_1 : (⟨S850000x1, .f32⟩ : BufTy).Contents (Elt F) → (⟨S850000x256, .f32⟩ : BufTy).Contents (Elt F)),
    binary main_v82 main_v81 main_v83 (mulf : (⟨S850000x256, .f32⟩ : BufTy).Contents (Elt F) → (⟨S850000x256, .f32⟩ : BufTy).Contents (Elt F) → (⟨S850000x256, .f32⟩ : BufTy).Contents (Elt F)),
    nullary main_cst_16 (constant S_ .f32 0x00000000#32),
    unary main_cst_16 main_v84 (broadcastInDim S50000x256 ![] bcast_S_S50000x256 : (⟨S_, .f32⟩ : BufTy).Contents (Elt F) → (⟨S50000x256, .f32⟩ : BufTy).Contents (Elt F)),
    unary main_v3 main_v85 (broadcastInDim S850000x1 ![0] bcast_S850000_S850000x1_0 : (⟨S850000, .i32⟩ : BufTy).Contents (Elt F) → (⟨S850000x1, .i32⟩ : BufTy).Contents (Elt F)),
    ternary main_v84 main_v85 main_v83 main_v86 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg5 main_v87 (broadcastInDim S1x256 ![1] bcast_S256_S1x256_1 : (⟨S256, .f32⟩ : BufTy).Contents (Elt F) → (⟨S1x256, .f32⟩ : BufTy).Contents (Elt F)),
    unary main_v87 main_v88 (broadcastInDim S50000x256 ![0, 1] bcast_S1x256_S50000x256_0_1 : (⟨S1x256, .f32⟩ : BufTy).Contents (Elt F) → (⟨S50000x256, .f32⟩ : BufTy).Contents (Elt F)),
    binary main_v86 main_v88 main_v89 (addf : (⟨S50000x256, .f32⟩ : BufTy).Contents (Elt F) → (⟨S50000x256, .f32⟩ : BufTy).Contents (Elt F) → (⟨S50000x256, .f32⟩ : BufTy).Contents (Elt F)) ]

abbrev opsE : List (HloOp τ sig (Elt F)) :=
  [ nullary main_cst_17 (constant S_ .f32 0x00000000#32),
    binary main_v89 main_cst_17 main_v90 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_18 (constant S_ .f32 0x47435000#32),
    unary main_cst_18 main_v91 (broadcastInDim S256 ![] bcast_S_S256 : (⟨S_, .f32⟩ : BufTy).Contents (Elt F) → (⟨S256, .f32⟩ : BufTy).Contents (Elt F)),
    binary main_v90 main_v91 main_v92 (Host.divf : (⟨S256, .f32⟩ : BufTy).Contents (Elt F) → (⟨S256, .f32⟩ : BufTy).Contents (Elt F) → (⟨S256, .f32⟩ : BufTy).Contents (Elt F)),
    unary main_v92 main_v93 (broadcastInDim S1x256 ![1] bcast_S256_S1x256_1 : (⟨S256, .f32⟩ : BufTy).Contents (Elt F) → (⟨S1x256, .f32⟩ : BufTy).Contents (Elt F)),
    unary main_v93 main_v94 (broadcastInDim S50000x256 ![0, 1] bcast_S1x256_S50000x256_0_1 : (⟨S1x256, .f32⟩ : BufTy).Contents (Elt F) → (⟨S50000x256, .f32⟩ : BufTy).Contents (Elt F)),
    binary main_v89 main_v94 main_v95 (subf : (⟨S50000x256, .f32⟩ : BufTy).Contents (Elt F) → (⟨S50000x256, .f32⟩ : BufTy).Contents (Elt F) → (⟨S50000x256, .f32⟩ : BufTy).Contents (Elt F)),
    binary main_v95 main_v95 main_v96 (mulf : (⟨S50000x256, .f32⟩ : BufTy).Contents (Elt F) → (⟨S50000x256, .f32⟩ : BufTy).Contents (Elt F) → (⟨S50000x256, .f32⟩ : BufTy).Contents (Elt F)),
    nullary main_cst_19 (constant S_ .f32 0x00000000#32),
    binary main_v96 main_cst_19 main_v97 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_20 (constant S_ .f32 0x47435000#32),
    unary main_cst_20 main_v98 (broadcastInDim S256 ![] bcast_S_S256 : (⟨S_, .f32⟩ : BufTy).Contents (Elt F) → (⟨S256, .f32⟩ : BufTy).Contents (Elt F)),
    binary main_v97 main_v98 main_v99 (Host.divf : (⟨S256, .f32⟩ : BufTy).Contents (Elt F) → (⟨S256, .f32⟩ : BufTy).Contents (Elt F) → (⟨S256, .f32⟩ : BufTy).Contents (Elt F)),
    unary main_v92 main_v100 (broadcastInDim S1x256 ![1] bcast_S256_S1x256_1 : (⟨S256, .f32⟩ : BufTy).Contents (Elt F) → (⟨S1x256, .f32⟩ : BufTy).Contents (Elt F)),
    unary main_v100 main_v101 (broadcastInDim S50000x256 ![0, 1] bcast_S1x256_S50000x256_0_1 : (⟨S1x256, .f32⟩ : BufTy).Contents (Elt F) → (⟨S50000x256, .f32⟩ : BufTy).Contents (Elt F)),
    binary main_v89 main_v101 main_v102 (subf : (⟨S50000x256, .f32⟩ : BufTy).Contents (Elt F) → (⟨S50000x256, .f32⟩ : BufTy).Contents (Elt F) → (⟨S50000x256, .f32⟩ : BufTy).Contents (Elt F)),
    nullary main_cst_21 (constant S_ .f32 0x3727C5AC#32),
    unary main_cst_21 main_v103 (broadcastInDim S256 ![] bcast_S_S256 : (⟨S_, .f32⟩ : BufTy).Contents (Elt F) → (⟨S256, .f32⟩ : BufTy).Contents (Elt F)),
    binary main_v99 main_v103 main_v104 (addf : (⟨S256, .f32⟩ : BufTy).Contents (Elt F) → (⟨S256, .f32⟩ : BufTy).Contents (Elt F) → (⟨S256, .f32⟩ : BufTy).Contents (Elt F)),
    unary main_v104 main_v105 (Host.rsqrt : (⟨S256, .f32⟩ : BufTy).Contents (Elt F) → (⟨S256, .f32⟩ : BufTy).Contents (Elt F)),
    unary main_v105 main_v106 (broadcastInDim S1x256 ![1] bcast_S256_S1x256_1 : (⟨S256, .f32⟩ : BufTy).Contents (Elt F) → (⟨S1x256, .f32⟩ : BufTy).Contents (Elt F)),
    unary main_v106 main_v107 (broadcastInDim S50000x256 ![0, 1] bcast_S1x256_S50000x256_0_1 : (⟨S1x256, .f32⟩ : BufTy).Contents (Elt F) → (⟨S50000x256, .f32⟩ : BufTy).Contents (Elt F)),
    binary main_v102 main_v107 main_v108 (mulf : (⟨S50000x256, .f32⟩ : BufTy).Contents (Elt F) → (⟨S50000x256, .f32⟩ : BufTy).Contents (Elt F) → (⟨S50000x256, .f32⟩ : BufTy).Contents (Elt F)),
    unary main_arg8 main_v109 (broadcastInDim S1x256 ![1] bcast_S256_S1x256_1 : (⟨S256, .f32⟩ : BufTy).Contents (Elt F) → (⟨S1x256, .f32⟩ : BufTy).Contents (Elt F)),
    unary main_v109 main_v110 (broadcastInDim S50000x256 ![0, 1] bcast_S1x256_S50000x256_0_1 : (⟨S1x256, .f32⟩ : BufTy).Contents (Elt F) → (⟨S50000x256, .f32⟩ : BufTy).Contents (Elt F)),
    binary main_v108 main_v110 main_v111 (mulf : (⟨S50000x256, .f32⟩ : BufTy).Contents (Elt F) → (⟨S50000x256, .f32⟩ : BufTy).Contents (Elt F) → (⟨S50000x256, .f32⟩ : BufTy).Contents (Elt F)),
    unary main_arg9 main_v112 (broadcastInDim S1x256 ![1] bcast_S256_S1x256_1 : (⟨S256, .f32⟩ : BufTy).Contents (Elt F) → (⟨S1x256, .f32⟩ : BufTy).Contents (Elt F)),
    unary main_v112 main_v113 (broadcastInDim S50000x256 ![0, 1] bcast_S1x256_S50000x256_0_1 : (⟨S1x256, .f32⟩ : BufTy).Contents (Elt F) → (⟨S50000x256, .f32⟩ : BufTy).Contents (Elt F)),
    binary main_v111 main_v113 main_v114 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v114) (TRef.of (T := ⟨S50000x256, .f32⟩) main_call2_v0) (TRef.of (T := ⟨S50000x256, .f32⟩) main_v115) maximumf,
    binary main_v115 main_arg6 main_v116 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)) ]

abbrev opsF : List (HloOp τ sig (Elt F)) :=
  [ unary main_v29 main_v117 (broadcastInDim S850000x1 ![0] bcast_S850000_S850000x1_0 : (⟨S850000, .f32⟩ : BufTy).Contents (Elt F) → (⟨S850000x1, .f32⟩ : BufTy).Contents (Elt F)),
    nullary main_c_22 (constantI S_ 32 0#32),
    unary main_c_22 main_v118 (broadcastInDim S850000 ![] bcast_S_S850000 : (⟨S_, .i32⟩ : BufTy).Contents (Elt F) → (⟨S850000, .i32⟩ : BufTy).Contents (Elt F)),
    binary main_v6 main_v118 main_v119 (cmpi .slt : (⟨S850000, .i32⟩ : BufTy).Contents (Elt F) → (⟨S850000, .i32⟩ : BufTy).Contents (Elt F) → (⟨S850000, .i1⟩ : BufTy).Contents (Elt F)),
    nullary main_c_23 (constantI S_ 32 50000#32),
    unary main_c_23 main_v120 (broadcastInDim S850000 ![] bcast_S_S850000 : (⟨S_, .i32⟩ : BufTy).Contents (Elt F) → (⟨S850000, .i32⟩ : BufTy).Contents (Elt F)),
    binary main_v6 main_v120 main_v121 (addi : (⟨S850000, .i32⟩ : BufTy).Contents (Elt F) → (⟨S850000, .i32⟩ : BufTy).Contents (Elt F) → (⟨S850000, .i32⟩ : BufTy).Contents (Elt F)),
    ternary main_v119 main_v121 main_v6 main_v122 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v122 main_v123 (broadcastInDim S850000x1 ![0] bcast_S850000_S850000x1_0 : (⟨S850000, .i32⟩ : BufTy).Contents (Elt F) → (⟨S850000x1, .i32⟩ : BufTy).Contents (Elt F)),
    binary main_v116 main_v123 main_v124 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v117 main_v125 (broadcastInDim S850000x40 ![0, 1] bcast_S850000x1_S850000x40_0_1 : (⟨S850000x1, .f32⟩ : BufTy).Contents (Elt F) → (⟨S850000x40, .f32⟩ : BufTy).Contents (Elt F)),
    binary main_v125 main_v124 main_v126 (mulf : (⟨S850000x40, .f32⟩ : BufTy).Contents (Elt F) → (⟨S850000x40, .f32⟩ : BufTy).Contents (Elt F) → (⟨S850000x40, .f32⟩ : BufTy).Contents (Elt F)),
    nullary main_cst_24 (constant S_ .f32 0x00000000#32),
    unary main_cst_24 main_v127 (broadcastInDim S50000x40 ![] bcast_S_S50000x40 : (⟨S_, .f32⟩ : BufTy).Contents (Elt F) → (⟨S50000x40, .f32⟩ : BufTy).Contents (Elt F)),
    unary main_v3 main_v128 (broadcastInDim S850000x1 ![0] bcast_S850000_S850000x1_0 : (⟨S850000, .i32⟩ : BufTy).Contents (Elt F) → (⟨S850000x1, .i32⟩ : BufTy).Contents (Elt F)),
    ternary main_v127 main_v128 main_v126 main_v129 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg7 main_v130 (broadcastInDim S1x40 ![1] bcast_S40_S1x40_1 : (⟨S40, .f32⟩ : BufTy).Contents (Elt F) → (⟨S1x40, .f32⟩ : BufTy).Contents (Elt F)),
    unary main_v130 main_v131 (broadcastInDim S50000x40 ![0, 1] bcast_S1x40_S50000x40_0_1 : (⟨S1x40, .f32⟩ : BufTy).Contents (Elt F) → (⟨S50000x40, .f32⟩ : BufTy).Contents (Elt F)),
    binary main_v129 main_v131 main_v132 (addf : (⟨S50000x40, .f32⟩ : BufTy).Contents (Elt F) → (⟨S50000x40, .f32⟩ : BufTy).Contents (Elt F) → (⟨S50000x40, .f32⟩ : BufTy).Contents (Elt F)) ]

abbrev opsG : List (HloOp τ sig (Elt F)) :=
  [ TRef.nullary (TRef.of (T := ⟨S_, .f32⟩) main_call3_cst) (constant S_ .f32 0xFF800000#32),
    TRef.binary (TRef.of (T := ⟨S50000x40, .f32⟩) main_v132) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v132) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v133) subf ]

abbrev ops : List (HloOp τ sig (Elt F)) := opsA ++ (opsB ++ (opsC ++ (opsD ++ (opsE ++ (opsF ++ opsG)))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsB_sub : (opsB : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩
theorem opsC_sub : (opsC : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
theorem opsD_sub : (opsD : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩
theorem opsE_sub : (opsE : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
theorem opsF_sub : (opsF : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩
theorem opsG_sub : (opsG : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  List.forall_append.mpr ⟨opsA_sub, List.forall_append.mpr ⟨opsB_sub, List.forall_append.mpr ⟨opsC_sub,
    List.forall_append.mpr ⟨opsD_sub, List.forall_append.mpr ⟨opsE_sub, List.forall_append.mpr ⟨opsF_sub, opsG_sub⟩⟩⟩⟩⟩⟩

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h
theorem opsE_fresh : ∀ op ∈ (opsE : List (HloOp τ sig (Elt F))), op.fresh = ∅ := by
  intro _ h; (repeat (cases h with | head => rfl | tail _ h => ?_)); exact nomatch h
theorem opsF_fresh : ∀ op ∈ (opsF : List (HloOp τ sig (Elt F))), op.fresh = ∅ := by
  intro _ h; (repeat (cases h with | head => rfl | tail _ h => ?_)); exact nomatch h
theorem opsG_fresh : ∀ op ∈ (opsG : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h | h
  exacts [opsA_fresh op h, opsB_fresh op h, opsC_fresh op h, opsD_fresh op h, opsE_fresh op h, opsF_fresh op h, opsG_fresh op h]

end Cert.ReferenceIdeal.HandRun

end
-- ==== Proof.RefRead.lean ====
import proofs.«418912_j86466281603780_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

variable (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x40, .f32⟩ : BufTy).Contents (Elt F)) (x7 : (⟨S40, .f32⟩ : BufTy).Contents (Elt F)) (x8 : (⟨S256, .f32⟩ : BufTy).Contents (Elt F)) (x9 : (⟨S256, .f32⟩ : BufTy).Contents (Elt F)) (i : S50000x256.Idx) (q : dot_S50000x128_S128x256_S50000x256_1_0_0_1_n_n.contr.Idx)

def val_main_v0 : (⟨S50000, .i32⟩ : BufTy).Contents (Elt F) :=
  iotaInDim S50000 32 0
def val_main_v1 : (⟨S1x800000, .i32⟩ : BufTy).Contents (Elt F) :=
  extractStridedSlice S1x800000 ![0, 0] (x1) slices_S2x800000_S1x800000_0_0
def val_main_v2 : (⟨S800000, .i32⟩ : BufTy).Contents (Elt F) :=
  shapeCast _ (val_main_v1 (F := F) x1) shapeCasts_S1x800000_S800000
def val_main_v3 : (⟨S850000, .i32⟩ : BufTy).Contents (Elt F) :=
  concatenate S850000 0 [⟨S800000, (val_main_v2 (F := F) x1)⟩, ⟨S50000, (val_main_v0 (F := F))⟩] concatenates_S800000_S50000_S850000_d0

def val_main_v4 : (⟨S1x800000, .i32⟩ : BufTy).Contents (Elt F) :=
  extractStridedSlice S1x800000 ![1, 0] (x1) slices_S2x800000_S1x800000_1_0
def val_main_v5 : (⟨S800000, .i32⟩ : BufTy).Contents (Elt F) :=
  shapeCast _ (val_main_v4 (F := F) x1) shapeCasts_S1x800000_S800000
def val_main_v6 : (⟨S850000, .i32⟩ : BufTy).Contents (Elt F) :=
  concatenate S850000 0 [⟨S800000, (val_main_v5 (F := F) x1)⟩, ⟨S50000, (val_main_v0 (F := F))⟩] concatenates_S800000_S50000_S850000_d0

def val_main_cst : (⟨S_, .f32⟩ : BufTy).Contents (Elt F) :=
  constant S_ .f32 0x3F800000#32
def val_main_v7 : (⟨S850000, .f32⟩ : BufTy).Contents (Elt F) :=
  broadcastInDim S850000 ![] bcast_S_S850000 (val_main_cst (F := F))
def val_main_cst_0 : (⟨S_, .f32⟩ : BufTy).Contents (Elt F) :=
  constant S_ .f32 0x00000000#32
def val_main_v8 : (⟨S50000, .f32⟩ : BufTy).Contents (Elt F) :=
  broadcastInDim S50000 ![] bcast_S_S50000 (val_main_cst_0 (F := F))
def val_main_v9 : (⟨S850000x1, .i32⟩ : BufTy).Contents (Elt F) :=
  broadcastInDim S850000x1 ![0] bcast_S850000_S850000x1_0 (val_main_v6 (F := F) x1)
def val_main_v10 : (⟨S50000, .f32⟩ : BufTy).Contents (Elt F) :=
  Host.scatterAdd scatter_S50000_S850000x1_S850000_n_0_0_1 (val_main_v8 (F := F)) (val_main_v9 (F := F) x1) (val_main_v7 (F := F))

def val_main_cst_1 : (⟨S_, .f32⟩ : BufTy).Contents (Elt F) :=
  constant S_ .f32 0x00000000#32
def val_main_v11 : (⟨S50000, .f32⟩ : BufTy).Contents (Elt F) :=
  broadcastInDim S50000 ![] bcast_S_S50000 (val_main_cst_1 (F := F))
def val_main_v12 : (⟨S50000, .i1⟩ : BufTy).Contents (Elt F) :=
  cmpf .ogt (val_main_v10 (F := F) x1) (val_main_v11 (F := F))
def val_main_v13 : (⟨S50000, .f32⟩ : BufTy).Contents (Elt F) :=
  Host.rsqrt (val_main_v10 (F := F) x1)
def val_main_cst_2 : (⟨S_, .f32⟩ : BufTy).Contents (Elt F) :=
  constant S_ .f32 0x00000000#32
def val_main_call0_v0 : (⟨S_, .f32⟩ : BufTy).Contents (Elt F) :=
  id (val_main_cst_2 (F := F))
def val_main_call0_v1 : (⟨S50000, .f32⟩ : BufTy).Contents (Elt F) :=
  broadcastInDim S50000 ![] bcast_S_S50000 (val_main_call0_v0 (F := F))
def val_main_v14 : (⟨S50000, .f32⟩ : BufTy).Contents (Elt F) :=
  select (val_main_v12 (F := F) x1) (val_main_v13 (F := F) x1) (val_main_call0_v1 (F := F))
def val_main_c : (⟨S_, .i32⟩ : BufTy).Contents (Elt F) :=
  constantI S_ 32 0#32
def val_main_v15 : (⟨S850000, .i32⟩ : BufTy).Contents (Elt F) :=
  broadcastInDim S850000 ![] bcast_S_S850000 (val_main_c (F := F))
def val_main_v16 : (⟨S850000, .i1⟩ : BufTy).Contents (Elt F) :=
  cmpi .slt (val_main_v3 (F := F) x1) (val_main_v15 (F := F))
def val_main_c_3 : (⟨S_, .i32⟩ : BufTy).Contents (Elt F) :=
  constantI S_ 32 50000#32
def val_main_v17 : (⟨S850000, .i32⟩ : BufTy).Contents (Elt F) :=
  broadcastInDim S850000 ![] bcast_S_S850000 (val_main_c_3 (F := F))
def val_main_v18 : (⟨S850000, .i32⟩ : BufTy).Contents (Elt F) :=
  addi (val_main_v3 (F := F) x1) (val_main_v17 (F := F))
def val_main_v19 : (⟨S850000, .i32⟩ : BufTy).Contents (Elt F) :=
  select (val_main_v16 (F := F) x1) (val_main_v18 (F := F) x1) (val_main_v3 (F := F) x1)
def val_main_v20 : (⟨S850000x1, .i32⟩ : BufTy).Contents (Elt F) :=
  broadcastInDim S850000x1 ![0] bcast_S850000_S850000x1_0 (val_main_v19 (F := F) x1)
def val_main_v21 : (⟨S850000, .f32⟩ : BufTy).Contents (Elt F) :=
  Host.gather gather_S50000_S850000x1_S850000_n_0_n_n_0_1_1 (val_main_v14 (F := F) x1) (val_main_v20 (F := F) x1)

def val_main_c_4 : (⟨S_, .i32⟩ : BufTy).Contents (Elt F) :=
  constantI S_ 32 0#32
def val_main_v22 : (⟨S850000, .i32⟩ : BufTy).Contents (Elt F) :=
  broadcastInDim S850000 ![] bcast_S_S850000 (val_main_c_4 (F := F))
def val_main_v23 : (⟨S850000, .i1⟩ : BufTy).Contents (Elt F) :=
  cmpi .slt (val_main_v6 (F := F) x1) (val_main_v22 (F := F))
def val_main_c_5 : (⟨S_, .i32⟩ : BufTy).Contents (Elt F) :=
  constantI S_ 32 50000#32
def val_main_v24 : (⟨S850000, .i32⟩ : BufTy).Contents (Elt F) :=
  broadcastInDim S850000 ![] bcast_S_S850000 (val_main_c_5 (F := F))
def val_main_v25 : (⟨S850000, .i32⟩ : BufTy).Contents (Elt F) :=
  addi (val_main_v6 (F := F) x1) (val_main_v24 (F := F))
def val_main_v26 : (⟨S850000, .i32⟩ : BufTy).Contents (Elt F) :=
  select (val_main_v23 (F := F) x1) (val_main_v25 (F := F) x1) (val_main_v6 (F := F) x1)
def val_main_v27 : (⟨S850000x1, .i32⟩ : BufTy).Contents (Elt F) :=
  broadcastInDim S850000x1 ![0] bcast_S850000_S850000x1_0 (val_main_v26 (F := F) x1)
def val_main_v28 : (⟨S850000, .f32⟩ : BufTy).Contents (Elt F) :=
  Host.gather gather_S50000_S850000x1_S850000_n_0_n_n_0_1_1 (val_main_v14 (F := F) x1) (val_main_v27 (F := F) x1)

def val_main_v29 : (⟨S850000, .f32⟩ : BufTy).Contents (Elt F) :=
  mulf (val_main_v21 (F := F) x1) (val_main_v28 (F := F) x1)
def val_main_v30 : (⟨S50000x256, .f32⟩ : BufTy).Contents (Elt F) :=
  Host.dotGeneral dot_S50000x128_S128x256_S50000x256_1_0_0_1_n_n none (x0) (x2)
theorem lhs_main_v30_0 :
    (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch by decide), dif_pos (show (0 : Fin S50000x128.rank) ∈ dot_S50000x128_S128x256_S50000x256_1_0_0_1_n_n.lhsNonContracting by decide)]
  rfl
theorem lhs_main_v30_1 :
    (dot_S50000x128_S128x256_S50000x256_1_0_0_1_n_n.lhsIdx i q 1).val = (q ⟨0, by decide⟩).val :=
  dot_S50000x128_S128x256_S50000x256_1_0_0_1_n_n.lhsIdx_val_of_single rfl i q
theorem rhs_main_v30_0 :
    (dot_S50000x128_S128x256_S50000x256_1_0_0_1_n_n.rhsIdx i q 0).val = (q ⟨0, by decide⟩).val :=
  dot_S50000x128_S128x256_S50000x256_1_0_0_1_n_n.rhsIdx_val_of_single rfl i q
theorem rhs_main_v30_1 :
    (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch by decide), dif_pos (show (1 : Fin S128x256.rank) ∈ dot_S50000x128_S128x256_S50000x256_1_0_0_1_n_n.rhsNonContracting by decide)]
  rfl
abbrev lidx_main_v30 (k : Fin 128) : S50000x128.Idx := fun a => match a with
  | ⟨0, _⟩ => ⟨(i 0).val, (i 0).isLt⟩
  | ⟨1, _⟩ => ⟨k.val, k.isLt⟩
abbrev ridx_main_v30 (k : Fin 128) : S128x256.Idx := fun a => match a with
  | ⟨0, _⟩ => ⟨k.val, k.isLt⟩
  | ⟨1, _⟩ => ⟨(i 1).val, (i 1).isLt⟩

theorem val_main_v30_apply (x0 : (⟨S50000x128, .f32⟩ : BufTy).Contents (Elt Ideal)) (x2 : (⟨S128x256, .f32⟩ : BufTy).Contents (Elt Ideal)) (i : S50000x256.Idx) :
    val_main_v30 (F := Ideal) x0 x2 i = ∑ k : Fin 128, x0 (lidx_main_v30 i k) * x2 (ridx_main_v30 i k) := by
  unfold val_main_v30
  simp only [Host.dotGeneral]
  rw [Ideal.dotGeneral_apply, ← Equiv.sum_comp (ValueIdx.contrEquiv1 dot_S50000x128_S128x256_S50000x256_1_0_0_1_n_n 128 rfl rfl).symm]
  refine Finset.sum_congr rfl fun k _ => ?_
  have hk := ValueIdx.contrEquiv1_symm_val dot_S50000x128_S128x256_S50000x256_1_0_0_1_n_n 128 rfl rfl k
  have el : dot_S50000x128_S128x256_S50000x256_1_0_0_1_n_n.lhsIdx i ((ValueIdx.contrEquiv1 dot_S50000x128_S128x256_S50000x256_1_0_0_1_n_n 128 rfl rfl).symm k) = lidx_main_v30 i k := funext fun a => Fin.ext (by
    match a with
    | ⟨0, _⟩ => exact lhs_main_v30_0 _ _
    | ⟨1, _⟩ => exact (lhs_main_v30_1 _ _).trans hk)
  have er : dot_S50000x128_S128x256_S50000x256_1_0_0_1_n_n.rhsIdx i ((ValueIdx.contrEquiv1 dot_S50000x128_S128x256_S50000x256_1_0_0_1_n_n 128 rfl rfl).symm k) = ridx_main_v30 i k := funext fun a => Fin.ext (by
    match a with
    | ⟨0, _⟩ => exact (rhs_main_v30_0 _ _).trans hk
    | ⟨1, _⟩ => exact rhs_main_v30_1 _ _)
  rw [el, er]

def val_main_v31 : (⟨S850000x1, .f32⟩ : BufTy).Contents (Elt F) :=
  broadcastInDim S850000x1 ![0] bcast_S850000_S850000x1_0 (val_main_v29 (F := F) x1)
def val_main_c_6 : (⟨S_, .i32⟩ : BufTy).Contents (Elt F) :=
  constantI S_ 32 0#32
def val_main_v32 : (⟨S850000, .i32⟩ : BufTy).Contents (Elt F) :=
  broadcastInDim S850000 ![] bcast_S_S850000 (val_main_c_6 (F := F))
def val_main_v33 : (⟨S850000, .i1⟩ : BufTy).Contents (Elt F) :=
  cmpi .slt (val_main_v6 (F := F) x1) (val_main_v32 (F := F))
def val_main_c_7 : (⟨S_, .i32⟩ : BufTy).Contents (Elt F) :=
  constantI S_ 32 50000#32
def val_main_v34 : (⟨S850000, .i32⟩ : BufTy).Contents (Elt F) :=
  broadcastInDim S850000 ![] bcast_S_S850000 (val_main_c_7 (F := F))
def val_main_v35 : (⟨S850000, .i32⟩ : BufTy).Contents (Elt F) :=
  addi (val_main_v6 (F := F) x1) (val_main_v34 (F := F))
def val_main_v36 : (⟨S850000, .i32⟩ : BufTy).Contents (Elt F) :=
  select (val_main_v33 (F := F) x1) (val_main_v35 (F := F) x1) (val_main_v6 (F := F) x1)
def val_main_v37 : (⟨S850000x1, .i32⟩ : BufTy).Contents (Elt F) :=
  broadcastInDim S850000x1 ![0] bcast_S850000_S850000x1_0 (val_main_v36 (F := F) x1)
def val_main_v38 : (⟨S850000x256, .f32⟩ : BufTy).Contents (Elt F) :=
  Host.gather gather_S50000x256_S850000x1_S850000x256_1_0_n_n_0_1_1256 (val_main_v30 (F := F) x0 x2) (val_main_v37 (F := F) x1)

def val_main_v39 : (⟨S850000x256, .f32⟩ : BufTy).Contents (Elt F) :=
  broadcastInDim S850000x256 ![0, 1] bcast_S850000x1_S850000x256_0_1 (val_main_v31 (F := F) x1)
def val_main_v40 : (⟨S850000x256, .f32⟩ : BufTy).Contents (Elt F) :=
  mulf (val_main_v39 (F := F) x1) (val_main_v38 (F := F) x0 x1 x2)
def val_main_cst_8 : (⟨S_, .f32⟩ : BufTy).Contents (Elt F) :=
  constant S_ .f32 0x00000000#32
def val_main_v41 : (⟨S50000x256, .f32⟩ : BufTy).Contents (Elt F) :=
  broadcastInDim S50000x256 ![] bcast_S_S50000x256 (val_main_cst_8 (F := F))
def val_main_v42 : (⟨S850000x1, .i32⟩ : BufTy).Contents (Elt F) :=
  broadcastInDim S850000x1 ![0] bcast_S850000_S850000x1_0 (val_main_v3 (F := F) x1)
def val_main_v43 : (⟨S50000x256, .f32⟩ : BufTy).Contents (Elt F) :=
  Host.scatterAdd scatter_S50000x256_S850000x1_S850000x256_1_0_0_1 (val_main_v41 (F := F)) (val_main_v42 (F := F) x1) (val_main_v40 (F := F) x0 x1 x2)

def val_main_v44 : (⟨S1x256, .f32⟩ : BufTy).Contents (Elt F) :=
  broadcastInDim S1x256 ![1] bcast_S256_S1x256_1 (x3)
abbrev idx_main_v44 (i : S1x256.Idx) : S256.Idx := fun a => match a with
  | ⟨0, _⟩ => ⟨(i 1).val, (i 1).isLt⟩
theorem val_main_v44_apply (i : S1x256.Idx) :
    val_main_v44 (F := F) x3 i = x3 (idx_main_v44 i) := by
  unfold val_main_v44
  exact broadcastInDim_apply _ bcast_S256_S1x256_1 x3 i (idx_main_v44 i) (fun a => match a with
    | ⟨0, _⟩ => by show (i 1).val = if (256 : Nat) = 1 then 0 else (i 1).val; rw [if_neg (by decide)])

def val_main_v45 : (⟨S50000x256, .f32⟩ : BufTy).Contents (Elt F) :=
  broadcastInDim S50000x256 ![0, 1] bcast_S1x256_S50000x256_0_1 (val_main_v44 (F := F) x3)
abbrev idx_main_v45 : S1x256.Idx := fun a => match a with
  | ⟨0, _⟩ => ⟨0, Nat.one_pos⟩
  | ⟨1, _⟩ => ⟨(i 1).val, (i 1).isLt⟩
theorem val_main_v45_apply :
    val_main_v45 (F := F) x3 i = val_main_v44 (F := F) x3 (idx_main_v45 i) := by
  unfold val_main_v45
  generalize val_main_v44 (F := F) x3 = y
  exact broadcastInDim_apply _ bcast_S1x256_S50000x256_0_1 y i (idx_main_v45 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v46 : (⟨S50000x256, .f32⟩ : BufTy).Contents (Elt F) :=
  addf (val_main_v43 (F := F) x0 x1 x2) (val_main_v45 (F := F) x3)
theorem val_main_v46_apply :
    val_main_v46 (F := F) x0 x1 x2 x3 i = FloatOps.addf (val_main_v43 (F := F) x0 x1 x2 i) (val_main_v45 (F := F) x3 i) := rfl

def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

def val_main_v47 : (⟨S256, .f32⟩ : BufTy).Contents (Elt F) :=
  Host.reduceAdd (val_main_v46 (F := F) x0 x1 x2 x3) (val_main_cst_9 (F := F)) reducesTo_S50000x256_S256_d0 h_S_
abbrev idx_main_v47 (i : S256.Idx) (k : Fin 50000) : S50000x256.Idx := fun a => match a with
  | ⟨0, _⟩ => ⟨k.val, k.isLt⟩
  | ⟨1, _⟩ => ⟨(i 0).val, (i 0).isLt⟩

theorem val_main_v47_apply (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (i : S256.Idx) :
    val_main_v47 (F := Ideal) x0 x1 x2 x3 i = (val_main_cst_9 (F := Ideal)) (Shape.Idx.first h_S_) + ∑ k : Fin 50000, (val_main_v46 (F := Ideal) x0 x1 x2 x3) (idx_main_v47 i k) := by
  unfold val_main_v47
  generalize val_main_v46 (F := Ideal) x0 x1 x2 x3 = y0
  simp only [Host.reduceAdd, Ideal.hostReduceAdd_def]
  rw [Ideal.hostReduceAdd_single reducesTo_S50000x256_S256_d0 (by decide)]
  refine congrArg (_ + ·) (Finset.sum_congr rfl fun k _ => ?_)
  exact congrArg y0 (funext fun a => Fin.ext (by match a with | ⟨0, _⟩ => rfl | ⟨1, _⟩ => rfl))

def val_main_cst_10 : (⟨S_, .f32⟩ : BufTy).Contents (Elt F) :=
  constant S_ .f32 0x47435000#32
theorem val_main_cst_10_apply (i : S_.Idx) :
    val_main_cst_10 (F := F) i = FloatOps.ofBits .f32 0x47435000#32 := rfl

def val_main_v48 : (⟨S256, .f32⟩ : BufTy).Contents (Elt F) :=
  broadcastInDim S256 ![] bcast_S_S256 (val_main_cst_10 (F := F))
abbrev idx_main_v48 (i : S256.Idx) : S_.Idx := fun a => a.elim0
theorem val_main_v48_apply (i : S256.Idx) :
    val_main_v48 (F := F) i = val_main_cst_10 (F := F) (idx_main_v48 i) := by
  unfold val_main_v48
  generalize val_main_cst_10 (F := F) = y
  exact broadcastInDim_apply _ bcast_S_S256 y i (idx_main_v48 i) (fun a => a.elim0)

def val_main_v49 : (⟨S256, .f32⟩ : BufTy).Contents (Elt F) :=
  Host.divf (val_main_v47 (F := F) x0 x1 x2 x3) (val_main_v48 (F := F))
theorem val_main_v49_apply (i : S256.Idx) :
    val_main_v49 (F := F) x0 x1 x2 x3 i = FloatOps.hostDivf (val_main_v47 (F := F) x0 x1 x2 x3 i) (val_main_v48 (F := F) i) := rfl

def val_main_v50 : (⟨S1x256, .f32⟩ : BufTy).Contents (Elt F) :=
  broadcastInDim S1x256 ![1] bcast_S256_S1x256_1 (val_main_v49 (F := F) x0 x1 x2 x3)
abbrev idx_main_v50 (i : S1x256.Idx) : S256.Idx := fun a => match a with
  | ⟨0, _⟩ => ⟨(i 1).val, (i 1).isLt⟩
theorem val_main_v50_apply (i : S1x256.Idx) :
    val_main_v50 (F := F) x0 x1 x2 x3 i = val_main_v49 (F := F) x0 x1 x2 x3 (idx_main_v50 i) := by
  unfold val_main_v50
  generalize val_main_v49 (F := F) x0 x1 x2 x3 = y
  exact broadcastInDim_apply _ bcast_S256_S1x256_1 y i (idx_main_v50 i) (fun a => match a with
    | ⟨0, _⟩ => by show (i 1).val = if (256 : Nat) = 1 then 0 else (i 1).val; rw [if_neg (by decide)])

def val_main_v51 : (⟨S50000x256, .f32⟩ : BufTy).Contents (Elt F) :=
  broadcastInDim S50000x256 ![0, 1] bcast_S1x256_S50000x256_0_1 (val_main_v50 (F := F) x0 x1 x2 x3)
abbrev idx_main_v51 : S1x256.Idx := fun a => match a with
  | ⟨0, _⟩ => ⟨0, Nat.one_pos⟩
  | ⟨1, _⟩ => ⟨(i 1).val, (i 1).isLt⟩
theorem val_main_v51_apply :
    val_main_v51 (F := F) x0 x1 x2 x3 i = val_main_v50 (F := F) x0 x1 x2 x3 (idx_main_v51 i) := by
  unfold val_main_v51
  generalize val_main_v50 (F := F) x0 x1 x2 x3 = y
  exact broadcastInDim_apply _ bcast_S1x256_S50000x256_0_1 y i (idx_main_v51 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v52 : (⟨S50000x256, .f32⟩ : BufTy).Contents (Elt F) :=
  subf (val_main_v46 (F := F) x0 x1 x2 x3) (val_main_v51 (F := F) x0 x1 x2 x3)
theorem val_main_v52_apply :
    val_main_v52 (F := F) x0 x1 x2 x3 i = FloatOps.subf (val_main_v46 (F := F) x0 x1 x2 x3 i) (val_main_v51 (F := F) x0 x1 x2 x3 i) := rfl

def val_main_v53 : (⟨S50000x256, .f32⟩ : BufTy).Contents (Elt F) :=
  mulf (val_main_v52 (F := F) x0 x1 x2 x3) (val_main_v52 (F := F) x0 x1 x2 x3)
theorem val_main_v53_apply :
    val_main_v53 (F := F) x0 x1 x2 x3 i = FloatOps.mulf (val_main_v52 (F := F) x0 x1 x2 x3 i) (val_main_v52 (F := F) x0 x1 x2 x3 i) := rfl

def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

def val_main_v54 : (⟨S256, .f32⟩ : BufTy).Contents (Elt F) :=
  Host.reduceAdd (val_main_v53 (F := F) x0 x1 x2 x3) (val_main_cst_11 (F := F)) reducesTo_S50000x256_S256_d0 h_S_
abbrev idx_main_v54 (i : S256.Idx) (k : Fin 50000) : S50000x256.Idx := fun a => match a with
  | ⟨0, _⟩ => ⟨k.val, k.isLt⟩
  | ⟨1, _⟩ => ⟨(i 0).val, (i 0).isLt⟩

theorem val_main_v54_apply (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (i : S256.Idx) :
    val_main_v54 (F := Ideal) x0 x1 x2 x3 i = (val_main_cst_11 (F := Ideal)) (Shape.Idx.first h_S_) + ∑ k : Fin 50000, (val_main_v53 (F := Ideal) x0 x1 x2 x3) (idx_main_v54 i k) := by
  unfold val_main_v54
  generalize val_main_v53 (F := Ideal) x0 x1 x2 x3 = y0
  simp only [Host.reduceAdd, Ideal.hostReduceAdd_def]
  rw [Ideal.hostReduceAdd_single reducesTo_S50000x256_S256_d0 (by decide)]
  refine congrArg (_ + ·) (Finset.sum_congr rfl fun k _ => ?_)
  exact congrArg y0 (funext fun a => Fin.ext (by match a with | ⟨0, _⟩ => rfl | ⟨1, _⟩ => rfl))

def val_main_cst_12 : (⟨S_, .f32⟩ : BufTy).Contents (Elt F) :=
  constant S_ .f32 0x47435000#32
theorem val_main_cst_12_apply (i : S_.Idx) :
    val_main_cst_12 (F := F) i = FloatOps.ofBits .f32 0x47435000#32 := rfl

def val_main_v55 : (⟨S256, .f32⟩ : BufTy).Contents (Elt F) :=
  broadcastInDim S256 ![] bcast_S_S256 (val_main_cst_12 (F := F))
abbrev idx_main_v55 (i : S256.Idx) : S_.Idx := fun a => a.elim0
theorem val_main_v55_apply (i : S256.Idx) :
    val_main_v55 (F := F) i = val_main_cst_12 (F := F) (idx_main_v55 i) := by
  unfold val_main_v55
  generalize val_main_cst_12 (F := F) = y
  exact broadcastInDim_apply _ bcast_S_S256 y i (idx_main_v55 i) (fun a => a.elim0)

def val_main_v56 : (⟨S256, .f32⟩ : BufTy).Contents (Elt F) :=
  Host.divf (val_main_v54 (F := F) x0 x1 x2 x3) (val_main_v55 (F := F))
theorem val_main_v56_apply (i : S256.Idx) :
    val_main_v56 (F := F) x0 x1 x2 x3 i = FloatOps.hostDivf (val_main_v54 (F := F) x0 x1 x2 x3 i) (val_main_v55 (F := F) i) := rfl

def val_main_v57 : (⟨S1x256, .f32⟩ : BufTy).Contents (Elt F) :=
  broadcastInDim S1x256 ![1] bcast_S256_S1x256_1 (val_main_v49 (F := F) x0 x1 x2 x3)
abbrev idx_main_v57 (i : S1x256.Idx) : S256.Idx := fun a => match a with
  | ⟨0, _⟩ => ⟨(i 1).val, (i 1).isLt⟩
theorem val_main_v57_apply (i : S1x256.Idx) :
    val_main_v57 (F := F) x0 x1 x2 x3 i = val_main_v49 (F := F) x0 x1 x2 x3 (idx_main_v57 i) := by
  unfold val_main_v57
  generalize val_main_v49 (F := F) x0 x1 x2 x3 = y
  exact broadcastInDim_apply _ bcast_S256_S1x256_1 y i (idx_main_v57 i) (fun a => match a with
    | ⟨0, _⟩ => by show (i 1).val = if (256 : Nat) = 1 then 0 else (i 1).val; rw [if_neg (by decide)])

def val_main_v58 : (⟨S50000x256, .f32⟩ : BufTy).Contents (Elt F) :=
  broadcastInDim S50000x256 ![0, 1] bcast_S1x256_S50000x256_0_1 (val_main_v57 (F := F) x0 x1 x2 x3)
abbrev idx_main_v58 : S1x256.Idx := fun a => match a with
  | ⟨0, _⟩ => ⟨0, Nat.one_pos⟩
  | ⟨1, _⟩ => ⟨(i 1).val, (i 1).isLt⟩
theorem val_main_v58_apply :
    val_main_v58 (F := F) x0 x1 x2 x3 i = val_main_v57 (F := F) x0 x1 x2 x3 (idx_main_v58 i) := by
  unfold val_main_v58
  generalize val_main_v57 (F := F) x0 x1 x2 x3 = y
  exact broadcastInDim_apply _ bcast_S1x256_S50000x256_0_1 y i (idx_main_v58 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v59 : (⟨S50000x256, .f32⟩ : BufTy).Contents (Elt F) :=
  subf (val_main_v46 (F := F) x0 x1 x2 x3) (val_main_v58 (F := F) x0 x1 x2 x3)
theorem val_main_v59_apply :
    val_main_v59 (F := F) x0 x1 x2 x3 i = FloatOps.subf (val_main_v46 (F := F) x0 x1 x2 x3 i) (val_main_v58 (F := F) x0 x1 x2 x3 i) := rfl

def val_main_cst_13 : (⟨S_, .f32⟩ : BufTy).Contents (Elt F) :=
  constant S_ .f32 0x3727C5AC#32
theorem val_main_cst_13_apply (i : S_.Idx) :
    val_main_cst_13 (F := F) i = FloatOps.ofBits .f32 0x3727C5AC#32 := rfl

def val_main_v60 : (⟨S256, .f32⟩ : BufTy).Contents (Elt F) :=
  broadcastInDim S256 ![] bcast_S_S256 (val_main_cst_13 (F := F))
abbrev idx_main_v60 (i : S256.Idx) : S_.Idx := fun a => a.elim0
theorem val_main_v60_apply (i : S256.Idx) :
    val_main_v60 (F := F) i = val_main_cst_13 (F := F) (idx_main_v60 i) := by
  unfold val_main_v60
  generalize val_main_cst_13 (F := F) = y
  exact broadcastInDim_apply _ bcast_S_S256 y i (idx_main_v60 i) (fun a => a.elim0)

def val_main_v61 : (⟨S256, .f32⟩ : BufTy).Contents (Elt F) :=
  addf (val_main_v56 (F := F) x0 x1 x2 x3) (val_main_v60 (F := F))
theorem val_main_v61_apply (i : S256.Idx) :
    val_main_v61 (F := F) x0 x1 x2 x3 i = FloatOps.addf (val_main_v56 (F := F) x0 x1 x2 x3 i) (val_main_v60 (F := F) i) := rfl

def val_main_v62 : (⟨S256, .f32⟩ : BufTy).Contents (Elt F) :=
  Host.rsqrt (val_main_v61 (F := F) x0 x1 x2 x3)
theorem val_main_v62_apply (i : S256.Idx) :
    val_main_v62 (F := F) x0 x1 x2 x3 i = FloatOps.hostUnary .rsqrt (val_main_v61 (F := F) x0 x1 x2 x3 i) := rfl

def val_main_v63 : (⟨S1x256, .f32⟩ : BufTy).Contents (Elt F) :=
  broadcastInDim S1x256 ![1] bcast_S256_S1x256_1 (val_main_v62 (F := F) x0 x1 x2 x3)
abbrev idx_main_v63 (i : S1x256.Idx) : S256.Idx := fun a => match a with
  | ⟨0, _⟩ => ⟨(i 1).val, (i 1).isLt⟩
theorem val_main_v63_apply (i : S1x256.Idx) :
    val_main_v63 (F := F) x0 x1 x2 x3 i = val_main_v62 (F := F) x0 x1 x2 x3 (idx_main_v63 i) := by
  unfold val_main_v63
  generalize val_main_v62 (F := F) x0 x1 x2 x3 = y
  exact broadcastInDim_apply _ bcast_S256_S1x256_1 y i (idx_main_v63 i) (fun a => match a with
    | ⟨0, _⟩ => by show (i 1).val = if (256 : Nat) = 1 then 0 else (i 1).val; rw [if_neg (by decide)])

def val_main_v64 : (⟨S50000x256, .f32⟩ : BufTy).Contents (Elt F) :=
  broadcastInDim S50000x256 ![0, 1] bcast_S1x256_S50000x256_0_1 (val_main_v63 (F := F) x0 x1 x2 x3)
abbrev idx_main_v64 : S1x256.Idx := fun a => match a with
  | ⟨0, _⟩ => ⟨0, Nat.one_pos⟩
  | ⟨1, _⟩ => ⟨(i 1).val, (i 1).isLt⟩
theorem val_main_v64_apply :
    val_main_v64 (F := F) x0 x1 x2 x3 i = val_main_v63 (F := F) x0 x1 x2 x3 (idx_main_v64 i) := by
  unfold val_main_v64
  generalize val_main_v63 (F := F) x0 x1 x2 x3 = y
  exact broadcastInDim_apply _ bcast_S1x256_S50000x256_0_1 y i (idx_main_v64 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v65 : (⟨S50000x256, .f32⟩ : BufTy).Contents (Elt F) :=
  mulf (val_main_v59 (F := F) x0 x1 x2 x3) (val_main_v64 (F := F) x0 x1 x2 x3)
theorem val_main_v65_apply :
    val_main_v65 (F := F) x0 x1 x2 x3 i = FloatOps.mulf (val_main_v59 (F := F) x0 x1 x2 x3 i) (val_main_v64 (F := F) x0 x1 x2 x3 i) := rfl

def val_main_v66 : (⟨S1x256, .f32⟩ : BufTy).Contents (Elt F) :=
  broadcastInDim S1x256 ![1] bcast_S256_S1x256_1 (x8)
abbrev idx_main_v66 (i : S1x256.Idx) : S256.Idx := fun a => match a with
  | ⟨0, _⟩ => ⟨(i 1).val, (i 1).isLt⟩
theorem val_main_v66_apply (i : S1x256.Idx) :
    val_main_v66 (F := F) x8 i = x8 (idx_main_v66 i) := by
  unfold val_main_v66
  exact broadcastInDim_apply _ bcast_S256_S1x256_1 x8 i (idx_main_v66 i) (fun a => match a with
    | ⟨0, _⟩ => by show (i 1).val = if (256 : Nat) = 1 then 0 else (i 1).val; rw [if_neg (by decide)])

def val_main_v67 : (⟨S50000x256, .f32⟩ : BufTy).Contents (Elt F) :=
  broadcastInDim S50000x256 ![0, 1] bcast_S1x256_S50000x256_0_1 (val_main_v66 (F := F) x8)
abbrev idx_main_v67 : S1x256.Idx := fun a => match a with
  | ⟨0, _⟩ => ⟨0, Nat.one_pos⟩
  | ⟨1, _⟩ => ⟨(i 1).val, (i 1).isLt⟩
theorem val_main_v67_apply :
    val_main_v67 (F := F) x8 i = val_main_v66 (F := F) x8 (idx_main_v67 i) := by
  unfold val_main_v67
  generalize val_main_v66 (F := F) x8 = y
  exact broadcastInDim_apply _ bcast_S1x256_S50000x256_0_1 y i (idx_main_v67 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v68 : (⟨S50000x256, .f32⟩ : BufTy).Contents (Elt F) :=
  mulf (val_main_v65 (F := F) x0 x1 x2 x3) (val_main_v67 (F := F) x8)
theorem val_main_v68_apply :
    val_main_v68 (F := F) x0 x1 x2 x3 x8 i = FloatOps.mulf (val_main_v65 (F := F) x0 x1 x2 x3 i) (val_main_v67 (F := F) x8 i) := rfl

def val_main_v69 : (⟨S1x256, .f32⟩ : BufTy).Contents (Elt F) :=
  broadcastInDim S1x256 ![1] bcast_S256_S1x256_1 (x9)
abbrev idx_main_v69 (i : S1x256.Idx) : S256.Idx := fun a => match a with
  | ⟨0, _⟩ => ⟨(i 1).val, (i 1).isLt⟩
theorem val_main_v69_apply (i : S1x256.Idx) :
    val_main_v69 (F := F) x9 i = x9 (idx_main_v69 i) := by
  unfold val_main_v69
  exact broadcastInDim_apply _ bcast_S256_S1x256_1 x9 i (idx_main_v69 i) (fun a => match a with
    | ⟨0, _⟩ => by show (i 1).val = if (256 : Nat) = 1 then 0 else (i 1).val; rw [if_neg (by decide)])

def val_main_v70 : (⟨S50000x256, .f32⟩ : BufTy).Contents (Elt F) :=
  broadcastInDim S50000x256 ![0, 1] bcast_S1x256_S50000x256_0_1 (val_main_v69 (F := F) x9)
abbrev idx_main_v70 : S1x256.Idx := fun a => match a with
  | ⟨0, _⟩ => ⟨0, Nat.one_pos⟩
  | ⟨1, _⟩ => ⟨(i 1).val, (i 1).isLt⟩
theorem val_main_v70_apply :
    val_main_v70 (F := F) x9 i = val_main_v69 (F := F) x9 (idx_main_v70 i) := by
  unfold val_main_v70
  generalize val_main_v69 (F := F) x9 = y
  exact broadcastInDim_apply _ bcast_S1x256_S50000x256_0_1 y i (idx_main_v70 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v71 : (⟨S50000x256, .f32⟩ : BufTy).Contents (Elt F) :=
  addf (val_main_v68 (F := F) x0 x1 x2 x3 x8) (val_main_v70 (F := F) x9)
theorem val_main_v71_apply :
    val_main_v71 (F := F) x0 x1 x2 x3 x8 x9 i = FloatOps.addf (val_main_v68 (F := F) x0 x1 x2 x3 x8 i) (val_main_v70 (F := F) x9 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S50000x256, .f32⟩ : BufTy).Contents (Elt F) :=
  broadcastInDim S50000x256 ![] bcast_S_S50000x256 (val_main_call1_cst (F := F))
abbrev idx_main_call1_v0 (i : S50000x256.Idx) : S_.Idx := fun a => a.elim0
theorem val_main_call1_v0_apply :
    val_main_call1_v0 (F := F) i = val_main_call1_cst (F := F) (idx_main_call1_v0 i) := by
  unfold val_main_call1_v0
  generalize val_main_call1_cst (F := F) = y
  exact broadcastInDim_apply _ bcast_S_S50000x256 y i (idx_main_call1_v0 i) (fun a => a.elim0)

def val_main_v72 : (⟨S50000x256, .f32⟩ : BufTy).Contents (Elt F) :=
  maximumf (val_main_v71 (F := F) x0 x1 x2 x3 x8 x9) (val_main_call1_v0 (F := F))
theorem val_main_v72_apply :
    val_main_v72 (F := F) x0 x1 x2 x3 x8 x9 i = FloatOps.maximumf (val_main_v71 (F := F) x0 x1 x2 x3 x8 x9 i) (val_main_call1_v0 (F := F) i) := rfl

def val_main_v73 : (⟨S50000x256, .f32⟩ : BufTy).Contents (Elt F) :=
  Host.dotGeneral dot_S50000x256_S256x256_S50000x256_1_0_0_1_n_n none (val_main_v72 (F := F) x0 x1 x2 x3 x8 x9) (x4)
theorem lhs_main_v73_0 (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem lhs_main_v73_1 (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
theorem rhs_main_v73_0 (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
theorem rhs_main_v73_1 (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl
abbrev lidx_main_v73 (k : Fin 256) : S50000x256.Idx := fun a => match a with
  | ⟨0, _⟩ => ⟨(i 0).val, (i 0).isLt⟩
  | ⟨1, _⟩ => ⟨k.val, k.isLt⟩
abbrev ridx_main_v73 (k : Fin 256) : S256x256.Idx := fun a => match a with
  | ⟨0, _⟩ => ⟨k.val, k.isLt⟩
  | ⟨1, _⟩ => ⟨(i 1).val, (i 1).isLt⟩

theorem val_main_v73_apply (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x8 : (⟨S256, .f32⟩ : BufTy).Contents (Elt Ideal)) (x9 : (⟨S256, .f32⟩ : BufTy).Contents (Elt Ideal)) (i : S50000x256.Idx) :
    val_main_v73 (F := Ideal) x0 x1 x2 x3 x4 x8 x9 i = ∑ k : Fin 256, (val_main_v72 (F := Ideal) x0 x1 x2 x3 x8 x9) (lidx_main_v73 i k) * x4 (ridx_main_v73 i k) := by
  unfold val_main_v73
  generalize val_main_v72 (F := Ideal) x0 x1 x2 x3 x8 x9 = y0
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx i ((ValueIdx.contrEquiv1 dot_S50000x256_S256x256_S50000x256_1_0_0_1_n_n 256 rfl rfl).symm k) = lidx_main_v73 i k := funext fun a => Fin.ext (by
    match a with
    | ⟨0, _⟩ => exact lhs_main_v73_0 _ _
    | ⟨1, _⟩ => exact (lhs_main_v73_1 _ _).trans hk)
  have er : dot_S50000x256_S256x256_S50000x256_1_0_0_1_n_n.rhsIdx i ((ValueIdx.contrEquiv1 dot_S50000x256_S256x256_S50000x256_1_0_0_1_n_n 256 rfl rfl).symm k) = ridx_main_v73 i k := funext fun a => Fin.ext (by
    match a with
    | ⟨0, _⟩ => exact (rhs_main_v73_0 _ _).trans hk
    | ⟨1, _⟩ => exact rhs_main_v73_1 _ _)
  rw [el, er]

def val_main_v74 : (⟨S850000x1, .f32⟩ : BufTy).Contents (Elt F) :=
  broadcastInDim S850000x1 ![0] bcast_S850000_S850000x1_0 (val_main_v29 (F := F) x1)
def val_main_c_14 : (⟨S_, .i32⟩ : BufTy).Contents (Elt F) :=
  constantI S_ 32 0#32
def val_main_v75 : (⟨S850000, .i32⟩ : BufTy).Contents (Elt F) :=
  broadcastInDim S850000 ![] bcast_S_S850000 (val_main_c_14 (F := F))
def val_main_v76 : (⟨S850000, .i1⟩ : BufTy).Contents (Elt F) :=
  cmpi .slt (val_main_v6 (F := F) x1) (val_main_v75 (F := F))
def val_main_c_15 : (⟨S_, .i32⟩ : BufTy).Contents (Elt F) :=
  constantI S_ 32 50000#32
def val_main_v77 : (⟨S850000, .i32⟩ : BufTy).Contents (Elt F) :=
  broadcastInDim S850000 ![] bcast_S_S850000 (val_main_c_15 (F := F))
def val_main_v78 : (⟨S850000, .i32⟩ : BufTy).Contents (Elt F) :=
  addi (val_main_v6 (F := F) x1) (val_main_v77 (F := F))
def val_main_v79 : (⟨S850000, .i32⟩ : BufTy).Contents (Elt F) :=
  select (val_main_v76 (F := F) x1) (val_main_v78 (F := F) x1) (val_main_v6 (F := F) x1)
def val_main_v80 : (⟨S850000x1, .i32⟩ : BufTy).Contents (Elt F) :=
  broadcastInDim S850000x1 ![0] bcast_S850000_S850000x1_0 (val_main_v79 (F := F) x1)
def val_main_v81 : (⟨S850000x256, .f32⟩ : BufTy).Contents (Elt F) :=
  Host.gather gather_S50000x256_S850000x1_S850000x256_1_0_n_n_0_1_1256 (val_main_v73 (F := F) x0 x1 x2 x3 x4 x8 x9) (val_main_v80 (F := F) x1)

def val_main_v82 : (⟨S850000x256, .f32⟩ : BufTy).Contents (Elt F) :=
  broadcastInDim S850000x256 ![0, 1] bcast_S850000x1_S850000x256_0_1 (val_main_v74 (F := F) x1)
def val_main_v83 : (⟨S850000x256, .f32⟩ : BufTy).Contents (Elt F) :=
  mulf (val_main_v82 (F := F) x1) (val_main_v81 (F := F) x0 x1 x2 x3 x4 x8 x9)
def val_main_cst_16 : (⟨S_, .f32⟩ : BufTy).Contents (Elt F) :=
  constant S_ .f32 0x00000000#32
def val_main_v84 : (⟨S50000x256, .f32⟩ : BufTy).Contents (Elt F) :=
  broadcastInDim S50000x256 ![] bcast_S_S50000x256 (val_main_cst_16 (F := F))
def val_main_v85 : (⟨S850000x1, .i32⟩ : BufTy).Contents (Elt F) :=
  broadcastInDim S850000x1 ![0] bcast_S850000_S850000x1_0 (val_main_v3 (F := F) x1)
def val_main_v86 : (⟨S50000x256, .f32⟩ : BufTy).Contents (Elt F) :=
  Host.scatterAdd scatter_S50000x256_S850000x1_S850000x256_1_0_0_1 (val_main_v84 (F := F)) (val_main_v85 (F := F) x1) (val_main_v83 (F := F) x0 x1 x2 x3 x4 x8 x9)

def val_main_v87 : (⟨S1x256, .f32⟩ : BufTy).Contents (Elt F) :=
  broadcastInDim S1x256 ![1] bcast_S256_S1x256_1 (x5)
abbrev idx_main_v87 (i : S1x256.Idx) : S256.Idx := fun a => match a with
  | ⟨0, _⟩ => ⟨(i 1).val, (i 1).isLt⟩
theorem val_main_v87_apply (i : S1x256.Idx) :
    val_main_v87 (F := F) x5 i = x5 (idx_main_v87 i) := by
  unfold val_main_v87
  exact broadcastInDim_apply _ bcast_S256_S1x256_1 x5 i (idx_main_v87 i) (fun a => match a with
    | ⟨0, _⟩ => by show (i 1).val = if (256 : Nat) = 1 then 0 else (i 1).val; rw [if_neg (by decide)])

def val_main_v88 : (⟨S50000x256, .f32⟩ : BufTy).Contents (Elt F) :=
  broadcastInDim S50000x256 ![0, 1] bcast_S1x256_S50000x256_0_1 (val_main_v87 (F := F) x5)
abbrev idx_main_v88 : S1x256.Idx := fun a => match a with
  | ⟨0, _⟩ => ⟨0, Nat.one_pos⟩
  | ⟨1, _⟩ => ⟨(i 1).val, (i 1).isLt⟩
theorem val_main_v88_apply :
    val_main_v88 (F := F) x5 i = val_main_v87 (F := F) x5 (idx_main_v88 i) := by
  unfold val_main_v88
  generalize val_main_v87 (F := F) x5 = y
  exact broadcastInDim_apply _ bcast_S1x256_S50000x256_0_1 y i (idx_main_v88 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v89 : (⟨S50000x256, .f32⟩ : BufTy).Contents (Elt F) :=
  addf (val_main_v86 (F := F) x0 x1 x2 x3 x4 x8 x9) (val_main_v88 (F := F) x5)
theorem val_main_v89_apply :
    val_main_v89 (F := F) x0 x1 x2 x3 x4 x5 x8 x9 i = FloatOps.addf (val_main_v86 (F := F) x0 x1 x2 x3 x4 x8 x9 i) (val_main_v88 (F := F) x5 i) := rfl

def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

def val_main_v90 : (⟨S256, .f32⟩ : BufTy).Contents (Elt F) :=
  Host.reduceAdd (val_main_v89 (F := F) x0 x1 x2 x3 x4 x5 x8 x9) (val_main_cst_17 (F := F)) reducesTo_S50000x256_S256_d0 h_S_
abbrev idx_main_v90 (i : S256.Idx) (k : Fin 50000) : S50000x256.Idx := fun a => match a with
  | ⟨0, _⟩ => ⟨k.val, k.isLt⟩
  | ⟨1, _⟩ => ⟨(i 0).val, (i 0).isLt⟩

theorem val_main_v90_apply (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x8 : (⟨S256, .f32⟩ : BufTy).Contents (Elt Ideal)) (x9 : (⟨S256, .f32⟩ : BufTy).Contents (Elt Ideal)) (i : S256.Idx) :
    val_main_v90 (F := Ideal) x0 x1 x2 x3 x4 x5 x8 x9 i = (val_main_cst_17 (F := Ideal)) (Shape.Idx.first h_S_) + ∑ k : Fin 50000, (val_main_v89 (F := Ideal) x0 x1 x2 x3 x4 x5 x8 x9) (idx_main_v90 i k) := by
  unfold val_main_v90
  generalize val_main_v89 (F := Ideal) x0 x1 x2 x3 x4 x5 x8 x9 = y0
  simp only [Host.reduceAdd, Ideal.hostReduceAdd_def]
  rw [Ideal.hostReduceAdd_single reducesTo_S50000x256_S256_d0 (by decide)]
  refine congrArg (_ + ·) (Finset.sum_congr rfl fun k _ => ?_)
  exact congrArg y0 (funext fun a => Fin.ext (by match a with | ⟨0, _⟩ => rfl | ⟨1, _⟩ => rfl))

def val_main_cst_18 : (⟨S_, .f32⟩ : BufTy).Contents (Elt F) :=
  constant S_ .f32 0x47435000#32
theorem val_main_cst_18_apply (i : S_.Idx) :
    val_main_cst_18 (F := F) i = FloatOps.ofBits .f32 0x47435000#32 := rfl

def val_main_v91 : (⟨S256, .f32⟩ : BufTy).Contents (Elt F) :=
  broadcastInDim S256 ![] bcast_S_S256 (val_main_cst_18 (F := F))
abbrev idx_main_v91 (i : S256.Idx) : S_.Idx := fun a => a.elim0
theorem val_main_v91_apply (i : S256.Idx) :
    val_main_v91 (F := F) i = val_main_cst_18 (F := F) (idx_main_v91 i) := by
  unfold val_main_v91
  generalize val_main_cst_18 (F := F) = y
  exact broadcastInDim_apply _ bcast_S_S256 y i (idx_main_v91 i) (fun a => a.elim0)

def val_main_v92 : (⟨S256, .f32⟩ : BufTy).Contents (Elt F) :=
  Host.divf (val_main_v90 (F := F) x0 x1 x2 x3 x4 x5 x8 x9) (val_main_v91 (F := F))
theorem val_main_v92_apply (i : S256.Idx) :
    val_main_v92 (F := F) x0 x1 x2 x3 x4 x5 x8 x9 i = FloatOps.hostDivf (val_main_v90 (F := F) x0 x1 x2 x3 x4 x5 x8 x9 i) (val_main_v91 (F := F) i) := rfl

def val_main_v93 : (⟨S1x256, .f32⟩ : BufTy).Contents (Elt F) :=
  broadcastInDim S1x256 ![1] bcast_S256_S1x256_1 (val_main_v92 (F := F) x0 x1 x2 x3 x4 x5 x8 x9)
abbrev idx_main_v93 (i : S1x256.Idx) : S256.Idx := fun a => match a with
  | ⟨0, _⟩ => ⟨(i 1).val, (i 1).isLt⟩
theorem val_main_v93_apply (i : S1x256.Idx) :
    val_main_v93 (F := F) x0 x1 x2 x3 x4 x5 x8 x9 i = val_main_v92 (F := F) x0 x1 x2 x3 x4 x5 x8 x9 (idx_main_v93 i) := by
  unfold val_main_v93
  generalize val_main_v92 (F := F) x0 x1 x2 x3 x4 x5 x8 x9 = y
  exact broadcastInDim_apply _ bcast_S256_S1x256_1 y i (idx_main_v93 i) (fun a => match a with
    | ⟨0, _⟩ => by show (i 1).val = if (256 : Nat) = 1 then 0 else (i 1).val; rw [if_neg (by decide)])

def val_main_v94 : (⟨S50000x256, .f32⟩ : BufTy).Contents (Elt F) :=
  broadcastInDim S50000x256 ![0, 1] bcast_S1x256_S50000x256_0_1 (val_main_v93 (F := F) x0 x1 x2 x3 x4 x5 x8 x9)
abbrev idx_main_v94 : S1x256.Idx := fun a => match a with
  | ⟨0, _⟩ => ⟨0, Nat.one_pos⟩
  | ⟨1, _⟩ => ⟨(i 1).val, (i 1).isLt⟩
theorem val_main_v94_apply :
    val_main_v94 (F := F) x0 x1 x2 x3 x4 x5 x8 x9 i = val_main_v93 (F := F) x0 x1 x2 x3 x4 x5 x8 x9 (idx_main_v94 i) := by
  unfold val_main_v94
  generalize val_main_v93 (F := F) x0 x1 x2 x3 x4 x5 x8 x9 = y
  exact broadcastInDim_apply _ bcast_S1x256_S50000x256_0_1 y i (idx_main_v94 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v95 : (⟨S50000x256, .f32⟩ : BufTy).Contents (Elt F) :=
  subf (val_main_v89 (F := F) x0 x1 x2 x3 x4 x5 x8 x9) (val_main_v94 (F := F) x0 x1 x2 x3 x4 x5 x8 x9)
theorem val_main_v95_apply :
    val_main_v95 (F := F) x0 x1 x2 x3 x4 x5 x8 x9 i = FloatOps.subf (val_main_v89 (F := F) x0 x1 x2 x3 x4 x5 x8 x9 i) (val_main_v94 (F := F) x0 x1 x2 x3 x4 x5 x8 x9 i) := rfl

def val_main_v96 : (⟨S50000x256, .f32⟩ : BufTy).Contents (Elt F) :=
  mulf (val_main_v95 (F := F) x0 x1 x2 x3 x4 x5 x8 x9) (val_main_v95 (F := F) x0 x1 x2 x3 x4 x5 x8 x9)
theorem val_main_v96_apply :
    val_main_v96 (F := F) x0 x1 x2 x3 x4 x5 x8 x9 i = FloatOps.mulf (val_main_v95 (F := F) x0 x1 x2 x3 x4 x5 x8 x9 i) (val_main_v95 (F := F) x0 x1 x2 x3 x4 x5 x8 x9 i) := rfl

def val_main_cst_19 : (⟨S_, .f32⟩ : BufTy).Contents (Elt F) :=
  constant S_ .f32 0x00000000#32
theorem val_main_cst_19_apply (i : S_.Idx) :
    val_main_cst_19 (F := F) i = FloatOps.ofBits .f32 0x00000000#32 := rfl

def val_main_v97 : (⟨S256, .f32⟩ : BufTy).Contents (Elt F) :=
  Host.reduceAdd (val_main_v96 (F := F) x0 x1 x2 x3 x4 x5 x8 x9) (val_main_cst_19 (F := F)) reducesTo_S50000x256_S256_d0 h_S_
abbrev idx_main_v97 (i : S256.Idx) (k : Fin 50000) : S50000x256.Idx := fun a => match a with
  | ⟨0, _⟩ => ⟨k.val, k.isLt⟩
  | ⟨1, _⟩ => ⟨(i 0).val, (i 0).isLt⟩

theorem val_main_v97_apply (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x8 : (⟨S256, .f32⟩ : BufTy).Contents (Elt Ideal)) (x9 : (⟨S256, .f32⟩ : BufTy).Contents (Elt Ideal)) (i : S256.Idx) :
    val_main_v97 (F := Ideal) x0 x1 x2 x3 x4 x5 x8 x9 i = (val_main_cst_19 (F := Ideal)) (Shape.Idx.first h_S_) + ∑ k : Fin 50000, (val_main_v96 (F := Ideal) x0 x1 x2 x3 x4 x5 x8 x9) (idx_main_v97 i k) := by
  unfold val_main_v97
  generalize val_main_v96 (F := Ideal) x0 x1 x2 x3 x4 x5 x8 x9 = y0
  simp only [Host.reduceAdd, Ideal.hostReduceAdd_def]
  rw [Ideal.hostReduceAdd_single reducesTo_S50000x256_S256_d0 (by decide)]
  refine congrArg (_ + ·) (Finset.sum_congr rfl fun k _ => ?_)
  exact congrArg y0 (funext fun a => Fin.ext (by match a with | ⟨0, _⟩ => rfl | ⟨1, _⟩ => rfl))

def val_main_cst_20 : (⟨S_, .f32⟩ : BufTy).Contents (Elt F) :=
  constant S_ .f32 0x47435000#32
theorem val_main_cst_20_apply (i : S_.Idx) :
    val_main_cst_20 (F := F) i = FloatOps.ofBits .f32 0x47435000#32 := rfl

def val_main_v98 : (⟨S256, .f32⟩ : BufTy).Contents (Elt F) :=
  broadcastInDim S256 ![] bcast_S_S256 (val_main_cst_20 (F := F))
abbrev idx_main_v98 (i : S256.Idx) : S_.Idx := fun a => a.elim0
theorem val_main_v98_apply (i : S256.Idx) :
    val_main_v98 (F := F) i = val_main_cst_20 (F := F) (idx_main_v98 i) := by
  unfold val_main_v98
  generalize val_main_cst_20 (F := F) = y
  exact broadcastInDim_apply _ bcast_S_S256 y i (idx_main_v98 i) (fun a => a.elim0)

def val_main_v99 : (⟨S256, .f32⟩ : BufTy).Contents (Elt F) :=
  Host.divf (val_main_v97 (F := F) x0 x1 x2 x3 x4 x5 x8 x9) (val_main_v98 (F := F))
theorem val_main_v99_apply (i : S256.Idx) :
    val_main_v99 (F := F) x0 x1 x2 x3 x4 x5 x8 x9 i = FloatOps.hostDivf (val_main_v97 (F := F) x0 x1 x2 x3 x4 x5 x8 x9 i) (val_main_v98 (F := F) i) := rfl

def val_main_v100 : (⟨S1x256, .f32⟩ : BufTy).Contents (Elt F) :=
  broadcastInDim S1x256 ![1] bcast_S256_S1x256_1 (val_main_v92 (F := F) x0 x1 x2 x3 x4 x5 x8 x9)
abbrev idx_main_v100 (i : S1x256.Idx) : S256.Idx := fun a => match a with
  | ⟨0, _⟩ => ⟨(i 1).val, (i 1).isLt⟩
theorem val_main_v100_apply (i : S1x256.Idx) :
    val_main_v100 (F := F) x0 x1 x2 x3 x4 x5 x8 x9 i = val_main_v92 (F := F) x0 x1 x2 x3 x4 x5 x8 x9 (idx_main_v100 i) := by
  unfold val_main_v100
  generalize val_main_v92 (F := F) x0 x1 x2 x3 x4 x5 x8 x9 = y
  exact broadcastInDim_apply _ bcast_S256_S1x256_1 y i (idx_main_v100 i) (fun a => match a with
    | ⟨0, _⟩ => by show (i 1).val = if (256 : Nat) = 1 then 0 else (i 1).val; rw [if_neg (by decide)])

def val_main_v101 : (⟨S50000x256, .f32⟩ : BufTy).Contents (Elt F) :=
  broadcastInDim S50000x256 ![0, 1] bcast_S1x256_S50000x256_0_1 (val_main_v100 (F := F) x0 x1 x2 x3 x4 x5 x8 x9)
abbrev idx_main_v101 : S1x256.Idx := fun a => match a with
  | ⟨0, _⟩ => ⟨0, Nat.one_pos⟩
  | ⟨1, _⟩ => ⟨(i 1).val, (i 1).isLt⟩
theorem val_main_v101_apply :
    val_main_v101 (F := F) x0 x1 x2 x3 x4 x5 x8 x9 i = val_main_v100 (F := F) x0 x1 x2 x3 x4 x5 x8 x9 (idx_main_v101 i) := by
  unfold val_main_v101
  generalize val_main_v100 (F := F) x0 x1 x2 x3 x4 x5 x8 x9 = y
  exact broadcastInDim_apply _ bcast_S1x256_S50000x256_0_1 y i (idx_main_v101 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v102 : (⟨S50000x256, .f32⟩ : BufTy).Contents (Elt F) :=
  subf (val_main_v89 (F := F) x0 x1 x2 x3 x4 x5 x8 x9) (val_main_v101 (F := F) x0 x1 x2 x3 x4 x5 x8 x9)
theorem val_main_v102_apply :
    val_main_v102 (F := F) x0 x1 x2 x3 x4 x5 x8 x9 i = FloatOps.subf (val_main_v89 (F := F) x0 x1 x2 x3 x4 x5 x8 x9 i) (val_main_v101 (F := F) x0 x1 x2 x3 x4 x5 x8 x9 i) := rfl

def val_main_cst_21 : (⟨S_, .f32⟩ : BufTy).Contents (Elt F) :=
  constant S_ .f32 0x3727C5AC#32
theorem val_main_cst_21_apply (i : S_.Idx) :
    val_main_cst_21 (F := F) i = FloatOps.ofBits .f32 0x3727C5AC#32 := rfl

def val_main_v103 : (⟨S256, .f32⟩ : BufTy).Contents (Elt F) :=
  broadcastInDim S256 ![] bcast_S_S256 (val_main_cst_21 (F := F))
abbrev idx_main_v103 (i : S256.Idx) : S_.Idx := fun a => a.elim0
theorem val_main_v103_apply (i : S256.Idx) :
    val_main_v103 (F := F) i = val_main_cst_21 (F := F) (idx_main_v103 i) := by
  unfold val_main_v103
  generalize val_main_cst_21 (F := F) = y
  exact broadcastInDim_apply _ bcast_S_S256 y i (idx_main_v103 i) (fun a => a.elim0)

def val_main_v104 : (⟨S256, .f32⟩ : BufTy).Contents (Elt F) :=
  addf (val_main_v99 (F := F) x0 x1 x2 x3 x4 x5 x8 x9) (val_main_v103 (F := F))
theorem val_main_v104_apply (i : S256.Idx) :
    val_main_v104 (F := F) x0 x1 x2 x3 x4 x5 x8 x9 i = FloatOps.addf (val_main_v99 (F := F) x0 x1 x2 x3 x4 x5 x8 x9 i) (val_main_v103 (F := F) i) := rfl

def val_main_v105 : (⟨S256, .f32⟩ : BufTy).Contents (Elt F) :=
  Host.rsqrt (val_main_v104 (F := F) x0 x1 x2 x3 x4 x5 x8 x9)
theorem val_main_v105_apply (i : S256.Idx) :
    val_main_v105 (F := F) x0 x1 x2 x3 x4 x5 x8 x9 i = FloatOps.hostUnary .rsqrt (val_main_v104 (F := F) x0 x1 x2 x3 x4 x5 x8 x9 i) := rfl

def val_main_v106 : (⟨S1x256, .f32⟩ : BufTy).Contents (Elt F) :=
  broadcastInDim S1x256 ![1] bcast_S256_S1x256_1 (val_main_v105 (F := F) x0 x1 x2 x3 x4 x5 x8 x9)
abbrev idx_main_v106 (i : S1x256.Idx) : S256.Idx := fun a => match a with
  | ⟨0, _⟩ => ⟨(i 1).val, (i 1).isLt⟩
theorem val_main_v106_apply (i : S1x256.Idx) :
    val_main_v106 (F := F) x0 x1 x2 x3 x4 x5 x8 x9 i = val_main_v105 (F := F) x0 x1 x2 x3 x4 x5 x8 x9 (idx_main_v106 i) := by
  unfold val_main_v106
  generalize val_main_v105 (F := F) x0 x1 x2 x3 x4 x5 x8 x9 = y
  exact broadcastInDim_apply _ bcast_S256_S1x256_1 y i (idx_main_v106 i) (fun a => match a with
    | ⟨0, _⟩ => by show (i 1).val = if (256 : Nat) = 1 then 0 else (i 1).val; rw [if_neg (by decide)])

def val_main_v107 : (⟨S50000x256, .f32⟩ : BufTy).Contents (Elt F) :=
  broadcastInDim S50000x256 ![0, 1] bcast_S1x256_S50000x256_0_1 (val_main_v106 (F := F) x0 x1 x2 x3 x4 x5 x8 x9)
abbrev idx_main_v107 : S1x256.Idx := fun a => match a with
  | ⟨0, _⟩ => ⟨0, Nat.one_pos⟩
  | ⟨1, _⟩ => ⟨(i 1).val, (i 1).isLt⟩
theorem val_main_v107_apply :
    val_main_v107 (F := F) x0 x1 x2 x3 x4 x5 x8 x9 i = val_main_v106 (F := F) x0 x1 x2 x3 x4 x5 x8 x9 (idx_main_v107 i) := by
  unfold val_main_v107
  generalize val_main_v106 (F := F) x0 x1 x2 x3 x4 x5 x8 x9 = y
  exact broadcastInDim_apply _ bcast_S1x256_S50000x256_0_1 y i (idx_main_v107 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v108 : (⟨S50000x256, .f32⟩ : BufTy).Contents (Elt F) :=
  mulf (val_main_v102 (F := F) x0 x1 x2 x3 x4 x5 x8 x9) (val_main_v107 (F := F) x0 x1 x2 x3 x4 x5 x8 x9)
theorem val_main_v108_apply :
    val_main_v108 (F := F) x0 x1 x2 x3 x4 x5 x8 x9 i = FloatOps.mulf (val_main_v102 (F := F) x0 x1 x2 x3 x4 x5 x8 x9 i) (val_main_v107 (F := F) x0 x1 x2 x3 x4 x5 x8 x9 i) := rfl

def val_main_v109 : (⟨S1x256, .f32⟩ : BufTy).Contents (Elt F) :=
  broadcastInDim S1x256 ![1] bcast_S256_S1x256_1 (x8)
abbrev idx_main_v109 (i : S1x256.Idx) : S256.Idx := fun a => match a with
  | ⟨0, _⟩ => ⟨(i 1).val, (i 1).isLt⟩
theorem val_main_v109_apply (i : S1x256.Idx) :
    val_main_v109 (F := F) x8 i = x8 (idx_main_v109 i) := by
  unfold val_main_v109
  exact broadcastInDim_apply _ bcast_S256_S1x256_1 x8 i (idx_main_v109 i) (fun a => match a with
    | ⟨0, _⟩ => by show (i 1).val = if (256 : Nat) = 1 then 0 else (i 1).val; rw [if_neg (by decide)])

def val_main_v110 : (⟨S50000x256, .f32⟩ : BufTy).Contents (Elt F) :=
  broadcastInDim S50000x256 ![0, 1] bcast_S1x256_S50000x256_0_1 (val_main_v109 (F := F) x8)
abbrev idx_main_v110 : S1x256.Idx := fun a => match a with
  | ⟨0, _⟩ => ⟨0, Nat.one_pos⟩
  | ⟨1, _⟩ => ⟨(i 1).val, (i 1).isLt⟩
theorem val_main_v110_apply :
    val_main_v110 (F := F) x8 i = val_main_v109 (F := F) x8 (idx_main_v110 i) := by
  unfold val_main_v110
  generalize val_main_v109 (F := F) x8 = y
  exact broadcastInDim_apply _ bcast_S1x256_S50000x256_0_1 y i (idx_main_v110 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v111 : (⟨S50000x256, .f32⟩ : BufTy).Contents (Elt F) :=
  mulf (val_main_v108 (F := F) x0 x1 x2 x3 x4 x5 x8 x9) (val_main_v110 (F := F) x8)
theorem val_main_v111_apply :
    val_main_v111 (F := F) x0 x1 x2 x3 x4 x5 x8 x9 i = FloatOps.mulf (val_main_v108 (F := F) x0 x1 x2 x3 x4 x5 x8 x9 i) (val_main_v110 (F := F) x8 i) := rfl

def val_main_v112 : (⟨S1x256, .f32⟩ : BufTy).Contents (Elt F) :=
  broadcastInDim S1x256 ![1] bcast_S256_S1x256_1 (x9)
abbrev idx_main_v112 (i : S1x256.Idx) : S256.Idx := fun a => match a with
  | ⟨0, _⟩ => ⟨(i 1).val, (i 1).isLt⟩
theorem val_main_v112_apply (i : S1x256.Idx) :
    val_main_v112 (F := F) x9 i = x9 (idx_main_v112 i) := by
  unfold val_main_v112
  exact broadcastInDim_apply _ bcast_S256_S1x256_1 x9 i (idx_main_v112 i) (fun a => match a with
    | ⟨0, _⟩ => by show (i 1).val = if (256 : Nat) = 1 then 0 else (i 1).val; rw [if_neg (by decide)])

def val_main_v113 : (⟨S50000x256, .f32⟩ : BufTy).Contents (Elt F) :=
  broadcastInDim S50000x256 ![0, 1] bcast_S1x256_S50000x256_0_1 (val_main_v112 (F := F) x9)
abbrev idx_main_v113 : S1x256.Idx := fun a => match a with
  | ⟨0, _⟩ => ⟨0, Nat.one_pos⟩
  | ⟨1, _⟩ => ⟨(i 1).val, (i 1).isLt⟩
theorem val_main_v113_apply :
    val_main_v113 (F := F) x9 i = val_main_v112 (F := F) x9 (idx_main_v113 i) := by
  unfold val_main_v113
  generalize val_main_v112 (F := F) x9 = y
  exact broadcastInDim_apply _ bcast_S1x256_S50000x256_0_1 y i (idx_main_v113 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v114 : (⟨S50000x256, .f32⟩ : BufTy).Contents (Elt F) :=
  addf (val_main_v111 (F := F) x0 x1 x2 x3 x4 x5 x8 x9) (val_main_v113 (F := F) x9)
theorem val_main_v114_apply :
    val_main_v114 (F := F) x0 x1 x2 x3 x4 x5 x8 x9 i = FloatOps.addf (val_main_v111 (F := F) x0 x1 x2 x3 x4 x5 x8 x9 i) (val_main_v113 (F := F) x9 i) := rfl

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v0 : (⟨S50000x256, .f32⟩ : BufTy).Contents (Elt F) :=
  broadcastInDim S50000x256 ![] bcast_S_S50000x256 (val_main_call2_cst (F := F))
abbrev idx_main_call2_v0 (i : S50000x256.Idx) : S_.Idx := fun a => a.elim0
theorem val_main_call2_v0_apply :
    val_main_call2_v0 (F := F) i = val_main_call2_cst (F := F) (idx_main_call2_v0 i) := by
  unfold val_main_call2_v0
  generalize val_main_call2_cst (F := F) = y
  exact broadcastInDim_apply _ bcast_S_S50000x256 y i (idx_main_call2_v0 i) (fun a => a.elim0)

def val_main_v115 : (⟨S50000x256, .f32⟩ : BufTy).Contents (Elt F) :=
  maximumf (val_main_v114 (F := F) x0 x1 x2 x3 x4 x5 x8 x9) (val_main_call2_v0 (F := F))
theorem val_main_v115_apply :
    val_main_v115 (F := F) x0 x1 x2 x3 x4 x5 x8 x9 i = FloatOps.maximumf (val_main_v114 (F := F) x0 x1 x2 x3 x4 x5 x8 x9 i) (val_main_call2_v0 (F := F) i) := rfl

def val_main_v116 : (⟨S50000x40, .f32⟩ : BufTy).Contents (Elt F) :=
  Host.dotGeneral dot_S50000x256_S256x40_S50000x40_1_0_0_1_n_n none (val_main_v115 (F := F) x0 x1 x2 x3 x4 x5 x8 x9) (x6)
theorem lhs_main_v116_0 (i : S50000x40.Idx) (q : dot_S50000x256_S256x40_S50000x40_1_0_0_1_n_n.contr.Idx) :
    (dot_S50000x256_S256x40_S50000x40_1_0_0_1_n_n.lhsIdx i q 0).val = (i 0).val := by
  unfold DotDims.lhsIdx
  rw [dif_neg (show ¬(0 : Fin S50000x256.rank) ∈ dot_S50000x256_S256x40_S50000x40_1_0_0_1_n_n.lhsBatch by decide), dif_pos (show (0 : Fin S50000x256.rank) ∈ dot_S50000x256_S256x40_S50000x40_1_0_0_1_n_n.lhsNonContracting by decide)]
  rfl
theorem lhs_main_v116_1 (i : S50000x40.Idx) (q : dot_S50000x256_S256x40_S50000x40_1_0_0_1_n_n.contr.Idx) :
    (dot_S50000x256_S256x40_S50000x40_1_0_0_1_n_n.lhsIdx i q 1).val = (q ⟨0, by decide⟩).val :=
  dot_S50000x256_S256x40_S50000x40_1_0_0_1_n_n.lhsIdx_val_of_single rfl i q
theorem rhs_main_v116_0 (i : S50000x40.Idx) (q : dot_S50000x256_S256x40_S50000x40_1_0_0_1_n_n.contr.Idx) :
    (dot_S50000x256_S256x40_S50000x40_1_0_0_1_n_n.rhsIdx i q 0).val = (q ⟨0, by decide⟩).val :=
  dot_S50000x256_S256x40_S50000x40_1_0_0_1_n_n.rhsIdx_val_of_single rfl i q
theorem rhs_main_v116_1 (i : S50000x40.Idx) (q : dot_S50000x256_S256x40_S50000x40_1_0_0_1_n_n.contr.Idx) :
    (dot_S50000x256_S256x40_S50000x40_1_0_0_1_n_n.rhsIdx i q 1).val = (i 1).val := by
  unfold DotDims.rhsIdx
  rw [dif_neg (show ¬(1 : Fin S256x40.rank) ∈ dot_S50000x256_S256x40_S50000x40_1_0_0_1_n_n.rhsBatch by decide), dif_pos (show (1 : Fin S256x40.rank) ∈ dot_S50000x256_S256x40_S50000x40_1_0_0_1_n_n.rhsNonContracting by decide)]
  rfl
abbrev lidx_main_v116 (i : S50000x40.Idx) (k : Fin 256) : S50000x256.Idx := fun a => match a with
  | ⟨0, _⟩ => ⟨(i 0).val, (i 0).isLt⟩
  | ⟨1, _⟩ => ⟨k.val, k.isLt⟩
abbrev ridx_main_v116 (i : S50000x40.Idx) (k : Fin 256) : S256x40.Idx := fun a => match a with
  | ⟨0, _⟩ => ⟨k.val, k.isLt⟩
  | ⟨1, _⟩ => ⟨(i 1).val, (i 1).isLt⟩

theorem val_main_v116_apply (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x40, .f32⟩ : BufTy).Contents (Elt Ideal)) (x8 : (⟨S256, .f32⟩ : BufTy).Contents (Elt Ideal)) (x9 : (⟨S256, .f32⟩ : BufTy).Contents (Elt Ideal)) (i : S50000x40.Idx) :
    val_main_v116 (F := Ideal) x0 x1 x2 x3 x4 x5 x6 x8 x9 i = ∑ k : Fin 256, (val_main_v115 (F := Ideal) x0 x1 x2 x3 x4 x5 x8 x9) (lidx_main_v116 i k) * x6 (ridx_main_v116 i k) := by
  unfold val_main_v116
  generalize val_main_v115 (F := Ideal) x0 x1 x2 x3 x4 x5 x8 x9 = y0
  simp only [Host.dotGeneral]
  rw [Ideal.dotGeneral_apply, ← Equiv.sum_comp (ValueIdx.contrEquiv1 dot_S50000x256_S256x40_S50000x40_1_0_0_1_n_n 256 rfl rfl).symm]
  refine Finset.sum_congr rfl fun k _ => ?_
  have hk := ValueIdx.contrEquiv1_symm_val dot_S50000x256_S256x40_S50000x40_1_0_0_1_n_n 256 rfl rfl k
  have el : dot_S50000x256_S256x40_S50000x40_1_0_0_1_n_n.lhsIdx i ((ValueIdx.contrEquiv1 dot_S50000x256_S256x40_S50000x40_1_0_0_1_n_n 256 rfl rfl).symm k) = lidx_main_v116 i k := funext fun a => Fin.ext (by
    match a with
    | ⟨0, _⟩ => exact lhs_main_v116_0 _ _
    | ⟨1, _⟩ => exact (lhs_main_v116_1 _ _).trans hk)
  have er : dot_S50000x256_S256x40_S50000x40_1_0_0_1_n_n.rhsIdx i ((ValueIdx.contrEquiv1 dot_S50000x256_S256x40_S50000x40_1_0_0_1_n_n 256 rfl rfl).symm k) = ridx_main_v116 i k := funext fun a => Fin.ext (by
    match a with
    | ⟨0, _⟩ => exact (rhs_main_v116_0 _ _).trans hk
    | ⟨1, _⟩ => exact rhs_main_v116_1 _ _)
  rw [el, er]

def val_main_v117 : (⟨S850000x1, .f32⟩ : BufTy).Contents (Elt F) :=
  broadcastInDim S850000x1 ![0] bcast_S850000_S850000x1_0 (val_main_v29 (F := F) x1)
def val_main_c_22 : (⟨S_, .i32⟩ : BufTy).Contents (Elt F) :=
  constantI S_ 32 0#32
def val_main_v118 : (⟨S850000, .i32⟩ : BufTy).Contents (Elt F) :=
  broadcastInDim S850000 ![] bcast_S_S850000 (val_main_c_22 (F := F))
def val_main_v119 : (⟨S850000, .i1⟩ : BufTy).Contents (Elt F) :=
  cmpi .slt (val_main_v6 (F := F) x1) (val_main_v118 (F := F))
def val_main_c_23 : (⟨S_, .i32⟩ : BufTy).Contents (Elt F) :=
  constantI S_ 32 50000#32
def val_main_v120 : (⟨S850000, .i32⟩ : BufTy).Contents (Elt F) :=
  broadcastInDim S850000 ![] bcast_S_S850000 (val_main_c_23 (F := F))
def val_main_v121 : (⟨S850000, .i32⟩ : BufTy).Contents (Elt F) :=
  addi (val_main_v6 (F := F) x1) (val_main_v120 (F := F))
def val_main_v122 : (⟨S850000, .i32⟩ : BufTy).Contents (Elt F) :=
  select (val_main_v119 (F := F) x1) (val_main_v121 (F := F) x1) (val_main_v6 (F := F) x1)
def val_main_v123 : (⟨S850000x1, .i32⟩ : BufTy).Contents (Elt F) :=
  broadcastInDim S850000x1 ![0] bcast_S850000_S850000x1_0 (val_main_v122 (F := F) x1)
def val_main_v124 : (⟨S850000x40, .f32⟩ : BufTy).Contents (Elt F) :=
  Host.gather gather_S50000x40_S850000x1_S850000x40_1_0_n_n_0_1_140 (val_main_v116 (F := F) x0 x1 x2 x3 x4 x5 x6 x8 x9) (val_main_v123 (F := F) x1)

def val_main_v125 : (⟨S850000x40, .f32⟩ : BufTy).Contents (Elt F) :=
  broadcastInDim S850000x40 ![0, 1] bcast_S850000x1_S850000x40_0_1 (val_main_v117 (F := F) x1)
def val_main_v126 : (⟨S850000x40, .f32⟩ : BufTy).Contents (Elt F) :=
  mulf (val_main_v125 (F := F) x1) (val_main_v124 (F := F) x0 x1 x2 x3 x4 x5 x6 x8 x9)
def val_main_cst_24 : (⟨S_, .f32⟩ : BufTy).Contents (Elt F) :=
  constant S_ .f32 0x00000000#32
def val_main_v127 : (⟨S50000x40, .f32⟩ : BufTy).Contents (Elt F) :=
  broadcastInDim S50000x40 ![] bcast_S_S50000x40 (val_main_cst_24 (F := F))
def val_main_v128 : (⟨S850000x1, .i32⟩ : BufTy).Contents (Elt F) :=
  broadcastInDim S850000x1 ![0] bcast_S850000_S850000x1_0 (val_main_v3 (F := F) x1)
def val_main_v129 : (⟨S50000x40, .f32⟩ : BufTy).Contents (Elt F) :=
  Host.scatterAdd scatter_S50000x40_S850000x1_S850000x40_1_0_0_1 (val_main_v127 (F := F)) (val_main_v128 (F := F) x1) (val_main_v126 (F := F) x0 x1 x2 x3 x4 x5 x6 x8 x9)

def val_main_v130 : (⟨S1x40, .f32⟩ : BufTy).Contents (Elt F) :=
  broadcastInDim S1x40 ![1] bcast_S40_S1x40_1 (x7)
abbrev idx_main_v130 (i : S1x40.Idx) : S40.Idx := fun a => match a with
  | ⟨0, _⟩ => ⟨(i 1).val, (i 1).isLt⟩
theorem val_main_v130_apply (i : S1x40.Idx) :
    val_main_v130 (F := F) x7 i = x7 (idx_main_v130 i) := by
  unfold val_main_v130
  exact broadcastInDim_apply _ bcast_S40_S1x40_1 x7 i (idx_main_v130 i) (fun a => match a with
    | ⟨0, _⟩ => by show (i 1).val = if (40 : Nat) = 1 then 0 else (i 1).val; rw [if_neg (by decide)])

def val_main_v131 : (⟨S50000x40, .f32⟩ : BufTy).Contents (Elt F) :=
  broadcastInDim S50000x40 ![0, 1] bcast_S1x40_S50000x40_0_1 (val_main_v130 (F := F) x7)
abbrev idx_main_v131 (i : S50000x40.Idx) : S1x40.Idx := fun a => match a with
  | ⟨0, _⟩ => ⟨0, Nat.one_pos⟩
  | ⟨1, _⟩ => ⟨(i 1).val, (i 1).isLt⟩
theorem val_main_v131_apply (i : S50000x40.Idx) :
    val_main_v131 (F := F) x7 i = val_main_v130 (F := F) x7 (idx_main_v131 i) := by
  unfold val_main_v131
  generalize val_main_v130 (F := F) x7 = y
  exact broadcastInDim_apply _ bcast_S1x40_S50000x40_0_1 y i (idx_main_v131 i) (fun a => match a with
    | ⟨0, _⟩ => by show 0 = if (1 : Nat) = 1 then 0 else (i 0).val; rw [if_pos rfl]
    | ⟨1, _⟩ => by show (i 1).val = if (40 : Nat) = 1 then 0 else (i 1).val; rw [if_neg (by decide)])

def val_main_v132 : (⟨S50000x40, .f32⟩ : BufTy).Contents (Elt F) :=
  addf (val_main_v129 (F := F) x0 x1 x2 x3 x4 x5 x6 x8 x9) (val_main_v131 (F := F) x7)
theorem val_main_v132_apply (i : S50000x40.Idx) :
    val_main_v132 (F := F) x0 x1 x2 x3 x4 x5 x6 x7 x8 x9 i = FloatOps.addf (val_main_v129 (F := F) x0 x1 x2 x3 x4 x5 x6 x8 x9 i) (val_main_v131 (F := F) x7 i) := rfl

def val_main_call3_cst : (⟨S_, .f32⟩ : BufTy).Contents (Elt F) :=
  constant S_ .f32 0xFF800000#32
def val_main_call3_v0 : (⟨S50000, .f32⟩ : BufTy).Contents (Elt F) :=
  Host.reduce FloatOps.maximumf (val_main_v132 (F := F) x0 x1 x2 x3 x4 x5 x6 x7 x8 x9) (val_main_call3_cst (F := F)) reducesTo_S50000x40_S50000_d1 h_S_

def val_main_call3_cst_0 : (⟨S_, .f32⟩ : BufTy).Contents (Elt F) :=
  constant S_ .f32 0xFF800000#32
theorem val_main_call3_cst_0_apply (i : S_.Idx) :
    val_main_call3_cst_0 (F := F) i = FloatOps.ofBits .f32 0xFF800000#32 := rfl

def val_main_call3_v1 : (⟨S50000, .f32⟩ : BufTy).Contents (Elt F) :=
  broadcastInDim S50000 ![] bcast_S_S50000 (val_main_call3_cst_0 (F := F))
abbrev idx_main_call3_v1 (i : S50000.Idx) : S_.Idx := fun a => a.elim0
theorem val_main_call3_v1_apply (i : S50000.Idx) :
    val_main_call3_v1 (F := F) i = val_main_call3_cst_0 (F := F) (idx_main_call3_v1 i) := by
  unfold val_main_call3_v1
  generalize val_main_call3_cst_0 (F := F) = y
  exact broadcastInDim_apply _ bcast_S_S50000 y i (idx_main_call3_v1 i) (fun a => a.elim0)

def val_main_call3_v2 : (⟨S50000, .f32⟩ : BufTy).Contents (Elt F) :=
  maximumf (val_main_call3_v1 (F := F)) (val_main_call3_v0 (F := F) x0 x1 x2 x3 x4 x5 x6 x7 x8 x9)
theorem val_main_call3_v2_apply (i : S50000.Idx) :
    val_main_call3_v2 (F := F) x0 x1 x2 x3 x4 x5 x6 x7 x8 x9 i = FloatOps.maximumf (val_main_call3_v1 (F := F) i) (val_main_call3_v0 (F := F) x0 x1 x2 x3 x4 x5 x6 x7 x8 x9 i) := rfl

def val_main_call3_v3 : (⟨S50000x1, .f32⟩ : BufTy).Contents (Elt F) :=
  broadcastInDim S50000x1 ![0] bcast_S50000_S50000x1_0 (val_main_call3_v2 (F := F) x0 x1 x2 x3 x4 x5 x6 x7 x8 x9)
abbrev idx_main_call3_v3 (i : S50000x1.Idx) : S50000.Idx := fun a => match a with
  | ⟨0, _⟩ => ⟨(i 0).val, (i 0).isLt⟩
theorem val_main_call3_v3_apply (i : S50000x1.Idx) :
    val_main_call3_v3 (F := F) x0 x1 x2 x3 x4 x5 x6 x7 x8 x9 i = val_main_call3_v2 (F := F) x0 x1 x2 x3 x4 x5 x6 x7 x8 x9 (idx_main_call3_v3 i) := by
  unfold val_main_call3_v3
  generalize val_main_call3_v2 (F := F) x0 x1 x2 x3 x4 x5 x6 x7 x8 x9 = y
  exact broadcastInDim_apply _ bcast_S50000_S50000x1_0 y i (idx_main_call3_v3 i) (fun a => match a with
    | ⟨0, _⟩ => by show (i 0).val = if (50000 : Nat) = 1 then 0 else (i 0).val; rw [if_neg (by decide)])

def val_main_call3_v4 : (⟨S50000x40, .f32⟩ : BufTy).Contents (Elt F) :=
  broadcastInDim S50000x40 ![0, 1] bcast_S50000x1_S50000x40_0_1 (val_main_call3_v3 (F := F) x0 x1 x2 x3 x4 x5 x6 x7 x8 x9)
abbrev idx_main_call3_v4 (i : S50000x40.Idx) : S50000x1.Idx := fun a => match a with
  | ⟨0, _⟩ => ⟨(i 0).val, (i 0).isLt⟩
  | ⟨1, _⟩ => ⟨0, Nat.one_pos⟩
theorem val_main_call3_v4_apply (i : S50000x40.Idx) :
    val_main_call3_v4 (F := F) x0 x1 x2 x3 x4 x5 x6 x7 x8 x9 i = val_main_call3_v3 (F := F) x0 x1 x2 x3 x4 x5 x6 x7 x8 x9 (idx_main_call3_v4 i) := by
  unfold val_main_call3_v4
  generalize val_main_call3_v3 (F := F) x0 x1 x2 x3 x4 x5 x6 x7 x8 x9 = y
  exact broadcastInDim_apply _ bcast_S50000x1_S50000x40_0_1 y i (idx_main_call3_v4 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_call3_v5 : (⟨S50000x40, .f32⟩ : BufTy).Contents (Elt F) :=
  subf (val_main_v132 (F := F) x0 x1 x2 x3 x4 x5 x6 x7 x8 x9) (val_main_call3_v4 (F := F) x0 x1 x2 x3 x4 x5 x6 x7 x8 x9)
theorem val_main_call3_v5_apply (i : S50000x40.Idx) :
    val_main_call3_v5 (F := F) x0 x1 x2 x3 x4 x5 x6 x7 x8 x9 i = FloatOps.subf (val_main_v132 (F := F) x0 x1 x2 x3 x4 x5 x6 x7 x8 x9 i) (val_main_call3_v4 (F := F) x0 x1 x2 x3 x4 x5 x6 x7 x8 x9 i) := rfl

def val_main_call3_v6 : (⟨S50000x40, .f32⟩ : BufTy).Contents (Elt F) :=
  Host.exp (val_main_call3_v5 (F := F) x0 x1 x2 x3 x4 x5 x6 x7 x8 x9)
theorem val_main_call3_v6_apply (i : S50000x40.Idx) :
    val_main_call3_v6 (F := F) x0 x1 x2 x3 x4 x5 x6 x7 x8 x9 i = FloatOps.hostUnary .exp (val_main_call3_v5 (F := F) x0 x1 x2 x3 x4 x5 x6 x7 x8 x9 i) := rfl

def val_main_call3_cst_1 : (⟨S_, .f32⟩ : BufTy).Contents (Elt F) :=
  constant S_ .f32 0x00000000#32
theorem val_main_call3_cst_1_apply (i : S_.Idx) :
    val_main_call3_cst_1 (F := F) i = FloatOps.ofBits .f32 0x00000000#32 := rfl

def val_main_call3_v7 : (⟨S50000, .f32⟩ : BufTy).Contents (Elt F) :=
  Host.reduceAdd (val_main_call3_v6 (F := F) x0 x1 x2 x3 x4 x5 x6 x7 x8 x9) (val_main_call3_cst_1 (F := F)) reducesTo_S50000x40_S50000_d1 h_S_
abbrev idx_main_call3_v7 (i : S50000.Idx) (k : Fin 40) : S50000x40.Idx := fun a => match a with
  | ⟨0, _⟩ => ⟨(i 0).val, (i 0).isLt⟩
  | ⟨1, _⟩ => ⟨k.val, k.isLt⟩

theorem val_main_call3_v7_apply (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x40, .f32⟩ : BufTy).Contents (Elt Ideal)) (x7 : (⟨S40, .f32⟩ : BufTy).Contents (Elt Ideal)) (x8 : (⟨S256, .f32⟩ : BufTy).Contents (Elt Ideal)) (x9 : (⟨S256, .f32⟩ : BufTy).Contents (Elt Ideal)) (i : S50000.Idx) :
    val_main_call3_v7 (F := Ideal) x0 x1 x2 x3 x4 x5 x6 x7 x8 x9 i = (val_main_call3_cst_1 (F := Ideal)) (Shape.Idx.first h_S_) + ∑ k : Fin 40, (val_main_call3_v6 (F := Ideal) x0 x1 x2 x3 x4 x5 x6 x7 x8 x9) (idx_main_call3_v7 i k) := by
  unfold val_main_call3_v7
  generalize val_main_call3_v6 (F := Ideal) x0 x1 x2 x3 x4 x5 x6 x7 x8 x9 = y0
  simp only [Host.reduceAdd, Ideal.hostReduceAdd_def]
  rw [Ideal.hostReduceAdd_single reducesTo_S50000x40_S50000_d1 (by decide)]
  refine congrArg (_ + ·) (Finset.sum_congr rfl fun k _ => ?_)
  exact congrArg y0 (funext fun a => Fin.ext (by match a with | ⟨0, _⟩ => rfl | ⟨1, _⟩ => rfl))

def val_main_call3_v8 : (⟨S50000x1, .f32⟩ : BufTy).Contents (Elt F) :=
  broadcastInDim S50000x1 ![0] bcast_S50000_S50000x1_0 (val_main_call3_v7 (F := F) x0 x1 x2 x3 x4 x5 x6 x7 x8 x9)
abbrev idx_main_call3_v8 (i : S50000x1.Idx) : S50000.Idx := fun a => match a with
  | ⟨0, _⟩ => ⟨(i 0).val, (i 0).isLt⟩
theorem val_main_call3_v8_apply (i : S50000x1.Idx) :
    val_main_call3_v8 (F := F) x0 x1 x2 x3 x4 x5 x6 x7 x8 x9 i = val_main_call3_v7 (F := F) x0 x1 x2 x3 x4 x5 x6 x7 x8 x9 (idx_main_call3_v8 i) := by
  unfold val_main_call3_v8
  generalize val_main_call3_v7 (F := F) x0 x1 x2 x3 x4 x5 x6 x7 x8 x9 = y
  exact broadcastInDim_apply _ bcast_S50000_S50000x1_0 y i (idx_main_call3_v8 i) (fun a => match a with
    | ⟨0, _⟩ => by show (i 0).val = if (50000 : Nat) = 1 then 0 else (i 0).val; rw [if_neg (by decide)])

def val_main_call3_v9 : (⟨S50000x1, .f32⟩ : BufTy).Contents (Elt F) :=
  Host.log (val_main_call3_v8 (F := F) x0 x1 x2 x3 x4 x5 x6 x7 x8 x9)
theorem val_main_call3_v9_apply (i : S50000x1.Idx) :
    val_main_call3_v9 (F := F) x0 x1 x2 x3 x4 x5 x6 x7 x8 x9 i = FloatOps.hostUnary .log (val_main_call3_v8 (F := F) x0 x1 x2 x3 x4 x5 x6 x7 x8 x9 i) := rfl

def val_main_call3_v10 : (⟨S50000x40, .f32⟩ : BufTy).Contents (Elt F) :=
  broadcastInDim S50000x40 ![0, 1] bcast_S50000x1_S50000x40_0_1 (val_main_call3_v9 (F := F) x0 x1 x2 x3 x4 x5 x6 x7 x8 x9)
abbrev idx_main_call3_v10 (i : S50000x40.Idx) : S50000x1.Idx := fun a => match a with
  | ⟨0, _⟩ => ⟨(i 0).val, (i 0).isLt⟩
  | ⟨1, _⟩ => ⟨0, Nat.one_pos⟩
theorem val_main_call3_v10_apply (i : S50000x40.Idx) :
    val_main_call3_v10 (F := F) x0 x1 x2 x3 x4 x5 x6 x7 x8 x9 i = val_main_call3_v9 (F := F) x0 x1 x2 x3 x4 x5 x6 x7 x8 x9 (idx_main_call3_v10 i) := by
  unfold val_main_call3_v10
  generalize val_main_call3_v9 (F := F) x0 x1 x2 x3 x4 x5 x6 x7 x8 x9 = y
  exact broadcastInDim_apply _ bcast_S50000x1_S50000x40_0_1 y i (idx_main_call3_v10 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_v133 : (⟨S50000x40, .f32⟩ : BufTy).Contents (Elt F) :=
  subf (val_main_call3_v5 (F := F) x0 x1 x2 x3 x4 x5 x6 x7 x8 x9) (val_main_call3_v10 (F := F) x0 x1 x2 x3 x4 x5 x6 x7 x8 x9)
theorem val_main_v133_apply (i : S50000x40.Idx) :
    val_main_v133 (F := F) x0 x1 x2 x3 x4 x5 x6 x7 x8 x9 i = FloatOps.subf (val_main_call3_v5 (F := F) x0 x1 x2 x3 x4 x5 x6 x7 x8 x9 i) (val_main_call3_v10 (F := F) x0 x1 x2 x3 x4 x5 x6 x7 x8 x9 i) := rfl

end Cert.ReferenceIdeal.ReadP

end
-- ==== Proof.Ref.RunA.lean ====
import proofs.«418912_j86466281603780_3_alg».proof.Proof.Ref.Ops
import proofs.«418912_j86466281603780_3_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F] (W : Valuation τ sig (Elt F))

variable {r : Ref sig .tc}

abbrev opsA_W : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]
theorem opsA_writes : (opsA : List (HloOp τ sig (Elt F))).Forall fun op => op.writes ⊆ (opsA_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem after_A_keep (h : r ∉ opsA_W) : after opsA W (Proc.devRef .tc r) = W (Proc.devRef .tc r) :=
  after_of_writes_sub opsA W opsA_writes h

theorem after_A_v3 : after opsA W (Proc.devRef .tc main_v3) = val_main_v3 (W (Proc.devRef .tc main_arg1)) := by
  after_results_simp
  rfl

theorem after_A_v6 : after opsA W (Proc.devRef .tc main_v6) = val_main_v6 (W (Proc.devRef .tc main_arg1)) := by
  after_results_simp
  rfl

theorem after_A_v29 : after opsA W (Proc.devRef .tc main_v29) = val_main_v29 (W (Proc.devRef .tc main_arg1)) := by
  after_results_simp
  rfl

abbrev opsB_W : List (Ref sig .tc) :=
  [main_v30, main_v31, main_c_6, main_v32, main_v33, main_c_7, main_v34, main_v35, main_v36, main_v37, main_v38, main_v39, main_v40, main_cst_8, main_v41, main_v42, main_v43, main_v44, main_v45, main_v46]
theorem opsB_writes : (opsB : List (HloOp τ sig (Elt F))).Forall fun op => op.writes ⊆ (opsB_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem after_B_keep (h : r ∉ opsB_W) : after opsB W (Proc.devRef .tc r) = W (Proc.devRef .tc r) :=
  after_of_writes_sub opsB W opsB_writes h

theorem after_B_v46 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F))
    (h0 : W (Proc.devRef .tc main_arg0) = x0) (h2 : W (Proc.devRef .tc main_arg2) = x2) (h3 : W (Proc.devRef .tc main_arg3) = x3)
    (hrow : W (Proc.devRef .tc main_v3) = val_main_v3 x1) (hcol : W (Proc.devRef .tc main_v6) = val_main_v6 x1)
    (hw : W (Proc.devRef .tc main_v29) = val_main_v29 x1) :
    after opsB W (Proc.devRef .tc main_v46) = val_main_v46 x0 x1 x2 x3 := by
  after_results_simp
  rw [h0, h2, h3, hrow, hcol, hw]
  rfl

abbrev opsC_W : List (Ref sig .tc) :=
  [main_cst_9, main_v47, main_cst_10, main_v48, main_v49, main_v50, main_v51, main_v52, main_v53, main_cst_11, main_v54, main_cst_12, main_v55, main_v56, main_v57, main_v58, main_v59, main_cst_13, main_v60, main_v61, main_v62, main_v63, main_v64, main_v65, main_v66, main_v67, main_v68, main_v69, main_v70, main_v71, main_call1_cst, main_call1_v0, main_v72, main_v73]
theorem opsC_writes : (opsC : List (HloOp τ sig (Elt F))).Forall fun op => op.writes ⊆ (opsC_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem after_C_keep (h : r ∉ opsC_W) : after opsC W (Proc.devRef .tc r) = W (Proc.devRef .tc r) :=
  after_of_writes_sub opsC W opsC_writes h

theorem after_C_v73 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) (x4 : (⟨S256x256, .f32⟩ : BufTy).Contents (Elt F)) (x8 x9 : (⟨S256, .f32⟩ : BufTy).Contents (Elt F))
    (h4 : W (Proc.devRef .tc main_arg4) = x4) (h8 : W (Proc.devRef .tc main_arg8) = x8) (h9 : W (Proc.devRef .tc main_arg9) = x9)
    (h46 : W (Proc.devRef .tc main_v46) = val_main_v46 x0 x1 x2 x3) :
    after opsC W (Proc.devRef .tc main_v73) = val_main_v73 x0 x1 x2 x3 x4 x8 x9 := by
  after_results_simp
  rw [h4, h8, h9, h46]
  rfl

end Cert.ReferenceIdeal.HandRun

end
-- ==== Proof.Ref.RunB.lean ====
import proofs.«418912_j86466281603780_3_alg».proof.Proof.Ref.Ops
import proofs.«418912_j86466281603780_3_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]
section
variable (row col : (⟨S850000, .i32⟩ : BufTy).Contents (Elt F)) (w : (⟨S850000, .f32⟩ : BufTy).Contents (Elt F)) (h : (⟨S50000x256, .f32⟩ : BufTy).Contents (Elt F)) (red : (⟨S50000x40, .f32⟩ : BufTy).Contents (Elt F) → (⟨S_, .f32⟩ : BufTy).Contents (Elt F) → (⟨S50000, .f32⟩ : BufTy).Contents (Elt F)) (y : (⟨S50000x40, .f32⟩ : BufTy).Contents (Elt F)) (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x40, .f32⟩ : BufTy).Contents (Elt F)) (x8 : (⟨S256, .f32⟩ : BufTy).Contents (Elt F)) (x9 : (⟨S256, .f32⟩ : BufTy).Contents (Elt F))

def wrapNeg (ix : (⟨S850000, .i32⟩ : BufTy).Contents (Elt F)) : (⟨S850000, .i32⟩ : BufTy).Contents (Elt F) :=
  select (cmpi .slt ix (broadcastInDim S850000 ![] bcast_S_S850000 (constantI S_ 32 0#32)))
    (addi ix (broadcastInDim S850000 ![] bcast_S_S850000 (constantI S_ 32 50000#32))) ix

def asCol {e : EltTy} (v : (⟨S850000, e⟩ : BufTy).Contents (Elt F)) : (⟨S850000x1, e⟩ : BufTy).Contents (Elt F) :=
  broadcastInDim S850000x1 ![0] bcast_S850000_S850000x1_0 v

def asRows256 (v : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 v)

def pass256 :
    (⟨S50000x256, .f32⟩ : BufTy).Contents (Elt F) :=
  Host.scatterAdd scatter_S50000x256_S850000x1_S850000x256_1_0_0_1
    (broadcastInDim S50000x256 ![] bcast_S_S50000x256 (constant S_ .f32 0x00000000#32))
    (asCol row)
    (mulf (broadcastInDim S850000x256 ![0, 1] bcast_S850000x1_S850000x256_0_1 (asCol w))
      (Host.gather gather_S50000x256_S850000x1_S850000x256_1_0_n_n_0_1_1256 h (asCol (wrapNeg col))))

def layer2 (b : (⟨S256, .f32⟩ : BufTy).Contents (Elt F)) : (⟨S50000x256, .f32⟩ : BufTy).Contents (Elt F) :=
  addf (pass256 row col w h) (asRows256 b)

def colMean : (⟨S256, .f32⟩ : BufTy).Contents (Elt F) :=
  Host.divf (Host.reduceAdd h (constant S_ .f32 0x00000000#32) reducesTo_S50000x256_S256_d0 h_S_)
    (broadcastInDim S256 ![] bcast_S_S256 (constant S_ .f32 0x47435000#32))

def centred : (⟨S50000x256, .f32⟩ : BufTy).Contents (Elt F) :=
  subf h (asRows256 (colMean h))

def colVar : (⟨S256, .f32⟩ : BufTy).Contents (Elt F) :=
  Host.divf (Host.reduceAdd (mulf (centred h) (centred h)) (constant S_ .f32 0x00000000#32) reducesTo_S50000x256_S256_d0 h_S_)
    (broadcastInDim S256 ![] bcast_S_S256 (constant S_ .f32 0x47435000#32))

def normRelu (g s : (⟨S256, .f32⟩ : BufTy).Contents (Elt F)) : (⟨S50000x256, .f32⟩ : BufTy).Contents (Elt F) :=
  maximumf
    (addf
      (mulf
        (mulf (centred h)
          (asRows256 (Host.rsqrt (addf (colVar h) (broadcastInDim S256 ![] bcast_S_S256 (constant S_ .f32 0x3727C5AC#32))))))
        (asRows256 g))
      (asRows256 s))
    (broadcastInDim S50000x256 ![] bcast_S_S50000x256 (constant S_ .f32 0x00000000#32))

def transform3 (g s : (⟨S256, .f32⟩ : BufTy).Contents (Elt F)) (m : (⟨S256x40, .f32⟩ : BufTy).Contents (Elt F)) :
    (⟨S50000x40, .f32⟩ : BufTy).Contents (Elt F) :=
  Host.dotGeneral dot_S50000x256_S256x40_S50000x40_1_0_0_1_n_n none (normRelu h g s) m

def pass40 (h : (⟨S50000x40, .f32⟩ : BufTy).Contents (Elt F)) :
    (⟨S50000x40, .f32⟩ : BufTy).Contents (Elt F) :=
  Host.scatterAdd scatter_S50000x40_S850000x1_S850000x40_1_0_0_1
    (broadcastInDim S50000x40 ![] bcast_S_S50000x40 (constant S_ .f32 0x00000000#32))
    (asCol row)
    (mulf (broadcastInDim S850000x40 ![0, 1] bcast_S850000x1_S850000x40_0_1 (asCol w))
      (Host.gather gather_S50000x40_S850000x1_S850000x40_1_0_n_n_0_1_140 h (asCol (wrapNeg col))))

def logits (h : (⟨S50000x40, .f32⟩ : BufTy).Contents (Elt F))
    (b : (⟨S40, .f32⟩ : BufTy).Contents (Elt F)) : (⟨S50000x40, .f32⟩ : BufTy).Contents (Elt F) :=
  addf (pass40 row col w h)
    (broadcastInDim S50000x40 ![0, 1] bcast_S1x40_S50000x40_0_1 (broadcastInDim S1x40 ![1] bcast_S40_S1x40_1 b))

abbrev rowMaxFold : (⟨S50000x40, .f32⟩ : BufTy).Contents (Elt F) → (⟨S_, .f32⟩ : BufTy).Contents (Elt F) → (⟨S50000, .f32⟩ : BufTy).Contents (Elt F) :=
  fun x v => Host.reduce FloatOps.maximumf x v reducesTo_S50000x40_S50000_d1 h_S_

def alongLanes (v : (⟨S50000, .f32⟩ : BufTy).Contents (Elt F)) : (⟨S50000x1, .f32⟩ : BufTy).Contents (Elt F) :=
  broadcastInDim S50000x1 ![0] bcast_S50000_S50000x1_0 v

def shiftedOf : (⟨S50000x40, .f32⟩ : BufTy).Contents (Elt F) :=
  subf y
    (broadcastInDim S50000x40 ![0, 1] bcast_S50000x1_S50000x40_0_1
      (alongLanes
        (maximumf (broadcastInDim S50000 ![] bcast_S_S50000 (constant S_ .f32 0xFF800000#32))
          (red y (constant S_ .f32 0xFF800000#32)))))

def logSoftmaxOf : (⟨S50000x40, .f32⟩ : BufTy).Contents (Elt F) :=
  subf (shiftedOf red y)
    (broadcastInDim S50000x40 ![0, 1] bcast_S50000x1_S50000x40_0_1
      (Host.log (alongLanes
        (Host.reduceAdd (Host.exp (shiftedOf red y)) (constant S_ .f32 0x00000000#32) reducesTo_S50000x40_S50000_d1 h_S_))))

def logSoftmax : (⟨S50000x40, .f32⟩ : BufTy).Contents (Elt F) :=
  logSoftmaxOf rowMaxFold y

abbrev opsGof :
    List (HloOp τ sig (Elt F)) :=
  [ TRef.nullary (TRef.of (T := ⟨S_, .f32⟩) main_call3_cst) (constant S_ .f32 0xFF800000#32),
    TRef.binary (TRef.of (T := ⟨S50000x40, .f32⟩) main_v132) (TRef.of (T := ⟨S_, .f32⟩) main_call3_cst) (TRef.of (T := ⟨S50000, .f32⟩) main_call3_v0) red,
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v132) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v133) subf ]

theorem opsG_eq : (opsG : List (HloOp τ sig (Elt F))) = opsGof rowMaxFold := rfl

theorem layer2_val :
    layer2 (val_main_v3 (F := F) x1) (val_main_v6 (F := F) x1) (val_main_v29 (F := F) x1) (val_main_v73 (F := F) x0 x1 x2 x3 x4 x8 x9) x5
      = val_main_v89 (F := F) x0 x1 x2 x3 x4 x5 x8 x9 := rfl

theorem transform3_val :
    transform3 (val_main_v89 (F := F) x0 x1 x2 x3 x4 x5 x8 x9) x8 x9 x6 = val_main_v116 (F := F) x0 x1 x2 x3 x4 x5 x6 x8 x9 := rfl

theorem logits_val (x7 : (⟨S40, .f32⟩ : BufTy).Contents (Elt F)) (x8 : (⟨S256, .f32⟩ : BufTy).Contents (Elt F)) (x9 : (⟨S256, .f32⟩ : BufTy).Contents (Elt F)) :
    logits (val_main_v3 (F := F) x1) (val_main_v6 (F := F) x1) (val_main_v29 (F := F) x1) (val_main_v116 (F := F) x0 x1 x2 x3 x4 x5 x6 x8 x9) x7
      = val_main_v132 (F := F) x0 x1 x2 x3 x4 x5 x6 x7 x8 x9 := rfl

theorem logSoftmax_val (x7 : (⟨S40, .f32⟩ : BufTy).Contents (Elt F)) (x8 : (⟨S256, .f32⟩ : BufTy).Contents (Elt F)) (x9 : (⟨S256, .f32⟩ : BufTy).Contents (Elt F)) :
    logSoftmax (val_main_v132 (F := F) x0 x1 x2 x3 x4 x5 x6 x7 x8 x9) = val_main_v133 (F := F) x0 x1 x2 x3 x4 x5 x6 x7 x8 x9 := rfl

end

variable (W : Valuation τ sig (Elt F))
section
variable (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x40, .f32⟩ : BufTy).Contents (Elt F)) (x8 : (⟨S256, .f32⟩ : BufTy).Contents (Elt F)) (x9 : (⟨S256, .f32⟩ : BufTy).Contents (Elt F)) (r : Ref sig .tc)

theorem after_D_v89 :
    StableHlo.after opsD W main_v89 = layer2 (W main_v3) (W main_v6) (W main_v29) (W main_v73) (W main_arg5) := by
  show StableHlo.after opsD W (Proc.devRef .tc main_v89) = _
  after_results_simp
  rfl

theorem after_E_v116 :
    StableHlo.after opsE W main_v116 = transform3 (W main_v89) (W main_arg8) (W main_arg9) (W main_arg6) := by
  show StableHlo.after opsE W (Proc.devRef .tc main_v116) = _
  after_results_simp
  rfl

theorem after_F_v132 :
    StableHlo.after opsF W main_v132 = logits (W main_v3) (W main_v6) (W main_v29) (W main_v116) (W main_arg7) := by
  show StableHlo.after opsF W (Proc.devRef .tc main_v132) = _
  after_results_simp
  rfl

theorem after_Gof (red : (⟨S50000x40, .f32⟩ : BufTy).Contents (Elt F) → (⟨S_, .f32⟩ : BufTy).Contents (Elt F) → (⟨S50000, .f32⟩ : BufTy).Contents (Elt F)) :
    StableHlo.after (opsGof red) W main_v133 = logSoftmaxOf red (W main_v132) := by
  show StableHlo.after (opsGof red) W (Proc.devRef .tc main_v133) = _
  after_results_simp
  rfl

theorem after_G_v133 : StableHlo.after opsG W main_v133 = logSoftmax (W main_v132) := by
  rw [opsG_eq]; exact after_Gof W rowMaxFold

theorem after_D_v89_val (h3 : W main_v3 = val_main_v3 (F := F) x1) (h6 : W main_v6 = val_main_v6 (F := F) x1)
    (h29 : W main_v29 = val_main_v29 (F := F) x1) (h73 : W main_v73 = val_main_v73 (F := F) x0 x1 x2 x3 x4 x8 x9)
    (h5 : W main_arg5 = x5) :
    StableHlo.after opsD W main_v89 = val_main_v89 (F := F) x0 x1 x2 x3 x4 x5 x8 x9 := by
  rw [after_D_v89, h3, h6, h29, h73, h5]; exact layer2_val x0 x1 x2 x3 x4 x5 x8 x9

theorem after_E_v116_val (h89 : W main_v89 = val_main_v89 (F := F) x0 x1 x2 x3 x4 x5 x8 x9)
    (h8 : W main_arg8 = x8) (h9 : W main_arg9 = x9) (h6 : W main_arg6 = x6) :
    StableHlo.after opsE W main_v116 = val_main_v116 (F := F) x0 x1 x2 x3 x4 x5 x6 x8 x9 := by
  rw [after_E_v116, h89, h8, h9, h6]; exact transform3_val x0 x1 x2 x3 x4 x5 x6 x8 x9

theorem after_F_v132_val (x7 : (⟨S40, .f32⟩ : BufTy).Contents (Elt F)) (x8 : (⟨S256, .f32⟩ : BufTy).Contents (Elt F)) (x9 : (⟨S256, .f32⟩ : BufTy).Contents (Elt F))
    (h3 : W main_v3 = val_main_v3 (F := F) x1) (h6 : W main_v6 = val_main_v6 (F := F) x1)
    (h29 : W main_v29 = val_main_v29 (F := F) x1) (h116 : W main_v116 = val_main_v116 (F := F) x0 x1 x2 x3 x4 x5 x6 x8 x9)
    (h7 : W main_arg7 = x7) :
    StableHlo.after opsF W main_v132 = val_main_v132 (F := F) x0 x1 x2 x3 x4 x5 x6 x7 x8 x9 := by
  rw [after_F_v132, h3, h6, h29, h116, h7]; exact logits_val x0 x1 x2 x3 x4 x5 x6 x7 x8 x9

theorem after_G_v133_val (x7 : (⟨S40, .f32⟩ : BufTy).Contents (Elt F)) (x8 : (⟨S256, .f32⟩ : BufTy).Contents (Elt F)) (x9 : (⟨S256, .f32⟩ : BufTy).Contents (Elt F))
    (h132 : W main_v132 = val_main_v132 (F := F) x0 x1 x2 x3 x4 x5 x6 x7 x8 x9) :
    StableHlo.after opsG W main_v133 = val_main_v133 (F := F) x0 x1 x2 x3 x4 x5 x6 x7 x8 x9 := by
  rw [after_G_v133, h132]; exact logSoftmax_val x0 x1 x2 x3 x4 x5 x6 x7 x8 x9

abbrev opsD_W : List (Ref sig .tc) := [main_v74, main_c_14, main_v75, main_v76, main_c_15, main_v77, main_v78, main_v79, main_v80, main_v81, main_v82, main_v83, main_cst_16, main_v84, main_v85, main_v86, main_v87, main_v88, main_v89]

theorem opsD_writes : (opsD : List (HloOp τ sig (Elt F))).Forall fun op => op.writes ⊆ (opsD_W.map (Proc.devRef (τ := τ) .tc)).toFinset := by
  simp only [List.Forall, StableHlo.nullary_writes, StableHlo.unary_writes, StableHlo.binary_writes, StableHlo.ternary_writes,
    Finset.singleton_subset_iff, List.mem_toFinset]
  refine ⟨?_, ?_, ?_, ?_, ?_, ?_, ?_, ?_, ?_, ?_, ?_, ?_, ?_, ?_, ?_, ?_, ?_, ?_, ?_⟩ <;> exact List.mem_map_of_mem (by decide)

theorem after_D_of (h : r ∉ opsD_W) :
    StableHlo.after opsD W (Proc.devRef .tc r) = W (Proc.devRef .tc r) :=
  StableHlo.after_of_writes_sub opsD W opsD_writes h

abbrev opsE_W : List (Ref sig .tc) := [main_cst_17, main_v90, main_cst_18, main_v91, main_v92, main_v93, main_v94, main_v95, main_v96, main_cst_19, main_v97, main_cst_20, main_v98, main_v99, main_v100, main_v101, main_v102, main_cst_21, main_v103, main_v104, main_v105, main_v106, main_v107, main_v108, main_v109, main_v110, main_v111, main_v112, main_v113, main_v114, main_call2_cst, main_call2_v0, main_v115, main_v116]

theorem opsE_writes : (opsE : List (HloOp τ sig (Elt F))).Forall fun op => op.writes ⊆ (opsE_W.map (Proc.devRef (τ := τ) .tc)).toFinset := by
  simp only [List.Forall, StableHlo.nullary_writes, StableHlo.unary_writes, StableHlo.binary_writes, StableHlo.ternary_writes,
    Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

theorem after_E_of (h : r ∉ opsE_W) :
    StableHlo.after opsE W (Proc.devRef .tc r) = W (Proc.devRef .tc r) :=
  StableHlo.after_of_writes_sub opsE W opsE_writes h

abbrev opsF_W : List (Ref sig .tc) := [main_v117, main_c_22, main_v118, main_v119, main_c_23, main_v120, main_v121, main_v122, main_v123, main_v124, main_v125, main_v126, main_cst_24, main_v127, main_v128, main_v129, main_v130, main_v131, main_v132]

theorem opsF_writes : (opsF : List (HloOp τ sig (Elt F))).Forall fun op => op.writes ⊆ (opsF_W.map (Proc.devRef (τ := τ) .tc)).toFinset := by
  simp only [List.Forall, StableHlo.nullary_writes, StableHlo.unary_writes, StableHlo.binary_writes, StableHlo.ternary_writes,
    Finset.singleton_subset_iff, List.mem_toFinset]
  refine ⟨?_, ?_, ?_, ?_, ?_, ?_, ?_, ?_, ?_, ?_, ?_, ?_, ?_, ?_, ?_, ?_, ?_, ?_, ?_⟩ <;> exact List.mem_map_of_mem (by decide)

theorem after_F_of (h : r ∉ opsF_W) :
    StableHlo.after opsF W (Proc.devRef .tc r) = W (Proc.devRef .tc r) :=
  StableHlo.after_of_writes_sub opsF W opsF_writes h

abbrev opsG_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v133]

theorem opsG_writes : (opsG : List (HloOp τ sig (Elt F))).Forall fun op => op.writes ⊆ (opsG_W.map (Proc.devRef (τ := τ) .tc)).toFinset := by
  simp only [List.Forall, StableHlo.nullary_writes, StableHlo.unary_writes, StableHlo.binary_writes, StableHlo.ternary_writes,
    Finset.singleton_subset_iff, List.mem_toFinset]
  refine ⟨?_, ?_, ?_, ?_, ?_, ?_, ?_, ?_, ?_, ?_, ?_, ?_, ?_, ?_, ?_⟩ <;> exact List.mem_map_of_mem (by decide)

theorem after_G_of (h : r ∉ opsG_W) :
    StableHlo.after opsG W (Proc.devRef .tc r) = W (Proc.devRef .tc r) :=
  StableHlo.after_of_writes_sub opsG W opsG_writes h

end

end Cert.ReferenceIdeal.HandRun

end
-- ==== Proof.Ref.Run.lean ====
import proofs.«418912_j86466281603780_3_alg».proof.Proof.Ref.RunA
import proofs.«418912_j86466281603780_3_alg».proof.Proof.Ref.RunB
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem after_ops_keep (W : Valuation τ sig (Elt F)) {r : Ref sig .tc}
    (hA : r ∉ opsA_W) (hB : r ∉ opsB_W) (hC : r ∉ opsC_W) (hD : r ∉ opsD_W) (hE : r ∉ opsE_W) (hF : r ∉ opsF_W) (hG : r ∉ opsG_W) :
    after ops W (Proc.devRef .tc r) = W (Proc.devRef .tc r) := by
  show after (opsA ++ (opsB ++ (opsC ++ (opsD ++ (opsE ++ (opsF ++ opsG)))))) W _ = _
  rw [after_append, after_append, after_append, after_append, after_append, after_append,
    after_G_of _ r hG, after_F_of _ r hF, after_E_of _ r hE, after_D_of _ r hD, after_C_keep _ hC, after_B_keep _ hB,
    after_A_keep _ hA]

theorem after_ops_v133 (W : Valuation τ sig (Elt F))
    (x0 : (⟨S50000x128, .f32⟩ : BufTy).Contents (Elt F)) (x1 : (⟨S2x800000, .i32⟩ : BufTy).Contents (Elt F))
    (x2 : (⟨S128x256, .f32⟩ : BufTy).Contents (Elt F)) (x3 : (⟨S256, .f32⟩ : BufTy).Contents (Elt F))
    (x4 : (⟨S256x256, .f32⟩ : BufTy).Contents (Elt F)) (x5 : (⟨S256, .f32⟩ : BufTy).Contents (Elt F))
    (x6 : (⟨S256x40, .f32⟩ : BufTy).Contents (Elt F)) (x7 : (⟨S40, .f32⟩ : BufTy).Contents (Elt F))
    (x8 x9 : (⟨S256, .f32⟩ : BufTy).Contents (Elt F))
    (h0 : W (Proc.devRef .tc main_arg0) = x0)
    (h1 : W (Proc.devRef .tc main_arg1) = x1)
    (h2 : W (Proc.devRef .tc main_arg2) = x2)
    (h3 : W (Proc.devRef .tc main_arg3) = x3)
    (h4 : W (Proc.devRef .tc main_arg4) = x4)
    (h5 : W (Proc.devRef .tc main_arg5) = x5)
    (h6 : W (Proc.devRef .tc main_arg6) = x6)
    (h7 : W (Proc.devRef .tc main_arg7) = x7)
    (h8 : W (Proc.devRef .tc main_arg8) = x8)
    (h9 : W (Proc.devRef .tc main_arg9) = x9) :
    after ops W (Proc.devRef .tc main_v133) = val_main_v133 x0 x1 x2 x3 x4 x5 x6 x7 x8 x9 := by
  show after (opsA ++ (opsB ++ (opsC ++ (opsD ++ (opsE ++ (opsF ++ opsG)))))) W _ = _
  rw [after_append, after_append, after_append, after_append, after_append, after_append]

  have rowA : after opsA W (Proc.devRef .tc main_v3) = val_main_v3 x1 := by rw [after_A_v3, h1]
  have colA : after opsA W (Proc.devRef .tc main_v6) = val_main_v6 x1 := by rw [after_A_v6, h1]
  have wA : after opsA W (Proc.devRef .tc main_v29) = val_main_v29 x1 := by rw [after_A_v29, h1]
  have a0A : after opsA W (Proc.devRef .tc main_arg0) = x0 := (after_A_keep W (by decide)).trans h0
  have a2A : after opsA W (Proc.devRef .tc main_arg2) = x2 := (after_A_keep W (by decide)).trans h2
  have a3A : after opsA W (Proc.devRef .tc main_arg3) = x3 := (after_A_keep W (by decide)).trans h3
  have a4A : after opsA W (Proc.devRef .tc main_arg4) = x4 := (after_A_keep W (by decide)).trans h4
  have a5A : after opsA W (Proc.devRef .tc main_arg5) = x5 := (after_A_keep W (by decide)).trans h5
  have a6A : after opsA W (Proc.devRef .tc main_arg6) = x6 := (after_A_keep W (by decide)).trans h6
  have a7A : after opsA W (Proc.devRef .tc main_arg7) = x7 := (after_A_keep W (by decide)).trans h7
  have a8A : after opsA W (Proc.devRef .tc main_arg8) = x8 := (after_A_keep W (by decide)).trans h8
  have a9A : after opsA W (Proc.devRef .tc main_arg9) = x9 := (after_A_keep W (by decide)).trans h9

  have yB : after opsB (after opsA W) (Proc.devRef .tc main_v46) = val_main_v46 x0 x1 x2 x3 :=
    after_B_v46 _ x0 x1 x2 x3 a0A a2A a3A rowA colA wA
  have rowB : after opsB (after opsA W) (Proc.devRef .tc main_v3) = val_main_v3 x1 := (after_B_keep _ (by decide)).trans rowA
  have colB : after opsB (after opsA W) (Proc.devRef .tc main_v6) = val_main_v6 x1 := (after_B_keep _ (by decide)).trans colA
  have wB : after opsB (after opsA W) (Proc.devRef .tc main_v29) = val_main_v29 x1 := (after_B_keep _ (by decide)).trans wA
  have a4B : after opsB (after opsA W) (Proc.devRef .tc main_arg4) = x4 := (after_B_keep _ (by decide)).trans a4A
  have a5B : after opsB (after opsA W) (Proc.devRef .tc main_arg5) = x5 := (after_B_keep _ (by decide)).trans a5A
  have a6B : after opsB (after opsA W) (Proc.devRef .tc main_arg6) = x6 := (after_B_keep _ (by decide)).trans a6A
  have a7B : after opsB (after opsA W) (Proc.devRef .tc main_arg7) = x7 := (after_B_keep _ (by decide)).trans a7A
  have a8B : after opsB (after opsA W) (Proc.devRef .tc main_arg8) = x8 := (after_B_keep _ (by decide)).trans a8A
  have a9B : after opsB (after opsA W) (Proc.devRef .tc main_arg9) = x9 := (after_B_keep _ (by decide)).trans a9A

  have yC : after opsC (after opsB (after opsA W)) (Proc.devRef .tc main_v73) = val_main_v73 x0 x1 x2 x3 x4 x8 x9 :=
    after_C_v73 _ x0 x1 x2 x3 x4 x8 x9 a4B a8B a9B yB
  have rowC : after opsC (after opsB (after opsA W)) (Proc.devRef .tc main_v3) = val_main_v3 x1 := (after_C_keep _ (by decide)).trans rowB
  have colC : after opsC (after opsB (after opsA W)) (Proc.devRef .tc main_v6) = val_main_v6 x1 := (after_C_keep _ (by decide)).trans colB
  have wC : after opsC (after opsB (after opsA W)) (Proc.devRef .tc main_v29) = val_main_v29 x1 := (after_C_keep _ (by decide)).trans wB
  have a5C : after opsC (after opsB (after opsA W)) (Proc.devRef .tc main_arg5) = x5 := (after_C_keep _ (by decide)).trans a5B
  have a6C : after opsC (after opsB (after opsA W)) (Proc.devRef .tc main_arg6) = x6 := (after_C_keep _ (by decide)).trans a6B
  have a7C : after opsC (after opsB (after opsA W)) (Proc.devRef .tc main_arg7) = x7 := (after_C_keep _ (by decide)).trans a7B
  have a8C : after opsC (after opsB (after opsA W)) (Proc.devRef .tc main_arg8) = x8 := (after_C_keep _ (by decide)).trans a8B
  have a9C : after opsC (after opsB (after opsA W)) (Proc.devRef .tc main_arg9) = x9 := (after_C_keep _ (by decide)).trans a9B

  have yD : after opsD (after opsC (after opsB (after opsA W))) (Proc.devRef .tc main_v89) = val_main_v89 x0 x1 x2 x3 x4 x5 x8 x9 :=
    after_D_v89_val _ x0 x1 x2 x3 x4 x5 x8 x9 rowC colC wC yC a5C
  have rowD : after opsD (after opsC (after opsB (after opsA W))) (Proc.devRef .tc main_v3) = val_main_v3 x1 := (after_D_of _ main_v3 (by decide)).trans rowC
  have colD : after opsD (after opsC (after opsB (after opsA W))) (Proc.devRef .tc main_v6) = val_main_v6 x1 := (after_D_of _ main_v6 (by decide)).trans colC
  have wD : after opsD (after opsC (after opsB (after opsA W))) (Proc.devRef .tc main_v29) = val_main_v29 x1 := (after_D_of _ main_v29 (by decide)).trans wC
  have a6D : after opsD (after opsC (after opsB (after opsA W))) (Proc.devRef .tc main_arg6) = x6 := (after_D_of _ main_arg6 (by decide)).trans a6C
  have a7D : after opsD (after opsC (after opsB (after opsA W))) (Proc.devRef .tc main_arg7) = x7 := (after_D_of _ main_arg7 (by decide)).trans a7C
  have a8D : after opsD (after opsC (after opsB (after opsA W))) (Proc.devRef .tc main_arg8) = x8 := (after_D_of _ main_arg8 (by decide)).trans a8C
  have a9D : after opsD (after opsC (after opsB (after opsA W))) (Proc.devRef .tc main_arg9) = x9 := (after_D_of _ main_arg9 (by decide)).trans a9C

  have yE : after opsE (after opsD (after opsC (after opsB (after opsA W)))) (Proc.devRef .tc main_v116) = val_main_v116 x0 x1 x2 x3 x4 x5 x6 x8 x9 :=
    after_E_v116_val _ x0 x1 x2 x3 x4 x5 x6 x8 x9 yD a8D a9D a6D
  have rowE : after opsE (after opsD (after opsC (after opsB (after opsA W)))) (Proc.devRef .tc main_v3) = val_main_v3 x1 := (after_E_of _ main_v3 (by decide)).trans rowD
  have colE : after opsE (after opsD (after opsC (after opsB (after opsA W)))) (Proc.devRef .tc main_v6) = val_main_v6 x1 := (after_E_of _ main_v6 (by decide)).trans colD
  have wE : after opsE (after opsD (after opsC (after opsB (after opsA W)))) (Proc.devRef .tc main_v29) = val_main_v29 x1 := (after_E_of _ main_v29 (by decide)).trans wD
  have a7E : after opsE (after opsD (after opsC (after opsB (after opsA W)))) (Proc.devRef .tc main_arg7) = x7 := (after_E_of _ main_arg7 (by decide)).trans a7D

  have yF : after opsF (after opsE (after opsD (after opsC (after opsB (after opsA W))))) (Proc.devRef .tc main_v132) = val_main_v132 x0 x1 x2 x3 x4 x5 x6 x7 x8 x9 :=
    after_F_v132_val _ x0 x1 x2 x3 x4 x5 x6 x7 x8 x9 rowE colE wE yE a7E

  exact after_G_v133_val _ x0 x1 x2 x3 x4 x5 x6 x7 x8 x9 yF

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133) = Cert.ReferenceIdeal.ReadP.val_main_v133 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v133).trans
        (after_ops_v133 (launchContents m c) _ _ _ _ _ _ _ _ _ _ rfl rfl rfl rfl rfl rfl rfl rfl rfl rfl),
      (h c main_arg0).trans (after_ops_keep (launchContents m c) (by decide) (by decide) (by decide) (by decide) (by decide) (by decide) (by decide)),
      (h c main_arg1).trans (after_ops_keep (launchContents m c) (by decide) (by decide) (by decide) (by decide) (by decide) (by decide) (by decide)),
      (h c main_arg2).trans (after_ops_keep (launchContents m c) (by decide) (by decide) (by decide) (by decide) (by decide) (by decide) (by decide)),
      (h c main_arg3).trans (after_ops_keep (launchContents m c) (by decide) (by decide) (by decide) (by decide) (by decide) (by decide) (by decide)),
      (h c main_arg4).trans (after_ops_keep (launchContents m c) (by decide) (by decide) (by decide) (by decide) (by decide) (by decide) (by decide)),
      (h c main_arg5).trans (after_ops_keep (launchContents m c) (by decide) (by decide) (by decide) (by decide) (by decide) (by decide) (by decide)),
      (h c main_arg6).trans (after_ops_keep (launchContents m c) (by decide) (by decide) (by decide) (by decide) (by decide) (by decide) (by decide)),
      (h c main_arg7).trans (after_ops_keep (launchContents m c) (by decide) (by decide) (by decide) (by decide) (by decide) (by decide) (by decide)),
      (h c main_arg8).trans (after_ops_keep (launchContents m c) (by decide) (by decide) (by decide) (by decide) (by decide) (by decide) (by decide)),
      (h c main_arg9).trans (after_ops_keep (launchContents m c) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.HandRun

end
-- ==== Proof.Math.Fin.lean ====
import Idealize.ShloMosaic.PureOps.Ideal
import Mathlib.Algebra.BigOperators.Group.Finset.Basic

noncomputable section

namespace Cert.Math

open Idealize.ShloMosaic
open scoped BigOperators

variable {ι : Type*} {a : EReal} {b : EReal} {r : ℝ}

def IsFin (x : EReal) : Prop := x ≠ ⊤ ∧ x ≠ ⊥

def AllFin (v : ι → EReal) : Prop := ∀ i, IsFin (v i)

theorem isFin_coe (r : ℝ) : IsFin (r : EReal) := ⟨EReal.coe_ne_top r, EReal.coe_ne_bot r⟩

theorem isFin_iff_coe {x : EReal} : IsFin x ↔ ∃ r : ℝ, x = (r : EReal) := by
  constructor
  · rintro ⟨h1, h2⟩
    exact ⟨x.toReal, (EReal.coe_toReal h1 h2).symm⟩
  · rintro ⟨r, rfl⟩
    exact isFin_coe r

theorem coe_finset_sum (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isFin_zero : IsFin (0 : EReal) := by
  rw [← EReal.coe_zero]; exact isFin_coe 0

theorem isFin_one : IsFin (1 : EReal) := by
  rw [← EReal.coe_one]; exact isFin_coe 1

theorem isFin_add (ha : IsFin a) (hb : IsFin b) : IsFin (a + b) := by
  obtain ⟨x, rfl⟩ := isFin_iff_coe.1 ha
  obtain ⟨y, rfl⟩ := isFin_iff_coe.1 hb
  rw [← EReal.coe_add]; exact isFin_coe _

theorem isFin_mul (ha : IsFin a) (hb : IsFin b) : IsFin (a * b) := by
  obtain ⟨x, rfl⟩ := isFin_iff_coe.1 ha
  obtain ⟨y, rfl⟩ := isFin_iff_coe.1 hb
  rw [← EReal.coe_mul]; exact isFin_coe _

theorem isFin_sub (ha : IsFin a) (hb : IsFin b) : IsFin (a - b) := by
  obtain ⟨x, rfl⟩ := isFin_iff_coe.1 ha
  obtain ⟨y, rfl⟩ := isFin_iff_coe.1 hb
  rw [← EReal.coe_sub]; exact isFin_coe _

theorem isFin_max (ha : IsFin a) (hb : IsFin b) : IsFin (max a b) := by
  rcases max_choice a b with h | h <;> rw [h] <;> assumption

theorem isFin_sum (s : Finset ι) {f : ι → EReal} (hf : ∀ i, IsFin (f i)) :
    IsFin (∑ i ∈ s, f i) := by
  classical
  induction s using Finset.induction_on with
  | empty => rw [Finset.sum_empty]; exact isFin_zero
  | insert a s ha ih => rw [Finset.sum_insert ha]; exact isFin_add (hf a) ih

theorem allFin_iff_coe {v : ι → EReal} : AllFin v ↔ ∃ r : ι → ℝ, v = fun i => (r i : EReal) := by
  constructor
  · intro h
    refine ⟨fun i => (v i).toReal, funext fun i => ?_⟩
    exact (EReal.coe_toReal (h i).1 (h i).2).symm
  · rintro ⟨r, rfl⟩ i
    exact isFin_coe _

theorem div_coe_coe (x : ℝ) {y : ℝ} (hy : y ≠ 0) : Ideal.div (x : EReal) (y : EReal) = ((x / y : ℝ) : EReal) := by
  rw [Ideal.div_coe hy, ← EReal.coe_mul, mul_one_div]

theorem isFin_div_coe (ha : IsFin a) {y : ℝ} (hy : y ≠ 0) : IsFin (Ideal.div a (y : EReal)) := by
  obtain ⟨x, rfl⟩ := isFin_iff_coe.1 ha
  rw [div_coe_coe x hy]; exact isFin_coe _

theorem rsqrt_coe_pos (hr : 0 < r) : Ideal.rsqrt (r : EReal) = (((Real.sqrt r)⁻¹ : ℝ) : EReal) := by
  rw [Ideal.rsqrt_coe, if_neg (not_lt.2 hr.le), if_neg hr.ne']

theorem rsqrt_pos (hr : 0 < r) : ∃ t : ℝ, 0 < t ∧ Ideal.rsqrt (r : EReal) = (t : EReal) :=
  ⟨(Real.sqrt r)⁻¹, inv_pos.2 (Real.sqrt_pos.2 hr), rsqrt_coe_pos hr⟩

theorem isFin_rsqrt (hr : 0 < r) : IsFin (Ideal.rsqrt (r : EReal)) := by
  rw [rsqrt_coe_pos hr]; exact isFin_coe _

theorem exp_pos (ha : IsFin a) : ∃ t : ℝ, 0 < t ∧ Ideal.exp a = (t : EReal) := by
  obtain ⟨x, rfl⟩ := isFin_iff_coe.1 ha
  exact ⟨Real.exp x, Real.exp_pos x, Ideal.exp_coe x⟩

theorem log_coe_pos (hr : 0 < r) : Ideal.log (r : EReal) = ((Real.log r : ℝ) : EReal) := by
  rw [Ideal.log_coe, if_neg (not_le.2 hr)]

theorem isFin_log (hr : 0 < r) : IsFin (Ideal.log (r : EReal)) := by
  rw [log_coe_pos hr]; exact isFin_coe _

theorem ofBits_zero : Ideal.ofBits .f32 0x00000000#32 = 0 := by
  simp [Ideal.ofBits, Ideal.ieee]

theorem isFin_ofBits_zero : IsFin (Ideal.ofBits .f32 0x00000000#32) := by
  rw [ofBits_zero]; exact isFin_zero

theorem ofBits_50000 : Ideal.ofBits .f32 0x47435000#32 = ((50000 : ℝ) : EReal) := by
  simp [Ideal.ofBits, Ideal.ieee, -EReal.coe_mul]; norm_num

theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.Math

end
-- ==== Proof.Ref.PreFin.lean ====
import proofs.«418912_j86466281603780_3_alg».proof.Pre_finite_inputs
import proofs.«418912_j86466281603780_3_alg».proof.Proof.Math.Fin
import Idealize.ShloMosaic.Lib.ReduceAll
import Idealize.ShloMosaic.Lib.ValueIdx
import Idealize.ShloMosaic.Lib.IdealHost
import Idealize.ShloMosaic.PureOps.Ideal.Laws

noncomputable section

namespace Cert.ReferenceIdeal.RefValue

open Idealize.ShloMosaic Cert.Math

theorem isFin_of_abs_lt (a : EReal)
    (h : FloatOps.cmpf (F := Ideal) (φ := .f32) .olt (FloatOps.hostAbsf a) (FloatOps.ofBits .f32 0x7F800000#32) = 1#1) :
    IsFin a := by
  have htop : Ideal.ofBits .f32 0x7F800000#32 = ⊤ := by simp [Ideal.ofBits, Ideal.ieee]
  change Ideal.cmp .olt (max a (-a)) (Ideal.ofBits .f32 0x7F800000#32) = 1#1 at h
  rw [htop] at h
  have hlt : max a (-a) < ⊤ := by
    by_contra hc
    simp [Ideal.cmp, hc] at h
  constructor
  · rintro rfl
    simp at hlt
  · rintro rfl
    simp at hlt

instance : Subsingleton Cert.Pre_finite_inputs.S_.Idx := ⟨fun a b => funext fun d => d.elim0⟩

theorem allFin_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hb (constant (F := Ideal) Cert.Pre_finite_inputs.S_ .f32 0x7F800000#32)))
          init hr hu ValueIdx.ix0 = 1#1) :
    AllFin x := by
  intro i
  have hi := Host.reduce_andi_all _ init hr hu ValueIdx.ix0 e i
  refine isFin_of_abs_lt (x i) ?_
  rw [← hi]
  show _ = FloatOps.cmpf .olt (FloatOps.hostAbsf (x i))
    (broadcastInDim s ![] hb (constant (F := Ideal) Cert.Pre_finite_inputs.S_ .f32 0x7F800000#32) i)
  rw [ValueIdx.broadcastInDim_scalar_apply]
  rfl

open Cert.Pre_finite_inputs in
theorem inputs_finite [Cert.Pre_finite_inputs.Facts]
    (x0 : FVec Ideal S50000x128 .f32) (x1 : IVec S2x800000 32) (x2 : FVec Ideal S128x256 .f32)
    (x3 : FVec Ideal S256 .f32) (x4 : FVec Ideal S256x256 .f32) (x5 : FVec Ideal S256 .f32)
    (x6 : FVec Ideal S256x40 .f32) (x7 : FVec Ideal S40 .f32) (x8 : FVec Ideal S256 .f32) (x9 : FVec Ideal S256 .f32)
    (h : Cert.Pre_finite_inputs.fn (F := Ideal) x0 x1 x2 x3 x4 x5 x6 x7 x8 x9 = fun _ => 1#1) :
    AllFin x0 ∧ AllFin x2 ∧ AllFin x3 ∧ AllFin x4 ∧ AllFin x5 ∧ AllFin x6 ∧ AllFin x7 ∧ AllFin x8 ∧ AllFin x9 := by
  have h0 := congrFun h ValueIdx.ix0
  dsimp only [Cert.Pre_finite_inputs.fn, Cert.Pre_finite_inputs.fn_part1, Cert.Pre_finite_inputs.fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨allFin_of_all x0 _ _ _ _ e0, allFin_of_all x2 _ _ _ _ e2, allFin_of_all x3 _ _ _ _ e3,
    allFin_of_all x4 _ _ _ _ e4, allFin_of_all x5 _ _ _ _ e5, allFin_of_all x6 _ _ _ _ e6,
    allFin_of_all x7 _ _ _ _ e7, allFin_of_all x8 _ _ _ _ e8, allFin_of_all x9 _ _ _ _ e9⟩

end Cert.ReferenceIdeal.RefValue

end
-- ==== Proof.Bridge.HostK.lean ====
import proofs.«418912_j86466281603780_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]
section
variable (e : (⟨S2x800000, .i32⟩ : BufTy).Contents (Elt F))

def rowIdx : (⟨S850000, .i32⟩ : BufTy).Contents (Elt F) :=
  concatenate S850000 0 [⟨S800000, shapeCast _ (extractStridedSlice S1x800000 ![0, 0] e slices_S2x800000_S1x800000_0_0) shapeCasts_S1x800000_S800000⟩, ⟨S50000, iotaInDim S50000 32 0⟩] concatenates_S800000_S50000_S850000_d0

def colIdx : (⟨S850000, .i32⟩ : BufTy).Contents (Elt F) :=
  concatenate S850000 0 [⟨S800000, shapeCast _ (extractStridedSlice S1x800000 ![1, 0] e slices_S2x800000_S1x800000_1_0) shapeCasts_S1x800000_S800000⟩, ⟨S50000, iotaInDim S50000 32 0⟩] concatenates_S800000_S50000_S850000_d0

def degree : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 (colIdx e))
    (broadcastInDim S850000 ![] bcast_S_S850000 (constant S_ .f32 0x3F800000#32))

def invSqrtDeg : (⟨S50000, .f32⟩ : BufTy).Contents (Elt F) :=
  select (cmpf .ogt (degree e) (broadcastInDim S50000 ![] bcast_S_S50000 (constant S_ .f32 0x00000000#32)))
    (Host.rsqrt (degree e))
    (broadcastInDim S50000 ![] bcast_S_S50000 (id (constant S_ .f32 0x00000000#32)))

def wrapIdx (ix : (⟨S850000, .i32⟩ : BufTy).Contents (Elt F)) : (⟨S850000, .i32⟩ : BufTy).Contents (Elt F) :=
  select (cmpi .slt ix (broadcastInDim S850000 ![] bcast_S_S850000 (constantI S_ 32 0#32)))
    (addi ix (broadcastInDim S850000 ![] bcast_S_S850000 (constantI S_ 32 50000#32))) ix

def edgeNorm : (⟨S850000, .f32⟩ : BufTy).Contents (Elt F) :=
  mulf (Host.gather gather_S50000_S850000x1_S850000_n_0_n_n_0_1_1 (invSqrtDeg e) (broadcastInDim S850000x1 ![0] bcast_S850000_S850000x1_0 (wrapIdx (rowIdx e))))
    (Host.gather gather_S50000_S850000x1_S850000_n_0_n_n_0_1_1 (invSqrtDeg e) (broadcastInDim S850000x1 ![0] bcast_S850000_S850000x1_0 (wrapIdx (colIdx e))))

section
variable (row col : (⟨S850000, .i32⟩ : BufTy).Contents (Elt F)) (w : (⟨S850000, .f32⟩ : BufTy).Contents (Elt F))

def mp256 (h : (⟨S50000x256, .f32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 row)
    (mulf (broadcastInDim S850000x256 ![0, 1] bcast_S850000x1_S850000x256_0_1 (broadcastInDim S850000x1 ![0] bcast_S850000_S850000x1_0 w))
      (Host.gather gather_S50000x256_S850000x1_S850000x256_1_0_n_n_0_1_1256 h (broadcastInDim S850000x1 ![0] bcast_S850000_S850000x1_0 (wrapIdx col))))

def mp40 (h : (⟨S50000x40, .f32⟩ : BufTy).Contents (Elt F)) : (⟨S50000x40, .f32⟩ : BufTy).Contents (Elt F) :=
  Host.scatterAdd scatter_S50000x40_S850000x1_S850000x40_1_0_0_1
    (broadcastInDim S50000x40 ![] bcast_S_S50000x40 (constant S_ .f32 0x00000000#32))
    (broadcastInDim S850000x1 ![0] bcast_S850000_S850000x1_0 row)
    (mulf (broadcastInDim S850000x40 ![0, 1] bcast_S850000x1_S850000x40_0_1 (broadcastInDim S850000x1 ![0] bcast_S850000_S850000x1_0 w))
      (Host.gather gather_S50000x40_S850000x1_S850000x40_1_0_n_n_0_1_140 h (broadcastInDim S850000x1 ![0] bcast_S850000_S850000x1_0 (wrapIdx col))))

end

def row256 (b : (⟨S256, .f32⟩ : BufTy).Contents (Elt F)) : (⟨S1x256, .f32⟩ : BufTy).Contents (Elt F) :=
  shapeCast S1x256 b shapeCasts_S256_S1x256

def row40 (b : (⟨S40, .f32⟩ : BufTy).Contents (Elt F)) : (⟨S1x40, .f32⟩ : BufTy).Contents (Elt F) :=
  shapeCast S1x40 b shapeCasts_S40_S1x40

theorem row256_apply (b : (⟨S256, .f32⟩ : BufTy).Contents (Elt F)) (u : Fin 1) (j : Fin 256) :
    row256 b (ix2 u j) = b (ix1 j) :=
  shapeCast_a_1a_apply b shapeCasts_S256_S1x256 u j
theorem row40_apply (b : (⟨S40, .f32⟩ : BufTy).Contents (Elt F)) (u : Fin 1) (j : Fin 40) :
    row40 b (ix2 u j) = b (ix1 j) :=
  shapeCast_a_1a_apply b shapeCasts_S40_S1x40 u j

end

variable (W : Valuation τ sig (Elt F))

theorem pro_row : StableHlo.after hostOps0_2 (StableHlo.after hostOps0_1 (StableHlo.after hostOps0 W)) main_v3 = rowIdx (W main_arg1) := by
  show StableHlo.after hostOps0_2 (StableHlo.after hostOps0_1 (StableHlo.after hostOps0 W)) (Proc.devRef .tc main_v3) = _
  after_results_simp
  rfl

theorem pro_col : StableHlo.after hostOps0_2 (StableHlo.after hostOps0_1 (StableHlo.after hostOps0 W)) main_v6 = colIdx (W main_arg1) := by
  show StableHlo.after hostOps0_2 (StableHlo.after hostOps0_1 (StableHlo.after hostOps0 W)) (Proc.devRef .tc main_v6) = _
  after_results_simp
  rfl

theorem pro_norm : StableHlo.after hostOps0_2 (StableHlo.after hostOps0_1 (StableHlo.after hostOps0 W)) main_v29 = edgeNorm (W main_arg1) := by
  show StableHlo.after hostOps0_2 (StableHlo.after hostOps0_1 (StableHlo.after hostOps0 W)) (Proc.devRef .tc main_v29) = _
  after_results_simp
  rfl

theorem h1_v43 : StableHlo.after hostOps1 W main_v43 = mp256 (W main_v3) (W main_v6) (W main_v29) (W main_v30) := by
  show StableHlo.after hostOps1 W (Proc.devRef .tc main_v43) = _
  after_results_simp
  rfl

theorem h1_v44 : StableHlo.after hostOps1 W main_v44 = row256 (W main_arg3) := by
  show StableHlo.after hostOps1 W (Proc.devRef .tc main_v44) = _
  after_results_simp
  rfl

theorem h2_v46 : StableHlo.after hostOps2 W main_v46 = row256 (W main_arg8) := by
  show StableHlo.after hostOps2 W (Proc.devRef .tc main_v46) = _
  after_results_simp
  rfl
theorem h2_v47 : StableHlo.after hostOps2 W main_v47 = row256 (W main_arg9) := by
  show StableHlo.after hostOps2 W (Proc.devRef .tc main_v47) = _
  after_results_simp
  rfl

theorem h3_v61 : StableHlo.after hostOps3 W main_v61 = mp256 (W main_v3) (W main_v6) (W main_v29) (W main_v48) := by
  show StableHlo.after hostOps3 W (Proc.devRef .tc main_v61) = _
  after_results_simp
  rfl

theorem h3_v62 : StableHlo.after hostOps3 W main_v62 = row256 (W main_arg5) := by
  show StableHlo.after hostOps3 W (Proc.devRef .tc main_v62) = _
  after_results_simp
  rfl

theorem h4_v64 : StableHlo.after hostOps4 W main_v64 = row256 (W main_arg8) := by
  show StableHlo.after hostOps4 W (Proc.devRef .tc main_v64) = _
  after_results_simp
  rfl
theorem h4_v65 : StableHlo.after hostOps4 W main_v65 = row256 (W main_arg9) := by
  show StableHlo.after hostOps4 W (Proc.devRef .tc main_v65) = _
  after_results_simp
  rfl

theorem h5_v79 : StableHlo.after hostOps5 W main_v79 = mp40 (W main_v3) (W main_v6) (W main_v29) (W main_v66) := by
  show StableHlo.after hostOps5 W (Proc.devRef .tc main_v79) = _
  after_results_simp
  rfl

theorem h5_v80 : StableHlo.after hostOps5 W main_v80 = row40 (W main_arg7) := by
  show StableHlo.after hostOps5 W (Proc.devRef .tc main_v80) = _
  after_results_simp
  rfl

end Cert.Bridge

end
-- ==== Proof.Bridge.Carry.lean ====
import proofs.«418912_j86466281603780_3_alg».proof.Proof.KI.Fold
import proofs.«418912_j86466281603780_3_alg».proof.Proof.Bridge.HostK

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

variable (c : Dev nD) (r : Ref sig .tc)

abbrev keep : List (Ref sig .tc) := [main_arg0, main_arg1, main_arg2, main_arg3, main_arg4, main_arg5, main_arg6, main_arg7, main_arg8, main_arg9, main_v3, main_v6, main_v29]

theorem U4_keep (hr : r ∈ keep) : U4 m c r = U3 m c r :=
  U4_of m c r ((by decide : ∀ r ∈ keep, r ∉ ([main_v30] : List (Ref sig .tc))) r hr)
theorem U5_keep (hr : r ∈ keep) : U5 m c r = U3 m c r :=
  (U5_of m c r ((by decide : ∀ r ∈ keep, r ∉ hostOps1_W) r hr)).trans (U4_keep m c r hr)
theorem U6_keep (hr : r ∈ keep) : U6 m c r = U3 m c r :=
  (U6_of m c r ((by decide : ∀ r ∈ keep, r ∉ ([main_v45_0, main_v45_1, main_v45_2] : List (Ref sig .tc))) r hr)).trans (U5_keep m c r hr)
theorem U7_keep (hr : r ∈ keep) : U7 m c r = U3 m c r :=
  (U7_of m c r ((by decide : ∀ r ∈ keep, r ∉ hostOps2_W) r hr)).trans (U6_keep m c r hr)
theorem U8_keep (hr : r ∈ keep) : U8 m c r = U3 m c r :=
  (U8_of m c r ((by decide : ∀ r ∈ keep, r ∉ ([main_v48] : List (Ref sig .tc))) r hr)).trans (U7_keep m c r hr)
theorem U9_keep (hr : r ∈ keep) : U9 m c r = U3 m c r :=
  (U9_of m c r ((by decide : ∀ r ∈ keep, r ∉ hostOps3_W) r hr)).trans (U8_keep m c r hr)
theorem U10_keep (hr : r ∈ keep) : U10 m c r = U3 m c r :=
  (U10_of m c r ((by decide : ∀ r ∈ keep, r ∉ ([main_v63_0, main_v63_1, main_v63_2] : List (Ref sig .tc))) r hr)).trans (U9_keep m c r hr)
theorem U11_keep (hr : r ∈ keep) : U11 m c r = U3 m c r :=
  (U11_of m c r ((by decide : ∀ r ∈ keep, r ∉ hostOps4_W) r hr)).trans (U10_keep m c r hr)
theorem U12_keep (hr : r ∈ keep) : U12 m c r = U3 m c r :=
  (U12_of m c r ((by decide : ∀ r ∈ keep, r ∉ ([main_v66] : List (Ref sig .tc))) r hr)).trans (U11_keep m c r hr)
theorem U3_arg0 : U3 m c main_arg0 = m ((c : Thread nD τ).loc main_arg0) :=
  U3_of m c main_arg0 (by decide) (by decide) (by decide)
theorem U3_arg2 : U3 m c main_arg2 = m ((c : Thread nD τ).loc main_arg2) :=
  U3_of m c main_arg2 (by decide) (by decide) (by decide)
theorem U3_arg3 : U3 m c main_arg3 = m ((c : Thread nD τ).loc main_arg3) :=
  U3_of m c main_arg3 (by decide) (by decide) (by decide)
theorem U3_arg4 : U3 m c main_arg4 = m ((c : Thread nD τ).loc main_arg4) :=
  U3_of m c main_arg4 (by decide) (by decide) (by decide)
theorem U3_arg5 : U3 m c main_arg5 = m ((c : Thread nD τ).loc main_arg5) :=
  U3_of m c main_arg5 (by decide) (by decide) (by decide)
theorem U3_arg6 : U3 m c main_arg6 = m ((c : Thread nD τ).loc main_arg6) :=
  U3_of m c main_arg6 (by decide) (by decide) (by decide)
theorem U3_arg7 : U3 m c main_arg7 = m ((c : Thread nD τ).loc main_arg7) :=
  U3_of m c main_arg7 (by decide) (by decide) (by decide)
theorem U3_arg8 : U3 m c main_arg8 = m ((c : Thread nD τ).loc main_arg8) :=
  U3_of m c main_arg8 (by decide) (by decide) (by decide)
theorem U3_arg9 : U3 m c main_arg9 = m ((c : Thread nD τ).loc main_arg9) :=
  U3_of m c main_arg9 (by decide) (by decide) (by decide)

theorem U3_v3 : U3 m c main_v3 = Cert.Bridge.rowIdx (m ((c : Thread nD τ).loc main_arg1)) :=
  Cert.Bridge.pro_row (Gen.V0 m c)
theorem U3_v6 : U3 m c main_v6 = Cert.Bridge.colIdx (m ((c : Thread nD τ).loc main_arg1)) :=
  Cert.Bridge.pro_col (Gen.V0 m c)
theorem U3_v29 : U3 m c main_v29 = Cert.Bridge.edgeNorm (m ((c : Thread nD τ).loc main_arg1)) :=
  Cert.Bridge.pro_norm (Gen.V0 m c)

end Cert.KernelIdeal.Hand

end
-- ==== Proof.Ref.Read.lean ====
import proofs.«418912_j86466281603780_3_alg».proof.Proof.RefRead
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open scoped BigOperators

variable (x0 : (⟨S50000x128, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x40, .f32⟩ : BufTy).Contents (Elt Ideal)) (x7 : (⟨S40, .f32⟩ : BufTy).Contents (Elt Ideal))
  (x8 x9 : (⟨S256, .f32⟩ : BufTy).Contents (Elt Ideal))

variable (r : Fin 50000) (j : Fin 256)

theorem v30_at :
    val_main_v30 (F := Ideal) x0 x2 (ix2 r j) = ∑ q : Fin 128, x0 (ix2 r q) * x2 (ix2 q j) := by
  rw [val_main_v30_apply]
  refine Finset.sum_congr rfl fun q _ => ?_
  have el : lidx_main_v30 (ix2 r j) q = ix2 r q :=
    funext fun a => Fin.ext (by match a with | ⟨0, _⟩ => rfl | ⟨1, _⟩ => rfl)
  have er : ridx_main_v30 (ix2 r j) q = ix2 q j :=
    funext fun a => Fin.ext (by match a with | ⟨0, _⟩ => rfl | ⟨1, _⟩ => rfl)
  rw [el, er]

theorem v45_at : val_main_v45 (F := Ideal) x3 (ix2 r j) = x3 (ix1 j) := by
  rw [val_main_v45_apply, val_main_v44_apply]
  exact congrArg x3 (funext fun a => Fin.ext (by match a with | ⟨0, _⟩ => rfl))

theorem v46_at :
    val_main_v46 (F := Ideal) x0 x1 x2 x3 (ix2 r j) = val_main_v43 (F := Ideal) x0 x1 x2 (ix2 r j) + x3 (ix1 j) := by
  rw [val_main_v46_apply, v45_at]
  rfl

theorem v49_at :
    val_main_v49 (F := Ideal) x0 x1 x2 x3 (ix1 j)
      = Ideal.div (∑ r : Fin 50000, val_main_v46 (F := Ideal) x0 x1 x2 x3 (ix2 r j)) (Ideal.ofBits .f32 0x47435000#32) := by
  have hs : ∀ r : Fin 50000, idx_main_v47 (ix1 j) r = ix2 r j := fun r =>
    funext fun a => Fin.ext (by match a with | ⟨0, _⟩ => rfl | ⟨1, _⟩ => rfl)
  rw [val_main_v49_apply, val_main_v47_apply, val_main_v48_apply, val_main_cst_9_apply, val_main_cst_10_apply]
  change Ideal.div (Ideal.ofBits .f32 0x00000000#32
      + ∑ k : Fin 50000, val_main_v46 (F := Ideal) x0 x1 x2 x3 (idx_main_v47 (ix1 j) k)) (Ideal.ofBits .f32 0x47435000#32) = _
  rw [Ideal.ofBits_zero_f32, zero_add]
  exact congrArg (fun s => Ideal.div s (Ideal.ofBits .f32 0x47435000#32))
    (Finset.sum_congr rfl fun r _ => congrArg (val_main_v46 (F := Ideal) x0 x1 x2 x3) (hs r))

theorem v51_at :
    val_main_v51 (F := Ideal) x0 x1 x2 x3 (ix2 r j) = val_main_v49 (F := Ideal) x0 x1 x2 x3 (ix1 j) := by
  rw [val_main_v51_apply, val_main_v50_apply]
  exact congrArg (val_main_v49 (F := Ideal) x0 x1 x2 x3) (funext fun a => Fin.ext (by match a with | ⟨0, _⟩ => rfl))

theorem v56_at :
    val_main_v56 (F := Ideal) x0 x1 x2 x3 (ix1 j)
      = Ideal.div (∑ r : Fin 50000,
            (val_main_v46 (F := Ideal) x0 x1 x2 x3 (ix2 r j) - val_main_v49 (F := Ideal) x0 x1 x2 x3 (ix1 j))
              * (val_main_v46 (F := Ideal) x0 x1 x2 x3 (ix2 r j) - val_main_v49 (F := Ideal) x0 x1 x2 x3 (ix1 j)))
          (Ideal.ofBits .f32 0x47435000#32) := by
  have hs : ∀ r : Fin 50000, idx_main_v54 (ix1 j) r = ix2 r j := fun r =>
    funext fun a => Fin.ext (by match a with | ⟨0, _⟩ => rfl | ⟨1, _⟩ => rfl)
  rw [val_main_v56_apply, val_main_v54_apply, val_main_v55_apply, val_main_cst_11_apply, val_main_cst_12_apply]
  change Ideal.div (Ideal.ofBits .f32 0x00000000#32
      + ∑ k : Fin 50000, val_main_v53 (F := Ideal) x0 x1 x2 x3 (idx_main_v54 (ix1 j) k)) (Ideal.ofBits .f32 0x47435000#32) = _
  rw [Ideal.ofBits_zero_f32, zero_add]
  refine congrArg (fun s => Ideal.div s (Ideal.ofBits .f32 0x47435000#32)) (Finset.sum_congr rfl fun r _ => ?_)
  rw [hs r, val_main_v53_apply, val_main_v52_apply, v51_at]
  rfl

theorem v58_at :
    val_main_v58 (F := Ideal) x0 x1 x2 x3 (ix2 r j) = val_main_v49 (F := Ideal) x0 x1 x2 x3 (ix1 j) := by
  rw [val_main_v58_apply, val_main_v57_apply]
  exact congrArg (val_main_v49 (F := Ideal) x0 x1 x2 x3) (funext fun a => Fin.ext (by match a with | ⟨0, _⟩ => rfl))

theorem v64_at :
    val_main_v64 (F := Ideal) x0 x1 x2 x3 (ix2 r j)
      = Ideal.rsqrt (val_main_v56 (F := Ideal) x0 x1 x2 x3 (ix1 j) + Ideal.ofBits .f32 0x3727C5AC#32) := by
  have e : idx_main_v63 (idx_main_v64 (ix2 r j)) = ix1 j := funext fun a => Fin.ext (by match a with | ⟨0, _⟩ => rfl)
  rw [val_main_v64_apply, val_main_v63_apply, e, val_main_v62_apply, val_main_v61_apply, val_main_v60_apply,
    val_main_cst_13_apply]
  rfl

theorem v67_at : val_main_v67 (F := Ideal) x8 (ix2 r j) = x8 (ix1 j) := by
  rw [val_main_v67_apply, val_main_v66_apply]
  exact congrArg x8 (funext fun a => Fin.ext (by match a with | ⟨0, _⟩ => rfl))

theorem v70_at : val_main_v70 (F := Ideal) x9 (ix2 r j) = x9 (ix1 j) := by
  rw [val_main_v70_apply, val_main_v69_apply]
  exact congrArg x9 (funext fun a => Fin.ext (by match a with | ⟨0, _⟩ => rfl))

theorem v71_at :
    val_main_v71 (F := Ideal) x0 x1 x2 x3 x8 x9 (ix2 r j)
      = ((val_main_v46 (F := Ideal) x0 x1 x2 x3 (ix2 r j) - val_main_v49 (F := Ideal) x0 x1 x2 x3 (ix1 j))
            * Ideal.rsqrt (val_main_v56 (F := Ideal) x0 x1 x2 x3 (ix1 j) + Ideal.ofBits .f32 0x3727C5AC#32))
          * x8 (ix1 j) + x9 (ix1 j) := by
  rw [val_main_v71_apply, val_main_v68_apply, val_main_v65_apply, val_main_v59_apply, v58_at, v64_at, v67_at, v70_at]
  rfl

theorem v72_at :
    val_main_v72 (F := Ideal) x0 x1 x2 x3 x8 x9 (ix2 r j)
      = max (((val_main_v46 (F := Ideal) x0 x1 x2 x3 (ix2 r j) - val_main_v49 (F := Ideal) x0 x1 x2 x3 (ix1 j))
            * Ideal.rsqrt (val_main_v56 (F := Ideal) x0 x1 x2 x3 (ix1 j) + Ideal.ofBits .f32 0x3727C5AC#32))
          * x8 (ix1 j) + x9 (ix1 j)) 0 := by
  rw [val_main_v72_apply, v71_at, val_main_call1_v0_apply, val_main_call1_cst_apply]
  change max _ (Ideal.ofBits .f32 0x00000000#32) = _
  rw [Ideal.ofBits_zero_f32]

theorem v73_at_v72 :
    val_main_v73 (F := Ideal) x0 x1 x2 x3 x4 x8 x9 (ix2 r j)
      = ∑ q : Fin 256, val_main_v72 (F := Ideal) x0 x1 x2 x3 x8 x9 (ix2 r q) * x4 (ix2 q j) := by
  rw [val_main_v73_apply]
  refine Finset.sum_congr rfl fun q _ => ?_
  have el : lidx_main_v73 (ix2 r j) q = ix2 r q :=
    funext fun a => Fin.ext (by match a with | ⟨0, _⟩ => rfl | ⟨1, _⟩ => rfl)
  have er : ridx_main_v73 (ix2 r j) q = ix2 q j :=
    funext fun a => Fin.ext (by match a with | ⟨0, _⟩ => rfl | ⟨1, _⟩ => rfl)
  rw [el, er]

theorem v73_at :
    val_main_v73 (F := Ideal) x0 x1 x2 x3 x4 x8 x9 (ix2 r j)
      = ∑ q : Fin 256,
          max (((val_main_v46 (F := Ideal) x0 x1 x2 x3 (ix2 r q) - val_main_v49 (F := Ideal) x0 x1 x2 x3 (ix1 q))
                * Ideal.rsqrt (val_main_v56 (F := Ideal) x0 x1 x2 x3 (ix1 q) + Ideal.ofBits .f32 0x3727C5AC#32))
              * x8 (ix1 q) + x9 (ix1 q)) 0
            * x4 (ix2 q j) := by
  rw [v73_at_v72]
  exact Finset.sum_congr rfl fun q _ => by rw [v72_at]

theorem v88_at : val_main_v88 (F := Ideal) x5 (ix2 r j) = x5 (ix1 j) := by
  rw [val_main_v88_apply, val_main_v87_apply]
  exact congrArg x5 (funext fun a => Fin.ext (by match a with | ⟨0, _⟩ => rfl))

theorem v89_at :
    val_main_v89 (F := Ideal) x0 x1 x2 x3 x4 x5 x8 x9 (ix2 r j) = val_main_v86 (F := Ideal) x0 x1 x2 x3 x4 x8 x9 (ix2 r j) + x5 (ix1 j) := by
  rw [val_main_v89_apply, v88_at]
  rfl

theorem v92_at :
    val_main_v92 (F := Ideal) x0 x1 x2 x3 x4 x5 x8 x9 (ix1 j)
      = Ideal.div (∑ r : Fin 50000, val_main_v89 (F := Ideal) x0 x1 x2 x3 x4 x5 x8 x9 (ix2 r j)) (Ideal.ofBits .f32 0x47435000#32) := by
  have hs : ∀ r : Fin 50000, idx_main_v90 (ix1 j) r = ix2 r j := fun r =>
    funext fun a => Fin.ext (by match a with | ⟨0, _⟩ => rfl | ⟨1, _⟩ => rfl)
  rw [val_main_v92_apply, val_main_v90_apply, val_main_v91_apply, val_main_cst_17_apply, val_main_cst_18_apply]
  change Ideal.div (Ideal.ofBits .f32 0x00000000#32
      + ∑ k : Fin 50000, val_main_v89 (F := Ideal) x0 x1 x2 x3 x4 x5 x8 x9 (idx_main_v90 (ix1 j) k)) (Ideal.ofBits .f32 0x47435000#32) = _
  rw [Ideal.ofBits_zero_f32, zero_add]
  exact congrArg (fun s => Ideal.div s (Ideal.ofBits .f32 0x47435000#32))
    (Finset.sum_congr rfl fun r _ => congrArg (val_main_v89 (F := Ideal) x0 x1 x2 x3 x4 x5 x8 x9) (hs r))

theorem v94_at :
    val_main_v94 (F := Ideal) x0 x1 x2 x3 x4 x5 x8 x9 (ix2 r j) = val_main_v92 (F := Ideal) x0 x1 x2 x3 x4 x5 x8 x9 (ix1 j) := by
  rw [val_main_v94_apply, val_main_v93_apply]
  exact congrArg (val_main_v92 (F := Ideal) x0 x1 x2 x3 x4 x5 x8 x9) (funext fun a => Fin.ext (by match a with | ⟨0, _⟩ => rfl))

theorem v99_at :
    val_main_v99 (F := Ideal) x0 x1 x2 x3 x4 x5 x8 x9 (ix1 j)
      = Ideal.div (∑ r : Fin 50000,
            (val_main_v89 (F := Ideal) x0 x1 x2 x3 x4 x5 x8 x9 (ix2 r j) - val_main_v92 (F := Ideal) x0 x1 x2 x3 x4 x5 x8 x9 (ix1 j))
              * (val_main_v89 (F := Ideal) x0 x1 x2 x3 x4 x5 x8 x9 (ix2 r j) - val_main_v92 (F := Ideal) x0 x1 x2 x3 x4 x5 x8 x9 (ix1 j)))
          (Ideal.ofBits .f32 0x47435000#32) := by
  have hs : ∀ r : Fin 50000, idx_main_v97 (ix1 j) r = ix2 r j := fun r =>
    funext fun a => Fin.ext (by match a with | ⟨0, _⟩ => rfl | ⟨1, _⟩ => rfl)
  rw [val_main_v99_apply, val_main_v97_apply, val_main_v98_apply, val_main_cst_19_apply, val_main_cst_20_apply]
  change Ideal.div (Ideal.ofBits .f32 0x00000000#32
      + ∑ k : Fin 50000, val_main_v96 (F := Ideal) x0 x1 x2 x3 x4 x5 x8 x9 (idx_main_v97 (ix1 j) k)) (Ideal.ofBits .f32 0x47435000#32) = _
  rw [Ideal.ofBits_zero_f32, zero_add]
  refine congrArg (fun s => Ideal.div s (Ideal.ofBits .f32 0x47435000#32)) (Finset.sum_congr rfl fun r _ => ?_)
  rw [hs r, val_main_v96_apply, val_main_v95_apply, v94_at]
  rfl

theorem v101_at :
    val_main_v101 (F := Ideal) x0 x1 x2 x3 x4 x5 x8 x9 (ix2 r j) = val_main_v92 (F := Ideal) x0 x1 x2 x3 x4 x5 x8 x9 (ix1 j) := by
  rw [val_main_v101_apply, val_main_v100_apply]
  exact congrArg (val_main_v92 (F := Ideal) x0 x1 x2 x3 x4 x5 x8 x9) (funext fun a => Fin.ext (by match a with | ⟨0, _⟩ => rfl))

theorem v107_at :
    val_main_v107 (F := Ideal) x0 x1 x2 x3 x4 x5 x8 x9 (ix2 r j)
      = Ideal.rsqrt (val_main_v99 (F := Ideal) x0 x1 x2 x3 x4 x5 x8 x9 (ix1 j) + Ideal.ofBits .f32 0x3727C5AC#32) := by
  have e : idx_main_v106 (idx_main_v107 (ix2 r j)) = ix1 j := funext fun a => Fin.ext (by match a with | ⟨0, _⟩ => rfl)
  rw [val_main_v107_apply, val_main_v106_apply, e, val_main_v105_apply, val_main_v104_apply, val_main_v103_apply,
    val_main_cst_21_apply]
  rfl

theorem v110_at : val_main_v110 (F := Ideal) x8 (ix2 r j) = x8 (ix1 j) := by
  rw [val_main_v110_apply, val_main_v109_apply]
  exact congrArg x8 (funext fun a => Fin.ext (by match a with | ⟨0, _⟩ => rfl))

theorem v113_at : val_main_v113 (F := Ideal) x9 (ix2 r j) = x9 (ix1 j) := by
  rw [val_main_v113_apply, val_main_v112_apply]
  exact congrArg x9 (funext fun a => Fin.ext (by match a with | ⟨0, _⟩ => rfl))

theorem v114_at :
    val_main_v114 (F := Ideal) x0 x1 x2 x3 x4 x5 x8 x9 (ix2 r j)
      = ((val_main_v89 (F := Ideal) x0 x1 x2 x3 x4 x5 x8 x9 (ix2 r j) - val_main_v92 (F := Ideal) x0 x1 x2 x3 x4 x5 x8 x9 (ix1 j))
            * Ideal.rsqrt (val_main_v99 (F := Ideal) x0 x1 x2 x3 x4 x5 x8 x9 (ix1 j) + Ideal.ofBits .f32 0x3727C5AC#32))
          * x8 (ix1 j) + x9 (ix1 j) := by
  rw [val_main_v114_apply, val_main_v111_apply, val_main_v108_apply, val_main_v102_apply, v101_at, v107_at, v110_at, v113_at]
  rfl

theorem v115_at :
    val_main_v115 (F := Ideal) x0 x1 x2 x3 x4 x5 x8 x9 (ix2 r j)
      = max (((val_main_v89 (F := Ideal) x0 x1 x2 x3 x4 x5 x8 x9 (ix2 r j) - val_main_v92 (F := Ideal) x0 x1 x2 x3 x4 x5 x8 x9 (ix1 j))
            * Ideal.rsqrt (val_main_v99 (F := Ideal) x0 x1 x2 x3 x4 x5 x8 x9 (ix1 j) + Ideal.ofBits .f32 0x3727C5AC#32))
          * x8 (ix1 j) + x9 (ix1 j)) 0 := by
  rw [val_main_v115_apply, v114_at, val_main_call2_v0_apply, val_main_call2_cst_apply]
  change max _ (Ideal.ofBits .f32 0x00000000#32) = _
  rw [Ideal.ofBits_zero_f32]

theorem v116_at_v115 (j : Fin 40) :
    val_main_v116 (F := Ideal) x0 x1 x2 x3 x4 x5 x6 x8 x9 (ix2 r j)
      = ∑ q : Fin 256, val_main_v115 (F := Ideal) x0 x1 x2 x3 x4 x5 x8 x9 (ix2 r q) * x6 (ix2 q j) := by
  rw [val_main_v116_apply]
  refine Finset.sum_congr rfl fun q _ => ?_
  have el : lidx_main_v116 (ix2 r j) q = ix2 r q :=
    funext fun a => Fin.ext (by match a with | ⟨0, _⟩ => rfl | ⟨1, _⟩ => rfl)
  have er : ridx_main_v116 (ix2 r j) q = ix2 q j :=
    funext fun a => Fin.ext (by match a with | ⟨0, _⟩ => rfl | ⟨1, _⟩ => rfl)
  rw [el, er]

theorem v116_at (j : Fin 40) :
    val_main_v116 (F := Ideal) x0 x1 x2 x3 x4 x5 x6 x8 x9 (ix2 r j)
      = ∑ q : Fin 256,
          max (((val_main_v89 (F := Ideal) x0 x1 x2 x3 x4 x5 x8 x9 (ix2 r q) - val_main_v92 (F := Ideal) x0 x1 x2 x3 x4 x5 x8 x9 (ix1 q))
                * Ideal.rsqrt (val_main_v99 (F := Ideal) x0 x1 x2 x3 x4 x5 x8 x9 (ix1 q) + Ideal.ofBits .f32 0x3727C5AC#32))
              * x8 (ix1 q) + x9 (ix1 q)) 0
            * x6 (ix2 q j) := by
  rw [v116_at_v115]
  exact Finset.sum_congr rfl fun q _ => by rw [v115_at]

theorem v131_at (j : Fin 40) : val_main_v131 (F := Ideal) x7 (ix2 r j) = x7 (ix1 j) := by
  rw [val_main_v131_apply, val_main_v130_apply]
  exact congrArg x7 (funext fun a => Fin.ext (by match a with | ⟨0, _⟩ => rfl))

theorem v132_at (j : Fin 40) :
    val_main_v132 (F := Ideal) x0 x1 x2 x3 x4 x5 x6 x7 x8 x9 (ix2 r j)
      = val_main_v129 (F := Ideal) x0 x1 x2 x3 x4 x5 x6 x8 x9 (ix2 r j) + x7 (ix1 j) := by
  rw [val_main_v132_apply, v131_at]
  rfl

theorem call3_v0_at :
    val_main_call3_v0 (F := Ideal) x0 x1 x2 x3 x4 x5 x6 x7 x8 x9 (ix1 r)
      = (Finset.univ : Finset (Fin 40)).fold max (Ideal.ofBits .f32 0xFF800000#32)
          (fun k : Fin 40 => val_main_v132 (F := Ideal) x0 x1 x2 x3 x4 x5 x6 x7 x8 x9 (ix2 r k)) := by
  have hred : S50000x40.Reduces [1] S50000 := by decide
  unfold val_main_call3_v0
  rw [Host.reduce_eq_fold_single (FloatOps.maximumf (F := Ideal) (φ := .f32)) _ _ reducesTo_S50000x40_S50000_d1 hred h_S_ (ix1 r)]
  show (Finset.univ : Finset (Fin 40)).fold max (Ideal.ofBits .f32 0xFF800000#32)
      (fun k : Fin 40 => val_main_v132 (F := Ideal) x0 x1 x2 x3 x4 x5 x6 x7 x8 x9 (hred.lift (ix1 r) k)) = _
  refine Finset.fold_congr fun k _ => ?_
  exact congrArg (val_main_v132 (F := Ideal) x0 x1 x2 x3 x4 x5 x6 x7 x8 x9)
    (funext fun a => Fin.ext (by match a with | ⟨0, _⟩ => rfl | ⟨1, _⟩ => rfl))

theorem call3_v2_at :
    val_main_call3_v2 (F := Ideal) x0 x1 x2 x3 x4 x5 x6 x7 x8 x9 (ix1 r)
      = (Finset.univ : Finset (Fin 40)).fold max (Ideal.ofBits .f32 0xFF800000#32)
          (fun k : Fin 40 => val_main_v132 (F := Ideal) x0 x1 x2 x3 x4 x5 x6 x7 x8 x9 (ix2 r k)) := by
  rw [val_main_call3_v2_apply, call3_v0_at, val_main_call3_v1_apply, val_main_call3_cst_0_apply]
  change max (Ideal.ofBits .f32 0xFF800000#32) _ = _
  exact max_eq_right ((Finset.le_fold_max _).2 (Or.inl le_rfl))

theorem call3_v4_at (j : Fin 40) :
    val_main_call3_v4 (F := Ideal) x0 x1 x2 x3 x4 x5 x6 x7 x8 x9 (ix2 r j) = val_main_call3_v2 (F := Ideal) x0 x1 x2 x3 x4 x5 x6 x7 x8 x9 (ix1 r) := by
  rw [val_main_call3_v4_apply, val_main_call3_v3_apply]
  exact congrArg (val_main_call3_v2 (F := Ideal) x0 x1 x2 x3 x4 x5 x6 x7 x8 x9) (funext fun a => Fin.ext (by match a with | ⟨0, _⟩ => rfl))

theorem call3_v5_at (j : Fin 40) :
    val_main_call3_v5 (F := Ideal) x0 x1 x2 x3 x4 x5 x6 x7 x8 x9 (ix2 r j)
      = val_main_v132 (F := Ideal) x0 x1 x2 x3 x4 x5 x6 x7 x8 x9 (ix2 r j) - val_main_call3_v2 (F := Ideal) x0 x1 x2 x3 x4 x5 x6 x7 x8 x9 (ix1 r) := by
  rw [val_main_call3_v5_apply, call3_v4_at]
  rfl

theorem call3_v7_at :
    val_main_call3_v7 (F := Ideal) x0 x1 x2 x3 x4 x5 x6 x7 x8 x9 (ix1 r)
      = ∑ k : Fin 40, Ideal.exp (val_main_v132 (F := Ideal) x0 x1 x2 x3 x4 x5 x6 x7 x8 x9 (ix2 r k) - val_main_call3_v2 (F := Ideal) x0 x1 x2 x3 x4 x5 x6 x7 x8 x9 (ix1 r)) := by
  have hs : ∀ k : Fin 40, idx_main_call3_v7 (ix1 r) k = ix2 r k := fun k =>
    funext fun a => Fin.ext (by match a with | ⟨0, _⟩ => rfl | ⟨1, _⟩ => rfl)
  rw [val_main_call3_v7_apply, val_main_call3_cst_1_apply]
  change Ideal.ofBits .f32 0x00000000#32
      + ∑ k : Fin 40, val_main_call3_v6 (F := Ideal) x0 x1 x2 x3 x4 x5 x6 x7 x8 x9 (idx_main_call3_v7 (ix1 r) k) = _
  rw [Ideal.ofBits_zero_f32, zero_add]
  refine Finset.sum_congr rfl fun k _ => ?_
  rw [hs k, val_main_call3_v6_apply, call3_v5_at, Ideal.hostUnary_exp_def]

theorem call3_v10_at (j : Fin 40) :
    val_main_call3_v10 (F := Ideal) x0 x1 x2 x3 x4 x5 x6 x7 x8 x9 (ix2 r j)
      = Ideal.log (val_main_call3_v7 (F := Ideal) x0 x1 x2 x3 x4 x5 x6 x7 x8 x9 (ix1 r)) := by
  have e : idx_main_call3_v8 (idx_main_call3_v10 (ix2 r j)) = ix1 r := funext fun a => Fin.ext (by match a with | ⟨0, _⟩ => rfl)
  rw [val_main_call3_v10_apply, val_main_call3_v9_apply, val_main_call3_v8_apply, e, Ideal.hostUnary_log_def]

theorem v133_at_stab (j : Fin 40) :
    val_main_v133 (F := Ideal) x0 x1 x2 x3 x4 x5 x6 x7 x8 x9 (ix2 r j)
      = (val_main_v132 (F := Ideal) x0 x1 x2 x3 x4 x5 x6 x7 x8 x9 (ix2 r j) - val_main_call3_v2 (F := Ideal) x0 x1 x2 x3 x4 x5 x6 x7 x8 x9 (ix1 r))
        - Ideal.log (∑ k : Fin 40,
            Ideal.exp (val_main_v132 (F := Ideal) x0 x1 x2 x3 x4 x5 x6 x7 x8 x9 (ix2 r k) - val_main_call3_v2 (F := Ideal) x0 x1 x2 x3 x4 x5 x6 x7 x8 x9 (ix1 r))) := by
  rw [val_main_v133_apply, call3_v5_at, call3_v10_at, call3_v7_at]
  rfl

theorem v133_at (j : Fin 40) :
    val_main_v133 (F := Ideal) x0 x1 x2 x3 x4 x5 x6 x7 x8 x9 (ix2 r j)
      = (val_main_v132 (F := Ideal) x0 x1 x2 x3 x4 x5 x6 x7 x8 x9 (ix2 r j)
            - (Finset.univ : Finset (Fin 40)).fold max (Ideal.ofBits .f32 0xFF800000#32)
                (fun k : Fin 40 => val_main_v132 (F := Ideal) x0 x1 x2 x3 x4 x5 x6 x7 x8 x9 (ix2 r k)))
        - Ideal.log (∑ k : Fin 40,
            Ideal.exp (val_main_v132 (F := Ideal) x0 x1 x2 x3 x4 x5 x6 x7 x8 x9 (ix2 r k)
              - (Finset.univ : Finset (Fin 40)).fold max (Ideal.ofBits .f32 0xFF800000#32)
                  (fun k' : Fin 40 => val_main_v132 (F := Ideal) x0 x1 x2 x3 x4 x5 x6 x7 x8 x9 (ix2 r k')))) := by
  rw [v133_at_stab, call3_v2_at]

def aggregate256 (h : (⟨S50000x256, .f32⟩ : BufTy).Contents (Elt Ideal)) : (⟨S50000x256, .f32⟩ : BufTy).Contents (Elt Ideal) :=
  Host.scatterAdd (F := Ideal) (φ := .f32) scatter_S50000x256_S850000x1_S850000x256_1_0_0_1 (val_main_v41 (F := Ideal)) (val_main_v42 (F := Ideal) x1)
    (mulf (F := Ideal) (φ := .f32) (val_main_v39 (F := Ideal) x1)
      (Host.gather gather_S50000x256_S850000x1_S850000x256_1_0_n_n_0_1_1256 h (val_main_v37 (F := Ideal) x1)))

def aggregate40 (h : (⟨S50000x40, .f32⟩ : BufTy).Contents (Elt Ideal)) : (⟨S50000x40, .f32⟩ : BufTy).Contents (Elt Ideal) :=
  Host.scatterAdd (F := Ideal) (φ := .f32) scatter_S50000x40_S850000x1_S850000x40_1_0_0_1 (val_main_v127 (F := Ideal)) (val_main_v128 (F := Ideal) x1)
    (mulf (F := Ideal) (φ := .f32) (val_main_v125 (F := Ideal) x1)
      (Host.gather gather_S50000x40_S850000x1_S850000x40_1_0_n_n_0_1_140 h (val_main_v123 (F := Ideal) x1)))

theorem v43_eq_aggregate :
    val_main_v43 (F := Ideal) x0 x1 x2 = aggregate256 x1 (val_main_v30 (F := Ideal) x0 x2) := rfl

theorem v86_eq_aggregate :
    val_main_v86 (F := Ideal) x0 x1 x2 x3 x4 x8 x9
      = aggregate256 x1 (val_main_v73 (F := Ideal) x0 x1 x2 x3 x4 x8 x9) := rfl

theorem v129_eq_aggregate :
    val_main_v129 (F := Ideal) x0 x1 x2 x3 x4 x5 x6 x8 x9
      = aggregate40 x1 (val_main_v116 (F := Ideal) x0 x1 x2 x3 x4 x5 x6 x8 x9) := rfl

end Cert.ReferenceIdeal.RefValue

end
-- ==== Proof.KI.Val0.lean ====
import proofs.«418912_j86466281603780_3_alg».proof.Proof.KI.Reg0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

variable (i : S1000x256.Idx) (q : dot_S1000x128_S128x256_S1000x256_1_0_0_1_n_n.contr.Idx) (c : Dev nD) (t : Fin cfg0.N) (p : Fin 1000)

theorem lhs0_0 :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl

theorem lhs0_1 :
    (dot_S1000x128_S128x256_S1000x256_1_0_0_1_n_n.lhsIdx i q 1).val = (q ⟨0, by decide⟩).val :=
  dot_S1000x128_S128x256_S1000x256_1_0_0_1_n_n.lhsIdx_val_of_single rfl i q

theorem rhs0_0 :
    (dot_S1000x128_S128x256_S1000x256_1_0_0_1_n_n.rhsIdx i q 0).val = (q ⟨0, by decide⟩).val :=
  dot_S1000x128_S128x256_S1000x256_1_0_0_1_n_n.rhsIdx_val_of_single rfl i q

theorem rhs0_1 :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

theorem pay0_apply (x0 : Vec Ideal S1000x128 .f32) (x1 : Vec Ideal S128x256 .f32) (p : Fin 1000) (q : Fin 256) :
    k0_pay1 (F := Ideal) x0 x1 (ix2 p q) = ∑ k : Fin 128, x0 (ix2 p k) * x1 (ix2 k q) := by
  unfold k0_pay1
  refine (Ideal.matmul_constant_zero_apply dot_S1000x128_S128x256_S1000x256_1_0_0_1_n_n (some .fp32) x0 x1 (ix2 p q)).trans ?_
  rw [← Equiv.sum_comp (contrEquiv1 dot_S1000x128_S128x256_S1000x256_1_0_0_1_n_n 128 rfl rfl).symm]
  refine Finset.sum_congr rfl fun k _ => ?_
  have hk := contrEquiv1_symm_val dot_S1000x128_S128x256_S1000x256_1_0_0_1_n_n 128 rfl rfl k
  have el : dot_S1000x128_S128x256_S1000x256_1_0_0_1_n_n.lhsIdx (ix2 p q) ((contrEquiv1 dot_S1000x128_S128x256_S1000x256_1_0_0_1_n_n 128 rfl rfl).symm k) = ix2 p k := funext fun a => Fin.ext (by
    match a with
    | ⟨0, _⟩ => exact lhs0_0 _ _
    | ⟨1, _⟩ => exact (lhs0_1 _ _).trans hk)
  have er : dot_S1000x128_S128x256_S1000x256_1_0_0_1_n_n.rhsIdx (ix2 p q) ((contrEquiv1 dot_S1000x128_S128x256_S1000x256_1_0_0_1_n_n 128 rfl rfl).symm k) = ix2 k q := funext fun a => Fin.ext (by
    match a with
    | ⟨0, _⟩ => exact (rhs0_0 _ _).trans hk
    | ⟨1, _⟩ => exact rhs0_1 _ _)
  rw [el, er]

abbrev xarr0 : (⟨S50000x128, .f32⟩ : BufTy).Contents (Elt Ideal) := V c main_arg0

abbrev warr0 : (⟨S128x256, .f32⟩ : BufTy).Contents (Elt Ideal) := V c main_arg2

abbrev xblk0 : Vec Ideal S1000x128 .f32 := iblk0 V c 0 t

abbrev wblk0 : Vec Ideal S128x256 .f32 := iblk0 V c 1 t

abbrev prod0 (a0 : (⟨S50000x128, .f32⟩ : BufTy).Contents (Elt Ideal)) (a1 : (⟨S128x256, .f32⟩ : BufTy).Contents (Elt Ideal)) :
    (⟨S50000x256, .f32⟩ : BufTy).Contents (Elt Ideal) :=
  fun i => ∑ q : Fin 128, a0 (ix2 (i 0) q) * a1 (ix2 q (i 1))

theorem hz0 : (![0, 0] : Fin 2 → Nat) = fun _ => 0 := funext fun a => by fin_cases a <;> rfl

theorem lt50 : t.val < 50 := Nat.lt_of_lt_of_eq t.isLt N_0

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

abbrev row0 : Fin 50000 := ⟨t.val * 1000 + p.val, by have := lt50 t; have := p.isLt; omega⟩

theorem xblk0_apply (k : Fin 128) :
    xblk0 V c t (ix2 p k) = xarr0 V c (ix2 (row0 t p) k) := by
  show V c main_arg0 (((cfg0.win 0).blk t).view.emb (ix2 p k)) = V c main_arg0 (ix2 (row0 t p) k)
  refine congrArg (V c main_arg0) ?_
  obtain ⟨e0, e1, -⟩ := idx_facts0 t
  funext a; apply Fin.ext
  match a with
  | ⟨0, _⟩ => show win0_0.index t (0 : Fin 2) * 1000 + 1 * p.val = t.val * 1000 + p.val; omega
  | ⟨1, _⟩ => show win0_0.index t (1 : Fin 2) * 128 + 1 * k.val = k.val; omega

theorem wblk0_apply (k : Fin 128) (q : Fin 256) :
    wblk0 V c t (ix2 k q) = warr0 V c (ix2 k q) := by
  show V c main_arg2 (((cfg0.win 1).blk t).view.emb (ix2 k q)) = V c main_arg2 (ix2 k q)
  refine congrArg (V c main_arg2) ?_
  obtain ⟨-, -, e2, e3, -⟩ := idx_facts0 t
  funext a; apply Fin.ext
  match a with
  | ⟨0, _⟩ => show win0_1.index t (0 : Fin 2) * 128 + 1 * k.val = k.val; omega
  | ⟨1, _⟩ => show win0_1.index t (1 : Fin 2) * 256 + 1 * q.val = q.val; omega

theorem pay0_blk (q : Fin 256) :
    k0_pay1 (F := Ideal) (xblk0 V c t) (wblk0 V c t) (ix2 p q) = prod0 (xarr0 V c) (warr0 V c) (ix2 (row0 t p) q) := by
  refine (pay0_apply (xblk0 V c t) (wblk0 V c t) p q).trans ?_
  refine Finset.sum_congr rfl fun k _ => ?_
  rw [xblk0_apply V c t p k, wblk0_apply V c t k q]

theorem flushed0_eq :
    (dat0 V c).flushed 2 t = ((cfg0.win 2).blk t).view.read (Elt Ideal) (prod0 (xarr0 V c) (warr0 V c)) := by
  show (cfg0.win 2).cut (grid0.coords t) ((dat0 V c).after 2 t) = _
  rw [after0_2]
  unfold out0_2
  rw [View.canon_unit_zero hz0]
  simp only [View.ld_unit_zero (S := S1000x128) hz0, View.ld_unit_zero (S := S128x256) hz0]
  funext j
  obtain ⟨p, q, rfl⟩ : ∃ (p : Fin 1000) (q : Fin 256), j = ix2 p q := ⟨j 0, j 1, eq_ix2 j⟩
  refine (pay0_blk V c t p q).trans ?_
  show prod0 (xarr0 V c) (warr0 V c) (ix2 (row0 t p) q) = prod0 (xarr0 V c) (warr0 V c) (((cfg0.win 2).blk t).view.emb (ix2 p q))
  refine congrArg (prod0 (xarr0 V c) (warr0 V c)) ?_
  obtain ⟨-, -, -, -, e4, e5⟩ := idx_facts0 t
  funext a; apply Fin.ext
  match a with
  | ⟨0, _⟩ => show t.val * 1000 + p.val = win0_2.index t (0 : Fin 2) * 1000 + 1 * p.val; omega
  | ⟨1, _⟩ => show q.val = win0_2.index t (1 : Fin 2) * 256 + 1 * q.val; omega

theorem mem_blk0 (i : S50000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v30).slice (win0_2.rect t)).set ↔ _
  rw [View.set_slice_whole, Rect.mem_set_unit]
  exact Iff.rfl

theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hlt : (i 0).val / 1000 < cfg0.N := by show (i 0).val / 1000 < grid0.N; rw [N_0]; omega
  obtain ⟨t, ht⟩ : ∃ t : Fin cfg0.N, t.val = (i 0).val / 1000 := ⟨⟨(i 0).val / 1000, hlt⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 256 ≤ (i 1).val ∧ (i 1).val < win0_2.index t (1 : Fin 2) * 256 + 256; omega

theorem arr0_eq : (dat0 V c).arrAt 2 cfg0.N = prod0 (xarr0 V c) (warr0 V c) :=
  (dat0 V c).arrAt_eq_of_cover 2 (prod0 (xarr0 V c) (warr0 V c)) (fun t _ => flushed0_eq V c t) cover0

theorem final0 (r : Fin 50000) (j : Fin 256) :
    (dat0 (F := Ideal) V c).arrAt 2 cfg0.N (ValueIdx.ix2 r j)
      = (∑ q : Fin 128, xarr0 V c (ValueIdx.ix2 r q) * warr0 V c (ValueIdx.ix2 q j) : Elt Ideal .f32) :=
  congrFun (arr0_eq V c) (ix2 r j)

end Cert.KernelIdeal.Hand

end
-- ==== Proof.Bridge.HostGS.lean ====
import proofs.«418912_j86466281603780_3_alg».proof.Proof.Bridge.HostK
import proofs.«418912_j86466281603780_3_alg».proof.Proof.Ref.Read
import proofs.«418912_j86466281603780_3_alg».proof.Proof.KI.Val0

noncomputable section

namespace Cert.Bridge

open Idealize.ShloMosaic Idealize.ShloMosaic.TcCoe Idealize.ShloMosaic.ValueIdx Idealize.SL.Sem
open Cert.KernelIdeal Cert.KernelIdeal.Gen Cert.KernelIdeal.Hand
open Cert.ReferenceIdeal.ReadP
open scoped BigOperators

section Graph

variable (e : (⟨Cert.ReferenceIdeal.S2x800000, .i32⟩ : BufTy).Contents (Elt Ideal))

theorem rowIdx_eq : rowIdx (F := Ideal) e = val_main_v3 (F := Ideal) e := rfl

theorem colIdx_eq : colIdx (F := Ideal) e = val_main_v6 (F := Ideal) e := rfl

theorem wrapRow_eq : wrapIdx (F := Ideal) (rowIdx e) = val_main_v19 (F := Ideal) e := by
  unfold wrapIdx
  rw [rowIdx_eq]
  rfl

theorem wrapCol_eq_v26 : wrapIdx (F := Ideal) (colIdx e) = val_main_v26 (F := Ideal) e := by
  unfold wrapIdx
  rw [colIdx_eq]
  rfl

theorem wrapCol_eq_v36 : wrapIdx (F := Ideal) (colIdx e) = val_main_v36 (F := Ideal) e := by
  unfold wrapIdx
  rw [colIdx_eq]
  rfl

theorem wrapCol_eq_v122 : wrapIdx (F := Ideal) (colIdx e) = val_main_v122 (F := Ideal) e := by
  unfold wrapIdx
  rw [colIdx_eq]
  rfl

theorem degree_eq : degree (F := Ideal) e = val_main_v10 (F := Ideal) e := by
  unfold degree
  rw [colIdx_eq]
  rfl

theorem invSqrtDeg_eq : invSqrtDeg (F := Ideal) e = val_main_v14 (F := Ideal) e := by
  unfold invSqrtDeg
  rw [degree_eq]
  rfl

theorem edgeNorm_eq : edgeNorm (F := Ideal) e = val_main_v29 (F := Ideal) e := by
  unfold edgeNorm
  rw [invSqrtDeg_eq, wrapRow_eq, wrapCol_eq_v26]
  rfl

theorem mp256_eq (h : (⟨Cert.ReferenceIdeal.S50000x256, .f32⟩ : BufTy).Contents (Elt Ideal)) :
    mp256 (F := Ideal) (rowIdx e) (colIdx e) (edgeNorm e) h = Cert.ReferenceIdeal.RefValue.aggregate256 e h := by
  unfold mp256
  rw [rowIdx_eq, wrapCol_eq_v36, edgeNorm_eq]
  rfl

theorem mp40_eq (h : (⟨Cert.ReferenceIdeal.S50000x40, .f32⟩ : BufTy).Contents (Elt Ideal)) :
    mp40 (F := Ideal) (rowIdx e) (colIdx e) (edgeNorm e) h = Cert.ReferenceIdeal.RefValue.aggregate40 e h := by
  unfold mp40
  rw [rowIdx_eq, wrapCol_eq_v122, edgeNorm_eq]
  rfl

end Graph

theorem bridge0 (a0 : (⟨Cert.ReferenceIdeal.S50000x128, .f32⟩ : BufTy).Contents (Elt Ideal))
    (a2 : (⟨Cert.ReferenceIdeal.S128x256, .f32⟩ : BufTy).Contents (Elt Ideal))
    (V : (c : Dev nD) → (b : Ref sig .tc) → Buf (Elt Ideal) ((c : Thread nD τ).loc b)) (c : Dev nD)
    (hx : xarr0 V c = a0) (hw : warr0 V c = a2) :
    (dat0 (F := Ideal) V c).arrAt 2 cfg0.N = val_main_v30 (F := Ideal) a0 a2 := by
  subst hx
  subst hw
  funext i
  obtain ⟨r, j, rfl⟩ : ∃ (r : Fin 50000) (j : Fin 256), i = ix2 r j := ⟨i 0, i 1, eq_ix2 i⟩
  exact (final0 V c r j).trans (Cert.ReferenceIdeal.RefValue.v30_at (xarr0 V c) (warr0 V c) r j).symm

end Cert.Bridge

end
-- ==== Proof.Math.RowSum.lean ====
import Mathlib.Algebra.BigOperators.Fin
import Mathlib.Algebra.BigOperators.Intervals

namespace Cert.Math

open scoped BigOperators

variable {M : Type*} [AddCommMonoid M]

variable (g : Fin 50000 → M)

def ext0 (i : ℕ) : M := if h : i < 50000 then g ⟨i, h⟩ else 0

theorem ext0_of_lt {i : ℕ} (h : i < 50000) : ext0 g i = g ⟨i, h⟩ := dif_pos h

theorem sum_range_ext0 : ∑ i ∈ Finset.range 50000, ext0 g i = ∑ r, g r := by
  rw [← Fin.sum_univ_eq_sum_range (ext0 g) 50000]
  exact Finset.sum_congr rfl fun r _ => ext0_of_lt g r.isLt

theorem run_row_lt {n : ℕ} (hn : n < 50) (p : Fin 1000) : n * 1000 + p.val < 50000 := by
  have := p.isLt; omega

theorem sum_rows_of_runs (a : ℕ → M) (h0 : a 0 = 0)
    (hs : ∀ (n : ℕ) (hn : n < 50), a (n + 1) = a n + ∑ p : Fin 1000, g ⟨n * 1000 + p.val, run_row_lt hn p⟩) :
    a 50 = ∑ r, g r := by
  have key : ∀ n : ℕ, n ≤ 50 → a n = ∑ i ∈ Finset.range (n * 1000), ext0 g i := by
    intro n
    induction n with
    | zero => intro _; rw [h0, Nat.zero_mul, Finset.range_zero, Finset.sum_empty]
    | succ n ih =>
      intro hn
      have hn' : n < 50 := hn
      rw [hs n hn', ih hn'.le, Nat.succ_mul, Finset.sum_range_add]
      refine congrArg (_ + ·) ?_
      rw [← Fin.sum_univ_eq_sum_range (fun p => ext0 g (n * 1000 + p)) 1000]
      exact Finset.sum_congr rfl fun p _ => (ext0_of_lt g (run_row_lt hn' p)).symm
  rw [key 50 le_rfl]
  exact sum_range_ext0 g

end Cert.Math
-- ==== Proof.KI.Val1.lean ====
import proofs.«418912_j86466281603780_3_alg».proof.Proof.KI.Reg1Dat
import proofs.«418912_j86466281603780_3_alg».proof.Proof.Math.RowSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators
section
variable (x0 : Vec Ideal S1000x256 .f32) (b0 : Vec Ideal S1x256 .f32) (a0 : Vec Ideal S1x256 .f32) (q : Fin 256)

theorem pay1_3_apply (p : Fin 1000) (q : Fin 256) :
    k1_pay3 (F := Ideal) x0 b0 (ix2 p q) = x0 (ix2 p q) + b0 (ix2 (0 : Fin 1) q) := by
  unfold k1_pay3
  simp only [shapeCast_self]
  exact congrArg (x0 (ix2 p q) + ·) (broadcastTo_1b_ab_apply b0 broadcasts_S1x256_S1000x256 p q)

theorem pay1_1_apply : k1_pay1 (F := Ideal) (ix2 (0 : Fin 1) q) = 0 := by
  unfold k1_pay1
  simp only [shapeCast_self]
  exact Ideal.ofBits_zero_f32

theorem pay1_2_apply : k1_pay2 (F := Ideal) (ix2 (0 : Fin 1) q) = 0 := by
  unfold k1_pay2
  simp only [shapeCast_self]
  exact Ideal.ofBits_zero_f32

theorem lift1 (k : Fin 1000) : reduces_S1000x256_S256.lift (ix1 q) k = ix2 k q :=
  funext fun a => Fin.ext (match a with | ⟨0, _⟩ => rfl | ⟨1, _⟩ => rfl)

theorem colSum1 (src : FVec Ideal S1000x256 .f32) (hacc : (0x00000000#32 : BitVec 32) = 0x00000000#32) (q : Fin 256) :
    multiReduction (F := Ideal) .add [0] S256 src 0x00000000#32 reduces_S1000x256_S256 (.inl rfl) hacc (ix1 q)
      = ∑ p : Fin 1000, src (ix2 p q) :=
  (Ideal.multiReduction_add_single src 0x00000000#32 reduces_S1000x256_S256 (.inl rfl) hacc (ix1 q)).trans
    (Finset.sum_congr rfl fun k _ => congrArg src (lift1 q k))

theorem rowOfVec1 {α : Type} (v : S256.Idx → α) (q : Fin 256) :
    shapeCast S1x256 v shapeCasts_S256_S1x256 (ix2 (0 : Fin 1) q) = v (ix1 q) :=
  (shapeCast_addUnit_apply ![256] v shapeCasts_S256_S1x256 (ix2 (0 : Fin 1) q)).trans
    (congrArg v (funext fun a => match a with | ⟨0, _⟩ => rfl))

theorem pay1_4_apply :
    k1_pay4 (F := Ideal) x0 b0 a0 (ix2 (0 : Fin 1) q)
      = a0 (ix2 (0 : Fin 1) q) + ∑ p : Fin 1000, (x0 (ix2 p q) + b0 (ix2 (0 : Fin 1) q)) := by
  unfold k1_pay4
  simp only [shapeCast_self]
  refine congrArg (a0 (ix2 (0 : Fin 1) q) + ·) ?_
  refine (rowOfVec1 _ q).trans ?_
  refine (colSum1 _ rfl q).trans ?_
  exact Finset.sum_congr rfl fun p _ => pay1_3_apply x0 b0 p q

theorem pay1_5_apply (a1 : Vec Ideal S1x256 .f32) (q : Fin 256) :
    k1_pay5 (F := Ideal) x0 b0 a1 (ix2 (0 : Fin 1) q)
      = a1 (ix2 (0 : Fin 1) q)
        + ∑ p : Fin 1000, (x0 (ix2 p q) + b0 (ix2 (0 : Fin 1) q)) * (x0 (ix2 p q) + b0 (ix2 (0 : Fin 1) q)) := by
  unfold k1_pay5
  simp only [shapeCast_self]
  refine congrArg (a1 (ix2 (0 : Fin 1) q) + ·) ?_
  refine (rowOfVec1 _ q).trans ?_
  refine (colSum1 _ rfl q).trans ?_
  refine Finset.sum_congr rfl fun p _ => ?_
  show k1_pay3 (F := Ideal) x0 b0 (ix2 p q) * k1_pay3 (F := Ideal) x0 b0 (ix2 p q) = _
  rw [pay1_3_apply x0 b0 p q]

theorem pay1_6_apply :
    k1_pay6 (F := Ideal) a0 (ix2 (0 : Fin 1) q)
      = Ideal.div (a0 (ix2 (0 : Fin 1) q)) (Ideal.ofBits .f32 0x47435000#32) := by
  unfold k1_pay6
  rfl

theorem pay1_7_apply (a1 : Vec Ideal S1x256 .f32) (q : Fin 256) :
    k1_pay7 (F := Ideal) a0 a1 (ix2 (0 : Fin 1) q)
      = max (Ideal.div (a1 (ix2 (0 : Fin 1) q)) (Ideal.ofBits .f32 0x47435000#32)
          - Ideal.div (a0 (ix2 (0 : Fin 1) q)) (Ideal.ofBits .f32 0x47435000#32)
            * Ideal.div (a0 (ix2 (0 : Fin 1) q)) (Ideal.ofBits .f32 0x47435000#32)) 0 := by
  unfold k1_pay7
  show max (Ideal.div (a1 (ix2 (0 : Fin 1) q)) (Ideal.ofBits .f32 0x47435000#32)
      - k1_pay6 (F := Ideal) a0 (ix2 (0 : Fin 1) q) * k1_pay6 (F := Ideal) a0 (ix2 (0 : Fin 1) q)) (Ideal.ofBits .f32 0x00000000#32) = _
  rw [pay1_6_apply a0 q, Ideal.ofBits_zero_f32]

end

section Array
variable (V : (c : Dev nD) → (b : Ref sig .tc) → Buf (Elt Ideal) ((c : Thread nD τ).loc b))
section
variable (c : Dev nD) (t : Fin cfg1.N) (q : Fin 256) (i : S1x256.Idx) (j : Fin 256)

abbrev xarr1 : (⟨S50000x256, .f32⟩ : BufTy).Contents (Elt Ideal) := V c (Pipeline.arrRef spec1 0)

abbrev barr1 : (⟨S1x256, .f32⟩ : BufTy).Contents (Elt Ideal) := V c (Pipeline.arrRef spec1 1)

abbrev yarr1 (r : Fin 50000) (q : Fin 256) : Elt Ideal .f32 :=
  xarr1 V c (ix2 r q) + barr1 V c (ix2 (0 : Fin 1) q)

theorem lt50_1 : t.val < 50 := Nat.lt_of_lt_of_eq t.isLt N_1

theorem idx_facts1_0 : ∀ t : Fin cfg1.N, win1_0.index t (0 : Fin 2) = t.val ∧ win1_0.index t (1 : Fin 2) = 0 :=
  (by decide +kernel : ∀ t : Fin grid1.N, _)
theorem idx_facts1_1 : ∀ t : Fin cfg1.N, win1_1.index t (0 : Fin 2) = 0 ∧ win1_1.index t (1 : Fin 2) = 0 :=
  (by decide +kernel : ∀ t : Fin grid1.N, _)
theorem idx_facts1_2 : ∀ t : Fin cfg1.N, win1_2.index t (0 : Fin 2) = t.val ∧ win1_2.index t (1 : Fin 2) = 0 :=
  (by decide +kernel : ∀ t : Fin grid1.N, _)
theorem idx_facts1_3 : ∀ t : Fin cfg1.N, win1_3.index t (0 : Fin 2) = 0 ∧ win1_3.index t (1 : Fin 2) = 0 :=
  (by decide +kernel : ∀ t : Fin grid1.N, _)
theorem idx_facts1_4 : ∀ t : Fin cfg1.N, win1_4.index t (0 : Fin 2) = 0 ∧ win1_4.index t (1 : Fin 2) = 0 :=
  (by decide +kernel : ∀ t : Fin grid1.N, _)

abbrev row1 (p : Fin 1000) : Fin 50000 := ⟨t.val * 1000 + p.val, by have := lt50_1 t; have := p.isLt; omega⟩

theorem xblk1_apply (p : Fin 1000) (k : Fin 256) :
    xblk1 V c t (ix2 p k) = xarr1 V c (ix2 (row1 t p) k) := by
  show V c (Pipeline.arrRef spec1 0) (((cfg1.win 0).blk t).view.emb (ix2 p k)) = V c (Pipeline.arrRef spec1 0) (ix2 (row1 t p) k)
  refine congrArg (V c (Pipeline.arrRef spec1 0)) ?_
  obtain ⟨e0, e1⟩ := idx_facts1_0 t
  funext a; apply Fin.ext
  match a with
  | ⟨0, _⟩ => show win1_0.index t (0 : Fin 2) * 1000 + 1 * p.val = t.val * 1000 + p.val; omega
  | ⟨1, _⟩ => show win1_0.index t (1 : Fin 2) * 256 + 1 * k.val = k.val; omega

theorem bblk1_apply :
    bblk1 V c t (ix2 (0 : Fin 1) q) = barr1 V c (ix2 (0 : Fin 1) q) := by
  show V c (Pipeline.arrRef spec1 1) (((cfg1.win 1).blk t).view.emb (ix2 (0 : Fin 1) q)) = V c (Pipeline.arrRef spec1 1) (ix2 (0 : Fin 1) q)
  refine congrArg (V c (Pipeline.arrRef spec1 1)) ?_
  obtain ⟨e0, e1⟩ := idx_facts1_1 t
  funext a; apply Fin.ext
  match a with
  | ⟨0, _⟩ => show win1_1.index t (0 : Fin 2) * 1 + 1 * 0 = 0; omega
  | ⟨1, _⟩ => show win1_1.index t (1 : Fin 2) * 256 + 1 * q.val = q.val; omega

theorem acc1_0_apply :
    acc1_0 (F := Ideal) V c 50 (ix2 (0 : Fin 1) q) = ∑ r : Fin 50000, yarr1 V c r q := by
  refine Cert.Math.sum_rows_of_runs (M := EReal) (fun r => yarr1 V c r q)
    (fun n => acc1_0 (F := Ideal) V c n (ix2 (0 : Fin 1) q)) (pay1_1_apply q) ?_
  intro n hn
  have hN : n < cfg1.N := Nat.lt_of_lt_of_eq hn N_1.symm
  refine (congrFun (acc1_0_succ V c ⟨n, hN⟩) (ix2 (0 : Fin 1) q)).trans ?_
  refine (pay1_4_apply (xblk1 V c ⟨n, hN⟩) (bblk1 V c ⟨n, hN⟩) (acc1_0 V c n) q).trans ?_
  refine congrArg (acc1_0 (F := Ideal) V c n (ix2 (0 : Fin 1) q) + ·) ?_
  refine Finset.sum_congr rfl fun p _ => ?_
  rw [xblk1_apply V c ⟨n, hN⟩ p q, bblk1_apply V c ⟨n, hN⟩ q]

theorem acc1_1_apply :
    acc1_1 (F := Ideal) V c 50 (ix2 (0 : Fin 1) q) = ∑ r : Fin 50000, yarr1 V c r q * yarr1 V c r q := by
  refine Cert.Math.sum_rows_of_runs (M := EReal) (fun r => yarr1 V c r q * yarr1 V c r q)
    (fun n => acc1_1 (F := Ideal) V c n (ix2 (0 : Fin 1) q)) (pay1_2_apply q) ?_
  intro n hn
  have hN : n < cfg1.N := Nat.lt_of_lt_of_eq hn N_1.symm
  refine (congrFun (acc1_1_succ V c ⟨n, hN⟩) (ix2 (0 : Fin 1) q)).trans ?_
  refine (pay1_5_apply (xblk1 V c ⟨n, hN⟩) (bblk1 V c ⟨n, hN⟩) (acc1_1 V c n) q).trans ?_
  refine congrArg (acc1_1 (F := Ideal) V c n (ix2 (0 : Fin 1) q) + ·) ?_
  refine Finset.sum_congr rfl fun p _ => ?_
  rw [xblk1_apply V c ⟨n, hN⟩ p q, bblk1_apply V c ⟨n, hN⟩ q]

abbrev out1 : (⟨S50000x256, .f32⟩ : BufTy).Contents (Elt Ideal) :=
  fun i => yarr1 V c (i 0) (i 1)

abbrev mean1 : Elt Ideal .f32 :=
  Ideal.div (∑ r : Fin 50000, yarr1 V c r q) (Ideal.ofBits .f32 0x47435000#32)

abbrev var1 : Elt Ideal .f32 :=
  max (Ideal.div (∑ r : Fin 50000, yarr1 V c r q * yarr1 V c r q) (Ideal.ofBits .f32 0x47435000#32)
    - mean1 V c q * mean1 V c q) 0

abbrev meanRow1 : (⟨S1x256, .f32⟩ : BufTy).Contents (Elt Ideal) := fun i => mean1 V c (i 1)
abbrev varRow1 : (⟨S1x256, .f32⟩ : BufTy).Contents (Elt Ideal) := fun i => var1 V c (i 1)

theorem flushed1_2_eq :
    (dat1 V c).flushed 2 t = ((cfg1.win 2).blk t).view.read (Elt Ideal) (out1 V c) := by
  show (cfg1.win 2).cut (grid1.coords t) ((dat1 V c).after 2 t) = _
  rw [after1_2]
  funext j
  obtain ⟨p, q, rfl⟩ : ∃ (p : Fin 1000) (q : Fin 256), j = ix2 p q := ⟨j 0, j 1, eq_ix2 j⟩
  refine (pay1_3_apply (xblk1 V c t) (bblk1 V c t) p q).trans ?_
  rw [xblk1_apply V c t p q, bblk1_apply V c t q]
  show out1 V c (ix2 (row1 t p) q) = out1 V c (((cfg1.win 2).blk t).view.emb (ix2 p q))
  refine congrArg (out1 V c) ?_
  obtain ⟨e0, e1⟩ := idx_facts1_2 t
  funext a; apply Fin.ext
  match a with
  | ⟨0, _⟩ => show t.val * 1000 + p.val = win1_2.index t (0 : Fin 2) * 1000 + 1 * p.val; omega
  | ⟨1, _⟩ => show q.val = win1_2.index t (1 : Fin 2) * 256 + 1 * q.val; omega

theorem flushed1_3_eq (hf : (cfg1.win 3).flush t = true) :
    (dat1 V c).flushed 3 t = ((cfg1.win 3).blk t).view.read (Elt Ideal) (meanRow1 V c) := by
  have ht : t.val + 1 = 50 := by have := (flush1_3 t).1 hf; have := lt50_1 t; omega
  show (cfg1.win 3).cut (grid1.coords t) ((dat1 V c).after 3 t) = _
  rw [after1_3, ht]
  funext j
  obtain ⟨u, q, rfl⟩ : ∃ (u : Fin 1) (q : Fin 256), j = ix2 u q := ⟨j 0, j 1, eq_ix2 j⟩
  obtain rfl : u = 0 := Subsingleton.elim _ _
  refine (pay1_6_apply (acc1_0 V c 50) q).trans ?_
  rw [acc1_0_apply V c q]
  show meanRow1 V c (ix2 (0 : Fin 1) q) = meanRow1 V c (((cfg1.win 3).blk t).view.emb (ix2 (0 : Fin 1) q))
  refine congrArg (meanRow1 V c) ?_
  obtain ⟨e0, e1⟩ := idx_facts1_3 t
  funext a; apply Fin.ext
  match a with
  | ⟨0, _⟩ => show 0 = win1_3.index t (0 : Fin 2) * 1 + 1 * 0; omega
  | ⟨1, _⟩ => show q.val = win1_3.index t (1 : Fin 2) * 256 + 1 * q.val; omega

theorem flushed1_4_eq (hf : (cfg1.win 4).flush t = true) :
    (dat1 V c).flushed 4 t = ((cfg1.win 4).blk t).view.read (Elt Ideal) (varRow1 V c) := by
  have ht : t.val + 1 = 50 := by have := (flush1_4 t).1 hf; have := lt50_1 t; omega
  show (cfg1.win 4).cut (grid1.coords t) ((dat1 V c).after 4 t) = _
  rw [after1_4, ht]
  funext j
  obtain ⟨u, q, rfl⟩ : ∃ (u : Fin 1) (q : Fin 256), j = ix2 u q := ⟨j 0, j 1, eq_ix2 j⟩
  obtain rfl : u = 0 := Subsingleton.elim _ _
  refine (pay1_7_apply (acc1_0 V c 50) (acc1_1 V c 50) q).trans ?_
  rw [acc1_0_apply V c q, acc1_1_apply V c q]
  show varRow1 V c (ix2 (0 : Fin 1) q) = varRow1 V c (((cfg1.win 4).blk t).view.emb (ix2 (0 : Fin 1) q))
  refine congrArg (varRow1 V c) ?_
  obtain ⟨e0, e1⟩ := idx_facts1_4 t
  funext a; apply Fin.ext
  match a with
  | ⟨0, _⟩ => show 0 = win1_4.index t (0 : Fin 2) * 1 + 1 * 0; omega
  | ⟨1, _⟩ => show q.val = win1_4.index t (1 : Fin 2) * 256 + 1 * q.val; omega

theorem mem_blk1_2 (i : S50000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole (Pipeline.arrRef spec1 2)).slice (win1_2.rect t)).set ↔ _
  rw [View.set_slice_whole, Rect.mem_set_unit]
  exact Iff.rfl
theorem mem_blk1_3 :
    i ∈ ((cfg1.win 3).blk t).view.set ↔ ∀ a : Fin 2, win1_3.index t a * S1x256.size a ≤ (i a).val ∧ (i a).val < win1_3.index t a * S1x256.size a + S1x256.size a := by
  show i ∈ ((View.whole (Pipeline.arrRef spec1 3)).slice (win1_3.rect t)).set ↔ _
  rw [View.set_slice_whole, Rect.mem_set_unit]
  exact Iff.rfl
theorem mem_blk1_4 :
    i ∈ ((cfg1.win 4).blk t).view.set ↔ ∀ a : Fin 2, win1_4.index t a * S1x256.size a ≤ (i a).val ∧ (i a).val < win1_4.index t a * S1x256.size a + S1x256.size a := by
  show i ∈ ((View.whole (Pipeline.arrRef spec1 4)).slice (win1_4.rect t)).set ↔ _
  rw [View.set_slice_whole, Rect.mem_set_unit]
  exact Iff.rfl

theorem cover1_2 (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hlt : (i 0).val / 1000 < cfg1.N := by show (i 0).val / 1000 < grid1.N; rw [N_1]; omega
  obtain ⟨t, ht⟩ : ∃ t : Fin cfg1.N, t.val = (i 0).val / 1000 := ⟨⟨(i 0).val / 1000, hlt⟩, rfl⟩
  obtain ⟨e0, e1⟩ := idx_facts1_2 t
  refine ⟨t, flush1_2 t, ?_⟩
  rw [mem_blk1_2]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 256 ≤ (i 1).val ∧ (i 1).val < win1_2.index t (1 : Fin 2) * 256 + 256; omega

abbrev last1 : Fin cfg1.N := ⟨49, by show 49 < grid1.N; rw [N_1]; omega⟩

theorem cover1_3 : ∃ t : Fin cfg1.N, (cfg1.win 3).flush t = true ∧ i ∈ ((cfg1.win 3).blk t).view.set := by
  have hi0 : (i 0).val < 1 := (i 0).isLt
  have hi1 : (i 1).val < 256 := (i 1).isLt
  obtain ⟨e0, e1⟩ := idx_facts1_3 last1
  refine ⟨last1, (flush1_3 last1).2 rfl, ?_⟩
  rw [mem_blk1_3]
  intro a
  match a with
  | ⟨0, _⟩ => show win1_3.index last1 (0 : Fin 2) * 1 ≤ (i 0).val ∧ (i 0).val < win1_3.index last1 (0 : Fin 2) * 1 + 1; omega
  | ⟨1, _⟩ => show win1_3.index last1 (1 : Fin 2) * 256 ≤ (i 1).val ∧ (i 1).val < win1_3.index last1 (1 : Fin 2) * 256 + 256; omega

theorem cover1_4 : ∃ t : Fin cfg1.N, (cfg1.win 4).flush t = true ∧ i ∈ ((cfg1.win 4).blk t).view.set := by
  have hi0 : (i 0).val < 1 := (i 0).isLt
  have hi1 : (i 1).val < 256 := (i 1).isLt
  obtain ⟨e0, e1⟩ := idx_facts1_4 last1
  refine ⟨last1, (flush1_4 last1).2 rfl, ?_⟩
  rw [mem_blk1_4]
  intro a
  match a with
  | ⟨0, _⟩ => show win1_4.index last1 (0 : Fin 2) * 1 ≤ (i 0).val ∧ (i 0).val < win1_4.index last1 (0 : Fin 2) * 1 + 1; omega
  | ⟨1, _⟩ => show win1_4.index last1 (1 : Fin 2) * 256 ≤ (i 1).val ∧ (i 1).val < win1_4.index last1 (1 : Fin 2) * 256 + 256; omega

theorem arr1_2_eq : (dat1 V c).arrAt 2 cfg1.N = out1 V c :=
  (dat1 V c).arrAt_eq_of_cover 2 (out1 V c) (fun t _ => flushed1_2_eq V c t) cover1_2

theorem arr1_3_eq : (dat1 V c).arrAt 3 cfg1.N = meanRow1 V c :=
  (dat1 V c).arrAt_eq_of_cover 3 (meanRow1 V c) (fun t hf => flushed1_3_eq V c t hf) cover1_3

theorem arr1_4_eq : (dat1 V c).arrAt 4 cfg1.N = varRow1 V c :=
  (dat1 V c).arrAt_eq_of_cover 4 (varRow1 V c) (fun t hf => flushed1_4_eq V c t hf) cover1_4

theorem final1_out (r : Fin 50000) (j : Fin 256) :
    (dat1 (F := Ideal) V c).arrAt 2 cfg1.N (ValueIdx.ix2 r j)
      = (xarr1 V c (ValueIdx.ix2 r j) + barr1 V c (ValueIdx.ix2 (0 : Fin 1) j) : Elt Ideal .f32) :=
  congrFun (arr1_2_eq V c) (ix2 r j)

theorem final1_mean :
    (dat1 (F := Ideal) V c).arrAt 3 cfg1.N (ValueIdx.ix2 (0 : Fin 1) j)
      = (Ideal.div (∑ r : Fin 50000, (xarr1 V c (ValueIdx.ix2 r j) + barr1 V c (ValueIdx.ix2 (0 : Fin 1) j)))
          (Ideal.ofBits .f32 0x47435000#32) : Elt Ideal .f32) :=
  congrFun (arr1_3_eq V c) (ix2 (0 : Fin 1) j)

theorem final1_var :
    (dat1 (F := Ideal) V c).arrAt 4 cfg1.N (ValueIdx.ix2 (0 : Fin 1) j)
      = (max (Ideal.div (∑ r : Fin 50000, (xarr1 V c (ValueIdx.ix2 r j) + barr1 V c (ValueIdx.ix2 (0 : Fin 1) j))
              * (xarr1 V c (ValueIdx.ix2 r j) + barr1 V c (ValueIdx.ix2 (0 : Fin 1) j)))
            (Ideal.ofBits .f32 0x47435000#32)
          - Ideal.div (∑ r : Fin 50000, (xarr1 V c (ValueIdx.ix2 r j) + barr1 V c (ValueIdx.ix2 (0 : Fin 1) j)))
              (Ideal.ofBits .f32 0x47435000#32)
            * Ideal.div (∑ r : Fin 50000, (xarr1 V c (ValueIdx.ix2 r j) + barr1 V c (ValueIdx.ix2 (0 : Fin 1) j)))
              (Ideal.ofBits .f32 0x47435000#32)) 0 : Elt Ideal .f32) :=
  congrFun (arr1_4_eq V c) (ix2 (0 : Fin 1) j)

end

end Array

end Cert.KernelIdeal.Hand

end
-- ==== Proof.Math.BN.lean ====
import proofs.«418912_j86466281603780_3_alg».proof.Proof.Math.Fin
import Mathlib.Algebra.BigOperators.Ring.Finset
import Mathlib.Algebra.Order.BigOperators.Group.Finset
import Mathlib.Tactic.Ring
import Mathlib.Tactic.FieldSimp
import Mathlib.Tactic.Positivity

noncomputable section

namespace Cert.Math

open Idealize.ShloMosaic
open scoped BigOperators

theorem real_sum_sq_dev {ι : Type*} [Fintype ι] (g : ι → ℝ) (m : ℝ) :
    ∑ r, (g r - m) * (g r - m) = ∑ r, g r * g r - 2 * m * ∑ r, g r + (Fintype.card ι : ℝ) * (m * m) := by
  have h1 : ∀ r, (g r - m) * (g r - m) = g r * g r - 2 * m * g r + m * m := fun r => by ring
  simp_rw [h1]
  rw [Finset.sum_add_distrib, Finset.sum_sub_distrib, ← Finset.mul_sum, Finset.sum_const, Finset.card_univ,
    nsmul_eq_mul]

theorem real_var_identity {ι : Type*} [Fintype ι] (g : ι → ℝ) {N : ℝ} (hN : N ≠ 0)
    (hcard : (Fintype.card ι : ℝ) = N) :
    (∑ r, (g r - (∑ r, g r) / N) * (g r - (∑ r, g r) / N)) / N
      = (∑ r, g r * g r) / N - (∑ r, g r) / N * ((∑ r, g r) / N) := by
  rw [real_sum_sq_dev, hcard]
  field_simp
  ring

section Var

variable {ι : Type*} [Fintype ι]
section
variable {h : ι → EReal}

theorem var_identity_real (g : ι → ℝ) {N : ℝ} (hN : 0 < N) (hcard : (Fintype.card ι : ℝ) = N) :
    ∃ v : ℝ, 0 ≤ v ∧
      Ideal.div (∑ r, ((g r : EReal) - Ideal.div (∑ r, (g r : EReal)) (N : EReal))
          * ((g r : EReal) - Ideal.div (∑ r, (g r : EReal)) (N : EReal))) (N : EReal) = (v : EReal) ∧
      Ideal.div (∑ r, (g r : EReal) * (g r : EReal)) (N : EReal)
          - Ideal.div (∑ r, (g r : EReal)) (N : EReal) * Ideal.div (∑ r, (g r : EReal)) (N : EReal) = (v : EReal) := by
  have hN0 : N ≠ 0 := hN.ne'
  have hmu : Ideal.div (∑ r, (g r : EReal)) (N : EReal) = (((∑ r, g r) / N : ℝ) : EReal) := by
    rw [← coe_finset_sum, div_coe_coe _ hN0]
  refine ⟨(∑ r, (g r - (∑ r, g r) / N) * (g r - (∑ r, g r) / N)) / N, ?_, ?_, ?_⟩
  · exact div_nonneg (Finset.sum_nonneg fun r _ => mul_self_nonneg _) hN.le
  · rw [hmu]
    simp_rw [← EReal.coe_sub, ← EReal.coe_mul]
    rw [← coe_finset_sum, div_coe_coe _ hN0]
  · rw [hmu, real_var_identity g hN0 hcard]
    simp_rw [← EReal.coe_mul]
    rw [← coe_finset_sum, div_coe_coe _ hN0, ← EReal.coe_sub]

theorem var_identity (hh : AllFin h) {N : ℝ} (hN : 0 < N) (hcard : (Fintype.card ι : ℝ) = N) :
    Ideal.div (∑ r, (h r - Ideal.div (∑ r, h r) (N : EReal)) * (h r - Ideal.div (∑ r, h r) (N : EReal))) (N : EReal)
      = Ideal.div (∑ r, h r * h r) (N : EReal)
          - Ideal.div (∑ r, h r) (N : EReal) * Ideal.div (∑ r, h r) (N : EReal) := by
  obtain ⟨g, rfl⟩ := allFin_iff_coe.1 hh
  obtain ⟨v, _, h1, h2⟩ := var_identity_real g hN hcard
  rw [h1, h2]

theorem var_nonneg (hh : AllFin h) {N : ℝ} (hN : 0 < N) (hcard : (Fintype.card ι : ℝ) = N) :
    ∃ v : ℝ, 0 ≤ v ∧
      Ideal.div (∑ r, h r * h r) (N : EReal)
          - Ideal.div (∑ r, h r) (N : EReal) * Ideal.div (∑ r, h r) (N : EReal) = (v : EReal) := by
  obtain ⟨g, rfl⟩ := allFin_iff_coe.1 hh
  obtain ⟨v, hv, _, h2⟩ := var_identity_real g hN hcard
  exact ⟨v, hv, h2⟩

theorem max_var_zero (hh : AllFin h) {N : ℝ} (hN : 0 < N) (hcard : (Fintype.card ι : ℝ) = N) :
    max (Ideal.div (∑ r, h r * h r) (N : EReal)
          - Ideal.div (∑ r, h r) (N : EReal) * Ideal.div (∑ r, h r) (N : EReal)) 0
      = Ideal.div (∑ r, h r * h r) (N : EReal)
          - Ideal.div (∑ r, h r) (N : EReal) * Ideal.div (∑ r, h r) (N : EReal) := by
  obtain ⟨v, hv, h2⟩ := var_nonneg hh hN hcard
  rw [h2]
  exact max_eq_left (EReal.coe_nonneg.2 hv)

end

end Var

section Rows

variable {h : Fin 50000 → EReal}

theorem card_rows : (Fintype.card (Fin 50000) : ℝ) = 50000 := by
  rw [Fintype.card_fin]; norm_num

theorem var_identity_50000 (hh : AllFin h) :
    Ideal.div (∑ r, (h r - Ideal.div (∑ r, h r) ((50000 : ℝ) : EReal))
        * (h r - Ideal.div (∑ r, h r) ((50000 : ℝ) : EReal))) ((50000 : ℝ) : EReal)
      = Ideal.div (∑ r, h r * h r) ((50000 : ℝ) : EReal)
          - Ideal.div (∑ r, h r) ((50000 : ℝ) : EReal) * Ideal.div (∑ r, h r) ((50000 : ℝ) : EReal) :=
  var_identity hh (by norm_num) card_rows

theorem var_nonneg_50000 (hh : AllFin h) :
    ∃ v : ℝ, 0 ≤ v ∧
      Ideal.div (∑ r, h r * h r) ((50000 : ℝ) : EReal)
          - Ideal.div (∑ r, h r) ((50000 : ℝ) : EReal) * Ideal.div (∑ r, h r) ((50000 : ℝ) : EReal) = (v : EReal) :=
  var_nonneg hh (by norm_num) card_rows

theorem max_var_zero_50000 (hh : AllFin h) :
    max (Ideal.div (∑ r, h r * h r) ((50000 : ℝ) : EReal)
          - Ideal.div (∑ r, h r) ((50000 : ℝ) : EReal) * Ideal.div (∑ r, h r) ((50000 : ℝ) : EReal)) 0
      = Ideal.div (∑ r, h r * h r) ((50000 : ℝ) : EReal)
          - Ideal.div (∑ r, h r) ((50000 : ℝ) : EReal) * Ideal.div (∑ r, h r) ((50000 : ℝ) : EReal) :=
  max_var_zero hh (by norm_num) card_rows

theorem isFin_mean_50000 (hh : AllFin h) : IsFin (Ideal.div (∑ r, h r) ((50000 : ℝ) : EReal)) :=
  isFin_div_coe (isFin_sum _ hh) (by norm_num)

end Rows

theorem rsqrt_add_pos {v e : ℝ} (hv : 0 ≤ v) (he : 0 < e) :
    ∃ t : ℝ, 0 < t ∧ Ideal.rsqrt ((v : EReal) + (e : EReal)) = (t : EReal) := by
  rw [← EReal.coe_add]
  exact rsqrt_pos (by positivity)

theorem rsqrt_var_add_pos_50000 {h : Fin 50000 → EReal} (hh : AllFin h) {e : ℝ} (he : 0 < e) :
    ∃ t : ℝ, 0 < t ∧
      Ideal.rsqrt (Ideal.div (∑ r, h r * h r) ((50000 : ℝ) : EReal)
          - Ideal.div (∑ r, h r) ((50000 : ℝ) : EReal) * Ideal.div (∑ r, h r) ((50000 : ℝ) : EReal)
          + (e : EReal)) = (t : EReal) := by
  obtain ⟨v, hv, h2⟩ := var_nonneg_50000 hh
  rw [h2]
  exact rsqrt_add_pos hv he

theorem affine_eq {x mu inv g b : EReal} (hx : IsFin x) (hmu : IsFin mu) (hinv : IsFin inv) (hg : IsFin g)
    (hb : IsFin b) :
    x * (inv * g) + (b - mu * (inv * g)) = ((x - mu) * inv) * g + b := by
  obtain ⟨x, rfl⟩ := isFin_iff_coe.1 hx
  obtain ⟨mu, rfl⟩ := isFin_iff_coe.1 hmu
  obtain ⟨inv, rfl⟩ := isFin_iff_coe.1 hinv
  obtain ⟨g, rfl⟩ := isFin_iff_coe.1 hg
  obtain ⟨b, rfl⟩ := isFin_iff_coe.1 hb
  exact_mod_cast (by ring : x * (inv * g) + (b - mu * (inv * g)) = ((x - mu) * inv) * g + b)

end Cert.Math

end
-- ==== Proof.Math.FinChainA.lean ====
import proofs.«418912_j86466281603780_3_alg».proof.Proof.Math.Fin
import Idealize.ShloMosaic.PureOps.Ideal.Laws

noncomputable section

namespace Cert.Math

open Idealize.ShloMosaic
open scoped BigOperators
section
variable {a : EReal}

theorem ofBits_one : Ideal.ofBits .f32 0x3F800000#32 = 1 := by
  simp [Ideal.ofBits, Ideal.ieee, -EReal.coe_mul]; norm_num

theorem isFin_ofBits_one : IsFin (Ideal.ofBits .f32 0x3F800000#32) := by
  rw [ofBits_one]; exact isFin_one

theorem ofBits_neg_inf : Ideal.ofBits .f32 0xFF800000#32 = ⊥ := by
  simp [Ideal.ofBits, Ideal.ieee]

theorem isFin_ofBits_eps : IsFin (Ideal.ofBits .f32 0x3727C5AC#32) := by
  obtain ⟨e, _, h⟩ := ofBits_eps_pos
  rw [h]; exact isFin_coe e

theorem mul_self_nonneg_of_isFin (ha : IsFin a) : 0 ≤ a * a := by
  obtain ⟨x, rfl⟩ := isFin_iff_coe.1 ha
  rw [← EReal.coe_mul]
  exact_mod_cast mul_self_nonneg x

theorem sum_nonneg_of_isFin {ι : Type*} (s : Finset ι) {f : ι → EReal} (hf : ∀ i, IsFin (f i))
    (h0 : ∀ i, 0 ≤ f i) : 0 ≤ ∑ i ∈ s, f i := by
  obtain ⟨r, rfl⟩ := allFin_iff_coe.1 hf
  rw [← coe_finset_sum]
  have : ∀ i ∈ s, 0 ≤ r i := fun i _ => EReal.coe_nonneg.1 (h0 i)
  exact_mod_cast Finset.sum_nonneg this

theorem div_coe_nonneg (ha : IsFin a) (h0 : 0 ≤ a) {y : ℝ} (hy : 0 < y) :
    0 ≤ Ideal.div a (y : EReal) := by
  obtain ⟨x, rfl⟩ := isFin_iff_coe.1 ha
  rw [div_coe_coe x hy.ne']
  have hx : 0 ≤ x := by exact_mod_cast h0
  exact_mod_cast div_nonneg hx hy.le

theorem add_coe_pos (ha : IsFin a) (h0 : 0 ≤ a) {e : ℝ} (he : 0 < e) :
    0 < a + (e : EReal) := by
  obtain ⟨x, rfl⟩ := isFin_iff_coe.1 ha
  rw [← EReal.coe_add]
  have hx : 0 ≤ x := by exact_mod_cast h0
  exact_mod_cast add_pos_of_nonneg_of_pos hx he

theorem isFin_rsqrt_of_pos (ha : IsFin a) (h0 : 0 < a) : IsFin (Ideal.rsqrt a) := by
  obtain ⟨x, rfl⟩ := isFin_iff_coe.1 ha
  exact isFin_rsqrt (by exact_mod_cast h0)

theorem isFin_select_rsqrt {z : EReal} (ha : IsFin a) (hz : IsFin z) :
    IsFin (Scalar.select (Ideal.cmp .ogt a 0) (Ideal.rsqrt a) z) := by
  unfold Scalar.select
  by_cases h : (0 : EReal) < a
  · split
    · exact isFin_rsqrt_of_pos ha h
    · exact hz
  · have hc : Ideal.cmp .ogt a 0 = 0#1 := by
      show BitVec.ofBool (decide ((0 : EReal) < a)) = 0#1
      rw [decide_eq_false h]; rfl
    rw [hc, if_neg (by decide)]
    exact hz

end

section Arrays

variable {s t si u : Shape} {w : Nat}
section
variable {x y : FVec Ideal s .f32}

theorem allFin_constant_zero (s : Shape) : AllFin (constant (F := Ideal) s .f32 0x00000000#32) :=
  fun _ => isFin_ofBits_zero

theorem allFin_constant_one (s : Shape) : AllFin (constant (F := Ideal) s .f32 0x3F800000#32) :=
  fun _ => isFin_ofBits_one

theorem allFin_broadcastInDim (t : Shape) (dims : Fin s.rank → Fin t.rank) (h : s.BroadcastsInDim t dims)
    {x : s.Idx → EReal} (hx : AllFin x) : AllFin (broadcastInDim t dims h x) :=
  fun _ => hx _

theorem allFin_gather (d : GatherDims s si t) {x : s.Idx → EReal} (idx : IVec si w) (hx : AllFin x) :
    AllFin (Host.gather d x idx) :=
  fun _ => hx _

theorem allFin_addf (hx : AllFin x) (hy : AllFin y) : AllFin (addf x y) :=
  fun i => isFin_add (hx i) (hy i)

theorem allFin_subf (hx : AllFin x) (hy : AllFin y) : AllFin (subf x y) :=
  fun i => isFin_sub (hx i) (hy i)

theorem allFin_mulf (hx : AllFin x) (hy : AllFin y) : AllFin (mulf x y) :=
  fun i => isFin_mul (hx i) (hy i)

theorem allFin_maximumf (hx : AllFin x) (hy : AllFin y) : AllFin (maximumf x y) :=
  fun i => isFin_max (hx i) (hy i)

theorem allFin_scatterAdd (d : ScatterDims s si u) {x : FVec Ideal s .f32} (idx : IVec si w) {upd : FVec Ideal u .f32}
    (hx : AllFin x) (hu : AllFin upd) : AllFin (Host.scatterAdd (F := Ideal) (φ := .f32) d x idx upd) := by
  intro i
  unfold Host.scatterAdd
  rw [Ideal.hostScatterAdd_def]
  unfold Ideal.hostScatterAdd
  exact isFin_add (hx i) (isFin_sum _ hu)

theorem allFin_dotGeneral {sl sr so : Shape} (d : DotDims sl sr so) (prec : Option ContractPrecision)
    {lhs : FVec Ideal sl .f32} {rhs : FVec Ideal sr .f32} (hl : AllFin lhs) (hr : AllFin rhs) :
    AllFin (Host.dotGeneral (F := Ideal) d prec lhs rhs) := by
  intro j
  show IsFin (Ideal.matmul d lhs rhs (fun _ => 0) j)
  unfold Ideal.matmul
  exact isFin_add isFin_zero (isFin_sum _ fun k => isFin_mul (hl _) (hr _))

theorem allFin_reduceAdd {axes : List (Fin s.rank)} {x : FVec Ideal s .f32} {init : u.Idx → Ideal .f32}
    (h : s.ReducesTo axes t) (hu : 0 < u.numel) (hx : AllFin x) (hi : AllFin init) :
    AllFin (Host.reduceAdd x init h hu) := by
  intro j
  unfold Host.reduceAdd
  rw [Ideal.hostReduceAdd_def]
  unfold Ideal.hostReduceAdd
  exact isFin_add (hi _) (isFin_sum _ hx)

theorem reduceAdd_nonneg {axes : List (Fin s.rank)} {x : FVec Ideal s .f32} {init : u.Idx → Ideal .f32}
    (h : s.ReducesTo axes t) (hu : 0 < u.numel) (hx : AllFin x) (hx0 : ∀ i, 0 ≤ x i)
    (hi : AllFin init) (hi0 : ∀ k, 0 ≤ init k) (j : t.Idx) : 0 ≤ Host.reduceAdd x init h hu j := by
  unfold Host.reduceAdd
  rw [Ideal.hostReduceAdd_def]
  unfold Ideal.hostReduceAdd
  have h1 := sum_nonneg_of_isFin (Finset.univ.filter fun i => h.drop i = j) hx hx0
  have h2 : IsFin (∑ i ∈ Finset.univ.filter fun i => h.drop i = j, x i) := isFin_sum _ hx
  obtain ⟨a, ha⟩ := isFin_iff_coe.1 (hi (Shape.Idx.first hu))
  obtain ⟨b, hb⟩ := isFin_iff_coe.1 h2
  have ha0 := hi0 (Shape.Idx.first hu)
  rw [ha] at ha0 ⊢
  rw [hb] at h1 ⊢
  rw [← EReal.coe_add]
  have : 0 ≤ a := by exact_mod_cast ha0
  have : 0 ≤ b := by exact_mod_cast h1
  exact_mod_cast add_nonneg ‹0 ≤ a› ‹0 ≤ b›

theorem allFin_divf_coe (hx : AllFin x) {c : ℝ} (hc : c ≠ 0) (hy : ∀ i, y i = (c : EReal)) :
    AllFin (Host.divf x y) := by
  intro i
  show IsFin (Ideal.div (x i) (y i))
  rw [hy i]; exact isFin_div_coe (hx i) hc

theorem allFin_rsqrt_of_pos {x : FVec Ideal s .f32} (hx : AllFin x) (h0 : ∀ i, 0 < x i) : AllFin (Host.rsqrt x) :=
  fun i => isFin_rsqrt_of_pos (hx i) (h0 i)

theorem allFin_select_rsqrt {x y z : FVec Ideal s .f32} (hx : AllFin x) (hy : ∀ i, y i = 0) (hz : AllFin z) :
    AllFin (select (cmpf .ogt x y) (Host.rsqrt x) z) := by
  intro i
  show IsFin (Scalar.select (Ideal.cmp .ogt (x i) (y i)) (Ideal.rsqrt (x i)) (z i))
  rw [hy i]
  exact isFin_select_rsqrt (hx i) (hz i)

theorem mulf_self_nonneg {x : FVec Ideal s .f32} (hx : AllFin x) (i : s.Idx) : 0 ≤ mulf x x i :=
  mul_self_nonneg_of_isFin (hx i)

theorem divf_coe_nonneg (hx : AllFin x) (hx0 : ∀ i, 0 ≤ x i) {c : ℝ} (hc : 0 < c)
    (hy : ∀ i, y i = (c : EReal)) (i : s.Idx) : 0 ≤ Host.divf x y i := by
  show 0 ≤ Ideal.div (x i) (y i)
  rw [hy i]
  exact div_coe_nonneg (hx i) (hx0 i) hc

theorem addf_coe_pos (hx : AllFin x) (hx0 : ∀ i, 0 ≤ x i) {e : ℝ} (he : 0 < e)
    (hy : ∀ i, y i = (e : EReal)) (i : s.Idx) : 0 < addf x y i := by
  show 0 < x i + y i
  rw [hy i]
  exact add_coe_pos (hx i) (hx0 i) he

theorem allFin_messagePass {sN sE si' : Shape} {w' : Nat} (ds : ScatterDims sN si sE) (dg : GatherDims sN si' sE)
    {z h : FVec Ideal sN .f32} {nrm : FVec Ideal sE .f32} (idx : IVec si w) (idx' : IVec si' w')
    (hz : AllFin z) (hn : AllFin nrm) (hh : AllFin h) :
    AllFin (Host.scatterAdd (F := Ideal) (φ := .f32) ds z idx (mulf nrm (Host.gather dg h idx'))) :=
  allFin_scatterAdd ds idx hz (allFin_mulf hn (allFin_gather dg idx' hh))

end

end Arrays

end Cert.Math

end
-- ==== Proof.Bridge.L1.lean ====
import proofs.«418912_j86466281603780_3_alg».proof.Proof.KI.Val1
import proofs.«418912_j86466281603780_3_alg».proof.Proof.Ref.Read
import proofs.«418912_j86466281603780_3_alg».proof.Proof.Math.BN
import proofs.«418912_j86466281603780_3_alg».proof.Proof.Math.FinChainA

noncomputable section

namespace Cert.Bridge

open Idealize.ShloMosaic Idealize.ShloMosaic.TcCoe Idealize.ShloMosaic.ValueIdx Idealize.SL.Sem
open Cert.KernelIdeal Cert.KernelIdeal.Gen Cert.KernelIdeal.Hand
open Cert.ReferenceIdeal.ReadP
open Cert.Math
open scoped BigOperators

variable (a0 : (⟨Cert.ReferenceIdeal.S50000x128, .f32⟩ : BufTy).Contents (Elt Ideal)) (a1 : (⟨Cert.ReferenceIdeal.S2x800000, .i32⟩ : BufTy).Contents (Elt Ideal)) (a2 : (⟨Cert.ReferenceIdeal.S128x256, .f32⟩ : BufTy).Contents (Elt Ideal)) (a3 : (⟨Cert.ReferenceIdeal.S256, .f32⟩ : BufTy).Contents (Elt Ideal)) (V : (c : Dev nD) → (b : Ref sig .tc) → Buf (Elt Ideal) ((c : Thread nD τ).loc b)) (c : Dev nD)

theorem col_var1 (y h : Fin 50000 → EReal) (hyh : ∀ r, y r = h r) (hh : AllFin h) :
    max (Ideal.div (∑ r : Fin 50000, y r * y r) (Ideal.ofBits .f32 0x47435000#32)
        - Ideal.div (∑ r : Fin 50000, y r) (Ideal.ofBits .f32 0x47435000#32)
          * Ideal.div (∑ r : Fin 50000, y r) (Ideal.ofBits .f32 0x47435000#32)) 0
      = Ideal.div (∑ r : Fin 50000,
            (h r - Ideal.div (∑ r : Fin 50000, h r) (Ideal.ofBits .f32 0x47435000#32))
              * (h r - Ideal.div (∑ r : Fin 50000, h r) (Ideal.ofBits .f32 0x47435000#32)))
          (Ideal.ofBits .f32 0x47435000#32) := by
  obtain rfl : y = h := funext hyh
  rw [ofBits_50000, max_var_zero_50000 hh, var_identity_50000 hh]

theorem bridge1_entry (hx : xarr1 V c = val_main_v43 (F := Ideal) a0 a1 a2)
    (hb : ∀ j : Fin 256, barr1 V c (ix2 (0 : Fin 1) j) = a3 (ix1 j)) (r : Fin 50000) (j : Fin 256) :
    (xarr1 V c (ix2 r j) + barr1 V c (ix2 (0 : Fin 1) j) : Elt Ideal .f32)
      = val_main_v46 (F := Ideal) a0 a1 a2 a3 (ix2 r j) :=
  (congrArg₂ (fun u v : EReal => u + v) (congrFun hx (ix2 r j)) (hb j)).trans
    (Cert.ReferenceIdeal.RefValue.v46_at a0 a1 a2 a3 r j).symm

theorem bridge1_out (hx : xarr1 V c = val_main_v43 (F := Ideal) a0 a1 a2)
    (hb : ∀ j : Fin 256, barr1 V c (ix2 (0 : Fin 1) j) = a3 (ix1 j)) :
    (dat1 (F := Ideal) V c).arrAt 2 cfg1.N = val_main_v46 (F := Ideal) a0 a1 a2 a3 := by
  funext i
  obtain ⟨r, j, rfl⟩ : ∃ (r : Fin 50000) (j : Fin 256), i = ix2 r j := ⟨i 0, i 1, eq_ix2 i⟩
  exact (final1_out V c r j).trans (bridge1_entry a0 a1 a2 a3 V c hx hb r j)

theorem bridge1_mean (hx : xarr1 V c = val_main_v43 (F := Ideal) a0 a1 a2)
    (hb : ∀ j : Fin 256, barr1 V c (ix2 (0 : Fin 1) j) = a3 (ix1 j)) (j : Fin 256) :
    (dat1 (F := Ideal) V c).arrAt 3 cfg1.N (ix2 (0 : Fin 1) j) = val_main_v49 (F := Ideal) a0 a1 a2 a3 (ix1 j) := by
  refine (final1_mean V c j).trans ?_
  refine Eq.trans ?_ (Cert.ReferenceIdeal.RefValue.v49_at a0 a1 a2 a3 j).symm
  refine congrArg (fun s : EReal => Ideal.div s (Ideal.ofBits .f32 0x47435000#32)) ?_
  exact Finset.sum_congr rfl fun r _ => bridge1_entry a0 a1 a2 a3 V c hx hb r j

theorem bridge1_var (hx : xarr1 V c = val_main_v43 (F := Ideal) a0 a1 a2)
    (hb : ∀ j : Fin 256, barr1 V c (ix2 (0 : Fin 1) j) = a3 (ix1 j))
    (hfin : AllFin (val_main_v46 (F := Ideal) a0 a1 a2 a3)) (j : Fin 256) :
    (dat1 (F := Ideal) V c).arrAt 4 cfg1.N (ix2 (0 : Fin 1) j) = val_main_v56 (F := Ideal) a0 a1 a2 a3 (ix1 j) := by
  refine (final1_var V c j).trans ?_
  refine Eq.trans ?_ (Cert.ReferenceIdeal.RefValue.v56_at a0 a1 a2 a3 j).symm
  rw [Cert.ReferenceIdeal.RefValue.v49_at a0 a1 a2 a3 j]
  exact col_var1 (fun r : Fin 50000 => xarr1 V c (ix2 r j) + barr1 V c (ix2 (0 : Fin 1) j))
    (fun r : Fin 50000 => val_main_v46 (F := Ideal) a0 a1 a2 a3 (ix2 r j))
    (fun r => bridge1_entry a0 a1 a2 a3 V c hx hb r j) (fun r => hfin (ix2 r j))

end Cert.Bridge

end
-- ==== Proof.KI.Pay2.lean ====
import proofs.«418912_j86466281603780_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

variable (i : S1000x256.Idx) (q : dot_S1000x256_S256x256_S1000x256_1_0_0_1_n_n.contr.Idx)

theorem lhs_mm2_0 :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_mm2_1 :
    (dot_S1000x256_S256x256_S1000x256_1_0_0_1_n_n.lhsIdx i q 1).val = (q ⟨0, by decide⟩).val :=
  dot_S1000x256_S256x256_S1000x256_1_0_0_1_n_n.lhsIdx_val_of_single rfl i q
theorem rhs_mm2_0 :
    (dot_S1000x256_S256x256_S1000x256_1_0_0_1_n_n.rhsIdx i q 0).val = (q ⟨0, by decide⟩).val :=
  dot_S1000x256_S256x256_S1000x256_1_0_0_1_n_n.rhsIdx_val_of_single rfl i q
theorem rhs_mm2_1 :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

theorem k2_pay1_apply (v0 v5 v8 v10 : FVec Ideal S1x256 .f32) (v14 : FVec Ideal S1000x256 .f32) (v22 : FVec Ideal S256x256 .f32)
    (p : Fin 1000) (j : Fin 256) :
    k2_pay1 (F := Ideal) v0 v5 v8 v10 v14 v22 (ix2 p j)
      = ∑ q : Fin 256, max (v14 (ix2 p q) * (Ideal.rsqrt (v0 (ix2 (0 : Fin 1) q) + Ideal.ofBits .f32 0x3727C5AC#32) * v5 (ix2 (0 : Fin 1) q))
          + (v8 (ix2 (0 : Fin 1) q) - v10 (ix2 (0 : Fin 1) q) * (Ideal.rsqrt (v0 (ix2 (0 : Fin 1) q) + Ideal.ofBits .f32 0x3727C5AC#32) * v5 (ix2 (0 : Fin 1) q)))) 0
        * v22 (ix2 q j) := by
  unfold k2_pay1
  refine (Ideal.matmul_constant_zero_apply dot_S1000x256_S256x256_S1000x256_1_0_0_1_n_n (some .fp32) _ v22 (ix2 p j)).trans ?_
  rw [← Equiv.sum_comp (contrEquiv1 dot_S1000x256_S256x256_S1000x256_1_0_0_1_n_n 256 rfl rfl).symm]
  refine Finset.sum_congr rfl fun q _ => ?_
  have hq := contrEquiv1_symm_val dot_S1000x256_S256x256_S1000x256_1_0_0_1_n_n 256 rfl rfl q
  have el : dot_S1000x256_S256x256_S1000x256_1_0_0_1_n_n.lhsIdx (ix2 p j) ((contrEquiv1 dot_S1000x256_S256x256_S1000x256_1_0_0_1_n_n 256 rfl rfl).symm q) = ix2 p q := funext fun a => Fin.ext (by
    match a with
    | ⟨0, _⟩ => exact lhs_mm2_0 _ _
    | ⟨1, _⟩ => exact (lhs_mm2_1 _ _).trans hq)
  have er : dot_S1000x256_S256x256_S1000x256_1_0_0_1_n_n.rhsIdx (ix2 p j) ((contrEquiv1 dot_S1000x256_S256x256_S1000x256_1_0_0_1_n_n 256 rfl rfl).symm q) = ix2 q j := funext fun a => Fin.ext (by
    match a with
    | ⟨0, _⟩ => exact (rhs_mm2_0 _ _).trans hq
    | ⟨1, _⟩ => exact rhs_mm2_1 _ _)
  rw [el, er]
  refine congrArg (· * v22 (ix2 q j)) ?_
  simp only [shapeCast_self]
  simp only [maximumf_apply, addf_apply, mulf_apply, subf_apply, broadcast_apply, broadcastTo_1b_ab_apply]
  exact congrArg (max _) Ideal.ofBits_zero_f32

end Cert.KernelIdeal.Hand

end
-- ==== Proof.KI.Val2.lean ====
import proofs.«418912_j86466281603780_3_alg».proof.Proof.KI.Reg2
import proofs.«418912_j86466281603780_3_alg».proof.Proof.KI.Pay2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD) (t : Fin cfg2.N) (i : S50000x256.Idx) (r : Fin 50000) (q : Fin 256) (j : Fin 256)

abbrev x2 : FVec Ideal S50000x256 .f32 := V c (Pipeline.arrRef spec2 0)

abbrev w2 : FVec Ideal S256x256 .f32 := V c (Pipeline.arrRef spec2 1)

abbrev mean2 : FVec Ideal S1x256 .f32 := V c (Pipeline.arrRef spec2 2)

abbrev var2 : FVec Ideal S1x256 .f32 := V c (Pipeline.arrRef spec2 3)

abbrev gamma2 : FVec Ideal S1x256 .f32 := V c (Pipeline.arrRef spec2 4)

abbrev beta2 : FVec Ideal S1x256 .f32 := V c (Pipeline.arrRef spec2 5)

section
variable (x : FVec Ideal S50000x256 .f32) (W : FVec Ideal S256x256 .f32) (mu var g b : FVec Ideal S1x256 .f32)

def G2 : FVec Ideal S50000x256 .f32 := fun i =>
  ∑ q : Fin 256, max (x (ix2 (⟨(i 0).val, idx2_lt0 i⟩ : Fin 50000) q) * (Ideal.rsqrt (var (ix2 (0 : Fin 1) q) + Ideal.ofBits .f32 0x3727C5AC#32) * g (ix2 (0 : Fin 1) q))
      + (b (ix2 (0 : Fin 1) q) - mu (ix2 (0 : Fin 1) q) * (Ideal.rsqrt (var (ix2 (0 : Fin 1) q) + Ideal.ofBits .f32 0x3727C5AC#32) * g (ix2 (0 : Fin 1) q)))) 0
    * W (ix2 q (⟨(i 1).val, idx2_lt1 i⟩ : Fin 256))

theorem G2_apply (i : S50000x256.Idx) (r : Fin 50000) (j : Fin 256) (hr : (i 0).val = r.val) (hj : (i 1).val = j.val) :
    G2 x W mu var g b i
      = ∑ q : Fin 256, max (x (ix2 r q) * (Ideal.rsqrt (var (ix2 (0 : Fin 1) q) + Ideal.ofBits .f32 0x3727C5AC#32) * g (ix2 (0 : Fin 1) q))
          + (b (ix2 (0 : Fin 1) q) - mu (ix2 (0 : Fin 1) q) * (Ideal.rsqrt (var (ix2 (0 : Fin 1) q) + Ideal.ofBits .f32 0x3727C5AC#32) * g (ix2 (0 : Fin 1) q)))) 0
        * W (ix2 q j) := by
  have e0 : (⟨(i 0).val, idx2_lt0 i⟩ : Fin 50000) = r := Fin.ext hr
  have e1 : (⟨(i 1).val, idx2_lt1 i⟩ : Fin 256) = j := Fin.ext hj
  unfold G2
  rw [e0, e1]

end

theorem hz2 : (![0, 0] : Fin 2 → Nat) = fun _ => 0 := funext fun a => by fin_cases a <;> rfl

theorem idx_facts2 : ∀ t : Fin cfg2.N, t.val < 50
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem iblk2_0_apply (p : Fin 1000) (q : Fin 256) (hr : r.val = t.val * 1000 + p.val) :
    (iblk2 V c 0 t : FVec Ideal S1000x256 .f32) (ix2 p q) = x2 V c (ix2 r q) := by
  obtain ⟨ht, e00, e01, -⟩ := idx_facts2 t
  show V c (Pipeline.arrRef spec2 0) (((cfg2.win 0).blk t).view.emb (ix2 p q)) = V c (Pipeline.arrRef spec2 0) (ix2 r q)
  refine congrArg _ (funext fun a => Fin.ext ?_)
  match a with
  | ⟨0, _⟩ => show win2_0.index t (0 : Fin 2) * 1000 + 1 * p.val = r.val; omega
  | ⟨1, _⟩ => show win2_0.index t (1 : Fin 2) * 256 + 1 * q.val = q.val; omega

theorem iblk2_1_apply :
    (iblk2 V c 1 t : FVec Ideal S256x256 .f32) (ix2 q j) = w2 V c (ix2 q j) := by
  obtain ⟨ht, -, -, e10, e11, -⟩ := idx_facts2 t
  show V c (Pipeline.arrRef spec2 1) (((cfg2.win 1).blk t).view.emb (ix2 q j)) = V c (Pipeline.arrRef spec2 1) (ix2 q j)
  refine congrArg _ (funext fun a => Fin.ext ?_)
  match a with
  | ⟨0, _⟩ => show win2_1.index t (0 : Fin 2) * 256 + 1 * q.val = q.val; omega
  | ⟨1, _⟩ => show win2_1.index t (1 : Fin 2) * 256 + 1 * j.val = j.val; omega

theorem iblk2_2_apply :
    (iblk2 V c 2 t : FVec Ideal S1x256 .f32) (ix2 (0 : Fin 1) q) = mean2 V c (ix2 (0 : Fin 1) q) := by
  obtain ⟨ht, -, -, -, -, e20, e21, -⟩ := idx_facts2 t
  show V c (Pipeline.arrRef spec2 2) (((cfg2.win 2).blk t).view.emb (ix2 (0 : Fin 1) q)) = V c (Pipeline.arrRef spec2 2) (ix2 (0 : Fin 1) q)
  refine congrArg _ (funext fun a => Fin.ext ?_)
  match a with
  | ⟨0, _⟩ => show win2_2.index t (0 : Fin 2) * 1 + 1 * 0 = 0; omega
  | ⟨1, _⟩ => show win2_2.index t (1 : Fin 2) * 256 + 1 * q.val = q.val; omega
theorem iblk2_3_apply :
    (iblk2 V c 3 t : FVec Ideal S1x256 .f32) (ix2 (0 : Fin 1) q) = var2 V c (ix2 (0 : Fin 1) q) := by
  obtain ⟨ht, -, -, -, -, -, -, e30, e31, -⟩ := idx_facts2 t
  show V c (Pipeline.arrRef spec2 3) (((cfg2.win 3).blk t).view.emb (ix2 (0 : Fin 1) q)) = V c (Pipeline.arrRef spec2 3) (ix2 (0 : Fin 1) q)
  refine congrArg _ (funext fun a => Fin.ext ?_)
  match a with
  | ⟨0, _⟩ => show win2_3.index t (0 : Fin 2) * 1 + 1 * 0 = 0; omega
  | ⟨1, _⟩ => show win2_3.index t (1 : Fin 2) * 256 + 1 * q.val = q.val; omega
theorem iblk2_4_apply :
    (iblk2 V c 4 t : FVec Ideal S1x256 .f32) (ix2 (0 : Fin 1) q) = gamma2 V c (ix2 (0 : Fin 1) q) := by
  obtain ⟨ht, -, -, -, -, -, -, -, -, e40, e41, -⟩ := idx_facts2 t
  show V c (Pipeline.arrRef spec2 4) (((cfg2.win 4).blk t).view.emb (ix2 (0 : Fin 1) q)) = V c (Pipeline.arrRef spec2 4) (ix2 (0 : Fin 1) q)
  refine congrArg _ (funext fun a => Fin.ext ?_)
  match a with
  | ⟨0, _⟩ => show win2_4.index t (0 : Fin 2) * 1 + 1 * 0 = 0; omega
  | ⟨1, _⟩ => show win2_4.index t (1 : Fin 2) * 256 + 1 * q.val = q.val; omega
theorem iblk2_5_apply :
    (iblk2 V c 5 t : FVec Ideal S1x256 .f32) (ix2 (0 : Fin 1) q) = beta2 V c (ix2 (0 : Fin 1) q) := by
  obtain ⟨ht, -, -, -, -, -, -, -, -, -, -, e50, e51, -⟩ := idx_facts2 t
  show V c (Pipeline.arrRef spec2 5) (((cfg2.win 5).blk t).view.emb (ix2 (0 : Fin 1) q)) = V c (Pipeline.arrRef spec2 5) (ix2 (0 : Fin 1) q)
  refine congrArg _ (funext fun a => Fin.ext ?_)
  match a with
  | ⟨0, _⟩ => show win2_5.index t (0 : Fin 2) * 1 + 1 * 0 = 0; omega
  | ⟨1, _⟩ => show win2_5.index t (1 : Fin 2) * 256 + 1 * q.val = q.val; omega

theorem flushed2_eq :
    (dat2 V c).flushed 6 t = ((cfg2.win 6).blk t).view.read (Elt Ideal) (G2 (x2 V c) (w2 V c) (mean2 V c) (var2 V c) (gamma2 V c) (beta2 V c)) := by
  show (cfg2.win 6).cut (grid2.coords t) ((dat2 V c).after 6 t) = _
  rw [after2_6]
  unfold out2_6
  rw [View.canon_unit_zero hz2]
  simp only [View.ld_unit_zero (S := S1000x256) hz2, View.ld_unit_zero (S := S256x256) hz2, View.ld_unit_zero (S := S1x256) hz2]
  funext y
  obtain ⟨p, j, rfl⟩ : ∃ (p : Fin 1000) (j : Fin 256), y = ix2 p j := ⟨y 0, y 1, eq_ix2 y⟩
  obtain ⟨ht, -, -, -, -, -, -, -, -, -, -, -, -, e60, e61⟩ := idx_facts2 t
  have hr : t.val * 1000 + p.val < 50000 := by have := p.isLt; omega
  show k2_pay1 (F := Ideal) (iblk2 V c 3 t) (iblk2 V c 4 t) (iblk2 V c 5 t) (iblk2 V c 2 t) (iblk2 V c 0 t) (iblk2 V c 1 t) (ix2 p j)
    = G2 (x2 V c) (w2 V c) (mean2 V c) (var2 V c) (gamma2 V c) (beta2 V c) (((cfg2.win 6).blk t).view.emb (ix2 p j))
  refine (k2_pay1_apply (iblk2 V c 3 t) (iblk2 V c 4 t) (iblk2 V c 5 t) (iblk2 V c 2 t) (iblk2 V c 0 t) (iblk2 V c 1 t) p j).trans ?_
  refine Eq.trans ?_ (G2_apply (x2 V c) (w2 V c) (mean2 V c) (var2 V c) (gamma2 V c) (beta2 V c)
    (((cfg2.win 6).blk t).view.emb (ix2 p j)) ⟨t.val * 1000 + p.val, hr⟩ j ?_ ?_).symm
  · refine Finset.sum_congr rfl fun q _ => ?_
    rw [iblk2_0_apply V c t ⟨t.val * 1000 + p.val, hr⟩ p q rfl, iblk2_1_apply V c t q j, iblk2_2_apply V c t q,
      iblk2_3_apply V c t q, iblk2_4_apply V c t q, iblk2_5_apply V c t q]
  · show win2_6.index t (0 : Fin 2) * 1000 + 1 * p.val = t.val * 1000 + p.val; omega
  · show win2_6.index t (1 : Fin 2) * 256 + 1 * j.val = j.val; omega

theorem mem_blk2_6 :
    i ∈ ((cfg2.win 6).blk t).view.set ↔ ∀ a : Fin 2, win2_6.index t a * S1000x256.size a ≤ (i a).val ∧ (i a).val < win2_6.index t a * S1000x256.size a + S1000x256.size a := by
  show i ∈ ((View.whole main_v48).slice (win2_6.rect t)).set ↔ _
  rw [View.set_slice_whole, Rect.mem_set_unit]
  exact Iff.rfl

theorem cover2_6_arr : ∃ t : Fin cfg2.N, (cfg2.win 6).flush t = true ∧ i ∈ ((cfg2.win 6).blk t).view.set := by
  have hi0 : (i 0).val < 50000 := (i 0).isLt
  have hi1 : (i 1).val < 256 := (i 1).isLt
  have hN : (i 0).val / 1000 < cfg2.N := by show _ < grid2.N; rw [N_2]; omega
  refine ⟨⟨(i 0).val / 1000, hN⟩, flush2_6 _, ?_⟩
  rw [mem_blk2_6]
  obtain ⟨-, -, -, -, -, -, -, -, -, -, -, -, -, e60, e61⟩ := idx_facts2 ⟨(i 0).val / 1000, hN⟩
  intro a
  match a with
  | ⟨0, _⟩ =>
    show win2_6.index ⟨(i 0).val / 1000, hN⟩ (0 : Fin 2) * 1000 ≤ (i 0).val ∧ (i 0).val < win2_6.index ⟨(i 0).val / 1000, hN⟩ (0 : Fin 2) * 1000 + 1000
    rw [e60]; show (i 0).val / 1000 * 1000 ≤ (i 0).val ∧ (i 0).val < (i 0).val / 1000 * 1000 + 1000; omega
  | ⟨1, _⟩ =>
    show win2_6.index ⟨(i 0).val / 1000, hN⟩ (1 : Fin 2) * 256 ≤ (i 1).val ∧ (i 1).val < win2_6.index ⟨(i 0).val / 1000, hN⟩ (1 : Fin 2) * 256 + 256
    rw [e61]; omega

theorem arr2_6 :
    (dat2 V c).arrAt 6 cfg2.N = G2 (x2 V c) (w2 V c) (mean2 V c) (var2 V c) (gamma2 V c) (beta2 V c) :=
  (dat2 V c).arrAt_eq_of_cover 6 (G2 (x2 V c) (w2 V c) (mean2 V c) (var2 V c) (gamma2 V c) (beta2 V c)) (fun t _ => flushed2_eq V c t) cover2_6_arr

theorem final2 :
    ((dat2 (F := Ideal) V c).arrAt 6 cfg2.N : FVec Ideal S50000x256 .f32) (ix2 r j)
      = ∑ q : Fin 256, max (x2 V c (ix2 r q) * (Ideal.rsqrt (var2 V c (ix2 (0 : Fin 1) q) + Ideal.ofBits .f32 0x3727C5AC#32) * gamma2 V c (ix2 (0 : Fin 1) q))
          + (beta2 V c (ix2 (0 : Fin 1) q) - mean2 V c (ix2 (0 : Fin 1) q) * (Ideal.rsqrt (var2 V c (ix2 (0 : Fin 1) q) + Ideal.ofBits .f32 0x3727C5AC#32) * gamma2 V c (ix2 (0 : Fin 1) q)))) 0
        * w2 V c (ix2 q j) := by
  rw [arr2_6]
  exact G2_apply (x2 V c) (w2 V c) (mean2 V c) (var2 V c) (gamma2 V c) (beta2 V c) (ix2 r j) r j rfl rfl

end Cert.KernelIdeal.Hand

end
-- ==== Proof.Bridge.L2.lean ====
import proofs.«418912_j86466281603780_3_alg».proof.Proof.KI.Val2
import proofs.«418912_j86466281603780_3_alg».proof.Proof.Ref.Read
import proofs.«418912_j86466281603780_3_alg».proof.Proof.Math.BN
import proofs.«418912_j86466281603780_3_alg».proof.Proof.Math.FinChainA

noncomputable section

namespace Cert.Bridge

open Idealize.ShloMosaic Idealize.ShloMosaic.TcCoe Idealize.ShloMosaic.ValueIdx Idealize.SL.Sem
open Cert.KernelIdeal Cert.KernelIdeal.Gen Cert.KernelIdeal.Hand
open Cert.ReferenceIdeal.ReadP
open Cert.Math
open scoped BigOperators

private theorem norm_lane {h : Fin 50000 → EReal} (hh : AllFin h) {mu var x g b : EReal}
    (hmu : mu = Ideal.div (∑ r : Fin 50000, h r) (Ideal.ofBits .f32 0x47435000#32))
    (hvar : var = Ideal.div (∑ r : Fin 50000, (h r - mu) * (h r - mu)) (Ideal.ofBits .f32 0x47435000#32))
    (hx : IsFin x) (hg : IsFin g) (hb : IsFin b) :
    x * (Ideal.rsqrt (var + Ideal.ofBits .f32 0x3727C5AC#32) * g)
        + (b - mu * (Ideal.rsqrt (var + Ideal.ofBits .f32 0x3727C5AC#32) * g))
      = ((x - mu) * Ideal.rsqrt (var + Ideal.ofBits .f32 0x3727C5AC#32)) * g + b := by
  rw [ofBits_50000] at hmu hvar
  subst hmu
  subst hvar

  have fmu : IsFin (Ideal.div (∑ r : Fin 50000, h r) ((50000 : ℝ) : EReal)) := isFin_mean_50000 hh

  have finv : IsFin (Ideal.rsqrt (Ideal.div (∑ r : Fin 50000,
      (h r - Ideal.div (∑ r : Fin 50000, h r) ((50000 : ℝ) : EReal))
        * (h r - Ideal.div (∑ r : Fin 50000, h r) ((50000 : ℝ) : EReal))) ((50000 : ℝ) : EReal)
      + Ideal.ofBits .f32 0x3727C5AC#32)) := by
    obtain ⟨e, he, hE⟩ := ofBits_eps_pos
    rw [hE, var_identity_50000 hh]
    obtain ⟨t, _, ht⟩ := rsqrt_var_add_pos_50000 hh he
    rw [ht]
    exact isFin_coe t
  exact affine_eq hx fmu finv hg hb

theorem bridge2 (a0 : (⟨Cert.ReferenceIdeal.S50000x128, .f32⟩ : BufTy).Contents (Elt Ideal))
    (a1 : (⟨Cert.ReferenceIdeal.S2x800000, .i32⟩ : BufTy).Contents (Elt Ideal))
    (a2 : (⟨Cert.ReferenceIdeal.S128x256, .f32⟩ : BufTy).Contents (Elt Ideal))
    (a3 : (⟨Cert.ReferenceIdeal.S256, .f32⟩ : BufTy).Contents (Elt Ideal))
    (a4 : (⟨Cert.ReferenceIdeal.S256x256, .f32⟩ : BufTy).Contents (Elt Ideal))
    (a8 a9 : (⟨Cert.ReferenceIdeal.S256, .f32⟩ : BufTy).Contents (Elt Ideal))
    (V : (c : Dev nD) → (b : Ref sig .tc) → Buf (Elt Ideal) ((c : Thread nD τ).loc b)) (c : Dev nD)
    (hx : x2 V c = val_main_v46 (F := Ideal) a0 a1 a2 a3) (hw : w2 V c = a4)
    (hmean : ∀ q : Fin 256, mean2 V c (ix2 (0 : Fin 1) q) = val_main_v49 (F := Ideal) a0 a1 a2 a3 (ix1 q))
    (hvar : ∀ q : Fin 256, var2 V c (ix2 (0 : Fin 1) q) = val_main_v56 (F := Ideal) a0 a1 a2 a3 (ix1 q))
    (hg : ∀ q : Fin 256, gamma2 V c (ix2 (0 : Fin 1) q) = a8 (ix1 q))
    (hbeta : ∀ q : Fin 256, beta2 V c (ix2 (0 : Fin 1) q) = a9 (ix1 q))
    (h46 : AllFin (val_main_v46 (F := Ideal) a0 a1 a2 a3)) (h8 : AllFin a8) (h9 : AllFin a9) :
    (dat2 (F := Ideal) V c).arrAt 6 cfg2.N = val_main_v73 (F := Ideal) a0 a1 a2 a3 a4 a8 a9 := by
  funext i
  obtain ⟨r, j, rfl⟩ : ∃ (r : Fin 50000) (j : Fin 256), i = ix2 r j := ⟨i 0, i 1, eq_ix2 i⟩

  have lane : ∀ q : Fin 256,
      max (x2 V c (ix2 r q) * (Ideal.rsqrt (var2 V c (ix2 (0 : Fin 1) q) + Ideal.ofBits .f32 0x3727C5AC#32) * gamma2 V c (ix2 (0 : Fin 1) q))
          + (beta2 V c (ix2 (0 : Fin 1) q) - mean2 V c (ix2 (0 : Fin 1) q) * (Ideal.rsqrt (var2 V c (ix2 (0 : Fin 1) q) + Ideal.ofBits .f32 0x3727C5AC#32) * gamma2 V c (ix2 (0 : Fin 1) q)))) 0
        * w2 V c (ix2 q j)
      = max (((val_main_v46 (F := Ideal) a0 a1 a2 a3 (ix2 r q) - val_main_v49 (F := Ideal) a0 a1 a2 a3 (ix1 q))
              * Ideal.rsqrt (val_main_v56 (F := Ideal) a0 a1 a2 a3 (ix1 q) + Ideal.ofBits .f32 0x3727C5AC#32))
            * a8 (ix1 q) + a9 (ix1 q)) 0
          * a4 (ix2 q j) := by
    intro q

    rw [congrFun hx (ix2 r q), congrFun hw (ix2 q j), hmean q, hvar q, hg q, hbeta q]

    rw [norm_lane (h := fun r' : Fin 50000 => val_main_v46 (F := Ideal) a0 a1 a2 a3 (ix2 r' q))
      (fun r' => h46 (ix2 r' q))
      (Cert.ReferenceIdeal.RefValue.v49_at a0 a1 a2 a3 q) (Cert.ReferenceIdeal.RefValue.v56_at a0 a1 a2 a3 q)
      (h46 (ix2 r q)) (h8 (ix1 q)) (h9 (ix1 q))]
  have hsum := Finset.sum_congr (rfl : (Finset.univ : Finset (Fin 256)) = Finset.univ) fun q _ => lane q
  exact (final2 V c r j).trans
    (hsum.trans (Cert.ReferenceIdeal.RefValue.v73_at a0 a1 a2 a3 a4 a8 a9 r j).symm)

end Cert.Bridge

end
-- ==== Proof.Math.FinChain.lean ====
import proofs.«418912_j86466281603780_3_alg».proof.Proof.RefRead
import proofs.«418912_j86466281603780_3_alg».proof.Proof.Math.FinChainA

noncomputable section

namespace Cert.Math.FinChain

open Cert.Math Cert.ReferenceIdeal Cert.ReferenceIdeal.Gen Cert.ReferenceIdeal.ReadP Idealize.ShloMosaic
open scoped BigOperators

variable (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x40, .f32⟩ : BufTy).Contents (Elt Ideal)) (x7 : (⟨S40, .f32⟩ : BufTy).Contents (Elt Ideal)) (x8 : (⟨S256, .f32⟩ : BufTy).Contents (Elt Ideal)) (x9 : (⟨S256, .f32⟩ : BufTy).Contents (Elt Ideal))

theorem fin_v7 :
    AllFin (val_main_v7 (F := Ideal)) := by
  unfold val_main_v7 val_main_cst
  exact allFin_broadcastInDim _ _ _ (allFin_constant_one _)

theorem fin_v8 :
    AllFin (val_main_v8 (F := Ideal)) := by
  unfold val_main_v8 val_main_cst_0
  exact allFin_broadcastInDim _ _ _ (allFin_constant_zero _)

theorem fin_v10 :
    AllFin (val_main_v10 (F := Ideal) x1) := by
  unfold val_main_v10
  exact allFin_scatterAdd _ _ fin_v8 fin_v7

theorem eq_v11 :
    ∀ i, val_main_v11 (F := Ideal) i = 0 := by
  intro i
  exact ofBits_zero

theorem fin_call0_v1 :
    AllFin (val_main_call0_v1 (F := Ideal)) := by
  unfold val_main_call0_v1 val_main_call0_v0 val_main_cst_2
  exact allFin_broadcastInDim _ _ _ (allFin_constant_zero _)

theorem fin_v14 :
    AllFin (val_main_v14 (F := Ideal) x1) := by
  unfold val_main_v14 val_main_v12 val_main_v13
  exact allFin_select_rsqrt (fin_v10 x1) eq_v11 fin_call0_v1

theorem fin_v21 :
    AllFin (val_main_v21 (F := Ideal) x1) := by
  unfold val_main_v21
  exact allFin_gather _ _ (fin_v14 x1)

theorem fin_v28 :
    AllFin (val_main_v28 (F := Ideal) x1) := by
  unfold val_main_v28
  exact allFin_gather _ _ (fin_v14 x1)

theorem fin_v29 :
    AllFin (val_main_v29 (F := Ideal) x1) := by
  unfold val_main_v29
  exact allFin_mulf (fin_v21 x1) (fin_v28 x1)

theorem fin_v30 (h0 : AllFin x0) (h2 : AllFin x2) :
    AllFin (val_main_v30 (F := Ideal) x0 x2) := by
  unfold val_main_v30
  exact allFin_dotGeneral _ _ h0 h2

theorem fin_v31 :
    AllFin (val_main_v31 (F := Ideal) x1) := by
  unfold val_main_v31
  exact allFin_broadcastInDim _ _ _ (fin_v29 x1)

theorem fin_v39 :
    AllFin (val_main_v39 (F := Ideal) x1) := by
  unfold val_main_v39
  exact allFin_broadcastInDim _ _ _ (fin_v31 x1)

theorem fin_v41 :
    AllFin (val_main_v41 (F := Ideal)) := by
  unfold val_main_v41 val_main_cst_8
  exact allFin_broadcastInDim _ _ _ (allFin_constant_zero _)

theorem fin_v43 (h0 : AllFin x0) (h2 : AllFin x2) :
    AllFin (val_main_v43 (F := Ideal) x0 x1 x2) := by
  unfold val_main_v43 val_main_v40 val_main_v38
  exact allFin_messagePass _ _ _ _ fin_v41 (fin_v39 x1) (fin_v30 x0 x2 h0 h2)

theorem fin_v44 (h3 : AllFin x3) :
    AllFin (val_main_v44 (F := Ideal) x3) := by
  unfold val_main_v44
  exact allFin_broadcastInDim _ _ _ h3

theorem fin_v45 (h3 : AllFin x3) :
    AllFin (val_main_v45 (F := Ideal) x3) := by
  unfold val_main_v45
  exact allFin_broadcastInDim _ _ _ (fin_v44 x3 h3)

theorem fin_v46 (h0 : AllFin x0) (h2 : AllFin x2) (h3 : AllFin x3) :
    AllFin (val_main_v46 (F := Ideal) x0 x1 x2 x3) := by
  unfold val_main_v46
  exact allFin_addf (fin_v43 x0 x1 x2 h0 h2) (fin_v45 x3 h3)

theorem fin_cst_9 :
    AllFin (val_main_cst_9 (F := Ideal)) := by
  unfold val_main_cst_9
  exact allFin_constant_zero _

theorem fin_v47 (h0 : AllFin x0) (h2 : AllFin x2) (h3 : AllFin x3) :
    AllFin (val_main_v47 (F := Ideal) x0 x1 x2 x3) := by
  unfold val_main_v47
  exact allFin_reduceAdd _ _ (fin_v46 x0 x1 x2 x3 h0 h2 h3) fin_cst_9

theorem eq_v48 :
    ∀ i, val_main_v48 (F := Ideal) i = ((50000 : ℝ) : EReal) := by
  intro i
  exact ofBits_50000

theorem fin_v49 (h0 : AllFin x0) (h2 : AllFin x2) (h3 : AllFin x3) :
    AllFin (val_main_v49 (F := Ideal) x0 x1 x2 x3) := by
  unfold val_main_v49
  exact allFin_divf_coe (fin_v47 x0 x1 x2 x3 h0 h2 h3) (by norm_num) eq_v48

theorem fin_v50 (h0 : AllFin x0) (h2 : AllFin x2) (h3 : AllFin x3) :
    AllFin (val_main_v50 (F := Ideal) x0 x1 x2 x3) := by
  unfold val_main_v50
  exact allFin_broadcastInDim _ _ _ (fin_v49 x0 x1 x2 x3 h0 h2 h3)

theorem fin_v51 (h0 : AllFin x0) (h2 : AllFin x2) (h3 : AllFin x3) :
    AllFin (val_main_v51 (F := Ideal) x0 x1 x2 x3) := by
  unfold val_main_v51
  exact allFin_broadcastInDim _ _ _ (fin_v50 x0 x1 x2 x3 h0 h2 h3)

theorem fin_v52 (h0 : AllFin x0) (h2 : AllFin x2) (h3 : AllFin x3) :
    AllFin (val_main_v52 (F := Ideal) x0 x1 x2 x3) := by
  unfold val_main_v52
  exact allFin_subf (fin_v46 x0 x1 x2 x3 h0 h2 h3) (fin_v51 x0 x1 x2 x3 h0 h2 h3)

theorem fin_v53 (h0 : AllFin x0) (h2 : AllFin x2) (h3 : AllFin x3) :
    AllFin (val_main_v53 (F := Ideal) x0 x1 x2 x3) := by
  unfold val_main_v53
  exact allFin_mulf (fin_v52 x0 x1 x2 x3 h0 h2 h3) (fin_v52 x0 x1 x2 x3 h0 h2 h3)

theorem nonneg_v53 (h0 : AllFin x0) (h2 : AllFin x2) (h3 : AllFin x3) :
    ∀ i, 0 ≤ val_main_v53 (F := Ideal) x0 x1 x2 x3 i := by
  unfold val_main_v53
  exact mulf_self_nonneg (fin_v52 x0 x1 x2 x3 h0 h2 h3)

theorem fin_cst_11 :
    AllFin (val_main_cst_11 (F := Ideal)) := by
  unfold val_main_cst_11
  exact allFin_constant_zero _

theorem nonneg_cst_11 :
    ∀ k, 0 ≤ val_main_cst_11 (F := Ideal) k := by
  intro k
  show (0 : EReal) ≤ Ideal.ofBits .f32 0x00000000#32
  rw [ofBits_zero]

theorem fin_v54 (h0 : AllFin x0) (h2 : AllFin x2) (h3 : AllFin x3) :
    AllFin (val_main_v54 (F := Ideal) x0 x1 x2 x3) := by
  unfold val_main_v54
  exact allFin_reduceAdd _ _ (fin_v53 x0 x1 x2 x3 h0 h2 h3) fin_cst_11

theorem nonneg_v54 (h0 : AllFin x0) (h2 : AllFin x2) (h3 : AllFin x3) :
    ∀ i, 0 ≤ val_main_v54 (F := Ideal) x0 x1 x2 x3 i := by
  unfold val_main_v54
  exact reduceAdd_nonneg _ _ (fin_v53 x0 x1 x2 x3 h0 h2 h3) (nonneg_v53 x0 x1 x2 x3 h0 h2 h3) fin_cst_11 nonneg_cst_11

theorem eq_v55 :
    ∀ i, val_main_v55 (F := Ideal) i = ((50000 : ℝ) : EReal) := by
  intro i
  exact ofBits_50000

theorem fin_v56 (h0 : AllFin x0) (h2 : AllFin x2) (h3 : AllFin x3) :
    AllFin (val_main_v56 (F := Ideal) x0 x1 x2 x3) := by
  unfold val_main_v56
  exact allFin_divf_coe (fin_v54 x0 x1 x2 x3 h0 h2 h3) (by norm_num) eq_v55

theorem nonneg_v56 (h0 : AllFin x0) (h2 : AllFin x2) (h3 : AllFin x3) :
    ∀ i, 0 ≤ val_main_v56 (F := Ideal) x0 x1 x2 x3 i := by
  unfold val_main_v56
  exact divf_coe_nonneg (fin_v54 x0 x1 x2 x3 h0 h2 h3) (nonneg_v54 x0 x1 x2 x3 h0 h2 h3) (by norm_num) eq_v55

theorem fin_v57 (h0 : AllFin x0) (h2 : AllFin x2) (h3 : AllFin x3) :
    AllFin (val_main_v57 (F := Ideal) x0 x1 x2 x3) := by
  unfold val_main_v57
  exact allFin_broadcastInDim _ _ _ (fin_v49 x0 x1 x2 x3 h0 h2 h3)

theorem fin_v58 (h0 : AllFin x0) (h2 : AllFin x2) (h3 : AllFin x3) :
    AllFin (val_main_v58 (F := Ideal) x0 x1 x2 x3) := by
  unfold val_main_v58
  exact allFin_broadcastInDim _ _ _ (fin_v57 x0 x1 x2 x3 h0 h2 h3)

theorem fin_v59 (h0 : AllFin x0) (h2 : AllFin x2) (h3 : AllFin x3) :
    AllFin (val_main_v59 (F := Ideal) x0 x1 x2 x3) := by
  unfold val_main_v59
  exact allFin_subf (fin_v46 x0 x1 x2 x3 h0 h2 h3) (fin_v58 x0 x1 x2 x3 h0 h2 h3)

theorem fin_v60 :
    AllFin (val_main_v60 (F := Ideal)) := by
  unfold val_main_v60 val_main_cst_13
  exact allFin_broadcastInDim _ _ _ (fun _ => isFin_ofBits_eps)

theorem eq_v60 :
    ∃ e : ℝ, 0 < e ∧ ∀ i, val_main_v60 (F := Ideal) i = (e : EReal) := by
  obtain ⟨e, he, hE⟩ := ofBits_eps_pos
  exact ⟨e, he, fun _ => hE⟩

theorem fin_v61 (h0 : AllFin x0) (h2 : AllFin x2) (h3 : AllFin x3) :
    AllFin (val_main_v61 (F := Ideal) x0 x1 x2 x3) := by
  unfold val_main_v61
  exact allFin_addf (fin_v56 x0 x1 x2 x3 h0 h2 h3) fin_v60

theorem pos_v61 (h0 : AllFin x0) (h2 : AllFin x2) (h3 : AllFin x3) :
    ∀ i, 0 < val_main_v61 (F := Ideal) x0 x1 x2 x3 i := by
  obtain ⟨e, he, hE⟩ := eq_v60
  unfold val_main_v61
  exact addf_coe_pos (fin_v56 x0 x1 x2 x3 h0 h2 h3) (nonneg_v56 x0 x1 x2 x3 h0 h2 h3) he hE

theorem fin_v62 (h0 : AllFin x0) (h2 : AllFin x2) (h3 : AllFin x3) :
    AllFin (val_main_v62 (F := Ideal) x0 x1 x2 x3) := by
  unfold val_main_v62
  exact allFin_rsqrt_of_pos (fin_v61 x0 x1 x2 x3 h0 h2 h3) (pos_v61 x0 x1 x2 x3 h0 h2 h3)

theorem fin_v63 (h0 : AllFin x0) (h2 : AllFin x2) (h3 : AllFin x3) :
    AllFin (val_main_v63 (F := Ideal) x0 x1 x2 x3) := by
  unfold val_main_v63
  exact allFin_broadcastInDim _ _ _ (fin_v62 x0 x1 x2 x3 h0 h2 h3)

theorem fin_v64 (h0 : AllFin x0) (h2 : AllFin x2) (h3 : AllFin x3) :
    AllFin (val_main_v64 (F := Ideal) x0 x1 x2 x3) := by
  unfold val_main_v64
  exact allFin_broadcastInDim _ _ _ (fin_v63 x0 x1 x2 x3 h0 h2 h3)

theorem fin_v65 (h0 : AllFin x0) (h2 : AllFin x2) (h3 : AllFin x3) :
    AllFin (val_main_v65 (F := Ideal) x0 x1 x2 x3) := by
  unfold val_main_v65
  exact allFin_mulf (fin_v59 x0 x1 x2 x3 h0 h2 h3) (fin_v64 x0 x1 x2 x3 h0 h2 h3)

theorem fin_v66 (h8 : AllFin x8) :
    AllFin (val_main_v66 (F := Ideal) x8) := by
  unfold val_main_v66
  exact allFin_broadcastInDim _ _ _ h8

theorem fin_v67 (h8 : AllFin x8) :
    AllFin (val_main_v67 (F := Ideal) x8) := by
  unfold val_main_v67
  exact allFin_broadcastInDim _ _ _ (fin_v66 x8 h8)

theorem fin_v68 (h0 : AllFin x0) (h2 : AllFin x2) (h3 : AllFin x3) (h8 : AllFin x8) :
    AllFin (val_main_v68 (F := Ideal) x0 x1 x2 x3 x8) := by
  unfold val_main_v68
  exact allFin_mulf (fin_v65 x0 x1 x2 x3 h0 h2 h3) (fin_v67 x8 h8)

theorem fin_v69 (h9 : AllFin x9) :
    AllFin (val_main_v69 (F := Ideal) x9) := by
  unfold val_main_v69
  exact allFin_broadcastInDim _ _ _ h9

theorem fin_v70 (h9 : AllFin x9) :
    AllFin (val_main_v70 (F := Ideal) x9) := by
  unfold val_main_v70
  exact allFin_broadcastInDim _ _ _ (fin_v69 x9 h9)

theorem fin_v71 (h0 : AllFin x0) (h2 : AllFin x2) (h3 : AllFin x3) (h8 : AllFin x8) (h9 : AllFin x9) :
    AllFin (val_main_v71 (F := Ideal) x0 x1 x2 x3 x8 x9) := by
  unfold val_main_v71
  exact allFin_addf (fin_v68 x0 x1 x2 x3 x8 h0 h2 h3 h8) (fin_v70 x9 h9)

theorem fin_call1_v0 :
    AllFin (val_main_call1_v0 (F := Ideal)) := by
  unfold val_main_call1_v0 val_main_call1_cst
  exact allFin_broadcastInDim _ _ _ (allFin_constant_zero _)

theorem fin_v72 (h0 : AllFin x0) (h2 : AllFin x2) (h3 : AllFin x3) (h8 : AllFin x8) (h9 : AllFin x9) :
    AllFin (val_main_v72 (F := Ideal) x0 x1 x2 x3 x8 x9) := by
  unfold val_main_v72
  exact allFin_maximumf (fin_v71 x0 x1 x2 x3 x8 x9 h0 h2 h3 h8 h9) fin_call1_v0

theorem fin_v73 (h0 : AllFin x0) (h2 : AllFin x2) (h3 : AllFin x3) (h4 : AllFin x4) (h8 : AllFin x8) (h9 : AllFin x9) :
    AllFin (val_main_v73 (F := Ideal) x0 x1 x2 x3 x4 x8 x9) := by
  unfold val_main_v73
  exact allFin_dotGeneral _ _ (fin_v72 x0 x1 x2 x3 x8 x9 h0 h2 h3 h8 h9) h4

theorem fin_v74 :
    AllFin (val_main_v74 (F := Ideal) x1) := by
  unfold val_main_v74
  exact allFin_broadcastInDim _ _ _ (fin_v29 x1)

theorem fin_v82 :
    AllFin (val_main_v82 (F := Ideal) x1) := by
  unfold val_main_v82
  exact allFin_broadcastInDim _ _ _ (fin_v74 x1)

theorem fin_v84 :
    AllFin (val_main_v84 (F := Ideal)) := by
  unfold val_main_v84 val_main_cst_16
  exact allFin_broadcastInDim _ _ _ (allFin_constant_zero _)

theorem fin_v86 (h0 : AllFin x0) (h2 : AllFin x2) (h3 : AllFin x3) (h4 : AllFin x4) (h8 : AllFin x8) (h9 : AllFin x9) :
    AllFin (val_main_v86 (F := Ideal) x0 x1 x2 x3 x4 x8 x9) := by
  unfold val_main_v86 val_main_v83 val_main_v81
  exact allFin_messagePass _ _ _ _ fin_v84 (fin_v82 x1) (fin_v73 x0 x1 x2 x3 x4 x8 x9 h0 h2 h3 h4 h8 h9)

theorem fin_v87 (h5 : AllFin x5) :
    AllFin (val_main_v87 (F := Ideal) x5) := by
  unfold val_main_v87
  exact allFin_broadcastInDim _ _ _ h5

theorem fin_v88 (h5 : AllFin x5) :
    AllFin (val_main_v88 (F := Ideal) x5) := by
  unfold val_main_v88
  exact allFin_broadcastInDim _ _ _ (fin_v87 x5 h5)

theorem fin_v89 (h0 : AllFin x0) (h2 : AllFin x2) (h3 : AllFin x3) (h4 : AllFin x4) (h5 : AllFin x5) (h8 : AllFin x8) (h9 : AllFin x9) :
    AllFin (val_main_v89 (F := Ideal) x0 x1 x2 x3 x4 x5 x8 x9) := by
  unfold val_main_v89
  exact allFin_addf (fin_v86 x0 x1 x2 x3 x4 x8 x9 h0 h2 h3 h4 h8 h9) (fin_v88 x5 h5)

theorem fin_cst_17 :
    AllFin (val_main_cst_17 (F := Ideal)) := by
  unfold val_main_cst_17
  exact allFin_constant_zero _

theorem fin_v90 (h0 : AllFin x0) (h2 : AllFin x2) (h3 : AllFin x3) (h4 : AllFin x4) (h5 : AllFin x5) (h8 : AllFin x8) (h9 : AllFin x9) :
    AllFin (val_main_v90 (F := Ideal) x0 x1 x2 x3 x4 x5 x8 x9) := by
  unfold val_main_v90
  exact allFin_reduceAdd _ _ (fin_v89 x0 x1 x2 x3 x4 x5 x8 x9 h0 h2 h3 h4 h5 h8 h9) fin_cst_17

theorem eq_v91 :
    ∀ i, val_main_v91 (F := Ideal) i = ((50000 : ℝ) : EReal) := by
  intro i
  exact ofBits_50000

theorem fin_v92 (h0 : AllFin x0) (h2 : AllFin x2) (h3 : AllFin x3) (h4 : AllFin x4) (h5 : AllFin x5) (h8 : AllFin x8) (h9 : AllFin x9) :
    AllFin (val_main_v92 (F := Ideal) x0 x1 x2 x3 x4 x5 x8 x9) := by
  unfold val_main_v92
  exact allFin_divf_coe (fin_v90 x0 x1 x2 x3 x4 x5 x8 x9 h0 h2 h3 h4 h5 h8 h9) (by norm_num) eq_v91

theorem fin_v93 (h0 : AllFin x0) (h2 : AllFin x2) (h3 : AllFin x3) (h4 : AllFin x4) (h5 : AllFin x5) (h8 : AllFin x8) (h9 : AllFin x9) :
    AllFin (val_main_v93 (F := Ideal) x0 x1 x2 x3 x4 x5 x8 x9) := by
  unfold val_main_v93
  exact allFin_broadcastInDim _ _ _ (fin_v92 x0 x1 x2 x3 x4 x5 x8 x9 h0 h2 h3 h4 h5 h8 h9)

theorem fin_v94 (h0 : AllFin x0) (h2 : AllFin x2) (h3 : AllFin x3) (h4 : AllFin x4) (h5 : AllFin x5) (h8 : AllFin x8) (h9 : AllFin x9) :
    AllFin (val_main_v94 (F := Ideal) x0 x1 x2 x3 x4 x5 x8 x9) := by
  unfold val_main_v94
  exact allFin_broadcastInDim _ _ _ (fin_v93 x0 x1 x2 x3 x4 x5 x8 x9 h0 h2 h3 h4 h5 h8 h9)

theorem fin_v95 (h0 : AllFin x0) (h2 : AllFin x2) (h3 : AllFin x3) (h4 : AllFin x4) (h5 : AllFin x5) (h8 : AllFin x8) (h9 : AllFin x9) :
    AllFin (val_main_v95 (F := Ideal) x0 x1 x2 x3 x4 x5 x8 x9) := by
  unfold val_main_v95
  exact allFin_subf (fin_v89 x0 x1 x2 x3 x4 x5 x8 x9 h0 h2 h3 h4 h5 h8 h9) (fin_v94 x0 x1 x2 x3 x4 x5 x8 x9 h0 h2 h3 h4 h5 h8 h9)

theorem fin_v96 (h0 : AllFin x0) (h2 : AllFin x2) (h3 : AllFin x3) (h4 : AllFin x4) (h5 : AllFin x5) (h8 : AllFin x8) (h9 : AllFin x9) :
    AllFin (val_main_v96 (F := Ideal) x0 x1 x2 x3 x4 x5 x8 x9) := by
  unfold val_main_v96
  exact allFin_mulf (fin_v95 x0 x1 x2 x3 x4 x5 x8 x9 h0 h2 h3 h4 h5 h8 h9) (fin_v95 x0 x1 x2 x3 x4 x5 x8 x9 h0 h2 h3 h4 h5 h8 h9)

theorem nonneg_v96 (h0 : AllFin x0) (h2 : AllFin x2) (h3 : AllFin x3) (h4 : AllFin x4) (h5 : AllFin x5) (h8 : AllFin x8) (h9 : AllFin x9) :
    ∀ i, 0 ≤ val_main_v96 (F := Ideal) x0 x1 x2 x3 x4 x5 x8 x9 i := by
  unfold val_main_v96
  exact mulf_self_nonneg (fin_v95 x0 x1 x2 x3 x4 x5 x8 x9 h0 h2 h3 h4 h5 h8 h9)

theorem fin_cst_19 :
    AllFin (val_main_cst_19 (F := Ideal)) := by
  unfold val_main_cst_19
  exact allFin_constant_zero _

theorem nonneg_cst_19 :
    ∀ k, 0 ≤ val_main_cst_19 (F := Ideal) k := by
  intro k
  show (0 : EReal) ≤ Ideal.ofBits .f32 0x00000000#32
  rw [ofBits_zero]

theorem fin_v97 (h0 : AllFin x0) (h2 : AllFin x2) (h3 : AllFin x3) (h4 : AllFin x4) (h5 : AllFin x5) (h8 : AllFin x8) (h9 : AllFin x9) :
    AllFin (val_main_v97 (F := Ideal) x0 x1 x2 x3 x4 x5 x8 x9) := by
  unfold val_main_v97
  exact allFin_reduceAdd _ _ (fin_v96 x0 x1 x2 x3 x4 x5 x8 x9 h0 h2 h3 h4 h5 h8 h9) fin_cst_19

theorem nonneg_v97 (h0 : AllFin x0) (h2 : AllFin x2) (h3 : AllFin x3) (h4 : AllFin x4) (h5 : AllFin x5) (h8 : AllFin x8) (h9 : AllFin x9) :
    ∀ i, 0 ≤ val_main_v97 (F := Ideal) x0 x1 x2 x3 x4 x5 x8 x9 i := by
  unfold val_main_v97
  exact reduceAdd_nonneg _ _ (fin_v96 x0 x1 x2 x3 x4 x5 x8 x9 h0 h2 h3 h4 h5 h8 h9) (nonneg_v96 x0 x1 x2 x3 x4 x5 x8 x9 h0 h2 h3 h4 h5 h8 h9) fin_cst_19 nonneg_cst_19

theorem eq_v98 :
    ∀ i, val_main_v98 (F := Ideal) i = ((50000 : ℝ) : EReal) := by
  intro i
  exact ofBits_50000

theorem fin_v99 (h0 : AllFin x0) (h2 : AllFin x2) (h3 : AllFin x3) (h4 : AllFin x4) (h5 : AllFin x5) (h8 : AllFin x8) (h9 : AllFin x9) :
    AllFin (val_main_v99 (F := Ideal) x0 x1 x2 x3 x4 x5 x8 x9) := by
  unfold val_main_v99
  exact allFin_divf_coe (fin_v97 x0 x1 x2 x3 x4 x5 x8 x9 h0 h2 h3 h4 h5 h8 h9) (by norm_num) eq_v98

theorem nonneg_v99 (h0 : AllFin x0) (h2 : AllFin x2) (h3 : AllFin x3) (h4 : AllFin x4) (h5 : AllFin x5) (h8 : AllFin x8) (h9 : AllFin x9) :
    ∀ i, 0 ≤ val_main_v99 (F := Ideal) x0 x1 x2 x3 x4 x5 x8 x9 i := by
  unfold val_main_v99
  exact divf_coe_nonneg (fin_v97 x0 x1 x2 x3 x4 x5 x8 x9 h0 h2 h3 h4 h5 h8 h9) (nonneg_v97 x0 x1 x2 x3 x4 x5 x8 x9 h0 h2 h3 h4 h5 h8 h9) (by norm_num) eq_v98

theorem fin_v100 (h0 : AllFin x0) (h2 : AllFin x2) (h3 : AllFin x3) (h4 : AllFin x4) (h5 : AllFin x5) (h8 : AllFin x8) (h9 : AllFin x9) :
    AllFin (val_main_v100 (F := Ideal) x0 x1 x2 x3 x4 x5 x8 x9) := by
  unfold val_main_v100
  exact allFin_broadcastInDim _ _ _ (fin_v92 x0 x1 x2 x3 x4 x5 x8 x9 h0 h2 h3 h4 h5 h8 h9)

theorem fin_v101 (h0 : AllFin x0) (h2 : AllFin x2) (h3 : AllFin x3) (h4 : AllFin x4) (h5 : AllFin x5) (h8 : AllFin x8) (h9 : AllFin x9) :
    AllFin (val_main_v101 (F := Ideal) x0 x1 x2 x3 x4 x5 x8 x9) := by
  unfold val_main_v101
  exact allFin_broadcastInDim _ _ _ (fin_v100 x0 x1 x2 x3 x4 x5 x8 x9 h0 h2 h3 h4 h5 h8 h9)

theorem fin_v102 (h0 : AllFin x0) (h2 : AllFin x2) (h3 : AllFin x3) (h4 : AllFin x4) (h5 : AllFin x5) (h8 : AllFin x8) (h9 : AllFin x9) :
    AllFin (val_main_v102 (F := Ideal) x0 x1 x2 x3 x4 x5 x8 x9) := by
  unfold val_main_v102
  exact allFin_subf (fin_v89 x0 x1 x2 x3 x4 x5 x8 x9 h0 h2 h3 h4 h5 h8 h9) (fin_v101 x0 x1 x2 x3 x4 x5 x8 x9 h0 h2 h3 h4 h5 h8 h9)

theorem fin_v103 :
    AllFin (val_main_v103 (F := Ideal)) := by
  unfold val_main_v103 val_main_cst_21
  exact allFin_broadcastInDim _ _ _ (fun _ => isFin_ofBits_eps)

theorem eq_v103 :
    ∃ e : ℝ, 0 < e ∧ ∀ i, val_main_v103 (F := Ideal) i = (e : EReal) := by
  obtain ⟨e, he, hE⟩ := ofBits_eps_pos
  exact ⟨e, he, fun _ => hE⟩

theorem fin_v104 (h0 : AllFin x0) (h2 : AllFin x2) (h3 : AllFin x3) (h4 : AllFin x4) (h5 : AllFin x5) (h8 : AllFin x8) (h9 : AllFin x9) :
    AllFin (val_main_v104 (F := Ideal) x0 x1 x2 x3 x4 x5 x8 x9) := by
  unfold val_main_v104
  exact allFin_addf (fin_v99 x0 x1 x2 x3 x4 x5 x8 x9 h0 h2 h3 h4 h5 h8 h9) fin_v103

theorem pos_v104 (h0 : AllFin x0) (h2 : AllFin x2) (h3 : AllFin x3) (h4 : AllFin x4) (h5 : AllFin x5) (h8 : AllFin x8) (h9 : AllFin x9) :
    ∀ i, 0 < val_main_v104 (F := Ideal) x0 x1 x2 x3 x4 x5 x8 x9 i := by
  obtain ⟨e, he, hE⟩ := eq_v103
  unfold val_main_v104
  exact addf_coe_pos (fin_v99 x0 x1 x2 x3 x4 x5 x8 x9 h0 h2 h3 h4 h5 h8 h9) (nonneg_v99 x0 x1 x2 x3 x4 x5 x8 x9 h0 h2 h3 h4 h5 h8 h9) he hE

theorem fin_v105 (h0 : AllFin x0) (h2 : AllFin x2) (h3 : AllFin x3) (h4 : AllFin x4) (h5 : AllFin x5) (h8 : AllFin x8) (h9 : AllFin x9) :
    AllFin (val_main_v105 (F := Ideal) x0 x1 x2 x3 x4 x5 x8 x9) := by
  unfold val_main_v105
  exact allFin_rsqrt_of_pos (fin_v104 x0 x1 x2 x3 x4 x5 x8 x9 h0 h2 h3 h4 h5 h8 h9) (pos_v104 x0 x1 x2 x3 x4 x5 x8 x9 h0 h2 h3 h4 h5 h8 h9)

theorem fin_v106 (h0 : AllFin x0) (h2 : AllFin x2) (h3 : AllFin x3) (h4 : AllFin x4) (h5 : AllFin x5) (h8 : AllFin x8) (h9 : AllFin x9) :
    AllFin (val_main_v106 (F := Ideal) x0 x1 x2 x3 x4 x5 x8 x9) := by
  unfold val_main_v106
  exact allFin_broadcastInDim _ _ _ (fin_v105 x0 x1 x2 x3 x4 x5 x8 x9 h0 h2 h3 h4 h5 h8 h9)

theorem fin_v107 (h0 : AllFin x0) (h2 : AllFin x2) (h3 : AllFin x3) (h4 : AllFin x4) (h5 : AllFin x5) (h8 : AllFin x8) (h9 : AllFin x9) :
    AllFin (val_main_v107 (F := Ideal) x0 x1 x2 x3 x4 x5 x8 x9) := by
  unfold val_main_v107
  exact allFin_broadcastInDim _ _ _ (fin_v106 x0 x1 x2 x3 x4 x5 x8 x9 h0 h2 h3 h4 h5 h8 h9)

theorem fin_v108 (h0 : AllFin x0) (h2 : AllFin x2) (h3 : AllFin x3) (h4 : AllFin x4) (h5 : AllFin x5) (h8 : AllFin x8) (h9 : AllFin x9) :
    AllFin (val_main_v108 (F := Ideal) x0 x1 x2 x3 x4 x5 x8 x9) := by
  unfold val_main_v108
  exact allFin_mulf (fin_v102 x0 x1 x2 x3 x4 x5 x8 x9 h0 h2 h3 h4 h5 h8 h9) (fin_v107 x0 x1 x2 x3 x4 x5 x8 x9 h0 h2 h3 h4 h5 h8 h9)

theorem fin_v109 (h8 : AllFin x8) :
    AllFin (val_main_v109 (F := Ideal) x8) := by
  unfold val_main_v109
  exact allFin_broadcastInDim _ _ _ h8

theorem fin_v110 (h8 : AllFin x8) :
    AllFin (val_main_v110 (F := Ideal) x8) := by
  unfold val_main_v110
  exact allFin_broadcastInDim _ _ _ (fin_v109 x8 h8)

theorem fin_v111 (h0 : AllFin x0) (h2 : AllFin x2) (h3 : AllFin x3) (h4 : AllFin x4) (h5 : AllFin x5) (h8 : AllFin x8) (h9 : AllFin x9) :
    AllFin (val_main_v111 (F := Ideal) x0 x1 x2 x3 x4 x5 x8 x9) := by
  unfold val_main_v111
  exact allFin_mulf (fin_v108 x0 x1 x2 x3 x4 x5 x8 x9 h0 h2 h3 h4 h5 h8 h9) (fin_v110 x8 h8)

theorem fin_v112 (h9 : AllFin x9) :
    AllFin (val_main_v112 (F := Ideal) x9) := by
  unfold val_main_v112
  exact allFin_broadcastInDim _ _ _ h9

theorem fin_v113 (h9 : AllFin x9) :
    AllFin (val_main_v113 (F := Ideal) x9) := by
  unfold val_main_v113
  exact allFin_broadcastInDim _ _ _ (fin_v112 x9 h9)

theorem fin_v114 (h0 : AllFin x0) (h2 : AllFin x2) (h3 : AllFin x3) (h4 : AllFin x4) (h5 : AllFin x5) (h8 : AllFin x8) (h9 : AllFin x9) :
    AllFin (val_main_v114 (F := Ideal) x0 x1 x2 x3 x4 x5 x8 x9) := by
  unfold val_main_v114
  exact allFin_addf (fin_v111 x0 x1 x2 x3 x4 x5 x8 x9 h0 h2 h3 h4 h5 h8 h9) (fin_v113 x9 h9)

theorem fin_call2_v0 :
    AllFin (val_main_call2_v0 (F := Ideal)) := by
  unfold val_main_call2_v0 val_main_call2_cst
  exact allFin_broadcastInDim _ _ _ (allFin_constant_zero _)

theorem fin_v115 (h0 : AllFin x0) (h2 : AllFin x2) (h3 : AllFin x3) (h4 : AllFin x4) (h5 : AllFin x5) (h8 : AllFin x8) (h9 : AllFin x9) :
    AllFin (val_main_v115 (F := Ideal) x0 x1 x2 x3 x4 x5 x8 x9) := by
  unfold val_main_v115
  exact allFin_maximumf (fin_v114 x0 x1 x2 x3 x4 x5 x8 x9 h0 h2 h3 h4 h5 h8 h9) fin_call2_v0

theorem fin_v116 (h0 : AllFin x0) (h2 : AllFin x2) (h3 : AllFin x3) (h4 : AllFin x4) (h5 : AllFin x5) (h6 : AllFin x6) (h8 : AllFin x8) (h9 : AllFin x9) :
    AllFin (val_main_v116 (F := Ideal) x0 x1 x2 x3 x4 x5 x6 x8 x9) := by
  unfold val_main_v116
  exact allFin_dotGeneral _ _ (fin_v115 x0 x1 x2 x3 x4 x5 x8 x9 h0 h2 h3 h4 h5 h8 h9) h6

theorem fin_v117 :
    AllFin (val_main_v117 (F := Ideal) x1) := by
  unfold val_main_v117
  exact allFin_broadcastInDim _ _ _ (fin_v29 x1)

theorem fin_v125 :
    AllFin (val_main_v125 (F := Ideal) x1) := by
  unfold val_main_v125
  exact allFin_broadcastInDim _ _ _ (fin_v117 x1)

theorem fin_v127 :
    AllFin (val_main_v127 (F := Ideal)) := by
  unfold val_main_v127 val_main_cst_24
  exact allFin_broadcastInDim _ _ _ (allFin_constant_zero _)

theorem fin_v129 (h0 : AllFin x0) (h2 : AllFin x2) (h3 : AllFin x3) (h4 : AllFin x4) (h5 : AllFin x5) (h6 : AllFin x6) (h8 : AllFin x8) (h9 : AllFin x9) :
    AllFin (val_main_v129 (F := Ideal) x0 x1 x2 x3 x4 x5 x6 x8 x9) := by
  unfold val_main_v129 val_main_v126 val_main_v124
  exact allFin_messagePass _ _ _ _ fin_v127 (fin_v125 x1) (fin_v116 x0 x1 x2 x3 x4 x5 x6 x8 x9 h0 h2 h3 h4 h5 h6 h8 h9)

theorem fin_v130 (h7 : AllFin x7) :
    AllFin (val_main_v130 (F := Ideal) x7) := by
  unfold val_main_v130
  exact allFin_broadcastInDim _ _ _ h7

theorem fin_v131 (h7 : AllFin x7) :
    AllFin (val_main_v131 (F := Ideal) x7) := by
  unfold val_main_v131
  exact allFin_broadcastInDim _ _ _ (fin_v130 x7 h7)

theorem fin_v132 (h0 : AllFin x0) (h2 : AllFin x2) (h3 : AllFin x3) (h4 : AllFin x4) (h5 : AllFin x5) (h6 : AllFin x6) (h7 : AllFin x7) (h8 : AllFin x8) (h9 : AllFin x9) :
    AllFin (val_main_v132 (F := Ideal) x0 x1 x2 x3 x4 x5 x6 x7 x8 x9) := by
  unfold val_main_v132
  exact allFin_addf (fin_v129 x0 x1 x2 x3 x4 x5 x6 x8 x9 h0 h2 h3 h4 h5 h6 h8 h9) (fin_v131 x7 h7)

end Cert.Math.FinChain

end
-- ==== Proof.Bridge.ChainA.lean ====
import proofs.«418912_j86466281603780_3_alg».proof.Proof.Bridge.Carry
import proofs.«418912_j86466281603780_3_alg».proof.Proof.Bridge.HostGS
import proofs.«418912_j86466281603780_3_alg».proof.Proof.Bridge.L1
import proofs.«418912_j86466281603780_3_alg».proof.Proof.Bridge.L2
import proofs.«418912_j86466281603780_3_alg».proof.Proof.Math.FinChain

noncomputable section

namespace Cert.Bridge

open Idealize.ShloMosaic Idealize.ShloMosaic.TcCoe Idealize.ShloMosaic.ValueIdx Idealize.SL.Sem
open Cert.KernelIdeal Cert.KernelIdeal.Gen Cert.KernelIdeal.Hand
open Cert.ReferenceIdeal.ReadP
open Cert.Math

variable (m : (ℓ : Loc nD τ sig) → Buf (Elt Ideal) ℓ) (c : Dev nD)

theorem stepA
    (hA0 : AllFin (m ((c : Thread nD τ).loc main_arg0) : (⟨Cert.ReferenceIdeal.S50000x128, .f32⟩ : BufTy).Contents (Elt Ideal)))
    (hA2 : AllFin (m ((c : Thread nD τ).loc main_arg2) : (⟨Cert.ReferenceIdeal.S128x256, .f32⟩ : BufTy).Contents (Elt Ideal)))
    (hA3 : AllFin (m ((c : Thread nD τ).loc main_arg3) : (⟨Cert.ReferenceIdeal.S256, .f32⟩ : BufTy).Contents (Elt Ideal))) :
    U6 m c main_v45_0 = val_main_v46 (F := Ideal) (m ((c : Thread nD τ).loc main_arg0)) (m ((c : Thread nD τ).loc main_arg1)) (m ((c : Thread nD τ).loc main_arg2)) (m ((c : Thread nD τ).loc main_arg3))
    ∧ (∀ j : Fin 256, U6 m c main_v45_1 (ix2 (0 : Fin 1) j) = val_main_v49 (F := Ideal) (m ((c : Thread nD τ).loc main_arg0)) (m ((c : Thread nD τ).loc main_arg1)) (m ((c : Thread nD τ).loc main_arg2)) (m ((c : Thread nD τ).loc main_arg3)) (ix1 j))
    ∧ (∀ j : Fin 256, U6 m c main_v45_2 (ix2 (0 : Fin 1) j) = val_main_v56 (F := Ideal) (m ((c : Thread nD τ).loc main_arg0)) (m ((c : Thread nD τ).loc main_arg1)) (m ((c : Thread nD τ).loc main_arg2)) (m ((c : Thread nD τ).loc main_arg3)) (ix1 j)) := by

  have h3 : U4 m c main_v3 = rowIdx (F := Ideal) (m ((c : Thread nD τ).loc main_arg1)) :=
    (U4_keep m c main_v3 (by decide)).trans (U3_v3 m c)
  have h6 : U4 m c main_v6 = colIdx (F := Ideal) (m ((c : Thread nD τ).loc main_arg1)) :=
    (U4_keep m c main_v6 (by decide)).trans (U3_v6 m c)
  have h29 : U4 m c main_v29 = edgeNorm (F := Ideal) (m ((c : Thread nD τ).loc main_arg1)) :=
    (U4_keep m c main_v29 (by decide)).trans (U3_v29 m c)

  have h30 : U4 m c main_v30 = val_main_v30 (F := Ideal) (m ((c : Thread nD τ).loc main_arg0)) (m ((c : Thread nD τ).loc main_arg2)) :=
    (U4_v30 m c).trans (bridge0 (m ((c : Thread nD τ).loc main_arg0)) (m ((c : Thread nD τ).loc main_arg2)) (atTc (U3 m)) c (U3_arg0 m c) (U3_arg2 m c))

  have hx : xarr1 (atTc (U5 m)) c = val_main_v43 (F := Ideal) (m ((c : Thread nD τ).loc main_arg0)) (m ((c : Thread nD τ).loc main_arg1)) (m ((c : Thread nD τ).loc main_arg2)) := by
    show U5 m c main_v43 = _
    refine (h1_v43 (U4 m c)).trans ?_
    rw [h3, h6, h29, h30, mp256_eq]
    exact (Cert.ReferenceIdeal.RefValue.v43_eq_aggregate _ _ _).symm

  have hb : ∀ j : Fin 256, barr1 (atTc (U5 m)) c (ix2 (0 : Fin 1) j) = m ((c : Thread nD τ).loc main_arg3) (ix1 j) := fun j => by
    show U5 m c main_v44 (ix2 (0 : Fin 1) j) = _
    rw [show U5 m c main_v44 = _ from h1_v44 (U4 m c), (U4_keep m c main_arg3 (by decide)).trans (U3_arg3 m c)]
    exact row256_apply _ 0 j
  refine ⟨?_, ?_, ?_⟩
  · exact (U6_v45_0 m c).trans (bridge1_out _ _ _ _ (atTc (U5 m)) c hx hb)
  · intro j
    exact (congrFun (U6_v45_1 m c) (ix2 (0 : Fin 1) j)).trans (bridge1_mean _ _ _ _ (atTc (U5 m)) c hx hb j)
  · intro j
    exact (congrFun (U6_v45_2 m c) (ix2 (0 : Fin 1) j)).trans
      (bridge1_var _ _ _ _ (atTc (U5 m)) c hx hb (Cert.Math.FinChain.fin_v46 _ _ _ _ hA0 hA2 hA3) j)

theorem stepB
    (hA0 : AllFin (m ((c : Thread nD τ).loc main_arg0) : (⟨Cert.ReferenceIdeal.S50000x128, .f32⟩ : BufTy).Contents (Elt Ideal)))
    (hA2 : AllFin (m ((c : Thread nD τ).loc main_arg2) : (⟨Cert.ReferenceIdeal.S128x256, .f32⟩ : BufTy).Contents (Elt Ideal)))
    (hA3 : AllFin (m ((c : Thread nD τ).loc main_arg3) : (⟨Cert.ReferenceIdeal.S256, .f32⟩ : BufTy).Contents (Elt Ideal)))
    (hA8 : AllFin (m ((c : Thread nD τ).loc main_arg8) : (⟨Cert.ReferenceIdeal.S256, .f32⟩ : BufTy).Contents (Elt Ideal)))
    (hA9 : AllFin (m ((c : Thread nD τ).loc main_arg9) : (⟨Cert.ReferenceIdeal.S256, .f32⟩ : BufTy).Contents (Elt Ideal)))
    (hA : U6 m c main_v45_0 = val_main_v46 (F := Ideal) (m ((c : Thread nD τ).loc main_arg0)) (m ((c : Thread nD τ).loc main_arg1)) (m ((c : Thread nD τ).loc main_arg2)) (m ((c : Thread nD τ).loc main_arg3))
      ∧ (∀ j : Fin 256, U6 m c main_v45_1 (ix2 (0 : Fin 1) j) = val_main_v49 (F := Ideal) (m ((c : Thread nD τ).loc main_arg0)) (m ((c : Thread nD τ).loc main_arg1)) (m ((c : Thread nD τ).loc main_arg2)) (m ((c : Thread nD τ).loc main_arg3)) (ix1 j))
      ∧ (∀ j : Fin 256, U6 m c main_v45_2 (ix2 (0 : Fin 1) j) = val_main_v56 (F := Ideal) (m ((c : Thread nD τ).loc main_arg0)) (m ((c : Thread nD τ).loc main_arg1)) (m ((c : Thread nD τ).loc main_arg2)) (m ((c : Thread nD τ).loc main_arg3)) (ix1 j))) :
    U8 m c main_v48 = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := by
  obtain ⟨hout, hmean, hvar⟩ := hA

  have k0 : U7 m c main_v45_0 = U6 m c main_v45_0 := U7_of m c main_v45_0 (by decide)
  have k1 : U7 m c main_v45_1 = U6 m c main_v45_1 := U7_of m c main_v45_1 (by decide)
  have k2 : U7 m c main_v45_2 = U6 m c main_v45_2 := U7_of m c main_v45_2 (by decide)
  have hx : x2 (atTc (U7 m)) c = val_main_v46 (F := Ideal) (m ((c : Thread nD τ).loc main_arg0)) (m ((c : Thread nD τ).loc main_arg1)) (m ((c : Thread nD τ).loc main_arg2)) (m ((c : Thread nD τ).loc main_arg3)) :=
    k0.trans hout
  have hw : w2 (atTc (U7 m)) c = m ((c : Thread nD τ).loc main_arg4) :=
    (U7_keep m c main_arg4 (by decide)).trans (U3_arg4 m c)
  have hm : ∀ q : Fin 256, mean2 (atTc (U7 m)) c (ix2 (0 : Fin 1) q) = val_main_v49 (F := Ideal) (m ((c : Thread nD τ).loc main_arg0)) (m ((c : Thread nD τ).loc main_arg1)) (m ((c : Thread nD τ).loc main_arg2)) (m ((c : Thread nD τ).loc main_arg3)) (ix1 q) :=
    fun q => (congrFun k1 (ix2 (0 : Fin 1) q)).trans (hmean q)
  have hv : ∀ q : Fin 256, var2 (atTc (U7 m)) c (ix2 (0 : Fin 1) q) = val_main_v56 (F := Ideal) (m ((c : Thread nD τ).loc main_arg0)) (m ((c : Thread nD τ).loc main_arg1)) (m ((c : Thread nD τ).loc main_arg2)) (m ((c : Thread nD τ).loc main_arg3)) (ix1 q) :=
    fun q => (congrFun k2 (ix2 (0 : Fin 1) q)).trans (hvar q)

  have hg : ∀ q : Fin 256, gamma2 (atTc (U7 m)) c (ix2 (0 : Fin 1) q) = m ((c : Thread nD τ).loc main_arg8) (ix1 q) := fun q => by
    show U7 m c main_v46 (ix2 (0 : Fin 1) q) = _
    rw [show U7 m c main_v46 = _ from h2_v46 (U6 m c), (U6_keep m c main_arg8 (by decide)).trans (U3_arg8 m c)]
    exact row256_apply _ 0 q
  have hbeta : ∀ q : Fin 256, beta2 (atTc (U7 m)) c (ix2 (0 : Fin 1) q) = m ((c : Thread nD τ).loc main_arg9) (ix1 q) := fun q => by
    show U7 m c main_v47 (ix2 (0 : Fin 1) q) = _
    rw [show U7 m c main_v47 = _ from h2_v47 (U6 m c), (U6_keep m c main_arg9 (by decide)).trans (U3_arg9 m c)]
    exact row256_apply _ 0 q
  exact (U8_v48 m c).trans
    (bridge2 _ _ _ _ _ _ _ (atTc (U7 m)) c hx hw hm hv hg hbeta (Cert.Math.FinChain.fin_v46 _ _ _ _ hA0 hA2 hA3) hA8 hA9)

end Cert.Bridge

end
-- ==== Proof.KI.Val3.lean ====
import proofs.«418912_j86466281603780_3_alg».proof.Proof.KI.Reg3Dat
import proofs.«418912_j86466281603780_3_alg».proof.Proof.Math.RowSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators
section
variable (x0 : Vec Ideal S1000x256 .f32) (b0 : Vec Ideal S1x256 .f32) (a0 : Vec Ideal S1x256 .f32) (q : Fin 256)

theorem pay3_3_apply (p : Fin 1000) (q : Fin 256) :
    k3_pay3 (F := Ideal) x0 b0 (ix2 p q) = x0 (ix2 p q) + b0 (ix2 (0 : Fin 1) q) := by
  unfold k3_pay3
  simp only [shapeCast_self]
  exact congrArg (x0 (ix2 p q) + ·) (broadcastTo_1b_ab_apply b0 broadcasts_S1x256_S1000x256 p q)

theorem pay3_1_apply : k3_pay1 (F := Ideal) (ix2 (0 : Fin 1) q) = 0 := by
  unfold k3_pay1
  simp only [shapeCast_self]
  exact Ideal.ofBits_zero_f32

theorem pay3_2_apply : k3_pay2 (F := Ideal) (ix2 (0 : Fin 1) q) = 0 := by
  unfold k3_pay2
  simp only [shapeCast_self]
  exact Ideal.ofBits_zero_f32

theorem lift3 (k : Fin 1000) : reduces_S1000x256_S256.lift (ix1 q) k = ix2 k q :=
  funext fun a => Fin.ext (match a with | ⟨0, _⟩ => rfl | ⟨1, _⟩ => rfl)

theorem colSum3 (src : FVec Ideal S1000x256 .f32) (hacc : (0x00000000#32 : BitVec 32) = 0x00000000#32) (q : Fin 256) :
    multiReduction (F := Ideal) .add [0] S256 src 0x00000000#32 reduces_S1000x256_S256 (.inl rfl) hacc (ix1 q)
      = ∑ p : Fin 1000, src (ix2 p q) :=
  (Ideal.multiReduction_add_single src 0x00000000#32 reduces_S1000x256_S256 (.inl rfl) hacc (ix1 q)).trans
    (Finset.sum_congr rfl fun k _ => congrArg src (lift3 q k))

theorem rowOfVec3 {α : Type} (v : S256.Idx → α) (q : Fin 256) :
    shapeCast S1x256 v shapeCasts_S256_S1x256 (ix2 (0 : Fin 1) q) = v (ix1 q) :=
  (shapeCast_addUnit_apply ![256] v shapeCasts_S256_S1x256 (ix2 (0 : Fin 1) q)).trans
    (congrArg v (funext fun a => match a with | ⟨0, _⟩ => rfl))

theorem pay3_4_apply :
    k3_pay4 (F := Ideal) x0 b0 a0 (ix2 (0 : Fin 1) q)
      = a0 (ix2 (0 : Fin 1) q) + ∑ p : Fin 1000, (x0 (ix2 p q) + b0 (ix2 (0 : Fin 1) q)) := by
  unfold k3_pay4
  simp only [shapeCast_self]
  refine congrArg (a0 (ix2 (0 : Fin 1) q) + ·) ?_
  refine (rowOfVec3 _ q).trans ?_
  refine (colSum3 _ rfl q).trans ?_
  exact Finset.sum_congr rfl fun p _ => pay3_3_apply x0 b0 p q

theorem pay3_5_apply (a1 : Vec Ideal S1x256 .f32) (q : Fin 256) :
    k3_pay5 (F := Ideal) x0 b0 a1 (ix2 (0 : Fin 1) q)
      = a1 (ix2 (0 : Fin 1) q)
        + ∑ p : Fin 1000, (x0 (ix2 p q) + b0 (ix2 (0 : Fin 1) q)) * (x0 (ix2 p q) + b0 (ix2 (0 : Fin 1) q)) := by
  unfold k3_pay5
  simp only [shapeCast_self]
  refine congrArg (a1 (ix2 (0 : Fin 1) q) + ·) ?_
  refine (rowOfVec3 _ q).trans ?_
  refine (colSum3 _ rfl q).trans ?_
  refine Finset.sum_congr rfl fun p _ => ?_
  show k3_pay3 (F := Ideal) x0 b0 (ix2 p q) * k3_pay3 (F := Ideal) x0 b0 (ix2 p q) = _
  rw [pay3_3_apply x0 b0 p q]

theorem pay3_6_apply :
    k3_pay6 (F := Ideal) a0 (ix2 (0 : Fin 1) q)
      = Ideal.div (a0 (ix2 (0 : Fin 1) q)) (Ideal.ofBits .f32 0x47435000#32) := by
  unfold k3_pay6
  rfl

theorem pay3_7_apply (a1 : Vec Ideal S1x256 .f32) (q : Fin 256) :
    k3_pay7 (F := Ideal) a0 a1 (ix2 (0 : Fin 1) q)
      = max (Ideal.div (a1 (ix2 (0 : Fin 1) q)) (Ideal.ofBits .f32 0x47435000#32)
          - Ideal.div (a0 (ix2 (0 : Fin 1) q)) (Ideal.ofBits .f32 0x47435000#32)
            * Ideal.div (a0 (ix2 (0 : Fin 1) q)) (Ideal.ofBits .f32 0x47435000#32)) 0 := by
  unfold k3_pay7
  show max (Ideal.div (a1 (ix2 (0 : Fin 1) q)) (Ideal.ofBits .f32 0x47435000#32)
      - k3_pay6 (F := Ideal) a0 (ix2 (0 : Fin 1) q) * k3_pay6 (F := Ideal) a0 (ix2 (0 : Fin 1) q)) (Ideal.ofBits .f32 0x00000000#32) = _
  rw [pay3_6_apply a0 q, Ideal.ofBits_zero_f32]

end

section Array
variable (V : (c : Dev nD) → (b : Ref sig .tc) → Buf (Elt Ideal) ((c : Thread nD τ).loc b))
section
variable (c : Dev nD) (t : Fin cfg3.N) (q : Fin 256) (i : S1x256.Idx) (j : Fin 256)

abbrev xarr3 : (⟨S50000x256, .f32⟩ : BufTy).Contents (Elt Ideal) := V c (Pipeline.arrRef spec3 0)

abbrev barr3 : (⟨S1x256, .f32⟩ : BufTy).Contents (Elt Ideal) := V c (Pipeline.arrRef spec3 1)

abbrev yarr3 (r : Fin 50000) (q : Fin 256) : Elt Ideal .f32 :=
  xarr3 V c (ix2 r q) + barr3 V c (ix2 (0 : Fin 1) q)

theorem lt50_3 : t.val < 50 := Nat.lt_of_lt_of_eq t.isLt N_3

theorem idx_facts3_0 : ∀ t : Fin cfg3.N, win3_0.index t (0 : Fin 2) = t.val ∧ win3_0.index t (1 : Fin 2) = 0 :=
  (by decide +kernel : ∀ t : Fin grid3.N, _)
theorem idx_facts3_1 : ∀ t : Fin cfg3.N, win3_1.index t (0 : Fin 2) = 0 ∧ win3_1.index t (1 : Fin 2) = 0 :=
  (by decide +kernel : ∀ t : Fin grid3.N, _)
theorem idx_facts3_2 : ∀ t : Fin cfg3.N, win3_2.index t (0 : Fin 2) = t.val ∧ win3_2.index t (1 : Fin 2) = 0 :=
  (by decide +kernel : ∀ t : Fin grid3.N, _)
theorem idx_facts3_3 : ∀ t : Fin cfg3.N, win3_3.index t (0 : Fin 2) = 0 ∧ win3_3.index t (1 : Fin 2) = 0 :=
  (by decide +kernel : ∀ t : Fin grid3.N, _)
theorem idx_facts3_4 : ∀ t : Fin cfg3.N, win3_4.index t (0 : Fin 2) = 0 ∧ win3_4.index t (1 : Fin 2) = 0 :=
  (by decide +kernel : ∀ t : Fin grid3.N, _)

abbrev row3 (p : Fin 1000) : Fin 50000 := ⟨t.val * 1000 + p.val, by have := lt50_3 t; have := p.isLt; omega⟩

theorem xblk3_apply (p : Fin 1000) (k : Fin 256) :
    xblk3 V c t (ix2 p k) = xarr3 V c (ix2 (row3 t p) k) := by
  show V c (Pipeline.arrRef spec3 0) (((cfg3.win 0).blk t).view.emb (ix2 p k)) = V c (Pipeline.arrRef spec3 0) (ix2 (row3 t p) k)
  refine congrArg (V c (Pipeline.arrRef spec3 0)) ?_
  obtain ⟨e0, e1⟩ := idx_facts3_0 t
  funext a; apply Fin.ext
  match a with
  | ⟨0, _⟩ => show win3_0.index t (0 : Fin 2) * 1000 + 1 * p.val = t.val * 1000 + p.val; omega
  | ⟨1, _⟩ => show win3_0.index t (1 : Fin 2) * 256 + 1 * k.val = k.val; omega

theorem bblk3_apply :
    bblk3 V c t (ix2 (0 : Fin 1) q) = barr3 V c (ix2 (0 : Fin 1) q) := by
  show V c (Pipeline.arrRef spec3 1) (((cfg3.win 1).blk t).view.emb (ix2 (0 : Fin 1) q)) = V c (Pipeline.arrRef spec3 1) (ix2 (0 : Fin 1) q)
  refine congrArg (V c (Pipeline.arrRef spec3 1)) ?_
  obtain ⟨e0, e1⟩ := idx_facts3_1 t
  funext a; apply Fin.ext
  match a with
  | ⟨0, _⟩ => show win3_1.index t (0 : Fin 2) * 1 + 1 * 0 = 0; omega
  | ⟨1, _⟩ => show win3_1.index t (1 : Fin 2) * 256 + 1 * q.val = q.val; omega

theorem acc3_0_apply :
    acc3_0 (F := Ideal) V c 50 (ix2 (0 : Fin 1) q) = ∑ r : Fin 50000, yarr3 V c r q := by
  refine Cert.Math.sum_rows_of_runs (M := EReal) (fun r => yarr3 V c r q)
    (fun n => acc3_0 (F := Ideal) V c n (ix2 (0 : Fin 1) q)) (pay3_1_apply q) ?_
  intro n hn
  have hN : n < cfg3.N := Nat.lt_of_lt_of_eq hn N_3.symm
  refine (congrFun (acc3_0_succ V c ⟨n, hN⟩) (ix2 (0 : Fin 1) q)).trans ?_
  refine (pay3_4_apply (xblk3 V c ⟨n, hN⟩) (bblk3 V c ⟨n, hN⟩) (acc3_0 V c n) q).trans ?_
  refine congrArg (acc3_0 (F := Ideal) V c n (ix2 (0 : Fin 1) q) + ·) ?_
  refine Finset.sum_congr rfl fun p _ => ?_
  rw [xblk3_apply V c ⟨n, hN⟩ p q, bblk3_apply V c ⟨n, hN⟩ q]

theorem acc3_1_apply :
    acc3_1 (F := Ideal) V c 50 (ix2 (0 : Fin 1) q) = ∑ r : Fin 50000, yarr3 V c r q * yarr3 V c r q := by
  refine Cert.Math.sum_rows_of_runs (M := EReal) (fun r => yarr3 V c r q * yarr3 V c r q)
    (fun n => acc3_1 (F := Ideal) V c n (ix2 (0 : Fin 1) q)) (pay3_2_apply q) ?_
  intro n hn
  have hN : n < cfg3.N := Nat.lt_of_lt_of_eq hn N_3.symm
  refine (congrFun (acc3_1_succ V c ⟨n, hN⟩) (ix2 (0 : Fin 1) q)).trans ?_
  refine (pay3_5_apply (xblk3 V c ⟨n, hN⟩) (bblk3 V c ⟨n, hN⟩) (acc3_1 V c n) q).trans ?_
  refine congrArg (acc3_1 (F := Ideal) V c n (ix2 (0 : Fin 1) q) + ·) ?_
  refine Finset.sum_congr rfl fun p _ => ?_
  rw [xblk3_apply V c ⟨n, hN⟩ p q, bblk3_apply V c ⟨n, hN⟩ q]

abbrev out3 : (⟨S50000x256, .f32⟩ : BufTy).Contents (Elt Ideal) :=
  fun i => yarr3 V c (i 0) (i 1)

abbrev mean3 : Elt Ideal .f32 :=
  Ideal.div (∑ r : Fin 50000, yarr3 V c r q) (Ideal.ofBits .f32 0x47435000#32)

abbrev var3 : Elt Ideal .f32 :=
  max (Ideal.div (∑ r : Fin 50000, yarr3 V c r q * yarr3 V c r q) (Ideal.ofBits .f32 0x47435000#32)
    - mean3 V c q * mean3 V c q) 0

abbrev meanRow3 : (⟨S1x256, .f32⟩ : BufTy).Contents (Elt Ideal) := fun i => mean3 V c (i 1)
abbrev varRow3 : (⟨S1x256, .f32⟩ : BufTy).Contents (Elt Ideal) := fun i => var3 V c (i 1)

theorem flushed3_2_eq :
    (dat3 V c).flushed 2 t = ((cfg3.win 2).blk t).view.read (Elt Ideal) (out3 V c) := by
  show (cfg3.win 2).cut (grid3.coords t) ((dat3 V c).after 2 t) = _
  rw [after3_2]
  funext j
  obtain ⟨p, q, rfl⟩ : ∃ (p : Fin 1000) (q : Fin 256), j = ix2 p q := ⟨j 0, j 1, eq_ix2 j⟩
  refine (pay3_3_apply (xblk3 V c t) (bblk3 V c t) p q).trans ?_
  rw [xblk3_apply V c t p q, bblk3_apply V c t q]
  show out3 V c (ix2 (row3 t p) q) = out3 V c (((cfg3.win 2).blk t).view.emb (ix2 p q))
  refine congrArg (out3 V c) ?_
  obtain ⟨e0, e1⟩ := idx_facts3_2 t
  funext a; apply Fin.ext
  match a with
  | ⟨0, _⟩ => show t.val * 1000 + p.val = win3_2.index t (0 : Fin 2) * 1000 + 1 * p.val; omega
  | ⟨1, _⟩ => show q.val = win3_2.index t (1 : Fin 2) * 256 + 1 * q.val; omega

theorem flushed3_3_eq (hf : (cfg3.win 3).flush t = true) :
    (dat3 V c).flushed 3 t = ((cfg3.win 3).blk t).view.read (Elt Ideal) (meanRow3 V c) := by
  have ht : t.val + 1 = 50 := by have := (flush3_3 t).1 hf; have := lt50_3 t; omega
  show (cfg3.win 3).cut (grid3.coords t) ((dat3 V c).after 3 t) = _
  rw [after3_3, ht]
  funext j
  obtain ⟨u, q, rfl⟩ : ∃ (u : Fin 1) (q : Fin 256), j = ix2 u q := ⟨j 0, j 1, eq_ix2 j⟩
  obtain rfl : u = 0 := Subsingleton.elim _ _
  refine (pay3_6_apply (acc3_0 V c 50) q).trans ?_
  rw [acc3_0_apply V c q]
  show meanRow3 V c (ix2 (0 : Fin 1) q) = meanRow3 V c (((cfg3.win 3).blk t).view.emb (ix2 (0 : Fin 1) q))
  refine congrArg (meanRow3 V c) ?_
  obtain ⟨e0, e1⟩ := idx_facts3_3 t
  funext a; apply Fin.ext
  match a with
  | ⟨0, _⟩ => show 0 = win3_3.index t (0 : Fin 2) * 1 + 1 * 0; omega
  | ⟨1, _⟩ => show q.val = win3_3.index t (1 : Fin 2) * 256 + 1 * q.val; omega

theorem flushed3_4_eq (hf : (cfg3.win 4).flush t = true) :
    (dat3 V c).flushed 4 t = ((cfg3.win 4).blk t).view.read (Elt Ideal) (varRow3 V c) := by
  have ht : t.val + 1 = 50 := by have := (flush3_4 t).1 hf; have := lt50_3 t; omega
  show (cfg3.win 4).cut (grid3.coords t) ((dat3 V c).after 4 t) = _
  rw [after3_4, ht]
  funext j
  obtain ⟨u, q, rfl⟩ : ∃ (u : Fin 1) (q : Fin 256), j = ix2 u q := ⟨j 0, j 1, eq_ix2 j⟩
  obtain rfl : u = 0 := Subsingleton.elim _ _
  refine (pay3_7_apply (acc3_0 V c 50) (acc3_1 V c 50) q).trans ?_
  rw [acc3_0_apply V c q, acc3_1_apply V c q]
  show varRow3 V c (ix2 (0 : Fin 1) q) = varRow3 V c (((cfg3.win 4).blk t).view.emb (ix2 (0 : Fin 1) q))
  refine congrArg (varRow3 V c) ?_
  obtain ⟨e0, e1⟩ := idx_facts3_4 t
  funext a; apply Fin.ext
  match a with
  | ⟨0, _⟩ => show 0 = win3_4.index t (0 : Fin 2) * 1 + 1 * 0; omega
  | ⟨1, _⟩ => show q.val = win3_4.index t (1 : Fin 2) * 256 + 1 * q.val; omega

theorem mem_blk3_2 (i : S50000x256.Idx) :
    i ∈ ((cfg3.win 2).blk t).view.set ↔ ∀ a : Fin 2, win3_2.index t a * S1000x256.size a ≤ (i a).val ∧ (i a).val < win3_2.index t a * S1000x256.size a + S1000x256.size a := by
  show i ∈ ((View.whole (Pipeline.arrRef spec3 2)).slice (win3_2.rect t)).set ↔ _
  rw [View.set_slice_whole, Rect.mem_set_unit]
  exact Iff.rfl
theorem mem_blk3_3 :
    i ∈ ((cfg3.win 3).blk t).view.set ↔ ∀ a : Fin 2, win3_3.index t a * S1x256.size a ≤ (i a).val ∧ (i a).val < win3_3.index t a * S1x256.size a + S1x256.size a := by
  show i ∈ ((View.whole (Pipeline.arrRef spec3 3)).slice (win3_3.rect t)).set ↔ _
  rw [View.set_slice_whole, Rect.mem_set_unit]
  exact Iff.rfl
theorem mem_blk3_4 :
    i ∈ ((cfg3.win 4).blk t).view.set ↔ ∀ a : Fin 2, win3_4.index t a * S1x256.size a ≤ (i a).val ∧ (i a).val < win3_4.index t a * S1x256.size a + S1x256.size a := by
  show i ∈ ((View.whole (Pipeline.arrRef spec3 4)).slice (win3_4.rect t)).set ↔ _
  rw [View.set_slice_whole, Rect.mem_set_unit]
  exact Iff.rfl

theorem cover3_2 (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  have hlt : (i 0).val / 1000 < cfg3.N := by show (i 0).val / 1000 < grid3.N; rw [N_3]; omega
  obtain ⟨t, ht⟩ : ∃ t : Fin cfg3.N, t.val = (i 0).val / 1000 := ⟨⟨(i 0).val / 1000, hlt⟩, rfl⟩
  obtain ⟨e0, e1⟩ := idx_facts3_2 t
  refine ⟨t, flush3_2 t, ?_⟩
  rw [mem_blk3_2]
  intro a
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 256 ≤ (i 1).val ∧ (i 1).val < win3_2.index t (1 : Fin 2) * 256 + 256; omega

abbrev last3 : Fin cfg3.N := ⟨49, by show 49 < grid3.N; rw [N_3]; omega⟩

theorem cover3_3 : ∃ t : Fin cfg3.N, (cfg3.win 3).flush t = true ∧ i ∈ ((cfg3.win 3).blk t).view.set := by
  have hi0 : (i 0).val < 1 := (i 0).isLt
  have hi1 : (i 1).val < 256 := (i 1).isLt
  obtain ⟨e0, e1⟩ := idx_facts3_3 last3
  refine ⟨last3, (flush3_3 last3).2 rfl, ?_⟩
  rw [mem_blk3_3]
  intro a
  match a with
  | ⟨0, _⟩ => show win3_3.index last3 (0 : Fin 2) * 1 ≤ (i 0).val ∧ (i 0).val < win3_3.index last3 (0 : Fin 2) * 1 + 1; omega
  | ⟨1, _⟩ => show win3_3.index last3 (1 : Fin 2) * 256 ≤ (i 1).val ∧ (i 1).val < win3_3.index last3 (1 : Fin 2) * 256 + 256; omega

theorem cover3_4 : ∃ t : Fin cfg3.N, (cfg3.win 4).flush t = true ∧ i ∈ ((cfg3.win 4).blk t).view.set := by
  have hi0 : (i 0).val < 1 := (i 0).isLt
  have hi1 : (i 1).val < 256 := (i 1).isLt
  obtain ⟨e0, e1⟩ := idx_facts3_4 last3
  refine ⟨last3, (flush3_4 last3).2 rfl, ?_⟩
  rw [mem_blk3_4]
  intro a
  match a with
  | ⟨0, _⟩ => show win3_4.index last3 (0 : Fin 2) * 1 ≤ (i 0).val ∧ (i 0).val < win3_4.index last3 (0 : Fin 2) * 1 + 1; omega
  | ⟨1, _⟩ => show win3_4.index last3 (1 : Fin 2) * 256 ≤ (i 1).val ∧ (i 1).val < win3_4.index last3 (1 : Fin 2) * 256 + 256; omega

theorem arr3_2_eq : (dat3 V c).arrAt 2 cfg3.N = out3 V c :=
  (dat3 V c).arrAt_eq_of_cover 2 (out3 V c) (fun t _ => flushed3_2_eq V c t) cover3_2

theorem arr3_3_eq : (dat3 V c).arrAt 3 cfg3.N = meanRow3 V c :=
  (dat3 V c).arrAt_eq_of_cover 3 (meanRow3 V c) (fun t hf => flushed3_3_eq V c t hf) cover3_3

theorem arr3_4_eq : (dat3 V c).arrAt 4 cfg3.N = varRow3 V c :=
  (dat3 V c).arrAt_eq_of_cover 4 (varRow3 V c) (fun t hf => flushed3_4_eq V c t hf) cover3_4

theorem final3_out (r : Fin 50000) (j : Fin 256) :
    (dat3 (F := Ideal) V c).arrAt 2 cfg3.N (ValueIdx.ix2 r j)
      = (xarr3 V c (ValueIdx.ix2 r j) + barr3 V c (ValueIdx.ix2 (0 : Fin 1) j) : Elt Ideal .f32) :=
  congrFun (arr3_2_eq V c) (ix2 r j)

theorem final3_mean :
    (dat3 (F := Ideal) V c).arrAt 3 cfg3.N (ValueIdx.ix2 (0 : Fin 1) j)
      = (Ideal.div (∑ r : Fin 50000, (xarr3 V c (ValueIdx.ix2 r j) + barr3 V c (ValueIdx.ix2 (0 : Fin 1) j)))
          (Ideal.ofBits .f32 0x47435000#32) : Elt Ideal .f32) :=
  congrFun (arr3_3_eq V c) (ix2 (0 : Fin 1) j)

theorem final3_var :
    (dat3 (F := Ideal) V c).arrAt 4 cfg3.N (ValueIdx.ix2 (0 : Fin 1) j)
      = (max (Ideal.div (∑ r : Fin 50000, (xarr3 V c (ValueIdx.ix2 r j) + barr3 V c (ValueIdx.ix2 (0 : Fin 1) j))
              * (xarr3 V c (ValueIdx.ix2 r j) + barr3 V c (ValueIdx.ix2 (0 : Fin 1) j)))
            (Ideal.ofBits .f32 0x47435000#32)
          - Ideal.div (∑ r : Fin 50000, (xarr3 V c (ValueIdx.ix2 r j) + barr3 V c (ValueIdx.ix2 (0 : Fin 1) j)))
              (Ideal.ofBits .f32 0x47435000#32)
            * Ideal.div (∑ r : Fin 50000, (xarr3 V c (ValueIdx.ix2 r j) + barr3 V c (ValueIdx.ix2 (0 : Fin 1) j)))
              (Ideal.ofBits .f32 0x47435000#32)) 0 : Elt Ideal .f32) :=
  congrFun (arr3_4_eq V c) (ix2 (0 : Fin 1) j)

end

end Array

end Cert.KernelIdeal.Hand

end
-- ==== Proof.Bridge.L3.lean ====
import proofs.«418912_j86466281603780_3_alg».proof.Proof.KI.Val3
import proofs.«418912_j86466281603780_3_alg».proof.Proof.Ref.Read
import proofs.«418912_j86466281603780_3_alg».proof.Proof.Math.BN
import proofs.«418912_j86466281603780_3_alg».proof.Proof.Math.FinChainA

noncomputable section

namespace Cert.Bridge

open Idealize.ShloMosaic Idealize.ShloMosaic.TcCoe Idealize.ShloMosaic.ValueIdx Idealize.SL.Sem
open Cert.KernelIdeal Cert.KernelIdeal.Gen Cert.KernelIdeal.Hand
open Cert.ReferenceIdeal.ReadP
open Cert.Math
open scoped BigOperators

variable (a0 : (⟨Cert.ReferenceIdeal.S50000x128, .f32⟩ : BufTy).Contents (Elt Ideal)) (a1 : (⟨Cert.ReferenceIdeal.S2x800000, .i32⟩ : BufTy).Contents (Elt Ideal)) (a2 : (⟨Cert.ReferenceIdeal.S128x256, .f32⟩ : BufTy).Contents (Elt Ideal)) (a3 : (⟨Cert.ReferenceIdeal.S256, .f32⟩ : BufTy).Contents (Elt Ideal)) (a4 : (⟨Cert.ReferenceIdeal.S256x256, .f32⟩ : BufTy).Contents (Elt Ideal)) (a5 : (⟨Cert.ReferenceIdeal.S256, .f32⟩ : BufTy).Contents (Elt Ideal)) (a8 a9 : (⟨Cert.ReferenceIdeal.S256, .f32⟩ : BufTy).Contents (Elt Ideal)) (V : (c : Dev nD) → (b : Ref sig .tc) → Buf (Elt Ideal) ((c : Thread nD τ).loc b)) (c : Dev nD)

theorem col_var3 (y h : Fin 50000 → EReal) (hyh : ∀ r, y r = h r) (hh : AllFin h) :
    max (Ideal.div (∑ r : Fin 50000, y r * y r) (Ideal.ofBits .f32 0x47435000#32)
        - Ideal.div (∑ r : Fin 50000, y r) (Ideal.ofBits .f32 0x47435000#32)
          * Ideal.div (∑ r : Fin 50000, y r) (Ideal.ofBits .f32 0x47435000#32)) 0
      = Ideal.div (∑ r : Fin 50000,
            (h r - Ideal.div (∑ r : Fin 50000, h r) (Ideal.ofBits .f32 0x47435000#32))
              * (h r - Ideal.div (∑ r : Fin 50000, h r) (Ideal.ofBits .f32 0x47435000#32)))
          (Ideal.ofBits .f32 0x47435000#32) := by
  obtain rfl : y = h := funext hyh
  rw [ofBits_50000, max_var_zero_50000 hh, var_identity_50000 hh]

theorem bridge3_entry (hx : xarr3 V c = val_main_v86 (F := Ideal) a0 a1 a2 a3 a4 a8 a9)
    (hb : ∀ j : Fin 256, barr3 V c (ix2 (0 : Fin 1) j) = a5 (ix1 j)) (r : Fin 50000) (j : Fin 256) :
    (xarr3 V c (ix2 r j) + barr3 V c (ix2 (0 : Fin 1) j) : Elt Ideal .f32)
      = val_main_v89 (F := Ideal) a0 a1 a2 a3 a4 a5 a8 a9 (ix2 r j) :=
  (congrArg₂ (fun u v : EReal => u + v) (congrFun hx (ix2 r j)) (hb j)).trans
    (Cert.ReferenceIdeal.RefValue.v89_at a0 a1 a2 a3 a4 a5 a8 a9 r j).symm

theorem bridge3_out (hx : xarr3 V c = val_main_v86 (F := Ideal) a0 a1 a2 a3 a4 a8 a9)
    (hb : ∀ j : Fin 256, barr3 V c (ix2 (0 : Fin 1) j) = a5 (ix1 j)) :
    (dat3 (F := Ideal) V c).arrAt 2 cfg3.N = val_main_v89 (F := Ideal) a0 a1 a2 a3 a4 a5 a8 a9 := by
  funext i
  obtain ⟨r, j, rfl⟩ : ∃ (r : Fin 50000) (j : Fin 256), i = ix2 r j := ⟨i 0, i 1, eq_ix2 i⟩
  exact (final3_out V c r j).trans (bridge3_entry a0 a1 a2 a3 a4 a5 a8 a9 V c hx hb r j)

theorem bridge3_mean (hx : xarr3 V c = val_main_v86 (F := Ideal) a0 a1 a2 a3 a4 a8 a9)
    (hb : ∀ j : Fin 256, barr3 V c (ix2 (0 : Fin 1) j) = a5 (ix1 j)) (j : Fin 256) :
    (dat3 (F := Ideal) V c).arrAt 3 cfg3.N (ix2 (0 : Fin 1) j) = val_main_v92 (F := Ideal) a0 a1 a2 a3 a4 a5 a8 a9 (ix1 j) := by
  refine (final3_mean V c j).trans ?_
  refine Eq.trans ?_ (Cert.ReferenceIdeal.RefValue.v92_at a0 a1 a2 a3 a4 a5 a8 a9 j).symm
  refine congrArg (fun s : EReal => Ideal.div s (Ideal.ofBits .f32 0x47435000#32)) ?_
  exact Finset.sum_congr rfl fun r _ => bridge3_entry a0 a1 a2 a3 a4 a5 a8 a9 V c hx hb r j

theorem bridge3_var (hx : xarr3 V c = val_main_v86 (F := Ideal) a0 a1 a2 a3 a4 a8 a9)
    (hb : ∀ j : Fin 256, barr3 V c (ix2 (0 : Fin 1) j) = a5 (ix1 j))
    (hfin : AllFin (val_main_v89 (F := Ideal) a0 a1 a2 a3 a4 a5 a8 a9)) (j : Fin 256) :
    (dat3 (F := Ideal) V c).arrAt 4 cfg3.N (ix2 (0 : Fin 1) j) = val_main_v99 (F := Ideal) a0 a1 a2 a3 a4 a5 a8 a9 (ix1 j) := by
  refine (final3_var V c j).trans ?_
  refine Eq.trans ?_ (Cert.ReferenceIdeal.RefValue.v99_at a0 a1 a2 a3 a4 a5 a8 a9 j).symm
  rw [Cert.ReferenceIdeal.RefValue.v92_at a0 a1 a2 a3 a4 a5 a8 a9 j]
  exact col_var3 (fun r : Fin 50000 => xarr3 V c (ix2 r j) + barr3 V c (ix2 (0 : Fin 1) j))
    (fun r : Fin 50000 => val_main_v89 (F := Ideal) a0 a1 a2 a3 a4 a5 a8 a9 (ix2 r j))
    (fun r => bridge3_entry a0 a1 a2 a3 a4 a5 a8 a9 V c hx hb r j) (fun r => hfin (ix2 r j))

end Cert.Bridge

end
-- ==== Proof.KI.Pay4.lean ====
import proofs.«418912_j86466281603780_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

variable (i : S1000x40.Idx) (q : dot_S1000x256_S256x40_S1000x40_1_0_0_1_n_n.contr.Idx)

theorem lhs_mm4_0 :
    (dot_S1000x256_S256x40_S1000x40_1_0_0_1_n_n.lhsIdx i q 0).val = (i 0).val := by
  unfold DotDims.lhsIdx
  rw [dif_neg (show ¬(0 : Fin S1000x256.rank) ∈ dot_S1000x256_S256x40_S1000x40_1_0_0_1_n_n.lhsBatch by decide), dif_pos (show (0 : Fin S1000x256.rank) ∈ dot_S1000x256_S256x40_S1000x40_1_0_0_1_n_n.lhsNonContracting by decide)]
  rfl
theorem lhs_mm4_1 :
    (dot_S1000x256_S256x40_S1000x40_1_0_0_1_n_n.lhsIdx i q 1).val = (q ⟨0, by decide⟩).val :=
  dot_S1000x256_S256x40_S1000x40_1_0_0_1_n_n.lhsIdx_val_of_single rfl i q
theorem rhs_mm4_0 :
    (dot_S1000x256_S256x40_S1000x40_1_0_0_1_n_n.rhsIdx i q 0).val = (q ⟨0, by decide⟩).val :=
  dot_S1000x256_S256x40_S1000x40_1_0_0_1_n_n.rhsIdx_val_of_single rfl i q
theorem rhs_mm4_1 :
    (dot_S1000x256_S256x40_S1000x40_1_0_0_1_n_n.rhsIdx i q 1).val = (i 1).val := by
  unfold DotDims.rhsIdx
  rw [dif_neg (show ¬(1 : Fin S256x40.rank) ∈ dot_S1000x256_S256x40_S1000x40_1_0_0_1_n_n.rhsBatch by decide), dif_pos (show (1 : Fin S256x40.rank) ∈ dot_S1000x256_S256x40_S1000x40_1_0_0_1_n_n.rhsNonContracting by decide)]
  rfl

theorem k4_pay1_apply (v0 v5 v8 v10 : FVec Ideal S1x256 .f32) (v14 : FVec Ideal S1000x256 .f32) (v22 : FVec Ideal S256x40 .f32)
    (p : Fin 1000) (j : Fin 40) :
    k4_pay1 (F := Ideal) v0 v5 v8 v10 v14 v22 (ix2 p j)
      = ∑ q : Fin 256, max (v14 (ix2 p q) * (Ideal.rsqrt (v0 (ix2 (0 : Fin 1) q) + Ideal.ofBits .f32 0x3727C5AC#32) * v5 (ix2 (0 : Fin 1) q))
          + (v8 (ix2 (0 : Fin 1) q) - v10 (ix2 (0 : Fin 1) q) * (Ideal.rsqrt (v0 (ix2 (0 : Fin 1) q) + Ideal.ofBits .f32 0x3727C5AC#32) * v5 (ix2 (0 : Fin 1) q)))) 0
        * v22 (ix2 q j) := by
  unfold k4_pay1
  refine (Ideal.matmul_constant_zero_apply dot_S1000x256_S256x40_S1000x40_1_0_0_1_n_n (some .fp32) _ v22 (ix2 p j)).trans ?_
  rw [← Equiv.sum_comp (contrEquiv1 dot_S1000x256_S256x40_S1000x40_1_0_0_1_n_n 256 rfl rfl).symm]
  refine Finset.sum_congr rfl fun q _ => ?_
  have hq := contrEquiv1_symm_val dot_S1000x256_S256x40_S1000x40_1_0_0_1_n_n 256 rfl rfl q
  have el : dot_S1000x256_S256x40_S1000x40_1_0_0_1_n_n.lhsIdx (ix2 p j) ((contrEquiv1 dot_S1000x256_S256x40_S1000x40_1_0_0_1_n_n 256 rfl rfl).symm q) = ix2 p q := funext fun a => Fin.ext (by
    match a with
    | ⟨0, _⟩ => exact lhs_mm4_0 _ _
    | ⟨1, _⟩ => exact (lhs_mm4_1 _ _).trans hq)
  have er : dot_S1000x256_S256x40_S1000x40_1_0_0_1_n_n.rhsIdx (ix2 p j) ((contrEquiv1 dot_S1000x256_S256x40_S1000x40_1_0_0_1_n_n 256 rfl rfl).symm q) = ix2 q j := funext fun a => Fin.ext (by
    match a with
    | ⟨0, _⟩ => exact (rhs_mm4_0 _ _).trans hq
    | ⟨1, _⟩ => exact rhs_mm4_1 _ _)
  rw [el, er]
  refine congrArg (· * v22 (ix2 q j)) ?_
  simp only [shapeCast_self]
  simp only [maximumf_apply, addf_apply, mulf_apply, subf_apply, broadcast_apply, broadcastTo_1b_ab_apply]
  exact congrArg (max _) Ideal.ofBits_zero_f32

end Cert.KernelIdeal.Hand

end
-- ==== Proof.KI.Val4.lean ====
import proofs.«418912_j86466281603780_3_alg».proof.Proof.KI.Reg4
import proofs.«418912_j86466281603780_3_alg».proof.Proof.KI.Pay4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD) (t : Fin cfg4.N) (i : S50000x40.Idx) (r : Fin 50000) (q : Fin 256) (j : Fin 40)

abbrev x4 : FVec Ideal S50000x256 .f32 := V c (Pipeline.arrRef spec4 0)

abbrev w4 : FVec Ideal S256x40 .f32 := V c (Pipeline.arrRef spec4 1)

abbrev mean4 : FVec Ideal S1x256 .f32 := V c (Pipeline.arrRef spec4 2)

abbrev var4 : FVec Ideal S1x256 .f32 := V c (Pipeline.arrRef spec4 3)

abbrev gamma4 : FVec Ideal S1x256 .f32 := V c (Pipeline.arrRef spec4 4)

abbrev beta4 : FVec Ideal S1x256 .f32 := V c (Pipeline.arrRef spec4 5)

section
variable (x : FVec Ideal S50000x256 .f32) (W : FVec Ideal S256x40 .f32) (mu var g b : FVec Ideal S1x256 .f32)

def G4 : FVec Ideal S50000x40 .f32 := fun i =>
  ∑ q : Fin 256, max (x (ix2 (⟨(i 0).val, idx2_lt0 i⟩ : Fin 50000) q) * (Ideal.rsqrt (var (ix2 (0 : Fin 1) q) + Ideal.ofBits .f32 0x3727C5AC#32) * g (ix2 (0 : Fin 1) q))
      + (b (ix2 (0 : Fin 1) q) - mu (ix2 (0 : Fin 1) q) * (Ideal.rsqrt (var (ix2 (0 : Fin 1) q) + Ideal.ofBits .f32 0x3727C5AC#32) * g (ix2 (0 : Fin 1) q)))) 0
    * W (ix2 q (⟨(i 1).val, idx2_lt1 i⟩ : Fin 40))

theorem G4_apply (i : S50000x40.Idx) (r : Fin 50000) (j : Fin 40) (hr : (i 0).val = r.val) (hj : (i 1).val = j.val) :
    G4 x W mu var g b i
      = ∑ q : Fin 256, max (x (ix2 r q) * (Ideal.rsqrt (var (ix2 (0 : Fin 1) q) + Ideal.ofBits .f32 0x3727C5AC#32) * g (ix2 (0 : Fin 1) q))
          + (b (ix2 (0 : Fin 1) q) - mu (ix2 (0 : Fin 1) q) * (Ideal.rsqrt (var (ix2 (0 : Fin 1) q) + Ideal.ofBits .f32 0x3727C5AC#32) * g (ix2 (0 : Fin 1) q)))) 0
        * W (ix2 q j) := by
  have e0 : (⟨(i 0).val, idx2_lt0 i⟩ : Fin 50000) = r := Fin.ext hr
  have e1 : (⟨(i 1).val, idx2_lt1 i⟩ : Fin 40) = j := Fin.ext hj
  unfold G4
  rw [e0, e1]

end

theorem hz4 : (![0, 0] : Fin 2 → Nat) = fun _ => 0 := funext fun a => by fin_cases a <;> rfl

theorem idx_facts4 : ∀ t : Fin cfg4.N, t.val < 50
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

theorem iblk4_0_apply (p : Fin 1000) (q : Fin 256) (hr : r.val = t.val * 1000 + p.val) :
    (iblk4 V c 0 t : FVec Ideal S1000x256 .f32) (ix2 p q) = x4 V c (ix2 r q) := by
  obtain ⟨ht, e00, e01, -⟩ := idx_facts4 t
  show V c (Pipeline.arrRef spec4 0) (((cfg4.win 0).blk t).view.emb (ix2 p q)) = V c (Pipeline.arrRef spec4 0) (ix2 r q)
  refine congrArg _ (funext fun a => Fin.ext ?_)
  match a with
  | ⟨0, _⟩ => show win4_0.index t (0 : Fin 2) * 1000 + 1 * p.val = r.val; omega
  | ⟨1, _⟩ => show win4_0.index t (1 : Fin 2) * 256 + 1 * q.val = q.val; omega

theorem iblk4_1_apply :
    (iblk4 V c 1 t : FVec Ideal S256x40 .f32) (ix2 q j) = w4 V c (ix2 q j) := by
  obtain ⟨ht, -, -, e10, e11, -⟩ := idx_facts4 t
  show V c (Pipeline.arrRef spec4 1) (((cfg4.win 1).blk t).view.emb (ix2 q j)) = V c (Pipeline.arrRef spec4 1) (ix2 q j)
  refine congrArg _ (funext fun a => Fin.ext ?_)
  match a with
  | ⟨0, _⟩ => show win4_1.index t (0 : Fin 2) * 256 + 1 * q.val = q.val; omega
  | ⟨1, _⟩ => show win4_1.index t (1 : Fin 2) * 40 + 1 * j.val = j.val; omega

theorem iblk4_2_apply :
    (iblk4 V c 2 t : FVec Ideal S1x256 .f32) (ix2 (0 : Fin 1) q) = mean4 V c (ix2 (0 : Fin 1) q) := by
  obtain ⟨ht, -, -, -, -, e20, e21, -⟩ := idx_facts4 t
  show V c (Pipeline.arrRef spec4 2) (((cfg4.win 2).blk t).view.emb (ix2 (0 : Fin 1) q)) = V c (Pipeline.arrRef spec4 2) (ix2 (0 : Fin 1) q)
  refine congrArg _ (funext fun a => Fin.ext ?_)
  match a with
  | ⟨0, _⟩ => show win4_2.index t (0 : Fin 2) * 1 + 1 * 0 = 0; omega
  | ⟨1, _⟩ => show win4_2.index t (1 : Fin 2) * 256 + 1 * q.val = q.val; omega
theorem iblk4_3_apply :
    (iblk4 V c 3 t : FVec Ideal S1x256 .f32) (ix2 (0 : Fin 1) q) = var4 V c (ix2 (0 : Fin 1) q) := by
  obtain ⟨ht, -, -, -, -, -, -, e30, e31, -⟩ := idx_facts4 t
  show V c (Pipeline.arrRef spec4 3) (((cfg4.win 3).blk t).view.emb (ix2 (0 : Fin 1) q)) = V c (Pipeline.arrRef spec4 3) (ix2 (0 : Fin 1) q)
  refine congrArg _ (funext fun a => Fin.ext ?_)
  match a with
  | ⟨0, _⟩ => show win4_3.index t (0 : Fin 2) * 1 + 1 * 0 = 0; omega
  | ⟨1, _⟩ => show win4_3.index t (1 : Fin 2) * 256 + 1 * q.val = q.val; omega
theorem iblk4_4_apply :
    (iblk4 V c 4 t : FVec Ideal S1x256 .f32) (ix2 (0 : Fin 1) q) = gamma4 V c (ix2 (0 : Fin 1) q) := by
  obtain ⟨ht, -, -, -, -, -, -, -, -, e40, e41, -⟩ := idx_facts4 t
  show V c (Pipeline.arrRef spec4 4) (((cfg4.win 4).blk t).view.emb (ix2 (0 : Fin 1) q)) = V c (Pipeline.arrRef spec4 4) (ix2 (0 : Fin 1) q)
  refine congrArg _ (funext fun a => Fin.ext ?_)
  match a with
  | ⟨0, _⟩ => show win4_4.index t (0 : Fin 2) * 1 + 1 * 0 = 0; omega
  | ⟨1, _⟩ => show win4_4.index t (1 : Fin 2) * 256 + 1 * q.val = q.val; omega
theorem iblk4_5_apply :
    (iblk4 V c 5 t : FVec Ideal S1x256 .f32) (ix2 (0 : Fin 1) q) = beta4 V c (ix2 (0 : Fin 1) q) := by
  obtain ⟨ht, -, -, -, -, -, -, -, -, -, -, e50, e51, -⟩ := idx_facts4 t
  show V c (Pipeline.arrRef spec4 5) (((cfg4.win 5).blk t).view.emb (ix2 (0 : Fin 1) q)) = V c (Pipeline.arrRef spec4 5) (ix2 (0 : Fin 1) q)
  refine congrArg _ (funext fun a => Fin.ext ?_)
  match a with
  | ⟨0, _⟩ => show win4_5.index t (0 : Fin 2) * 1 + 1 * 0 = 0; omega
  | ⟨1, _⟩ => show win4_5.index t (1 : Fin 2) * 256 + 1 * q.val = q.val; omega

theorem flushed4_eq :
    (dat4 V c).flushed 6 t = ((cfg4.win 6).blk t).view.read (Elt Ideal) (G4 (x4 V c) (w4 V c) (mean4 V c) (var4 V c) (gamma4 V c) (beta4 V c)) := by
  show (cfg4.win 6).cut (grid4.coords t) ((dat4 V c).after 6 t) = _
  rw [after4_6]
  unfold out4_6
  rw [View.canon_unit_zero hz4]
  simp only [View.ld_unit_zero (S := S1000x256) hz4, View.ld_unit_zero (S := S256x40) hz4, View.ld_unit_zero (S := S1x256) hz4]
  funext y
  obtain ⟨p, j, rfl⟩ : ∃ (p : Fin 1000) (j : Fin 40), y = ix2 p j := ⟨y 0, y 1, eq_ix2 y⟩
  obtain ⟨ht, -, -, -, -, -, -, -, -, -, -, -, -, e60, e61⟩ := idx_facts4 t
  have hr : t.val * 1000 + p.val < 50000 := by have := p.isLt; omega
  show k4_pay1 (F := Ideal) (iblk4 V c 3 t) (iblk4 V c 4 t) (iblk4 V c 5 t) (iblk4 V c 2 t) (iblk4 V c 0 t) (iblk4 V c 1 t) (ix2 p j)
    = G4 (x4 V c) (w4 V c) (mean4 V c) (var4 V c) (gamma4 V c) (beta4 V c) (((cfg4.win 6).blk t).view.emb (ix2 p j))
  refine (k4_pay1_apply (iblk4 V c 3 t) (iblk4 V c 4 t) (iblk4 V c 5 t) (iblk4 V c 2 t) (iblk4 V c 0 t) (iblk4 V c 1 t) p j).trans ?_
  refine Eq.trans ?_ (G4_apply (x4 V c) (w4 V c) (mean4 V c) (var4 V c) (gamma4 V c) (beta4 V c)
    (((cfg4.win 6).blk t).view.emb (ix2 p j)) ⟨t.val * 1000 + p.val, hr⟩ j ?_ ?_).symm
  · refine Finset.sum_congr rfl fun q _ => ?_
    rw [iblk4_0_apply V c t ⟨t.val * 1000 + p.val, hr⟩ p q rfl, iblk4_1_apply V c t q j, iblk4_2_apply V c t q,
      iblk4_3_apply V c t q, iblk4_4_apply V c t q, iblk4_5_apply V c t q]
  · show win4_6.index t (0 : Fin 2) * 1000 + 1 * p.val = t.val * 1000 + p.val; omega
  · show win4_6.index t (1 : Fin 2) * 40 + 1 * j.val = j.val; omega

theorem mem_blk4_6 :
    i ∈ ((cfg4.win 6).blk t).view.set ↔ ∀ a : Fin 2, win4_6.index t a * S1000x40.size a ≤ (i a).val ∧ (i a).val < win4_6.index t a * S1000x40.size a + S1000x40.size a := by
  show i ∈ ((View.whole main_v66).slice (win4_6.rect t)).set ↔ _
  rw [View.set_slice_whole, Rect.mem_set_unit]
  exact Iff.rfl

theorem cover4_6_arr : ∃ t : Fin cfg4.N, (cfg4.win 6).flush t = true ∧ i ∈ ((cfg4.win 6).blk t).view.set := by
  have hi0 : (i 0).val < 50000 := (i 0).isLt
  have hi1 : (i 1).val < 40 := (i 1).isLt
  have hN : (i 0).val / 1000 < cfg4.N := by show _ < grid4.N; rw [N_4]; omega
  refine ⟨⟨(i 0).val / 1000, hN⟩, flush4_6 _, ?_⟩
  rw [mem_blk4_6]
  obtain ⟨-, -, -, -, -, -, -, -, -, -, -, -, -, e60, e61⟩ := idx_facts4 ⟨(i 0).val / 1000, hN⟩
  intro a
  match a with
  | ⟨0, _⟩ =>
    show win4_6.index ⟨(i 0).val / 1000, hN⟩ (0 : Fin 2) * 1000 ≤ (i 0).val ∧ (i 0).val < win4_6.index ⟨(i 0).val / 1000, hN⟩ (0 : Fin 2) * 1000 + 1000
    rw [e60]; show (i 0).val / 1000 * 1000 ≤ (i 0).val ∧ (i 0).val < (i 0).val / 1000 * 1000 + 1000; omega
  | ⟨1, _⟩ =>
    show win4_6.index ⟨(i 0).val / 1000, hN⟩ (1 : Fin 2) * 40 ≤ (i 1).val ∧ (i 1).val < win4_6.index ⟨(i 0).val / 1000, hN⟩ (1 : Fin 2) * 40 + 40
    rw [e61]; omega

theorem arr4_6 :
    (dat4 V c).arrAt 6 cfg4.N = G4 (x4 V c) (w4 V c) (mean4 V c) (var4 V c) (gamma4 V c) (beta4 V c) :=
  (dat4 V c).arrAt_eq_of_cover 6 (G4 (x4 V c) (w4 V c) (mean4 V c) (var4 V c) (gamma4 V c) (beta4 V c)) (fun t _ => flushed4_eq V c t) cover4_6_arr

theorem final4 :
    ((dat4 (F := Ideal) V c).arrAt 6 cfg4.N : FVec Ideal S50000x40 .f32) (ix2 r j)
      = ∑ q : Fin 256, max (x4 V c (ix2 r q) * (Ideal.rsqrt (var4 V c (ix2 (0 : Fin 1) q) + Ideal.ofBits .f32 0x3727C5AC#32) * gamma4 V c (ix2 (0 : Fin 1) q))
          + (beta4 V c (ix2 (0 : Fin 1) q) - mean4 V c (ix2 (0 : Fin 1) q) * (Ideal.rsqrt (var4 V c (ix2 (0 : Fin 1) q) + Ideal.ofBits .f32 0x3727C5AC#32) * gamma4 V c (ix2 (0 : Fin 1) q)))) 0
        * w4 V c (ix2 q j) := by
  rw [arr4_6]
  exact G4_apply (x4 V c) (w4 V c) (mean4 V c) (var4 V c) (gamma4 V c) (beta4 V c) (ix2 r j) r j rfl rfl

end Cert.KernelIdeal.Hand

end
-- ==== Proof.Bridge.L4.lean ====
import proofs.«418912_j86466281603780_3_alg».proof.Proof.KI.Val4
import proofs.«418912_j86466281603780_3_alg».proof.Proof.Ref.Read
import proofs.«418912_j86466281603780_3_alg».proof.Proof.Math.BN
import proofs.«418912_j86466281603780_3_alg».proof.Proof.Math.FinChainA

noncomputable section

namespace Cert.Bridge

open Idealize.ShloMosaic Idealize.ShloMosaic.TcCoe Idealize.ShloMosaic.ValueIdx Idealize.SL.Sem
open Cert.KernelIdeal Cert.KernelIdeal.Gen Cert.KernelIdeal.Hand
open Cert.ReferenceIdeal.ReadP
open Cert.Math
open scoped BigOperators

private theorem norm_lane {h : Fin 50000 → EReal} (hh : AllFin h) {mu var x g b : EReal}
    (hmu : mu = Ideal.div (∑ r : Fin 50000, h r) (Ideal.ofBits .f32 0x47435000#32))
    (hvar : var = Ideal.div (∑ r : Fin 50000, (h r - mu) * (h r - mu)) (Ideal.ofBits .f32 0x47435000#32))
    (hx : IsFin x) (hg : IsFin g) (hb : IsFin b) :
    x * (Ideal.rsqrt (var + Ideal.ofBits .f32 0x3727C5AC#32) * g)
        + (b - mu * (Ideal.rsqrt (var + Ideal.ofBits .f32 0x3727C5AC#32) * g))
      = ((x - mu) * Ideal.rsqrt (var + Ideal.ofBits .f32 0x3727C5AC#32)) * g + b := by
  rw [ofBits_50000] at hmu hvar
  subst hmu
  subst hvar

  have fmu : IsFin (Ideal.div (∑ r : Fin 50000, h r) ((50000 : ℝ) : EReal)) := isFin_mean_50000 hh

  have finv : IsFin (Ideal.rsqrt (Ideal.div (∑ r : Fin 50000,
      (h r - Ideal.div (∑ r : Fin 50000, h r) ((50000 : ℝ) : EReal))
        * (h r - Ideal.div (∑ r : Fin 50000, h r) ((50000 : ℝ) : EReal))) ((50000 : ℝ) : EReal)
      + Ideal.ofBits .f32 0x3727C5AC#32)) := by
    obtain ⟨e, he, hE⟩ := ofBits_eps_pos
    rw [hE, var_identity_50000 hh]
    obtain ⟨t, _, ht⟩ := rsqrt_var_add_pos_50000 hh he
    rw [ht]
    exact isFin_coe t
  exact affine_eq hx fmu finv hg hb

theorem bridge4 (a0 : (⟨Cert.ReferenceIdeal.S50000x128, .f32⟩ : BufTy).Contents (Elt Ideal))
    (a1 : (⟨Cert.ReferenceIdeal.S2x800000, .i32⟩ : BufTy).Contents (Elt Ideal))
    (a2 : (⟨Cert.ReferenceIdeal.S128x256, .f32⟩ : BufTy).Contents (Elt Ideal))
    (a3 : (⟨Cert.ReferenceIdeal.S256, .f32⟩ : BufTy).Contents (Elt Ideal))
    (a4 : (⟨Cert.ReferenceIdeal.S256x256, .f32⟩ : BufTy).Contents (Elt Ideal))
    (a5 : (⟨Cert.ReferenceIdeal.S256, .f32⟩ : BufTy).Contents (Elt Ideal))
    (a6 : (⟨Cert.ReferenceIdeal.S256x40, .f32⟩ : BufTy).Contents (Elt Ideal))
    (a8 a9 : (⟨Cert.ReferenceIdeal.S256, .f32⟩ : BufTy).Contents (Elt Ideal))
    (V : (c : Dev nD) → (b : Ref sig .tc) → Buf (Elt Ideal) ((c : Thread nD τ).loc b)) (c : Dev nD)
    (hx : x4 V c = val_main_v89 (F := Ideal) a0 a1 a2 a3 a4 a5 a8 a9) (hw : w4 V c = a6)
    (hmean : ∀ q : Fin 256, mean4 V c (ix2 (0 : Fin 1) q) = val_main_v92 (F := Ideal) a0 a1 a2 a3 a4 a5 a8 a9 (ix1 q))
    (hvar : ∀ q : Fin 256, var4 V c (ix2 (0 : Fin 1) q) = val_main_v99 (F := Ideal) a0 a1 a2 a3 a4 a5 a8 a9 (ix1 q))
    (hg : ∀ q : Fin 256, gamma4 V c (ix2 (0 : Fin 1) q) = a8 (ix1 q))
    (hbeta : ∀ q : Fin 256, beta4 V c (ix2 (0 : Fin 1) q) = a9 (ix1 q))
    (h89 : AllFin (val_main_v89 (F := Ideal) a0 a1 a2 a3 a4 a5 a8 a9)) (h8 : AllFin a8) (h9 : AllFin a9) :
    (dat4 (F := Ideal) V c).arrAt 6 cfg4.N = val_main_v116 (F := Ideal) a0 a1 a2 a3 a4 a5 a6 a8 a9 := by
  funext i
  obtain ⟨r, j, rfl⟩ : ∃ (r : Fin 50000) (j : Fin 40), i = ix2 r j := ⟨i 0, i 1, eq_ix2 i⟩

  have lane : ∀ q : Fin 256,
      max (x4 V c (ix2 r q) * (Ideal.rsqrt (var4 V c (ix2 (0 : Fin 1) q) + Ideal.ofBits .f32 0x3727C5AC#32) * gamma4 V c (ix2 (0 : Fin 1) q))
          + (beta4 V c (ix2 (0 : Fin 1) q) - mean4 V c (ix2 (0 : Fin 1) q) * (Ideal.rsqrt (var4 V c (ix2 (0 : Fin 1) q) + Ideal.ofBits .f32 0x3727C5AC#32) * gamma4 V c (ix2 (0 : Fin 1) q)))) 0
        * w4 V c (ix2 q j)
      = max (((val_main_v89 (F := Ideal) a0 a1 a2 a3 a4 a5 a8 a9 (ix2 r q) - val_main_v92 (F := Ideal) a0 a1 a2 a3 a4 a5 a8 a9 (ix1 q))
              * Ideal.rsqrt (val_main_v99 (F := Ideal) a0 a1 a2 a3 a4 a5 a8 a9 (ix1 q) + Ideal.ofBits .f32 0x3727C5AC#32))
            * a8 (ix1 q) + a9 (ix1 q)) 0
          * a6 (ix2 q j) := by
    intro q

    rw [congrFun hx (ix2 r q), congrFun hw (ix2 q j), hmean q, hvar q, hg q, hbeta q]

    rw [norm_lane (h := fun r' : Fin 50000 => val_main_v89 (F := Ideal) a0 a1 a2 a3 a4 a5 a8 a9 (ix2 r' q))
      (fun r' => h89 (ix2 r' q))
      (Cert.ReferenceIdeal.RefValue.v92_at a0 a1 a2 a3 a4 a5 a8 a9 q) (Cert.ReferenceIdeal.RefValue.v99_at a0 a1 a2 a3 a4 a5 a8 a9 q)
      (h89 (ix2 r q)) (h8 (ix1 q)) (h9 (ix1 q))]
  have hsum := Finset.sum_congr (rfl : (Finset.univ : Finset (Fin 256)) = Finset.univ) fun q _ => lane q
  exact (final4 V c r j).trans
    (hsum.trans (Cert.ReferenceIdeal.RefValue.v116_at a0 a1 a2 a3 a4 a5 a6 a8 a9 r j).symm)

end Cert.Bridge

end
-- ==== Proof.KI.Val5.lean ====
import proofs.«418912_j86466281603780_3_alg».proof.Proof.KI.Reg5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Layout
variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

def rowMax5 (v : Fin 40 → EReal) : EReal :=
  (Finset.univ : Finset (Fin 40)).fold max (Ideal.ofBits .f32 0xFF800000#32) v

def rowLsm5 (v : Fin 40 → EReal) (q : Fin 40) : EReal :=
  v q - (Ideal.log (∑ l : Fin 40, Ideal.exp (v l - rowMax5 v)) + rowMax5 v)

theorem lift5 (p : Fin 1000) (k : Fin 40) : reduces_S1000x40_S1000.lift (ix1 p) k = ix2 p k :=
  funext fun a => Fin.ext (match a with | ⟨0, _⟩ => rfl | ⟨1, _⟩ => rfl)

theorem laneSum5 (src : FVec Ideal S1000x40 .f32) (hacc : (0x00000000#32 : BitVec 32) = 0x00000000#32) (p : Fin 1000) :
    multiReduction (F := Ideal) .add [1] S1000 src 0x00000000#32 reduces_S1000x40_S1000 (.inl rfl) hacc (ix1 p)
      = ∑ l : Fin 40, src (ix2 p l) :=
  (Ideal.multiReduction_add_single src 0x00000000#32 reduces_S1000x40_S1000 (.inl rfl) hacc (ix1 p)).trans
    (Finset.sum_congr rfl fun k _ => congrArg src (lift5 p k))

theorem laneMax5 (src : FVec Ideal S1000x40 .f32) (hacc : (0xFF800000#32 : BitVec 32) = 0xFF800000#32) (p : Fin 1000) :
    multiReduction (F := Ideal) .maximumf [1] S1000 src 0xFF800000#32 reduces_S1000x40_S1000 (.inl rfl) hacc (ix1 p)
      = rowMax5 (fun l => src (ix2 p l)) :=
  (Ideal.multiReduction_maximumf_single src 0xFF800000#32 reduces_S1000x40_S1000 (.inl rfl) hacc (ix1 p)).trans
    (congrArg (fun f => (Finset.univ : Finset (Fin 40)).fold max (Ideal.ofBits .f32 0xFF800000#32) f)
      (funext fun l => congrArg src (lift5 p l)))

theorem lsmTail5 (y : FVec Ideal S1000x40 .f32) (hm : (0xFF800000#32 : BitVec 32) = 0xFF800000#32)
    (hs : (0x00000000#32 : BitVec 32) = 0x00000000#32) (p : Fin 1000) (q : Fin 40) :
    subf y (broadcastTo S1000x40
        (addf
          (log (shapeCast S1000x1
            (multiReduction (F := Ideal) .add [1] S1000
              (exp (subf y (broadcastTo S1000x40
                (shapeCast S1000x1
                  (multiReduction (F := Ideal) .maximumf [1] S1000 y 0xFF800000#32 reduces_S1000x40_S1000 (.inl rfl) hm)
                  shapeCasts_S1000_S1000x1)
                broadcasts_S1000x1_S1000x40)))
              0x00000000#32 reduces_S1000x40_S1000 (.inl rfl) hs)
            shapeCasts_S1000_S1000x1))
          (shapeCast S1000x1
            (multiReduction (F := Ideal) .maximumf [1] S1000 y 0xFF800000#32 reduces_S1000x40_S1000 (.inl rfl) hm)
            shapeCasts_S1000_S1000x1))
        broadcasts_S1000x1_S1000x40) (ix2 p q)
      = rowLsm5 (fun l => y (ix2 p l)) q := by

  have hcol : ∀ p' : Fin 1000,
      shapeCast S1000x1
        (multiReduction (F := Ideal) .maximumf [1] S1000 y 0xFF800000#32 reduces_S1000x40_S1000 (.inl rfl) hm)
        shapeCasts_S1000_S1000x1 (ix2 p' (0 : Fin 1)) = rowMax5 (fun l => y (ix2 p' l)) := fun p' =>
    (shapeCast_a_a1_apply _ shapeCasts_S1000_S1000x1 p' 0).trans (laneMax5 y hm p')
  generalize shapeCast S1000x1
    (multiReduction (F := Ideal) .maximumf [1] S1000 y 0xFF800000#32 reduces_S1000x40_S1000 (.inl rfl) hm)
    shapeCasts_S1000_S1000x1 = Mc at hcol ⊢

  have hexp : ∀ l : Fin 40, exp (subf y (broadcastTo S1000x40 Mc broadcasts_S1000x1_S1000x40)) (ix2 p l)
      = Ideal.exp (y (ix2 p l) - rowMax5 (fun l => y (ix2 p l))) := fun l => by
    show Ideal.exp (y (ix2 p l) - broadcastTo S1000x40 Mc broadcasts_S1000x1_S1000x40 (ix2 p l)) = _
    rw [broadcastTo_a1_ab_apply Mc broadcasts_S1000x1_S1000x40 p l, hcol p]
  show y (ix2 p q) - broadcastTo S1000x40 _ broadcasts_S1000x1_S1000x40 (ix2 p q) = _
  rw [broadcastTo_a1_ab_apply _ broadcasts_S1000x1_S1000x40 p q]
  show y (ix2 p q) - (Ideal.log (shapeCast S1000x1 _ shapeCasts_S1000_S1000x1 (ix2 p (0 : Fin 1))) + Mc (ix2 p (0 : Fin 1))) = _
  rw [shapeCast_a_a1_apply _ shapeCasts_S1000_S1000x1 p 0, laneSum5 _ hs p, hcol p, Finset.sum_congr rfl fun l _ => hexp l]
  rfl

theorem pay5_apply (x0 : Vec Ideal S1000x40 .f32) (x1 : Vec Ideal S1x40 .f32) (p : Fin 1000) (q : Fin 40) :
    k5_pay1 (F := Ideal) x0 x1 (ix2 p q) = rowLsm5 (fun l => x0 (ix2 p l) + x1 (ix2 (0 : Fin 1) l)) q := by
  unfold k5_pay1

  have hy : ∀ (p' : Fin 1000) (l : Fin 40),
      (addf (shapeCast S1000x40 x0 shapeCasts_S1000x40_S1000x40)
        (broadcastTo S1000x40 (shapeCast S1x40 x1 shapeCasts_S1x40_S1x40) broadcasts_S1x40_S1000x40) : FVec Ideal S1000x40 .f32) (ix2 p' l)
        = x0 (ix2 p' l) + x1 (ix2 (0 : Fin 1) l) := fun p' l => by
    rw [shapeCast_self, shapeCast_self]
    exact congrArg (x0 (ix2 p' l) + ·) (broadcastTo_1b_ab_apply x1 broadcasts_S1x40_S1000x40 p' l)
  generalize (addf (shapeCast S1000x40 x0 shapeCasts_S1000x40_S1000x40)
      (broadcastTo S1000x40 (shapeCast S1x40 x1 shapeCasts_S1x40_S1x40) broadcasts_S1x40_S1000x40) : FVec Ideal S1000x40 .f32) = y at hy ⊢
  refine (lsmTail5 y rfl rfl p q).trans ?_
  exact congrArg (fun v => rowLsm5 v q) (funext fun l => hy p l)

section Array

variable (V : (c : Dev nD) → (b : Ref sig .tc) → Buf (Elt Ideal) ((c : Thread nD τ).loc b))
section
variable (c : Dev nD) (t : Fin cfg5.N) (r : Fin 50000) (p : Fin 1000) (l : Fin 40)

abbrev x5 : Vec Ideal S50000x40 .f32 := V c (Pipeline.arrRef spec5 0)

abbrev b5 : Vec Ideal S1x40 .f32 := V c (Pipeline.arrRef spec5 1)

abbrev xblk5 : Vec Ideal S1000x40 .f32 := iblk5 V c 0 t

abbrev bblk5 : Vec Ideal S1x40 .f32 := iblk5 V c 1 t

def y5 : EReal := x5 V c (ix2 r l) + b5 V c (ix2 (0 : Fin 1) l)

def M5 : EReal := rowMax5 (y5 V c r)

theorem y5_def :
    y5 V c r l = x5 V c (ix2 r l) + b5 V c (ix2 (0 : Fin 1) l) := rfl

def G5 (x : Vec Ideal S50000x40 .f32) (b : Vec Ideal S1x40 .f32) : Vec Ideal S50000x40 .f32 :=
  fun i => rowLsm5 (fun l => x (ix2 (i 0) l) + b (ix2 (0 : Fin 1) l)) (i 1)

theorem hz5 : (![0, 0] : Fin 2 → Nat) = fun _ => 0 := funext fun a => by fin_cases a <;> rfl

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

def rowOf5 : Fin 50000 :=
  ⟨t.val * 1000 + p.val, by have ht : t.val < 50 := lt_of_lt_of_eq t.isLt N_5; have := p.isLt; omega⟩

theorem emb5_0 :
    (((cfg5.win 0).blk t).view.emb (ix2 p l) : S50000x40.Idx) = ix2 (rowOf5 t p) l := by
  obtain ⟨e0, e1, -, -, -, -⟩ := idx_facts5 t
  funext a; apply Fin.ext
  match a with
  | ⟨0, _⟩ => show win5_0.index t (0 : Fin 2) * 1000 + 1 * p.val = t.val * 1000 + p.val; omega
  | ⟨1, _⟩ => show win5_0.index t (1 : Fin 2) * 40 + 1 * l.val = l.val; omega

theorem emb5_1 :
    (((cfg5.win 1).blk t).view.emb (ix2 (0 : Fin 1) l) : S1x40.Idx) = ix2 (0 : Fin 1) l := by
  obtain ⟨-, -, e2, e3, -, -⟩ := idx_facts5 t
  funext a; apply Fin.ext
  match a with
  | ⟨0, _⟩ => show win5_1.index t (0 : Fin 2) * 1 + 1 * 0 = 0; omega
  | ⟨1, _⟩ => show win5_1.index t (1 : Fin 2) * 40 + 1 * l.val = l.val; omega

theorem emb5_2 (q : Fin 40) :
    (((cfg5.win 2).blk t).view.emb (ix2 p q) : S50000x40.Idx) = ix2 (rowOf5 t p) q := by
  obtain ⟨-, -, -, -, e4, e5⟩ := idx_facts5 t
  funext a; apply Fin.ext
  match a with
  | ⟨0, _⟩ => show win5_2.index t (0 : Fin 2) * 1000 + 1 * p.val = t.val * 1000 + p.val; omega
  | ⟨1, _⟩ => show win5_2.index t (1 : Fin 2) * 40 + 1 * q.val = q.val; omega

theorem xblk5_apply :
    xblk5 V c t (ix2 p l) = x5 V c (ix2 (rowOf5 t p) l) :=
  show x5 V c (((cfg5.win 0).blk t).view.emb (ix2 p l)) = _ from congrArg (x5 V c) (emb5_0 t p l)

theorem bblk5_apply :
    bblk5 V c t (ix2 (0 : Fin 1) l) = b5 V c (ix2 (0 : Fin 1) l) :=
  show b5 V c (((cfg5.win 1).blk t).view.emb (ix2 (0 : Fin 1) l)) = _ from congrArg (b5 V c) (emb5_1 t l)

theorem flushed5_eq :
    (dat5 (F := Ideal) V c).flushed 2 t = ((cfg5.win 2).blk t).view.read (Elt Ideal) (G5 (x5 V c) (b5 V c)) := by
  show (cfg5.win 2).cut (grid5.coords t) ((dat5 V c).after 2 t) = _
  rw [after5_2]
  unfold out5_2
  rw [View.canon_unit_zero hz5]
  simp only [View.ld_unit_zero (S := S1000x40) hz5, View.ld_unit_zero (S := S1x40) hz5]
  funext j
  obtain ⟨p, q, rfl⟩ : ∃ (p : Fin 1000) (q : Fin 40), j = ix2 p q := ⟨j 0, j 1, eq_ix2 j⟩
  show k5_pay1 (F := Ideal) (xblk5 V c t) (bblk5 V c t) (ix2 p q)
    = G5 (x5 V c) (b5 V c) (((cfg5.win 2).blk t).view.emb (ix2 p q))
  rw [emb5_2 t p q]
  refine (pay5_apply (xblk5 V c t) (bblk5 V c t) p q).trans ?_
  show _ = rowLsm5 (fun l => x5 V c (ix2 (rowOf5 t p) l) + b5 V c (ix2 (0 : Fin 1) l)) q
  exact congrArg (fun v => rowLsm5 v q)
    (funext fun l => congrArg₂ (· + ·) (xblk5_apply V c t p l) (bblk5_apply V c t l))

theorem mem_blk5 (i : S50000x40.Idx) :
    i ∈ ((cfg5.win 2).blk t).view.set ↔ ∀ a : Fin 2, win5_2.index t a * S1000x40.size a ≤ (i a).val ∧ (i a).val < win5_2.index t a * S1000x40.size a + S1000x40.size a := by
  show i ∈ ((View.whole main_v81).slice (win5_2.rect t)).set ↔ _
  rw [View.set_slice_whole, Rect.mem_set_unit]
  exact Iff.rfl

theorem cover5 (i : S50000x40.Idx) :
    ∃ t : Fin cfg5.N, (cfg5.win 2).flush t = true ∧ i ∈ ((cfg5.win 2).blk t).view.set := by
  have hi0 : (i 0).val < 50000 := (i 0).isLt
  have hi1 : (i 1).val < 40 := (i 1).isLt

  have ht : (i 0).val / 1000 < cfg5.N := lt_of_lt_of_eq (by omega : (i 0).val / 1000 < 50) N_5.symm
  refine ⟨⟨(i 0).val / 1000, ht⟩, flush5_2 _, ?_⟩
  rw [mem_blk5]
  obtain ⟨-, -, -, -, e4, e5⟩ := idx_facts5 ⟨(i 0).val / 1000, ht⟩
  have e4' : win5_2.index ⟨(i 0).val / 1000, ht⟩ (0 : Fin 2) = (i 0).val / 1000 := e4
  intro a
  match a with
  | ⟨0, _⟩ =>
    show win5_2.index ⟨(i 0).val / 1000, ht⟩ (0 : Fin 2) * 1000 ≤ (i 0).val
      ∧ (i 0).val < win5_2.index ⟨(i 0).val / 1000, ht⟩ (0 : Fin 2) * 1000 + 1000
    omega
  | ⟨1, _⟩ =>
    show win5_2.index ⟨(i 0).val / 1000, ht⟩ (1 : Fin 2) * 40 ≤ (i 1).val
      ∧ (i 1).val < win5_2.index ⟨(i 0).val / 1000, ht⟩ (1 : Fin 2) * 40 + 40
    omega

theorem arr5_eq : (dat5 (F := Ideal) V c).arrAt 2 cfg5.N = G5 (x5 V c) (b5 V c) :=
  (dat5 (F := Ideal) V c).arrAt_eq_of_cover 2 (G5 (x5 V c) (b5 V c)) (fun t _ => flushed5_eq V c t) (fun i => cover5 i)

theorem final5 (j : Fin 40) :
    (dat5 (F := Ideal) V c).arrAt 2 cfg5.N (ix2 r j)
      = y5 V c r j - (Ideal.log (∑ l : Fin 40, Ideal.exp (y5 V c r l - M5 V c r)) + M5 V c r) := by
  rw [arr5_eq V c]
  rfl

end

end Array

end Cert.KernelIdeal.Hand

end
-- ==== Proof.Math.LSM.lean ====
import proofs.«418912_j86466281603780_3_alg».proof.Proof.Math.Fin
import Mathlib.Algebra.Order.BigOperators.Group.Finset
import Mathlib.Data.Finset.Fold
import Mathlib.Tactic.Ring

noncomputable section

namespace Cert.Math

open Idealize.ShloMosaic
open scoped BigOperators

theorem sub_add_eq_sub_sub_swap' {x s m : EReal} (hx : IsFin x) (hs : IsFin s) (hm : IsFin m) :
    x - (s + m) = (x - m) - s := by
  obtain ⟨x, rfl⟩ := isFin_iff_coe.1 hx
  obtain ⟨s, rfl⟩ := isFin_iff_coe.1 hs
  obtain ⟨m, rfl⟩ := isFin_iff_coe.1 hm
  exact_mod_cast (by ring : x - (s + m) = (x - m) - s)

section Row

variable {ι : Type*} [Fintype ι]

theorem sum_exp_sub_pos [Nonempty ι] {y : ι → EReal} (hy : AllFin y) {M : EReal} (hM : IsFin M) :
    ∃ t : ℝ, 0 < t ∧ ∑ l, Ideal.exp (y l - M) = (t : EReal) := by
  obtain ⟨a, rfl⟩ := allFin_iff_coe.1 hy
  obtain ⟨b, rfl⟩ := isFin_iff_coe.1 hM
  refine ⟨∑ l, Real.exp (a l - b), Finset.sum_pos (fun l _ => Real.exp_pos _) Finset.univ_nonempty, ?_⟩
  rw [coe_finset_sum]
  refine Finset.sum_congr rfl fun l _ => ?_
  rw [← EReal.coe_sub, Ideal.exp_coe]

theorem isFin_log_sum_exp_sub [Nonempty ι] {y : ι → EReal} (hy : AllFin y) {M : EReal} (hM : IsFin M) :
    IsFin (Ideal.log (∑ l, Ideal.exp (y l - M))) := by
  obtain ⟨t, ht, h⟩ := sum_exp_sub_pos hy hM
  rw [h]; exact isFin_log ht

theorem isFin_fold_max_bot [Nonempty ι] {y : ι → EReal} (hy : AllFin y) :
    IsFin ((Finset.univ : Finset ι).fold max ⊥ y) := by
  constructor
  · exact ne_of_lt ((Finset.fold_max_lt ⊤).2 ⟨bot_lt_top, fun l _ => lt_top_iff_ne_top.2 (hy l).1⟩)
  · obtain ⟨l⟩ := ‹Nonempty ι›
    exact ne_of_gt ((Finset.lt_fold_max ⊥).2 (Or.inr ⟨l, Finset.mem_univ l, bot_lt_iff_ne_bot.2 (hy l).2⟩))

theorem log_softmax_regroup [Nonempty ι] {y : ι → EReal} (hy : AllFin y) {M x : EReal} (hM : IsFin M)
    (hx : IsFin x) :
    x - (Ideal.log (∑ l, Ideal.exp (y l - M)) + M) = (x - M) - Ideal.log (∑ l, Ideal.exp (y l - M)) :=
  sub_add_eq_sub_sub_swap' hx (isFin_log_sum_exp_sub hy hM) hM

end Row

theorem log_softmax_regroup_40 {y : Fin 40 → EReal} (hy : AllFin y) {M x : EReal} (hM : IsFin M) (hx : IsFin x) :
    x - (Ideal.log (∑ l : Fin 40, Ideal.exp (y l - M)) + M)
      = (x - M) - Ideal.log (∑ l : Fin 40, Ideal.exp (y l - M)) :=
  log_softmax_regroup hy hM hx

theorem isFin_fold_max_bot_40 {y : Fin 40 → EReal} (hy : AllFin y) :
    IsFin ((Finset.univ : Finset (Fin 40)).fold max ⊥ y) :=
  isFin_fold_max_bot hy

end Cert.Math

end
-- ==== Proof.Bridge.L5.lean ====
import proofs.«418912_j86466281603780_3_alg».proof.Proof.KI.Val5
import proofs.«418912_j86466281603780_3_alg».proof.Proof.Ref.Read
import proofs.«418912_j86466281603780_3_alg».proof.Proof.Math.LSM
import proofs.«418912_j86466281603780_3_alg».proof.Proof.Math.FinChainA

noncomputable section

namespace Cert.Bridge

open Idealize.ShloMosaic Idealize.ShloMosaic.TcCoe Idealize.ShloMosaic.ValueIdx Idealize.SL.Sem
open Cert.KernelIdeal Cert.KernelIdeal.Gen Cert.KernelIdeal.Hand
open Cert.ReferenceIdeal.ReadP
open Cert.Math
open scoped BigOperators

theorem lsm_row (y : Fin 40 → EReal) (hy : AllFin y) (j : Fin 40) :
    y j - (Ideal.log (∑ l : Fin 40, Ideal.exp (y l - rowMax5 y)) + rowMax5 y)
      = (y j - rowMax5 y) - Ideal.log (∑ k : Fin 40, Ideal.exp (y k - rowMax5 y)) := by
  have hM : IsFin (rowMax5 y) := by
    unfold rowMax5; rw [ofBits_neg_inf]; exact isFin_fold_max_bot_40 hy
  exact log_softmax_regroup_40 hy hM (hy j)

theorem bridge5 (a0 : (⟨Cert.ReferenceIdeal.S50000x128, .f32⟩ : BufTy).Contents (Elt Ideal))
    (a1 : (⟨Cert.ReferenceIdeal.S2x800000, .i32⟩ : BufTy).Contents (Elt Ideal))
    (a2 : (⟨Cert.ReferenceIdeal.S128x256, .f32⟩ : BufTy).Contents (Elt Ideal))
    (a3 : (⟨Cert.ReferenceIdeal.S256, .f32⟩ : BufTy).Contents (Elt Ideal))
    (a4 : (⟨Cert.ReferenceIdeal.S256x256, .f32⟩ : BufTy).Contents (Elt Ideal))
    (a5 : (⟨Cert.ReferenceIdeal.S256, .f32⟩ : BufTy).Contents (Elt Ideal))
    (a6 : (⟨Cert.ReferenceIdeal.S256x40, .f32⟩ : BufTy).Contents (Elt Ideal))
    (a7 : (⟨Cert.ReferenceIdeal.S40, .f32⟩ : BufTy).Contents (Elt Ideal))
    (a8 a9 : (⟨Cert.ReferenceIdeal.S256, .f32⟩ : BufTy).Contents (Elt Ideal))
    (V : (c : Dev nD) → (b : Ref sig .tc) → Buf (Elt Ideal) ((c : Thread nD τ).loc b)) (c : Dev nD)
    (hx : x5 V c = val_main_v129 (F := Ideal) a0 a1 a2 a3 a4 a5 a6 a8 a9)
    (hb : ∀ l : Fin 40, b5 V c (ix2 (0 : Fin 1) l) = a7 (ix1 l))
    (hfin : AllFin (val_main_v132 (F := Ideal) a0 a1 a2 a3 a4 a5 a6 a7 a8 a9)) :
    (dat5 (F := Ideal) V c).arrAt 2 cfg5.N = val_main_v133 (F := Ideal) a0 a1 a2 a3 a4 a5 a6 a7 a8 a9 := by
  funext i
  obtain ⟨r, j, rfl⟩ : ∃ (r : Fin 50000) (j : Fin 40), i = ix2 r j := ⟨i 0, i 1, eq_ix2 i⟩

  have hy : y5 V c r = fun l : Fin 40 => val_main_v132 (F := Ideal) a0 a1 a2 a3 a4 a5 a6 a7 a8 a9 (ix2 r l) :=
    funext fun l => (y5_def V c r l).trans
      ((congrArg₂ (fun u v : EReal => u + v) (congrFun hx (ix2 r l)) (hb l)).trans
        (Cert.ReferenceIdeal.RefValue.v132_at a0 a1 a2 a3 a4 a5 a6 a7 a8 a9 r l).symm)
  refine (final5 V c r j).trans ?_
  refine Eq.trans ?_ (Cert.ReferenceIdeal.RefValue.v133_at a0 a1 a2 a3 a4 a5 a6 a7 a8 a9 r j).symm
  show y5 V c r j - (Ideal.log (∑ l : Fin 40, Ideal.exp (y5 V c r l - rowMax5 (y5 V c r))) + rowMax5 (y5 V c r)) = _
  rw [hy]
  exact lsm_row (fun l : Fin 40 => val_main_v132 (F := Ideal) a0 a1 a2 a3 a4 a5 a6 a7 a8 a9 (ix2 r l))
    (fun l => hfin (ix2 r l)) j

end Cert.Bridge

end
-- ==== Proof.Bridge.ChainB.lean ====
import proofs.«418912_j86466281603780_3_alg».proof.Proof.Bridge.Carry
import proofs.«418912_j86466281603780_3_alg».proof.Proof.Bridge.HostGS
import proofs.«418912_j86466281603780_3_alg».proof.Proof.Bridge.L3
import proofs.«418912_j86466281603780_3_alg».proof.Proof.Bridge.L4
import proofs.«418912_j86466281603780_3_alg».proof.Proof.Bridge.L5
import proofs.«418912_j86466281603780_3_alg».proof.Proof.Math.FinChain

set_option quotPrecheck false

noncomputable section

namespace Cert.Bridge

open Idealize.ShloMosaic Idealize.ShloMosaic.TcCoe Idealize.ShloMosaic.ValueIdx Idealize.SL.Sem
open Cert.KernelIdeal Cert.KernelIdeal.Gen Cert.KernelIdeal.Hand
open Cert.ReferenceIdeal.ReadP
open Cert.Math
open scoped BigOperators

variable (m : (ℓ : Loc nD τ sig) → Buf (Elt Ideal) ℓ) (c : Dev nD)

local notation "A0" => (m ((c : Thread nD τ).loc main_arg0) : (⟨Cert.ReferenceIdeal.S50000x128, .f32⟩ : BufTy).Contents (Elt Ideal))
local notation "A1" => (m ((c : Thread nD τ).loc main_arg1) : (⟨Cert.ReferenceIdeal.S2x800000, .i32⟩ : BufTy).Contents (Elt Ideal))
local notation "A2" => (m ((c : Thread nD τ).loc main_arg2) : (⟨Cert.ReferenceIdeal.S128x256, .f32⟩ : BufTy).Contents (Elt Ideal))
local notation "A3" => (m ((c : Thread nD τ).loc main_arg3) : (⟨Cert.ReferenceIdeal.S256, .f32⟩ : BufTy).Contents (Elt Ideal))
local notation "A4" => (m ((c : Thread nD τ).loc main_arg4) : (⟨Cert.ReferenceIdeal.S256x256, .f32⟩ : BufTy).Contents (Elt Ideal))
local notation "A5" => (m ((c : Thread nD τ).loc main_arg5) : (⟨Cert.ReferenceIdeal.S256, .f32⟩ : BufTy).Contents (Elt Ideal))
local notation "A6" => (m ((c : Thread nD τ).loc main_arg6) : (⟨Cert.ReferenceIdeal.S256x40, .f32⟩ : BufTy).Contents (Elt Ideal))
local notation "A7" => (m ((c : Thread nD τ).loc main_arg7) : (⟨Cert.ReferenceIdeal.S40, .f32⟩ : BufTy).Contents (Elt Ideal))
local notation "A8" => (m ((c : Thread nD τ).loc main_arg8) : (⟨Cert.ReferenceIdeal.S256, .f32⟩ : BufTy).Contents (Elt Ideal))
local notation "A9" => (m ((c : Thread nD τ).loc main_arg9) : (⟨Cert.ReferenceIdeal.S256, .f32⟩ : BufTy).Contents (Elt Ideal))

theorem stepC (hA0 : AllFin A0) (hA2 : AllFin A2) (hA3 : AllFin A3) (hA4 : AllFin A4) (hA5 : AllFin A5)
    (hA8 : AllFin A8) (hA9 : AllFin A9)
    (hB : U8 m c main_v48 = val_main_v73 (F := Ideal) A0 A1 A2 A3 A4 A8 A9) :
    U10 m c main_v63_0 = val_main_v89 (F := Ideal) A0 A1 A2 A3 A4 A5 A8 A9
      ∧ (∀ j : Fin 256, (U10 m c main_v63_1 : (⟨Cert.ReferenceIdeal.S1x256, .f32⟩ : BufTy).Contents (Elt Ideal)) (ix2 (0 : Fin 1) j)
            = val_main_v92 (F := Ideal) A0 A1 A2 A3 A4 A5 A8 A9 (ix1 j))
      ∧ (∀ j : Fin 256, (U10 m c main_v63_2 : (⟨Cert.ReferenceIdeal.S1x256, .f32⟩ : BufTy).Contents (Elt Ideal)) (ix2 (0 : Fin 1) j)
            = val_main_v99 (F := Ideal) A0 A1 A2 A3 A4 A5 A8 A9 (ix1 j)) := by

  have e3 : U8 m c main_v3 = rowIdx A1 := (U8_keep m c main_v3 (by decide)).trans (U3_v3 m c)
  have e6 : U8 m c main_v6 = colIdx A1 := (U8_keep m c main_v6 (by decide)).trans (U3_v6 m c)
  have e29 : U8 m c main_v29 = edgeNorm A1 := (U8_keep m c main_v29 (by decide)).trans (U3_v29 m c)

  have hx : xarr3 (atTc (U9 m)) c = val_main_v86 (F := Ideal) A0 A1 A2 A3 A4 A8 A9 := by
    show StableHlo.after hostOps3 (U8 m c) main_v61 = _
    rw [h3_v61, e3, e6, e29, hB]
    exact (mp256_eq A1 _).trans (Cert.ReferenceIdeal.RefValue.v86_eq_aggregate A0 A1 A2 A3 A4 A8 A9).symm

  have hb : ∀ j : Fin 256, barr3 (atTc (U9 m)) c (ix2 (0 : Fin 1) j) = A5 (ix1 j) := fun j => by
    show (StableHlo.after hostOps3 (U8 m c) main_v62 : (⟨Cert.ReferenceIdeal.S1x256, .f32⟩ : BufTy).Contents (Elt Ideal)) (ix2 (0 : Fin 1) j) = _
    rw [h3_v62, U8_keep m c main_arg5 (by decide), U3_arg5 m c]
    exact row256_apply _ (0 : Fin 1) j
  have h89 : AllFin (val_main_v89 (F := Ideal) A0 A1 A2 A3 A4 A5 A8 A9) :=
    FinChain.fin_v89 A0 A1 A2 A3 A4 A5 A8 A9 hA0 hA2 hA3 hA4 hA5 hA8 hA9
  refine ⟨(U10_v63_0 m c).trans (bridge3_out A0 A1 A2 A3 A4 A5 A8 A9 (atTc (U9 m)) c hx hb), fun j => ?_, fun j => ?_⟩
  · exact (congrFun (U10_v63_1 m c) (ix2 (0 : Fin 1) j)).trans
      (bridge3_mean A0 A1 A2 A3 A4 A5 A8 A9 (atTc (U9 m)) c hx hb j)
  · exact (congrFun (U10_v63_2 m c) (ix2 (0 : Fin 1) j)).trans
      (bridge3_var A0 A1 A2 A3 A4 A5 A8 A9 (atTc (U9 m)) c hx hb h89 j)

theorem stepD (hA0 : AllFin A0) (hA2 : AllFin A2) (hA3 : AllFin A3) (hA4 : AllFin A4) (hA5 : AllFin A5)
    (hA8 : AllFin A8) (hA9 : AllFin A9)
    (hC : U10 m c main_v63_0 = val_main_v89 (F := Ideal) A0 A1 A2 A3 A4 A5 A8 A9
      ∧ (∀ j : Fin 256, (U10 m c main_v63_1 : (⟨Cert.ReferenceIdeal.S1x256, .f32⟩ : BufTy).Contents (Elt Ideal)) (ix2 (0 : Fin 1) j)
            = val_main_v92 (F := Ideal) A0 A1 A2 A3 A4 A5 A8 A9 (ix1 j))
      ∧ (∀ j : Fin 256, (U10 m c main_v63_2 : (⟨Cert.ReferenceIdeal.S1x256, .f32⟩ : BufTy).Contents (Elt Ideal)) (ix2 (0 : Fin 1) j)
            = val_main_v99 (F := Ideal) A0 A1 A2 A3 A4 A5 A8 A9 (ix1 j))) :
    U12 m c main_v66 = val_main_v116 (F := Ideal) A0 A1 A2 A3 A4 A5 A6 A8 A9 := by
  obtain ⟨hC0, hC1, hC2⟩ := hC
  have hx : x4 (atTc (U11 m)) c = val_main_v89 (F := Ideal) A0 A1 A2 A3 A4 A5 A8 A9 :=
    (U11_of m c main_v63_0 (by decide)).trans hC0
  have hw : w4 (atTc (U11 m)) c = A6 := (U11_keep m c main_arg6 (by decide)).trans (U3_arg6 m c)
  have hmean : ∀ q : Fin 256, mean4 (atTc (U11 m)) c (ix2 (0 : Fin 1) q)
      = val_main_v92 (F := Ideal) A0 A1 A2 A3 A4 A5 A8 A9 (ix1 q) := fun q =>
    (congrFun (U11_of m c main_v63_1 (by decide)) (ix2 (0 : Fin 1) q)).trans (hC1 q)
  have hvar : ∀ q : Fin 256, var4 (atTc (U11 m)) c (ix2 (0 : Fin 1) q)
      = val_main_v99 (F := Ideal) A0 A1 A2 A3 A4 A5 A8 A9 (ix1 q) := fun q =>
    (congrFun (U11_of m c main_v63_2 (by decide)) (ix2 (0 : Fin 1) q)).trans (hC2 q)
  have hg : ∀ q : Fin 256, gamma4 (atTc (U11 m)) c (ix2 (0 : Fin 1) q) = A8 (ix1 q) := fun q => by
    show (StableHlo.after hostOps4 (U10 m c) main_v64 : (⟨Cert.ReferenceIdeal.S1x256, .f32⟩ : BufTy).Contents (Elt Ideal)) (ix2 (0 : Fin 1) q) = _
    rw [h4_v64, U10_keep m c main_arg8 (by decide), U3_arg8 m c]
    exact row256_apply _ (0 : Fin 1) q
  have hbeta : ∀ q : Fin 256, beta4 (atTc (U11 m)) c (ix2 (0 : Fin 1) q) = A9 (ix1 q) := fun q => by
    show (StableHlo.after hostOps4 (U10 m c) main_v65 : (⟨Cert.ReferenceIdeal.S1x256, .f32⟩ : BufTy).Contents (Elt Ideal)) (ix2 (0 : Fin 1) q) = _
    rw [h4_v65, U10_keep m c main_arg9 (by decide), U3_arg9 m c]
    exact row256_apply _ (0 : Fin 1) q
  have h89 : AllFin (val_main_v89 (F := Ideal) A0 A1 A2 A3 A4 A5 A8 A9) :=
    FinChain.fin_v89 A0 A1 A2 A3 A4 A5 A8 A9 hA0 hA2 hA3 hA4 hA5 hA8 hA9
  exact (U12_v66 m c).trans
    (bridge4 A0 A1 A2 A3 A4 A5 A6 A8 A9 (atTc (U11 m)) c hx hw hmean hvar hg hbeta h89 hA8 hA9)

theorem stepE (hA0 : AllFin A0) (hA2 : AllFin A2) (hA3 : AllFin A3) (hA4 : AllFin A4) (hA5 : AllFin A5)
    (hA6 : AllFin A6) (hA7 : AllFin A7) (hA8 : AllFin A8) (hA9 : AllFin A9)
    (hD : U12 m c main_v66 = val_main_v116 (F := Ideal) A0 A1 A2 A3 A4 A5 A6 A8 A9) :
    U14 m c main_v81 = val_main_v133 (F := Ideal) A0 A1 A2 A3 A4 A5 A6 A7 A8 A9 := by
  have e3 : U12 m c main_v3 = rowIdx A1 := (U12_keep m c main_v3 (by decide)).trans (U3_v3 m c)
  have e6 : U12 m c main_v6 = colIdx A1 := (U12_keep m c main_v6 (by decide)).trans (U3_v6 m c)
  have e29 : U12 m c main_v29 = edgeNorm A1 := (U12_keep m c main_v29 (by decide)).trans (U3_v29 m c)
  have hx : x5 (atTc (U13 m)) c = val_main_v129 (F := Ideal) A0 A1 A2 A3 A4 A5 A6 A8 A9 := by
    show StableHlo.after hostOps5 (U12 m c) main_v79 = _
    rw [h5_v79, e3, e6, e29, hD]
    exact (mp40_eq A1 _).trans (Cert.ReferenceIdeal.RefValue.v129_eq_aggregate A0 A1 A2 A3 A4 A5 A6 A8 A9).symm
  have hb : ∀ l : Fin 40, b5 (atTc (U13 m)) c (ix2 (0 : Fin 1) l) = A7 (ix1 l) := fun l => by
    show (StableHlo.after hostOps5 (U12 m c) main_v80 : (⟨Cert.ReferenceIdeal.S1x40, .f32⟩ : BufTy).Contents (Elt Ideal))
      (ix2 (0 : Fin 1) l) = _
    rw [h5_v80, U12_keep m c main_arg7 (by decide), U3_arg7 m c]
    exact row40_apply _ (0 : Fin 1) l
  have hfin : AllFin (val_main_v132 (F := Ideal) A0 A1 A2 A3 A4 A5 A6 A7 A8 A9) :=
    FinChain.fin_v132 A0 A1 A2 A3 A4 A5 A6 A7 A8 A9 hA0 hA2 hA3 hA4 hA5 hA6 hA7 hA8 hA9
  exact (U14_v81 m c).trans (bridge5 A0 A1 A2 A3 A4 A5 A6 A7 A8 A9 (atTc (U13 m)) c hx hb hfin)

end Cert.Bridge

end
-- ==== Proof.lean ====
import proofs.«418912_j86466281603780_3_alg».proof.Defs
import proofs.«418912_j86466281603780_3_alg».proof.Proof.Gen.Kernel
import proofs.«418912_j86466281603780_3_alg».proof.Proof.Gen.KernelIdeal
import proofs.«418912_j86466281603780_3_alg».proof.Proof.Gen.ReferenceIdeal
import proofs.«418912_j86466281603780_3_alg».proof.Proof.Gen.Pre_finite_inputs
import proofs.«418912_j86466281603780_3_alg».proof.Proof.KB.Run
import proofs.«418912_j86466281603780_3_alg».proof.Proof.KI.Run
import proofs.«418912_j86466281603780_3_alg».proof.Proof.Ref.Run
import proofs.«418912_j86466281603780_3_alg».proof.Proof.Ref.PreFin
import proofs.«418912_j86466281603780_3_alg».proof.Proof.Bridge.ChainA
import proofs.«418912_j86466281603780_3_alg».proof.Proof.Bridge.ChainB
import Idealize.ShloMosaic.Adequacy
import Idealize.ShloMosaic.Init

noncomputable section

namespace Cert.Proof

open Idealize.ShloMosaic Idealize.ShloMosaic.TcCoe Idealize.SL.Sem

/-- The kernel's result array is the reference's result stage of the same finite arguments: the five layer steps chained. -/
theorem kernel_value (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = fun _ => 1#1) :
    Cert.KernelIdeal.Hand.U14 m c Cert.KernelIdeal.main_v81
      = Cert.ReferenceIdeal.ReadP.val_main_v133 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨h0, h2, h3, h4, h5, h6, h7, h8, h9⟩ := Cert.ReferenceIdeal.RefValue.inputs_finite _ _ _ _ _ _ _ _ _ _ hpre
  have hA := Cert.Bridge.stepA m c h0 h2 h3
  have hB := Cert.Bridge.stepB m c h0 h2 h3 h8 h9 hA
  have hC := Cert.Bridge.stepC m c (hA0 := h0) (hA2 := h2) (hA3 := h3) (hA4 := h4) (hA5 := h5) (hA8 := h8) (hA9 := h9) (hB := hB)
  have hD := Cert.Bridge.stepD m c (hA0 := h0) (hA2 := h2) (hA3 := h3) (hA4 := h4) (hA5 := h5) (hA8 := h8) (hA9 := h9) (hC := hC)
  exact Cert.Bridge.stepE m c (hA0 := h0) (hA2 := h2) (hA3 := h3) (hA4 := h4) (hA5 := h5) (hA6 := h6) (hA7 := h7) (hA8 := h8) (hA9 := h9) (hD := hD)

theorem claim : Cert.Claim := ⟨Cert.Kernel.Gen.facts, Cert.KernelIdeal.Gen.facts, Cert.ReferenceIdeal.Gen.facts, Cert.Pre_finite_inputs.Gen.facts, by
  refine ⟨?_, ?_, ?_, trivial, ?_⟩
  ·
    exact fun m ρ _ => Cert.Kernel.Hand.frame (F := Bits) m ρ
  ·
    exact fun m ρ _ => Cert.KernelIdeal.Hand.frame (F := Ideal) m ρ
  ·
    exact fun m ρ _ => (θ_run Cert.ReferenceIdeal.defs _ _).mono (fun _ h c => (h c).2) (Cert.ReferenceIdeal.HandRun.run (F := Ideal) m ρ)
  ·
    intro m ρ m' ρ' hpre hagree
    refine ⟨fun c => Cert.KernelIdeal.Hand.U14 m c Cert.KernelIdeal.main_v81, Cert.KernelIdeal.Hand.run (F := Ideal) m ρ, ?_⟩
    refine (θ_run Cert.ReferenceIdeal.defs _ _).mono (fun _ h c => ⟨(h c).1.trans ?_, (h c).2⟩)
      (Cert.ReferenceIdeal.HandRun.run (F := Ideal) m' ρ')
    obtain ⟨e0, e1, e2, e3, e4, e5, e6, e7, e8, e9⟩ := hagree c
    rw [e0, e1, e2, e3, e4, e5, e6, e7, e8, e9]
    exact (kernel_value m c (hpre c)).symm⟩

end Cert.Proof

end
